-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S400000 : Shape := ⟨1, ![400000]⟩
abbrev S100000 : Shape := ⟨1, ![100000]⟩
abbrev S32x192 : Shape := ⟨2, ![32, 192]⟩
abbrev S192 : Shape := ⟨1, ![192]⟩
abbrev S3x192x192 : Shape := ⟨3, ![3, 192, 192]⟩
abbrev S3x192 : Shape := ⟨2, ![3, 192]⟩
abbrev S4x192 : Shape := ⟨2, ![4, 192]⟩
abbrev S192x192 : Shape := ⟨2, ![192, 192]⟩
abbrev S192x1 : Shape := ⟨2, ![192, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x192 : S_.BroadcastsInDim S32x192 (![] : Fin 0 → Fin S32x192.rank)
  reducesTo_S32x192_S_d0_1 : S32x192.ReducesTo [0, 1] S_
  bcast_S_S192 : S_.BroadcastsInDim S192 (![] : Fin 0 → Fin S192.rank)
  reducesTo_S192_S_d0 : S192.ReducesTo [0] S_
  bcast_S_S3x192x192 : S_.BroadcastsInDim S3x192x192 (![] : Fin 0 → Fin S3x192x192.rank)
  reducesTo_S3x192x192_S_d0_1_2 : S3x192x192.ReducesTo [0, 1, 2] S_
  bcast_S_S3x192 : S_.BroadcastsInDim S3x192 (![] : Fin 0 → Fin S3x192.rank)
  reducesTo_S3x192_S_d0_1 : S3x192.ReducesTo [0, 1] S_
  bcast_S_S4x192 : S_.BroadcastsInDim S4x192 (![] : Fin 0 → Fin S4x192.rank)
  reducesTo_S4x192_S_d0_1 : S4x192.ReducesTo [0, 1] S_
  bcast_S_S192x192 : S_.BroadcastsInDim S192x192 (![] : Fin 0 → Fin S192x192.rank)
  reducesTo_S192x192_S_d0_1 : S192x192.ReducesTo [0, 1] S_
  bcast_S_S192x1 : S_.BroadcastsInDim S192x1 (![] : Fin 0 → Fin S192x1.rank)
  reducesTo_S192x1_S_d0_1 : S192x1.ReducesTo [0, 1] S_
  bcast_S_S1 : S_.BroadcastsInDim S1 (![] : Fin 0 → Fin S1.rank)
  reducesTo_S1_S_d0 : S1.ReducesTo [0] S_
  bcast_S_S400000 : S_.BroadcastsInDim S400000 (![] : Fin 0 → Fin S400000.rank)
  reducesTo_S400000_S_d0 : S400000.ReducesTo [0] S_

variable [Facts]

def fn_part4 {F : FTy → Type} [FloatOps F] (main_arg1 : IVec S400000 32) (main_arg17 : FVec F S1 .f32) (main_v63 : IVec S_ 1) (main_v67 : IVec S_ 1) : IVec S_ 1 :=
  let main_v68 : IVec S_ 1 := andi main_v63 main_v67
  let main_v69 : FVec F S1 .f32 := Host.absf main_arg17
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_c_28 : IVec S_ 32 := constantI S_ 32 4294867296#32
  let main_v74 : IVec S400000 32 := broadcastInDim S400000 ![] bcast_S_S400000 main_c_28
  let main_v75 : IVec S400000 1 := cmpi .sge main_arg1 main_v74
  let main_c_29 : IVec S_ 32 := constantI S_ 32 100000#32
  let main_v76 : IVec S400000 32 := broadcastInDim S400000 ![] bcast_S_S400000 main_c_29
  let main_v77 : IVec S400000 1 := cmpi .slt main_arg1 main_v76
  let main_v78 : IVec S400000 1 := andi main_v75 main_v77
  let main_c_30 : IVec S_ 1 := constantI S_ 1 1#1
  let main_v79 : IVec S_ 1 := (fun x v => Host.reduce IntOp.andi x v reducesTo_S400000_S_d0 h_S_) main_v78 main_c_30
  let main_v80 : IVec S_ 1 := andi main_v73 main_v79
  main_v80

def fn_part3 {F : FTy → Type} [FloatOps F] (main_arg1 : IVec S400000 32) (main_arg14 : FVec F S192x192 .f32) (main_arg15 : FVec F S192 .f32) (main_arg16 : FVec F S192x1 .f32) (main_arg17 : FVec F S1 .f32) (main_v48 : IVec S_ 1) (main_v49 : FVec F S192 .f32) (main_v50 : FVec F S192 .f32) : IVec S_ 1 :=
  let main_v51 : IVec S192 1 := cmpf .olt main_v49 main_v50
  let main_c_19 : IVec S_ 1 := constantI S_ 1 1#1
  let main_v52 : IVec S_ 1 := (fun x v => Host.reduce IntOp.andi x v reducesTo_S192_S_d0 h_S_) main_v51 main_c_19
  let main_v53 : IVec S_ 1 := andi main_v48 main_v52
  let main_v54 : FVec F S192x192 .f32 := Host.absf main_arg14
  let main_cst_20 : FVec F S_ .f32 := constant S_ .f32 0x7F800000#32
  let main_v55 : FVec F S192x192 .f32 := broadcastInDim S192x192 ![] bcast_S_S192x192 main_cst_20
  let main_v56 : IVec S192x192 1 := cmpf .olt main_v54 main_v55
  let main_c_21 : IVec S_ 1 := constantI S_ 1 1#1
  let main_v57 : IVec S_ 1 := (fun x v => Host.reduce IntOp.andi x v reducesTo_S192x192_S_d0_1 h_S_) main_v56 main_c_21
  let main_v58 : IVec S_ 1 := andi main_v53 main_v57
  let main_v59 : FVec F S192 .f32 := Host.absf main_arg15
  let main_cst_22 : FVec F S_ .f32 := constant S_ .f32 0x7F800000#32
  let main_v60 : FVec F S192 .f32 := broadcastInDim S192 ![] bcast_S_S192 main_cst_22
  let main_v61 : IVec S192 1 := cmpf .olt main_v59 main_v60
  let main_c_23 : IVec S_ 1 := constantI S_ 1 1#1
  let main_v62 : IVec S_ 1 := (fun x v => Host.reduce IntOp.andi x v reducesTo_S192_S_d0 h_S_) main_v61 main_c_23
  let main_v63 : IVec S_ 1 := andi main_v58 main_v62
  let main_v64 : FVec F S192x1 .f32 := Host.absf main_arg16
  let main_cst_24 : FVec F S_ .f32 := constant S_ .f32 0x7F800000#32
  let main_v65 : FVec F S192x1 .f32 := broadcastInDim S192x1 ![] bcast_S_S192x1 main_cst_24
  let main_v66 : IVec S192x1 1 := cmpf .olt main_v64 main_v65
  let main_c_25 : IVec S_ 1 := constantI S_ 1 1#1
  let main_v67 : IVec S_ 1 := (fun x v => Host.reduce IntOp.andi x v reducesTo_S192x1_S_d0_1 h_S_) main_v66 main_c_25
  fn_part4 (F := F) main_arg1 main_arg17 main_v63 main_v67

def fn_part2 {F : FTy → Type} [FloatOps F] (main_arg1 : IVec S400000 32) (main_arg10 : FVec F S4x192 .f32) (main_arg11 : FVec F S4x192 .f32) (main_arg12 : FVec F S192x192 .f32) (main_arg13 : FVec F S192 .f32) (main_arg14 : FVec F S192x192 .f32) (main_arg15 : FVec F S192 .f32) (main_arg16 : FVec F S192x1 .f32) (main_arg17 : FVec F S1 .f32) (main_v33 : IVec S_ 1) : IVec S_ 1 :=
  let main_v34 : FVec F S4x192 .f32 := Host.absf main_arg10
  let main_cst_12 : FVec F S_ .f32 := constant S_ .f32 0x7F800000#32
  let main_v35 : FVec F S4x192 .f32 := broadcastInDim S4x192 ![] bcast_S_S4x192 main_cst_12
  let main_v36 : IVec S4x192 1 := cmpf .olt main_v34 main_v35
  let main_c_13 : IVec S_ 1 := constantI S_ 1 1#1
  let main_v37 : IVec S_ 1 := (fun x v => Host.reduce IntOp.andi x v reducesTo_S4x192_S_d0_1 h_S_) main_v36 main_c_13
  let main_v38 : IVec S_ 1 := andi main_v33 main_v37
  let main_v39 : FVec F S4x192 .f32 := Host.absf main_arg11
  let main_cst_14 : FVec F S_ .f32 := constant S_ .f32 0x7F800000#32
  let main_v40 : FVec F S4x192 .f32 := broadcastInDim S4x192 ![] bcast_S_S4x192 main_cst_14
  let main_v41 : IVec S4x192 1 := cmpf .olt main_v39 main_v40
  let main_c_15 : IVec S_ 1 := constantI S_ 1 1#1
  let main_v42 : IVec S_ 1 := (fun x v => Host.reduce IntOp.andi x v reducesTo_S4x192_S_d0_1 h_S_) main_v41 main_c_15
  let main_v43 : IVec S_ 1 := andi main_v38 main_v42
  let main_v44 : FVec F S192x192 .f32 := Host.absf main_arg12
  let main_cst_16 : FVec F S_ .f32 := constant S_ .f32 0x7F800000#32
  let main_v45 : FVec F S192x192 .f32 := broadcastInDim S192x192 ![] bcast_S_S192x192 main_cst_16
  let main_v46 : IVec S192x192 1 := cmpf .olt main_v44 main_v45
  let main_c_17 : IVec S_ 1 := constantI S_ 1 1#1
  let main_v47 : IVec S_ 1 := (fun x v => Host.reduce IntOp.andi x v reducesTo_S192x192_S_d0_1 h_S_) main_v46 main_c_17
  let main_v48 : IVec S_ 1 := andi main_v43 main_v47
  let main_v49 : FVec F S192 .f32 := Host.absf main_arg13
  let main_cst_18 : FVec F S_ .f32 := constant S_ .f32 0x7F800000#32
  let main_v50 : FVec F S192 .f32 := broadcastInDim S192 ![] bcast_S_S192 main_cst_18
  fn_part3 (F := F) main_arg1 main_arg14 main_arg15 main_arg16 main_arg17 main_v48 main_v49 main_v50

def fn_part1 {F : FTy → Type} [FloatOps F] (main_arg1 : IVec S400000 32) (main_arg7 : FVec F S3x192x192 .f32) (main_arg8 : FVec F S3x192 .f32) (main_arg9 : FVec F S3x192x192 .f32) (main_arg10 : FVec F S4x192 .f32) (main_arg11 : FVec F S4x192 .f32) (main_arg12 : FVec F S192x192 .f32) (main_arg13 : FVec F S192 .f32) (main_arg14 : FVec F S192x192 .f32) (main_arg15 : FVec F S192 .f32) (main_arg16 : FVec F S192x1 .f32) (main_arg17 : FVec F S1 .f32) (main_v13 : IVec S_ 1) (main_v16 : IVec S32x192 1) : IVec S_ 1 :=
  let main_c_5 : IVec S_ 1 := constantI S_ 1 1#1
  let main_v17 : IVec S_ 1 := (fun x v => Host.reduce IntOp.andi x v reducesTo_S32x192_S_d0_1 h_S_) main_v16 main_c_5
  let main_v18 : IVec S_ 1 := andi main_v13 main_v17
  let main_v19 : FVec F S3x192x192 .f32 := Host.absf main_arg7
  let main_cst_6 : FVec F S_ .f32 := constant S_ .f32 0x7F800000#32
  let main_v20 : FVec F S3x192x192 .f32 := broadcastInDim S3x192x192 ![] bcast_S_S3x192x192 main_cst_6
  let main_v21 : IVec S3x192x192 1 := cmpf .olt main_v19 main_v20
  let main_c_7 : IVec S_ 1 := constantI S_ 1 1#1
  let main_v22 : IVec S_ 1 := (fun x v => Host.reduce IntOp.andi x v reducesTo_S3x192x192_S_d0_1_2 h_S_) main_v21 main_c_7
  let main_v23 : IVec S_ 1 := andi main_v18 main_v22
  let main_v24 : FVec F S3x192 .f32 := Host.absf main_arg8
  let main_cst_8 : FVec F S_ .f32 := constant S_ .f32 0x7F800000#32
  let main_v25 : FVec F S3x192 .f32 := broadcastInDim S3x192 ![] bcast_S_S3x192 main_cst_8
  let main_v26 : IVec S3x192 1 := cmpf .olt main_v24 main_v25
  let main_c_9 : IVec S_ 1 := constantI S_ 1 1#1
  let main_v27 : IVec S_ 1 := (fun x v => Host.reduce IntOp.andi x v reducesTo_S3x192_S_d0_1 h_S_) main_v26 main_c_9
  let main_v28 : IVec S_ 1 := andi main_v23 main_v27
  let main_v29 : FVec F S3x192x192 .f32 := Host.absf main_arg9
  let main_cst_10 : FVec F S_ .f32 := constant S_ .f32 0x7F800000#32
  let main_v30 : FVec F S3x192x192 .f32 := broadcastInDim S3x192x192 ![] bcast_S_S3x192x192 main_cst_10
  let main_v31 : IVec S3x192x192 1 := cmpf .olt main_v29 main_v30
  let main_c_11 : IVec S_ 1 := constantI S_ 1 1#1
  let main_v32 : IVec S_ 1 := (fun x v => Host.reduce IntOp.andi x v reducesTo_S3x192x192_S_d0_1_2 h_S_) main_v31 main_c_11
  let main_v33 : IVec S_ 1 := andi main_v28 main_v32
  fn_part2 (F := F) main_arg1 main_arg10 main_arg11 main_arg12 main_arg13 main_arg14 main_arg15 main_arg16 main_arg17 main_v33

def fn {F : FTy → Type} [FloatOps F] (main_arg0 : FVec F S100000x32 .f32) (main_arg1 : IVec S400000 32) (main_arg2 : IVec S400000 32) (main_arg3 : IVec S100000 32) (main_arg4 : FVec F S32x192 .f32) (main_arg5 : FVec F S192 .f32) (main_arg6 : FVec F S32x192 .f32) (main_arg7 : FVec F S3x192x192 .f32) (main_arg8 : FVec F S3x192 .f32) (main_arg9 : FVec F S3x192x192 .f32) (main_arg10 : FVec F S4x192 .f32) (main_arg11 : FVec F S4x192 .f32) (main_arg12 : FVec F S192x192 .f32) (main_arg13 : FVec F S192 .f32) (main_arg14 : FVec F S192x192 .f32) (main_arg15 : FVec F S192 .f32) (main_arg16 : FVec F S192x1 .f32) (main_arg17 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x192 .f32 := Host.absf main_arg4
  let main_cst_0 : FVec F S_ .f32 := constant S_ .f32 0x7F800000#32
  let main_v5 : FVec F S32x192 .f32 := broadcastInDim S32x192 ![] bcast_S_S32x192 main_cst_0
  let main_v6 : IVec S32x192 1 := cmpf .olt main_v4 main_v5
  let main_c_1 : IVec S_ 1 := constantI S_ 1 1#1
  let main_v7 : IVec S_ 1 := (fun x v => Host.reduce IntOp.andi x v reducesTo_S32x192_S_d0_1 h_S_) main_v6 main_c_1
  let main_v8 : IVec S_ 1 := andi main_v3 main_v7
  let main_v9 : FVec F S192 .f32 := Host.absf main_arg5
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  let main_v14 : FVec F S32x192 .f32 := Host.absf main_arg6
  let main_cst_4 : FVec F S_ .f32 := constant S_ .f32 0x7F800000#32
  let main_v15 : FVec F S32x192 .f32 := broadcastInDim S32x192 ![] bcast_S_S32x192 main_cst_4
  let main_v16 : IVec S32x192 1 := cmpf .olt main_v14 main_v15
  fn_part1 (F := F) main_arg1 main_arg7 main_arg8 main_arg9 main_arg10 main_arg11 main_arg12 main_arg13 main_arg14 main_arg15 main_arg16 main_arg17 main_v13 main_v16
-- ==== Kernel.lean ====
abbrev S100000x32 : Shape := ⟨2, ![100000, 32]⟩
abbrev S400000 : Shape := ⟨1, ![400000]⟩
abbrev S100000 : Shape := ⟨1, ![100000]⟩
abbrev S32x192 : Shape := ⟨2, ![32, 192]⟩
abbrev S192 : Shape := ⟨1, ![192]⟩
abbrev S3x192x192 : Shape := ⟨3, ![3, 192, 192]⟩
abbrev S3x192 : Shape := ⟨2, ![3, 192]⟩
abbrev S4x192 : Shape := ⟨2, ![4, 192]⟩
abbrev S192x192 : Shape := ⟨2, ![192, 192]⟩
abbrev S192x1 : Shape := ⟨2, ![192, 1]⟩
abbrev S1 : Shape := ⟨1, ![1]⟩
abbrev S1x192 : Shape := ⟨2, ![1, 192]⟩
abbrev S100000x192 : Shape := ⟨2, ![100000, 192]⟩
abbrev S5000x32 : Shape := ⟨2, ![5000, 32]⟩
abbrev S5000x192 : Shape := ⟨2, ![5000, 192]⟩
abbrev S_ : Shape := ⟨0, ![]⟩
abbrev S400000x1 : Shape := ⟨2, ![400000, 1]⟩
abbrev S1x1 : Shape := ⟨2, ![1, 1]⟩
abbrev S400000x192 : Shape := ⟨2, ![400000, 192]⟩
abbrev S1x192x192 : Shape := ⟨3, ![1, 192, 192]⟩
abbrev S2000x192 : Shape := ⟨2, ![2000, 192]⟩
abbrev S100000x1 : Shape := ⟨2, ![100000, 1]⟩
abbrev S2000 : Shape := ⟨1, ![2000]⟩
abbrev S2000x1 : Shape := ⟨2, ![2000, 1]⟩

abbrev nBuf : Space → Nat
  | .hbm => 259
  | .vmem => 100
  | .smem => 0
  | _ => 0

abbrev hbmTy0_0 (i : Nat) : BufTy := match i % 128 with
  | 0 => ⟨S100000x32, .f32⟩
  | 1 => ⟨S400000, .i32⟩
  | 2 => ⟨S400000, .i32⟩
  | 3 => ⟨S100000, .i32⟩
  | 4 => ⟨S32x192, .f32⟩
  | 5 => ⟨S192, .f32⟩
  | 6 => ⟨S32x192, .f32⟩
  | 7 => ⟨S3x192x192, .f32⟩
  | 8 => ⟨S3x192, .f32⟩
  | 9 => ⟨S3x192x192, .f32⟩
  | 10 => ⟨S4x192, .f32⟩
  | 11 => ⟨S4x192, .f32⟩
  | 12 => ⟨S192x192, .f32⟩
  | 13 => ⟨S192, .f32⟩
  | 14 => ⟨S192x192, .f32⟩
  | 15 => ⟨S192, .f32⟩
  | 16 => ⟨S192x1, .f32⟩
  | 17 => ⟨S1, .f32⟩
  | 18 => ⟨S1x192, .f32⟩
  | 19 => ⟨S192, .f32⟩
  | 20 => ⟨S1x192, .f32⟩
  | 21 => ⟨S192, .f32⟩
  | 22 => ⟨S1x192, .f32⟩
  | 23 => ⟨S100000x192, .f32⟩
  | 24 => ⟨S100000x192, .f32⟩
  | 25 => ⟨S_, .i32⟩
  | 26 => ⟨S400000, .i32⟩
  | 27 => ⟨S400000, .i1⟩
  | 28 => ⟨S_, .i32⟩
  | 29 => ⟨S400000, .i32⟩
  | 30 => ⟨S400000, .i32⟩
  | 31 => ⟨S400000, .i32⟩
  | 32 => ⟨S400000x1, .i32⟩
  | 33 => ⟨S1, .i32⟩
  | 34 => ⟨S_, .i32⟩
  | 35 => ⟨S400000x1, .i32⟩
  | 36 => ⟨S400000x1, .i1⟩
  | 37 => ⟨S1x1, .i32⟩
  | 38 => ⟨S400000x1, .i32⟩
  | 39 => ⟨S400000x1, .i1⟩
  | 40 => ⟨S400000x1, .i1⟩
  | 41 => ⟨S_, .i1⟩
  | 42 => ⟨S400000, .i1⟩
  | 43 => ⟨S400000x192, .f32⟩
  | 44 => ⟨S400000x192, .i1⟩
  | 45 => ⟨S_, .f32⟩
  | 46 => ⟨S400000x192, .f32⟩
  | 47 => ⟨S400000x192, .f32⟩
  | 48 => ⟨S_, .f32⟩
  | 49 => ⟨S100000x192, .f32⟩
  | 50 => ⟨S400000x1, .i32⟩
  | 51 => ⟨S100000x192, .f32⟩
  | 52 => ⟨S100000x192, .f32⟩
  | 53 => ⟨S1x192, .f32⟩
  | 54 => ⟨S1x192, .f32⟩
  | 55 => ⟨S_, .f32⟩
  | 56 => ⟨S1x192, .f32⟩
  | 57 => ⟨S1x192, .f32⟩
  | 58 => ⟨S_, .f32⟩
  | 59 => ⟨S1x192, .f32⟩
  | 60 => ⟨S1x192, .f32⟩
  | 61 => ⟨S1x192, .f32⟩
  | 62 => ⟨S1x192, .f32⟩
  | 63 => ⟨S1x192, .f32⟩
  | 64 => ⟨S1x192, .f32⟩
  | 65 => ⟨S100000x192, .f32⟩
  | 66 => ⟨S1x192x192, .f32⟩
  | 67 => ⟨S192x192, .f32⟩
  | 68 => ⟨S1x192, .f32⟩
  | 69 => ⟨S192, .f32⟩
  | 70 => ⟨S1x192x192, .f32⟩
  | 71 => ⟨S192x192, .f32⟩
  | 72 => ⟨S1x192, .f32⟩
  | 73 => ⟨S192, .f32⟩
  | 74 => ⟨S1x192, .f32⟩
  | 75 => ⟨S192, .f32⟩
  | 76 => ⟨S1x192, .f32⟩
  | 77 => ⟨S100000x192, .f32⟩
  | 78 => ⟨S100000x192, .f32⟩
  | 79 => ⟨S_, .i32⟩
  | 80 => ⟨S400000, .i32⟩
  | 81 => ⟨S400000, .i1⟩
  | 82 => ⟨S_, .i32⟩
  | 83 => ⟨S400000, .i32⟩
  | 84 => ⟨S400000, .i32⟩
  | 85 => ⟨S400000, .i32⟩
  | 86 => ⟨S400000x1, .i32⟩
  | 87 => ⟨S1, .i32⟩
  | 88 => ⟨S_, .i32⟩
  | 89 => ⟨S400000x1, .i32⟩
  | 90 => ⟨S400000x1, .i1⟩
  | 91 => ⟨S1x1, .i32⟩
  | 92 => ⟨S400000x1, .i32⟩
  | 93 => ⟨S400000x1, .i1⟩
  | 94 => ⟨S400000x1, .i1⟩
  | 95 => ⟨S_, .i1⟩
  | 96 => ⟨S400000, .i1⟩
  | 97 => ⟨S400000x192, .f32⟩
  | 98 => ⟨S400000x192, .i1⟩
  | 99 => ⟨S_, .f32⟩
  | 100 => ⟨S400000x192, .f32⟩
  | 101 => ⟨S400000x192, .f32⟩
  | 102 => ⟨S_, .f32⟩
  | 103 => ⟨S100000x192, .f32⟩
  | 104 => ⟨S400000x1, .i32⟩
  | 105 => ⟨S100000x192, .f32⟩
  | 106 => ⟨S100000x192, .f32⟩
  | 107 => ⟨S1x192, .f32⟩
  | 108 => ⟨S1x192, .f32⟩
  | 109 => ⟨S_, .f32⟩
  | 110 => ⟨S1x192, .f32⟩
  | 111 => ⟨S1x192, .f32⟩
  | 112 => ⟨S_, .f32⟩
  | 113 => ⟨S1x192, .f32⟩
  | 114 => ⟨S1x192, .f32⟩
  | 115 => ⟨S1x192, .f32⟩
  | 116 => ⟨S1x192, .f32⟩
  | 117 => ⟨S1x192, .f32⟩
  | 118 => ⟨S1x192, .f32⟩
  | 119 => ⟨S100000x192, .f32⟩
  | 120 => ⟨S1x192x192, .f32⟩
  | 121 => ⟨S192x192, .f32⟩
  | 122 => ⟨S1x192, .f32⟩
  | 123 => ⟨S192, .f32⟩
  | 124 => ⟨S1x192x192, .f32⟩
  | 125 => ⟨S192x192, .f32⟩
  | 126 => ⟨S1x192, .f32⟩
  | 127 => ⟨S192, .f32⟩
  | _ => ⟨S100000x32, .f32⟩

abbrev hbmTy0_1 (i : Nat) : BufTy := match i % 128 with
  | 0 => ⟨S1x192, .f32⟩
  | 1 => ⟨S192, .f32⟩
  | 2 => ⟨S1x192, .f32⟩
  | 3 => ⟨S100000x192, .f32⟩
  | 4 => ⟨S100000x192, .f32⟩
  | 5 => ⟨S_, .i32⟩
  | 6 => ⟨S400000, .i32⟩
  | 7 => ⟨S400000, .i1⟩
  | 8 => ⟨S_, .i32⟩
  | 9 => ⟨S400000, .i32⟩
  | 10 => ⟨S400000, .i32⟩
  | 11 => ⟨S400000, .i32⟩
  | 12 => ⟨S400000x1, .i32⟩
  | 13 => ⟨S1, .i32⟩
  | 14 => ⟨S_, .i32⟩
  | 15 => ⟨S400000x1, .i32⟩
  | 16 => ⟨S400000x1, .i1⟩
  | 17 => ⟨S1x1, .i32⟩
  | 18 => ⟨S400000x1, .i32⟩
  | 19 => ⟨S400000x1, .i1⟩
  | 20 => ⟨S400000x1, .i1⟩
  | 21 => ⟨S_, .i1⟩
  | 22 => ⟨S400000, .i1⟩
  | 23 => ⟨S400000x192, .f32⟩
  | 24 => ⟨S400000x192, .i1⟩
  | 25 => ⟨S_, .f32⟩
  | 26 => ⟨S400000x192, .f32⟩
  | 27 => ⟨S400000x192, .f32⟩
  | 28 => ⟨S_, .f32⟩
  | 29 => ⟨S100000x192, .f32⟩
  | 30 => ⟨S400000x1, .i32⟩
  | 31 => ⟨S100000x192, .f32⟩
  | 32 => ⟨S100000x192, .f32⟩
  | 33 => ⟨S1x192, .f32⟩
  | 34 => ⟨S1x192, .f32⟩
  | 35 => ⟨S_, .f32⟩
  | 36 => ⟨S1x192, .f32⟩
  | 37 => ⟨S1x192, .f32⟩
  | 38 => ⟨S_, .f32⟩
  | 39 => ⟨S1x192, .f32⟩
  | 40 => ⟨S1x192, .f32⟩
  | 41 => ⟨S1x192, .f32⟩
  | 42 => ⟨S1x192, .f32⟩
  | 43 => ⟨S1x192, .f32⟩
  | 44 => ⟨S1x192, .f32⟩
  | 45 => ⟨S100000x192, .f32⟩
  | 46 => ⟨S1x192x192, .f32⟩
  | 47 => ⟨S192x192, .f32⟩
  | 48 => ⟨S1x192, .f32⟩
  | 49 => ⟨S192, .f32⟩
  | 50 => ⟨S1x192x192, .f32⟩
  | 51 => ⟨S192x192, .f32⟩
  | 52 => ⟨S1x192, .f32⟩
  | 53 => ⟨S192, .f32⟩
  | 54 => ⟨S1x192, .f32⟩
  | 55 => ⟨S192, .f32⟩
  | 56 => ⟨S1x192, .f32⟩
  | 57 => ⟨S100000x192, .f32⟩
  | 58 => ⟨S100000x192, .f32⟩
  | 59 => ⟨S_, .i32⟩
  | 60 => ⟨S400000, .i32⟩
  | 61 => ⟨S400000, .i1⟩
  | 62 => ⟨S_, .i32⟩
  | 63 => ⟨S400000, .i32⟩
  | 64 => ⟨S400000, .i32⟩
  | 65 => ⟨S400000, .i32⟩
  | 66 => ⟨S400000x1, .i32⟩
  | 67 => ⟨S1, .i32⟩
  | 68 => ⟨S_, .i32⟩
  | 69 => ⟨S400000x1, .i32⟩
  | 70 => ⟨S400000x1, .i1⟩
  | 71 => ⟨S1x1, .i32⟩
  | 72 => ⟨S400000x1, .i32⟩
  | 73 => ⟨S400000x1, .i1⟩
  | 74 => ⟨S400000x1, .i1⟩
  | 75 => ⟨S_, .i1⟩
  | 76 => ⟨S400000, .i1⟩
  | 77 => ⟨S400000x192, .f32⟩
  | 78 => ⟨S400000x192, .i1⟩
  | 79 => ⟨S_, .f32⟩
  | 80 => ⟨S400000x192, .f32⟩
  | 81 => ⟨S400000x192, .f32⟩
  | 82 => ⟨S_, .f32⟩
  | 83 => ⟨S100000x192, .f32⟩
  | 84 => ⟨S400000x1, .i32⟩
  | 85 => ⟨S100000x192, .f32⟩
  | 86 => ⟨S100000x192, .f32⟩
  | 87 => ⟨S1x192, .f32⟩
  | 88 => ⟨S1x192, .f32⟩
  | 89 => ⟨S_, .f32⟩
  | 90 => ⟨S1x192, .f32⟩
  | 91 => ⟨S1x192, .f32⟩
  | 92 => ⟨S_, .f32⟩
  | 93 => ⟨S1x192, .f32⟩
  | 94 => ⟨S1x192, .f32⟩
  | 95 => ⟨S1x192, .f32⟩
  | 96 => ⟨S1x192, .f32⟩
  | 97 => ⟨S1x192, .f32⟩
  | 98 => ⟨S1x192, .f32⟩
  | 99 => ⟨S100000x192, .f32⟩
  | 100 => ⟨S_, .f32⟩
  | 101 => ⟨S2000x192, .f32⟩
  | 102 => ⟨S100000x1, .i32⟩
  | 103 => ⟨S2000x192, .f32⟩
  | 104 => ⟨S_, .f32⟩
  | 105 => ⟨S100000, .f32⟩
  | 106 => ⟨S_, .f32⟩
  | 107 => ⟨S2000, .f32⟩
  | 108 => ⟨S100000x1, .i32⟩
  | 109 => ⟨S2000, .f32⟩
  | 110 => ⟨S_, .f32⟩
  | 111 => ⟨S2000, .f32⟩
  | 112 => ⟨S2000, .f32⟩
  | 113 => ⟨S2000x1, .f32⟩
  | 114 => ⟨S2000x192, .f32⟩
  | 115 => ⟨S2000x192, .f32⟩
  | 116 => ⟨S2000x192, .f32⟩
  | 117 => ⟨S1x192, .f32⟩
  | 118 => ⟨S2000x192, .f32⟩
  | 119 => ⟨S2000x192, .f32⟩
  | 120 => ⟨S_, .f32⟩
  | 121 => ⟨S2000x192, .f32⟩
  | 122 => ⟨S2000x192, .f32⟩
  | 123 => ⟨S2000x192, .f32⟩
  | 124 => ⟨S1x192, .f32⟩
  | 125 => ⟨S2000x192, .f32⟩
  | 126 => ⟨S2000x192, .f32⟩
  | 127 => ⟨S2000x1, .f32⟩
  | _ => ⟨S100000x32, .f32⟩

abbrev hbmTy0_2 (i : Nat) : BufTy := match i % 128 with
  | 0 => ⟨S1x1, .f32⟩
  | 1 => ⟨S2000x1, .f32⟩
  | 2 => ⟨S2000x1, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x192, .f32⟩
  | .local _ .vmem, ⟨3, _⟩ => ⟨S1x192, .f32⟩
  | .local _ .vmem, ⟨4, _⟩ => ⟨S32x192, .f32⟩
  | .local _ .vmem, ⟨5, _⟩ => ⟨S5000x192, .f32⟩
  | .local _ .vmem, ⟨6, _⟩ => ⟨S5000x192, .f32⟩
  | .local _ .vmem, ⟨7, _⟩ => ⟨S5000x192, .f32⟩
  | .local _ .vmem, ⟨8, _⟩ => ⟨S5000x192, .f32⟩
  | .local _ .vmem, ⟨9, _⟩ => ⟨S5000x192, .f32⟩
  | .local _ .vmem, ⟨10, _⟩ => ⟨S5000x192, .f32⟩
  | .local _ .vmem, ⟨11, _⟩ => ⟨S5000x192, .f32⟩
  | .local _ .vmem, ⟨12, _⟩ => ⟨S5000x192, .f32⟩
  | .local _ .vmem, ⟨13, _⟩ => ⟨S5000x192, .f32⟩
  | .local _ .vmem, ⟨14, _⟩ => ⟨S5000x192, .f32⟩
  | .local _ .vmem, ⟨15, _⟩ => ⟨S1x192, .f32⟩
  | .local _ .vmem, ⟨16, _⟩ => ⟨S1x192, .f32⟩
  | .local _ .vmem, ⟨17, _⟩ => ⟨S5000x192, .f32⟩
  | .local _ .vmem, ⟨18, _⟩ => ⟨S5000x192, .f32⟩
  | .local _ .vmem, ⟨19, _⟩ => ⟨S1x192, .f32⟩
  | .local _ .vmem, ⟨20, _⟩ => ⟨S1x192, .f32⟩
  | .local _ .vmem, ⟨21, _⟩ => ⟨S1x192, .f32⟩
  | .local _ .vmem, ⟨22, _⟩ => ⟨S1x192, .f32⟩
  | .local _ .vmem, ⟨23, _⟩ => ⟨S5000x192, .f32⟩
  | .local _ .vmem, ⟨24, _⟩ => ⟨S5000x192, .f32⟩
  | .local _ .vmem, ⟨25, _⟩ => ⟨S5000x192, .f32⟩
  | .local _ .vmem, ⟨26, _⟩ => ⟨S5000x192, .f32⟩
  | .local _ .vmem, ⟨27, _⟩ => ⟨S192x192, .f32⟩
  | .local _ .vmem, ⟨28, _⟩ => ⟨S1x192, .f32⟩
  | .local _ .vmem, ⟨29, _⟩ => ⟨S192x192, .f32⟩
  | .local _ .vmem, ⟨30, _⟩ => ⟨S5000x192, .f32⟩
  | .local _ .vmem, ⟨31, _⟩ => ⟨S5000x192, .f32⟩
  | .local _ .vmem, ⟨32, _⟩ => ⟨S5000x192, .f32⟩
  | .local _ .vmem, ⟨33, _⟩ => ⟨S5000x192, .f32⟩
  | .local _ .vmem, ⟨34, _⟩ => ⟨S5000x192, .f32⟩
  | .local _ .vmem, ⟨35, _⟩ => ⟨S5000x192, .f32⟩
  | .local _ .vmem, ⟨36, _⟩ => ⟨S5000x192, .f32⟩
  | .local _ .vmem, ⟨37, _⟩ => ⟨S5000x192, .f32⟩
  | .local _ .vmem, ⟨38, _⟩ => ⟨S5000x192, .f32⟩
  | .local _ .vmem, ⟨39, _⟩ => ⟨S5000x192, .f32⟩
  | .local _ .vmem, ⟨40, _⟩ => ⟨S1x192, .f32⟩
  | .local _ .vmem, ⟨41, _⟩ => ⟨S1x192, .f32⟩
  | .local _ .vmem, ⟨42, _⟩ => ⟨S5000x192, .f32⟩
  | .local _ .vmem, ⟨43, _⟩ => ⟨S5000x192, .f32⟩
  | .local _ .vmem, ⟨44, _⟩ => ⟨S1x192, .f32⟩
  | .local _ .vmem, ⟨45, _⟩ => ⟨S1x192, .f32⟩
  | .local _ .vmem, ⟨46, _⟩ => ⟨S1x192, .f32⟩
  | .local _ .vmem, ⟨47, _⟩ => ⟨S1x192, .f32⟩
  | .local _ .vmem, ⟨48, _⟩ => ⟨S5000x192, .f32⟩
  | .local _ .vmem, ⟨49, _⟩ => ⟨S5000x192, .f32⟩
  | .local _ .vmem, ⟨50, _⟩ => ⟨S5000x192, .f32⟩
  | .local _ .vmem, ⟨51, _⟩ => ⟨S5000x192, .f32⟩
  | .local _ .vmem, ⟨52, _⟩ => ⟨S192x192, .f32⟩
  | .local _ .vmem, ⟨53, _⟩ => ⟨S1x192, .f32⟩
  | .local _ .vmem, ⟨54, _⟩ => ⟨S192x192, .f32⟩
  | .local _ .vmem, ⟨55, _⟩ => ⟨S5000x192, .f32⟩
  | .local _ .vmem, ⟨56, _⟩ => ⟨S5000x192, .f32⟩
  | .local _ .vmem, ⟨57, _⟩ => ⟨S5000x192, .f32⟩
  | .local _ .vmem, ⟨58, _⟩ => ⟨S5000x192, .f32⟩
  | .local _ .vmem, ⟨59, _⟩ => ⟨S5000x192, .f32⟩
  | .local _ .vmem, ⟨60, _⟩ => ⟨S5000x192, .f32⟩
  | .local _ .vmem, ⟨61, _⟩ => ⟨S5000x192, .f32⟩
  | .local _ .vmem, ⟨62, _⟩ => ⟨S5000x192, .f32⟩
  | .local _ .vmem, ⟨63, _⟩ => ⟨S5000x192, .f32⟩
  | .local _ .vmem, ⟨64, _⟩ => ⟨S5000x192, .f32⟩
  | .local _ .vmem, ⟨65, _⟩ => ⟨S1x192, .f32⟩
  | .local _ .vmem, ⟨66, _⟩ => ⟨S1x192, .f32⟩
  | .local _ .vmem, ⟨67, _⟩ => ⟨S5000x192, .f32⟩
  | .local _ .vmem, ⟨68, _⟩ => ⟨S5000x192, .f32⟩
  | .local _ .vmem, ⟨69, _⟩ => ⟨S1x192, .f32⟩
  | .local _ .vmem, ⟨70, _⟩ => ⟨S1x192, .f32⟩
  | .local _ .vmem, ⟨71, _⟩ => ⟨S1x192, .f32⟩
  | .local _ .vmem, ⟨72, _⟩ => ⟨S1x192, .f32⟩
  | .local _ .vmem, ⟨73, _⟩ => ⟨S5000x192, .f32⟩
  | .local _ .vmem, ⟨74, _⟩ => ⟨S5000x192, .f32⟩
  | .local _ .vmem, ⟨75, _⟩ => ⟨S5000x192, .f32⟩
  | .local _ .vmem, ⟨76, _⟩ => ⟨S5000x192, .f32⟩
  | .local _ .vmem, ⟨77, _⟩ => ⟨S192x192, .f32⟩
  | .local _ .vmem, ⟨78, _⟩ => ⟨S1x192, .f32⟩
  | .local _ .vmem, ⟨79, _⟩ => ⟨S192x192, .f32⟩
  | .local _ .vmem, ⟨80, _⟩ => ⟨S5000x192, .f32⟩
  | .local _ .vmem, ⟨81, _⟩ => ⟨S5000x192, .f32⟩
  | .local _ .vmem, ⟨82, _⟩ => ⟨S5000x192, .f32⟩
  | .local _ .vmem, ⟨83, _⟩ => ⟨S5000x192, .f32⟩
  | .local _ .vmem, ⟨84, _⟩ => ⟨S5000x192, .f32⟩
  | .local _ .vmem, ⟨85, _⟩ => ⟨S5000x192, .f32⟩
  | .local _ .vmem, ⟨86, _⟩ => ⟨S5000x192, .f32⟩
  | .local _ .vmem, ⟨87, _⟩ => ⟨S5000x192, .f32⟩
  | .local _ .vmem, ⟨88, _⟩ => ⟨S5000x192, .f32⟩
  | .local _ .vmem, ⟨89, _⟩ => ⟨S5000x192, .f32⟩
  | .local _ .vmem, ⟨90, _⟩ => ⟨S1x192, .f32⟩
  | .local _ .vmem, ⟨91, _⟩ => ⟨S1x192, .f32⟩
  | .local _ .vmem, ⟨92, _⟩ => ⟨S5000x192, .f32⟩
  | .local _ .vmem, ⟨93, _⟩ => ⟨S5000x192, .f32⟩
  | .local _ .vmem, ⟨94, _⟩ => ⟨S1x192, .f32⟩
  | .local _ .vmem, ⟨95, _⟩ => ⟨S1x192, .f32⟩
  | .local _ .vmem, ⟨96, _⟩ => ⟨S1x192, .f32⟩
  | .local _ .vmem, ⟨97, _⟩ => ⟨S1x192, .f32⟩
  | .local _ .vmem, ⟨98, _⟩ => ⟨S5000x192, .f32⟩
  | .local _ .vmem, ⟨99, _⟩ => ⟨S5000x192, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | _, _ => false

abbrev semScoped : Fin 0 → Bool
  | ⟨_, h⟩ => absurd h (Nat.not_lt_zero _)

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  ofTc nBuf bufTy 0 100 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5_0 : Ref sig .tc := ⟨.hbm, 23, rfl⟩
abbrev main_v5_1 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v6 : Ref sig .tc := ⟨.hbm, 47, rfl⟩
abbrev main_cst : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10_0 : Ref sig .tc := ⟨.hbm, 52, rfl⟩
abbrev main_v10_1 : Ref sig .tc := ⟨.hbm, 53, rfl⟩
abbrev main_v10_2 : Ref sig .tc := ⟨.hbm, 54, rfl⟩
abbrev main_cst_0 : Ref sig .tc := ⟨.hbm, 55, rfl⟩
abbrev main_v11 : Ref sig .tc := ⟨.hbm, 56, rfl⟩
abbrev main_v12 : Ref sig .tc := ⟨.hbm, 57, rfl⟩
abbrev main_cst_1 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31_0 : Ref sig .tc := ⟨.hbm, 77, rfl⟩
abbrev main_v31_1 : Ref sig .tc := ⟨.hbm, 78, rfl⟩
abbrev main_call1_c : Ref sig .tc := ⟨.hbm, 79, rfl⟩
abbrev main_call1_v0 : Ref sig .tc := ⟨.hbm, 80, rfl⟩
abbrev main_call1_v1 : Ref sig .tc := ⟨.hbm, 81, rfl⟩
abbrev main_call1_c_0 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_c_1 : Ref sig .tc := ⟨.hbm, 87, rfl⟩
abbrev main_call1_c_2 : Ref sig .tc := ⟨.hbm, 88, rfl⟩
abbrev main_call1_v6 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_c_3 : Ref sig .tc := ⟨.hbm, 95, rfl⟩
abbrev main_call1_v12 : Ref sig .tc := ⟨.hbm, 96, rfl⟩
abbrev main_call1_v13 : Ref sig .tc := ⟨.hbm, 97, rfl⟩
abbrev main_call1_v14 : Ref sig .tc := ⟨.hbm, 98, rfl⟩
abbrev main_call1_cst : Ref sig .tc := ⟨.hbm, 99, rfl⟩
abbrev main_call1_v15 : Ref sig .tc := ⟨.hbm, 100, rfl⟩
abbrev main_v32 : Ref sig .tc := ⟨.hbm, 101, rfl⟩
abbrev main_cst_2 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_v36_0 : Ref sig .tc := ⟨.hbm, 106, rfl⟩
abbrev main_v36_1 : Ref sig .tc := ⟨.hbm, 107, rfl⟩
abbrev main_v36_2 : Ref sig .tc := ⟨.hbm, 108, rfl⟩
abbrev main_cst_3 : Ref sig .tc := ⟨.hbm, 109, rfl⟩
abbrev main_v37 : Ref sig .tc := ⟨.hbm, 110, rfl⟩
abbrev main_v38 : Ref sig .tc := ⟨.hbm, 111, rfl⟩
abbrev main_cst_4 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57_0 : Ref sig .tc := ⟨.hbm, 131, rfl⟩
abbrev main_v57_1 : Ref sig .tc := ⟨.hbm, 132, rfl⟩
abbrev main_call2_c : Ref sig .tc := ⟨.hbm, 133, rfl⟩
abbrev main_call2_v0 : Ref sig .tc := ⟨.hbm, 134, rfl⟩
abbrev main_call2_v1 : Ref sig .tc := ⟨.hbm, 135, rfl⟩
abbrev main_call2_c_0 : Ref sig .tc := ⟨.hbm, 136, rfl⟩
abbrev main_call2_v2 : Ref sig .tc := ⟨.hbm, 137, rfl⟩
abbrev main_call2_v3 : Ref sig .tc := ⟨.hbm, 138, rfl⟩
abbrev main_call2_v4 : Ref sig .tc := ⟨.hbm, 139, rfl⟩
abbrev main_call2_v5 : Ref sig .tc := ⟨.hbm, 140, rfl⟩
abbrev main_call2_c_1 : Ref sig .tc := ⟨.hbm, 141, rfl⟩
abbrev main_call2_c_2 : Ref sig .tc := ⟨.hbm, 142, rfl⟩
abbrev main_call2_v6 : Ref sig .tc := ⟨.hbm, 143, rfl⟩
abbrev main_call2_v7 : Ref sig .tc := ⟨.hbm, 144, rfl⟩
abbrev main_call2_v8 : Ref sig .tc := ⟨.hbm, 145, rfl⟩
abbrev main_call2_v9 : Ref sig .tc := ⟨.hbm, 146, rfl⟩
abbrev main_call2_v10 : Ref sig .tc := ⟨.hbm, 147, rfl⟩
abbrev main_call2_v11 : Ref sig .tc := ⟨.hbm, 148, rfl⟩
abbrev main_call2_c_3 : Ref sig .tc := ⟨.hbm, 149, rfl⟩
abbrev main_call2_v12 : Ref sig .tc := ⟨.hbm, 150, rfl⟩
abbrev main_call2_v13 : Ref sig .tc := ⟨.hbm, 151, rfl⟩
abbrev main_call2_v14 : Ref sig .tc := ⟨.hbm, 152, rfl⟩
abbrev main_call2_cst : Ref sig .tc := ⟨.hbm, 153, rfl⟩
abbrev main_call2_v15 : Ref sig .tc := ⟨.hbm, 154, rfl⟩
abbrev main_v58 : Ref sig .tc := ⟨.hbm, 155, rfl⟩
abbrev main_cst_5 : Ref sig .tc := ⟨.hbm, 156, rfl⟩
abbrev main_v59 : Ref sig .tc := ⟨.hbm, 157, rfl⟩
abbrev main_v60 : Ref sig .tc := ⟨.hbm, 158, rfl⟩
abbrev main_v61 : Ref sig .tc := ⟨.hbm, 159, rfl⟩
abbrev main_v62_0 : Ref sig .tc := ⟨.hbm, 160, rfl⟩
abbrev main_v62_1 : Ref sig .tc := ⟨.hbm, 161, rfl⟩
abbrev main_v62_2 : Ref sig .tc := ⟨.hbm, 162, rfl⟩
abbrev main_cst_6 : Ref sig .tc := ⟨.hbm, 163, rfl⟩
abbrev main_v63 : Ref sig .tc := ⟨.hbm, 164, rfl⟩
abbrev main_v64 : Ref sig .tc := ⟨.hbm, 165, rfl⟩
abbrev main_cst_7 : Ref sig .tc := ⟨.hbm, 166, rfl⟩
abbrev main_v65 : Ref sig .tc := ⟨.hbm, 167, rfl⟩
abbrev main_v66 : Ref sig .tc := ⟨.hbm, 168, rfl⟩
abbrev main_v67 : Ref sig .tc := ⟨.hbm, 169, rfl⟩
abbrev main_v68 : Ref sig .tc := ⟨.hbm, 170, rfl⟩
abbrev main_v69 : Ref sig .tc := ⟨.hbm, 171, rfl⟩
abbrev main_v70 : Ref sig .tc := ⟨.hbm, 172, rfl⟩
abbrev main_v71 : Ref sig .tc := ⟨.hbm, 173, rfl⟩
abbrev main_v72 : Ref sig .tc := ⟨.hbm, 174, rfl⟩
abbrev main_v73 : Ref sig .tc := ⟨.hbm, 175, rfl⟩
abbrev main_v74 : Ref sig .tc := ⟨.hbm, 176, rfl⟩
abbrev main_v75 : Ref sig .tc := ⟨.hbm, 177, rfl⟩
abbrev main_v76 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_v80 : Ref sig .tc := ⟨.hbm, 182, rfl⟩
abbrev main_v81 : Ref sig .tc := ⟨.hbm, 183, rfl⟩
abbrev main_v82 : Ref sig .tc := ⟨.hbm, 184, rfl⟩
abbrev main_v83_0 : Ref sig .tc := ⟨.hbm, 185, rfl⟩
abbrev main_v83_1 : Ref sig .tc := ⟨.hbm, 186, rfl⟩
abbrev main_call3_c : Ref sig .tc := ⟨.hbm, 187, rfl⟩
abbrev main_call3_v0 : Ref sig .tc := ⟨.hbm, 188, rfl⟩
abbrev main_call3_v1 : Ref sig .tc := ⟨.hbm, 189, rfl⟩
abbrev main_call3_c_0 : Ref sig .tc := ⟨.hbm, 190, rfl⟩
abbrev main_call3_v2 : Ref sig .tc := ⟨.hbm, 191, rfl⟩
abbrev main_call3_v3 : Ref sig .tc := ⟨.hbm, 192, rfl⟩
abbrev main_call3_v4 : Ref sig .tc := ⟨.hbm, 193, rfl⟩
abbrev main_call3_v5 : Ref sig .tc := ⟨.hbm, 194, rfl⟩
abbrev main_call3_c_1 : Ref sig .tc := ⟨.hbm, 195, rfl⟩
abbrev main_call3_c_2 : Ref sig .tc := ⟨.hbm, 196, rfl⟩
abbrev main_call3_v6 : Ref sig .tc := ⟨.hbm, 197, rfl⟩
abbrev main_call3_v7 : Ref sig .tc := ⟨.hbm, 198, rfl⟩
abbrev main_call3_v8 : Ref sig .tc := ⟨.hbm, 199, rfl⟩
abbrev main_call3_v9 : Ref sig .tc := ⟨.hbm, 200, rfl⟩
abbrev main_call3_v10 : Ref sig .tc := ⟨.hbm, 201, rfl⟩
abbrev main_call3_v11 : Ref sig .tc := ⟨.hbm, 202, rfl⟩
abbrev main_call3_c_3 : Ref sig .tc := ⟨.hbm, 203, rfl⟩
abbrev main_call3_v12 : Ref sig .tc := ⟨.hbm, 204, rfl⟩
abbrev main_call3_v13 : Ref sig .tc := ⟨.hbm, 205, rfl⟩
abbrev main_call3_v14 : Ref sig .tc := ⟨.hbm, 206, rfl⟩
abbrev main_call3_cst : Ref sig .tc := ⟨.hbm, 207, rfl⟩
abbrev main_call3_v15 : Ref sig .tc := ⟨.hbm, 208, rfl⟩
abbrev main_v84 : Ref sig .tc := ⟨.hbm, 209, rfl⟩
abbrev main_cst_8 : Ref sig .tc := ⟨.hbm, 210, rfl⟩
abbrev main_v85 : Ref sig .tc := ⟨.hbm, 211, rfl⟩
abbrev main_v86 : Ref sig .tc := ⟨.hbm, 212, rfl⟩
abbrev main_v87 : Ref sig .tc := ⟨.hbm, 213, rfl⟩
abbrev main_v88_0 : Ref sig .tc := ⟨.hbm, 214, rfl⟩
abbrev main_v88_1 : Ref sig .tc := ⟨.hbm, 215, rfl⟩
abbrev main_v88_2 : Ref sig .tc := ⟨.hbm, 216, rfl⟩
abbrev main_cst_9 : Ref sig .tc := ⟨.hbm, 217, rfl⟩
abbrev main_v89 : Ref sig .tc := ⟨.hbm, 218, rfl⟩
abbrev main_v90 : Ref sig .tc := ⟨.hbm, 219, rfl⟩
abbrev main_cst_10 : Ref sig .tc := ⟨.hbm, 220, rfl⟩
abbrev main_v91 : Ref sig .tc := ⟨.hbm, 221, rfl⟩
abbrev main_v92 : Ref sig .tc := ⟨.hbm, 222, rfl⟩
abbrev main_v93 : Ref sig .tc := ⟨.hbm, 223, rfl⟩
abbrev main_v94 : Ref sig .tc := ⟨.hbm, 224, rfl⟩
abbrev main_v95 : Ref sig .tc := ⟨.hbm, 225, rfl⟩
abbrev main_v96 : Ref sig .tc := ⟨.hbm, 226, rfl⟩
abbrev main_v97 : Ref sig .tc := ⟨.hbm, 227, rfl⟩
abbrev main_cst_11 : Ref sig .tc := ⟨.hbm, 228, rfl⟩
abbrev main_v98 : Ref sig .tc := ⟨.hbm, 229, rfl⟩
abbrev main_v99 : Ref sig .tc := ⟨.hbm, 230, rfl⟩
abbrev main_v100 : Ref sig .tc := ⟨.hbm, 231, rfl⟩
abbrev main_cst_12 : Ref sig .tc := ⟨.hbm, 232, rfl⟩
abbrev main_v101 : Ref sig .tc := ⟨.hbm, 233, rfl⟩
abbrev main_cst_13 : Ref sig .tc := ⟨.hbm, 234, rfl⟩
abbrev main_v102 : Ref sig .tc := ⟨.hbm, 235, rfl⟩
abbrev main_v103 : Ref sig .tc := ⟨.hbm, 236, rfl⟩
abbrev main_v104 : Ref sig .tc := ⟨.hbm, 237, rfl⟩
abbrev main_cst_14 : Ref sig .tc := ⟨.hbm, 238, rfl⟩
abbrev main_v105 : Ref sig .tc := ⟨.hbm, 239, rfl⟩
abbrev main_v106 : Ref sig .tc := ⟨.hbm, 240, rfl⟩
abbrev main_v107 : Ref sig .tc := ⟨.hbm, 241, rfl⟩
abbrev main_v108 : Ref sig .tc := ⟨.hbm, 242, rfl⟩
abbrev main_v109 : Ref sig .tc := ⟨.hbm, 243, rfl⟩
abbrev main_v110 : Ref sig .tc := ⟨.hbm, 244, rfl⟩
abbrev main_v111 : Ref sig .tc := ⟨.hbm, 245, rfl⟩
abbrev main_v112 : Ref sig .tc := ⟨.hbm, 246, rfl⟩
abbrev main_v113 : Ref sig .tc := ⟨.hbm, 247, rfl⟩
abbrev main_call4_cst : Ref sig .tc := ⟨.hbm, 248, rfl⟩
abbrev main_call4_v0 : Ref sig .tc := ⟨.hbm, 249, rfl⟩
abbrev main_v114 : Ref sig .tc := ⟨.hbm, 250, rfl⟩
abbrev main_v115 : Ref sig .tc := ⟨.hbm, 251, rfl⟩
abbrev main_v116 : Ref sig .tc := ⟨.hbm, 252, rfl⟩
abbrev main_v117 : Ref sig .tc := ⟨.hbm, 253, rfl⟩
abbrev main_v118 : Ref sig .tc := ⟨.hbm, 254, rfl⟩
abbrev main_v119 : Ref sig .tc := ⟨.hbm, 255, rfl⟩
abbrev main_v120 : Ref sig .tc := ⟨.hbm, 256, rfl⟩
abbrev main_v121 : Ref sig .tc := ⟨.hbm, 257, rfl⟩
abbrev main_v122 : Ref sig .tc := ⟨.hbm, 258, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg4_0 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg5_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg4_0 : Ref sig .tc := ⟨.vmem, 55, rfl⟩
abbrev cc6_stg4_1 : Ref sig .tc := ⟨.vmem, 56, rfl⟩
abbrev cc6_stg5_0 : Ref sig .tc := ⟨.vmem, 57, rfl⟩
abbrev cc6_stg5_1 : Ref sig .tc := ⟨.vmem, 58, rfl⟩
abbrev cc7_stg0_0 : Ref sig .tc := ⟨.vmem, 59, rfl⟩
abbrev cc7_stg0_1 : Ref sig .tc := ⟨.vmem, 60, rfl⟩
abbrev cc7_stg1_0 : Ref sig .tc := ⟨.vmem, 61, rfl⟩
abbrev cc7_stg1_1 : Ref sig .tc := ⟨.vmem, 62, rfl⟩
abbrev cc7_stg2_0 : Ref sig .tc := ⟨.vmem, 63, rfl⟩
abbrev cc7_stg2_1 : Ref sig .tc := ⟨.vmem, 64, rfl⟩
abbrev cc7_stg3_0 : Ref sig .tc := ⟨.vmem, 65, rfl⟩
abbrev cc7_stg4_0 : Ref sig .tc := ⟨.vmem, 66, rfl⟩
abbrev cc8_stg0_0 : Ref sig .tc := ⟨.vmem, 67, rfl⟩
abbrev cc8_stg0_1 : Ref sig .tc := ⟨.vmem, 68, rfl⟩
abbrev cc8_stg1_0 : Ref sig .tc := ⟨.vmem, 69, rfl⟩
abbrev cc8_stg2_0 : Ref sig .tc := ⟨.vmem, 70, rfl⟩
abbrev cc8_stg3_0 : Ref sig .tc := ⟨.vmem, 71, rfl⟩
abbrev cc8_stg4_0 : Ref sig .tc := ⟨.vmem, 72, rfl⟩
abbrev cc8_stg5_0 : Ref sig .tc := ⟨.vmem, 73, rfl⟩
abbrev cc8_stg5_1 : Ref sig .tc := ⟨.vmem, 74, rfl⟩
abbrev cc9_stg0_0 : Ref sig .tc := ⟨.vmem, 75, rfl⟩
abbrev cc9_stg0_1 : Ref sig .tc := ⟨.vmem, 76, rfl⟩
abbrev cc9_stg1_0 : Ref sig .tc := ⟨.vmem, 77, rfl⟩
abbrev cc9_stg2_0 : Ref sig .tc := ⟨.vmem, 78, rfl⟩
abbrev cc9_stg3_0 : Ref sig .tc := ⟨.vmem, 79, rfl⟩
abbrev cc9_stg4_0 : Ref sig .tc := ⟨.vmem, 80, rfl⟩
abbrev cc9_stg4_1 : Ref sig .tc := ⟨.vmem, 81, rfl⟩
abbrev cc9_stg5_0 : Ref sig .tc := ⟨.vmem, 82, rfl⟩
abbrev cc9_stg5_1 : Ref sig .tc := ⟨.vmem, 83, rfl⟩
abbrev cc10_stg0_0 : Ref sig .tc := ⟨.vmem, 84, rfl⟩
abbrev cc10_stg0_1 : Ref sig .tc := ⟨.vmem, 85, rfl⟩
abbrev cc10_stg1_0 : Ref sig .tc := ⟨.vmem, 86, rfl⟩
abbrev cc10_stg1_1 : Ref sig .tc := ⟨.vmem, 87, rfl⟩
abbrev cc10_stg2_0 : Ref sig .tc := ⟨.vmem, 88, rfl⟩
abbrev cc10_stg2_1 : Ref sig .tc := ⟨.vmem, 89, rfl⟩
abbrev cc10_stg3_0 : Ref sig .tc := ⟨.vmem, 90, rfl⟩
abbrev cc10_stg4_0 : Ref sig .tc := ⟨.vmem, 91, rfl⟩
abbrev cc11_stg0_0 : Ref sig .tc := ⟨.vmem, 92, rfl⟩
abbrev cc11_stg0_1 : Ref sig .tc := ⟨.vmem, 93, rfl⟩
abbrev cc11_stg1_0 : Ref sig .tc := ⟨.vmem, 94, rfl⟩
abbrev cc11_stg2_0 : Ref sig .tc := ⟨.vmem, 95, rfl⟩
abbrev cc11_stg3_0 : Ref sig .tc := ⟨.vmem, 96, rfl⟩
abbrev cc11_stg4_0 : Ref sig .tc := ⟨.vmem, 97, rfl⟩
abbrev cc11_stg5_0 : Ref sig .tc := ⟨.vmem, 98, rfl⟩
abbrev cc11_stg5_1 : Ref sig .tc := ⟨.vmem, 99, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem4_1 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem4_0 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem5_1 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem3_0 : DmaSem sig := 54
abbrev cc6_sem4_0 : DmaSem sig := 55
abbrev cc6_sem4_1 : DmaSem sig := 56
abbrev cc6_sem5_0 : DmaSem sig := 57
abbrev cc6_sem5_1 : DmaSem sig := 58
abbrev cc7_sem0_0 : DmaSem sig := 59
abbrev cc7_sem0_1 : DmaSem sig := 60
abbrev cc7_sem1_0 : DmaSem sig := 61
abbrev cc7_sem1_1 : DmaSem sig := 62
abbrev cc7_sem2_0 : DmaSem sig := 63
abbrev cc7_sem2_1 : DmaSem sig := 64
abbrev cc7_sem3_0 : DmaSem sig := 65
abbrev cc7_sem4_0 : DmaSem sig := 66
abbrev cc8_sem0_0 : DmaSem sig := 67
abbrev cc8_sem0_1 : DmaSem sig := 68
abbrev cc8_sem1_0 : DmaSem sig := 69
abbrev cc8_sem2_0 : DmaSem sig := 70
abbrev cc8_sem3_0 : DmaSem sig := 71
abbrev cc8_sem4_0 : DmaSem sig := 72
abbrev cc8_sem5_0 : DmaSem sig := 73
abbrev cc8_sem5_1 : DmaSem sig := 74
abbrev cc9_sem0_0 : DmaSem sig := 75
abbrev cc9_sem0_1 : DmaSem sig := 76
abbrev cc9_sem1_0 : DmaSem sig := 77
abbrev cc9_sem2_0 : DmaSem sig := 78
abbrev cc9_sem3_0 : DmaSem sig := 79
abbrev cc9_sem4_0 : DmaSem sig := 80
abbrev cc9_sem4_1 : DmaSem sig := 81
abbrev cc9_sem5_0 : DmaSem sig := 82
abbrev cc9_sem5_1 : DmaSem sig := 83
abbrev cc10_sem0_0 : DmaSem sig := 84
abbrev cc10_sem0_1 : DmaSem sig := 85
abbrev cc10_sem1_0 : DmaSem sig := 86
abbrev cc10_sem1_1 : DmaSem sig := 87
abbrev cc10_sem2_0 : DmaSem sig := 88
abbrev cc10_sem2_1 : DmaSem sig := 89
abbrev cc10_sem3_0 : DmaSem sig := 90
abbrev cc10_sem4_0 : DmaSem sig := 91
abbrev cc11_sem0_0 : DmaSem sig := 92
abbrev cc11_sem0_1 : DmaSem sig := 93
abbrev cc11_sem1_0 : DmaSem sig := 94
abbrev cc11_sem2_0 : DmaSem sig := 95
abbrev cc11_sem3_0 : DmaSem sig := 96
abbrev cc11_sem4_0 : DmaSem sig := 97
abbrev cc11_sem5_0 : DmaSem sig := 98
abbrev cc11_sem5_1 : DmaSem sig := 99

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x192 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x192 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S192x192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S192x192 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x192 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x192 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x192 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x192 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x192 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x192 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x192 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x192 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x192 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x192 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x192 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x192 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x192 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S192x192 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x192 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S192x192 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x192 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S5000x192 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x192 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x192 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x192 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x192 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x192 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x192 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x192 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x192 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x192 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x192 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x192 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x192 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S192x192 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x192 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S192x192 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x192 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S5000x192 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x192 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x192 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x192 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x192 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x192 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x192 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x192 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x192 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x192 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x192 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x192 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

class Facts₀ : Prop where
  slices_S4x192_S1x192_0_0 : S4x192.Slices ![0, 0] S1x192
  shapeCasts_S1x192_S192 : S1x192.ShapeCasts S192
  shapeCasts_S192_S1x192 : S192.ShapeCasts S1x192
  inb_S5000x32_S5000x32_0_0 : ∀ a, (![0, 0] : Fin 2 → Nat) a + S5000x32.size a ≤ S5000x32.size a
  h_S5000x32 : 0 < S5000x32.numel
  inb_S32x192_S32x192_0_0 : ∀ a, (![0, 0] : Fin 2 → Nat) a + S32x192.size a ≤ S32x192.size a
  h_S32x192 : 0 < S32x192.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5000x192 : S1x192.Broadcasts S5000x192
  inb_S5000x192_S5000x192_0_0 : ∀ a, (![0, 0] : Fin 2 → Nat) a + S5000x192.size a ≤ S5000x192.size a
  h_S5000x192 : 0 < S5000x192.numel
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x192_0 : S400000.BroadcastsInDim S400000x192 (![0] : Fin 1 → Fin S400000x192.rank)
  bcast_S_S400000x192 : S_.BroadcastsInDim S400000x192 (![] : Fin 0 → Fin S400000x192.rank)
  bcast_S_S100000x192 : S_.BroadcastsInDim S100000x192 (![] : Fin 0 → Fin S100000x192.rank)
  shapeCasts_S5000x192_S5000x192 : S5000x192.ShapeCasts S5000x192
  reduces_S5000x192_S192 : S5000x192.Reduces [0] S192
  bcast_S_S1x192 : S_.BroadcastsInDim S1x192 (![] : Fin 0 → Fin S1x192.rank)
  slices_S3x192x192_S1x192x192_0_0_0 : S3x192x192.Slices ![0, 0, 0] S1x192x192
  shapeCasts_S1x192x192_S192x192 : S1x192x192.ShapeCasts S192x192
  slices_S3x192_S1x192_0_0 : S3x192.Slices ![0, 0] S1x192
  slices_S4x192_S1x192_1_0 : S4x192.Slices ![1, 0] S1x192
  inb_S192x192_S192x192_0_0 : ∀ a, (![0, 0] : Fin 2 → Nat) a + S192x192.size a ≤ S192x192.size a
  h_S192x192 : 0 < S192x192.numel
  shapeCasts_S192x192_S192x192 : S192x192.ShapeCasts S192x192
  slices_S3x192x192_S1x192x192_1_0_0 : S3x192x192.Slices ![1, 0, 0] S1x192x192
  slices_S3x192_S1x192_1_0 : S3x192.Slices ![1, 0] S1x192
  slices_S4x192_S1x192_2_0 : S4x192.Slices ![2, 0] S1x192
  slices_S3x192x192_S1x192x192_2_0_0 : S3x192x192.Slices ![2, 0, 0] S1x192x192
  slices_S3x192_S1x192_2_0 : S3x192.Slices ![2, 0] S1x192
  slices_S4x192_S1x192_3_0 : S4x192.Slices ![3, 0] S1x192
  bcast_S_S2000x192 : S_.BroadcastsInDim S2000x192 (![] : Fin 0 → Fin S2000x192.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x192_0_1 : S2000x1.BroadcastsInDim S2000x192 (![0, 1] : Fin 2 → Fin S2000x192.rank)
  bcast_S192_S1x192_1 : S192.BroadcastsInDim S1x192 (![1] : Fin 1 → Fin S1x192.rank)
  bcast_S1x192_S2000x192_0_1 : S1x192.BroadcastsInDim S2000x192 (![0, 1] : Fin 2 → Fin S2000x192.rank)
  bcast_S1x1_S2000x1_0_1 : S1x1.BroadcastsInDim S2000x1 (![0, 1] : Fin 2 → Fin S2000x1.rank)
  dot_S5000x32_S32x192_S5000x192_1_0_0_1_n_n_wf : DotDims.WF S5000x32 S32x192 S5000x192 [1] [0] [0] [1] [] []
  gather_S100000x192_S400000x1_S400000x192_1_0_n_n_0_1_1192_wf : GatherDims.WF S100000x192 S400000x1 S400000x192 [1] [0] [] [0] [] 1 ![1, 192]
  scatter_S100000x192_S400000x1_S400000x192_1_0_0_1_wf : ScatterDims.WF S100000x192 S400000x1 S400000x192 [1] [0] [0] 1
  dot_S5000x192_S192x192_S5000x192_1_0_0_1_n_n_wf : DotDims.WF S5000x192 S192x192 S5000x192 [1] [0] [0] [1] [] []
  scatter_S2000x192_S100000x1_S100000x192_1_0_0_1_wf : ScatterDims.WF S2000x192 S100000x1 S100000x192 [1] [0] [0] 1
  scatter_S2000_S100000x1_S100000_n_0_0_1_wf : ScatterDims.WF S2000 S100000x1 S100000 [] [0] [0] 1
  dot_S2000x192_S192x192_S2000x192_1_0_0_1_n_n_wf : DotDims.WF S2000x192 S192x192 S2000x192 [1] [0] [0] [1] [] []
  dot_S2000x192_S192x1_S2000x1_1_0_0_1_n_n_wf : DotDims.WF S2000x192 S192x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x192.size a ≤ S32x192.size a
  hwx0_1 : ∀ i : grid0.Coords, EltTy.bits .f32 = 32 ∨ (Rect.block (s := S32x192) S32x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192.size a ≤ S1x192.size a
  hwx0_2 : ∀ i : grid0.Coords, EltTy.bits .f32 = 32 ∨ (Rect.block (s := S1x192) S1x192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x192.size a ≤ S32x192.size a
  hwx0_3 : ∀ i : grid0.Coords, EltTy.bits .f32 = 32 ∨ (Rect.block (s := S32x192) S32x192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x192.size a ≤ S100000x192.size a
  hwx0_4 : ∀ i : grid0.Coords, EltTy.bits .f32 = 32 ∨ (Rect.block (s := S100000x192) S5000x192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x192.size a ≤ S100000x192.size a
  hwx0_5 : ∀ i : grid0.Coords, EltTy.bits .f32 = 32 ∨ (Rect.block (s := S100000x192) S5000x192.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x192.size a ≤ S100000x192.size a
  hwx1_0 : ∀ i : grid1.Coords, EltTy.bits .f32 = 32 ∨ (Rect.block (s := S100000x192) S5000x192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x192.size a ≤ S100000x192.size a
  hwx1_1 : ∀ i : grid1.Coords, EltTy.bits .f32 = 32 ∨ (Rect.block (s := S100000x192) S5000x192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x192.size a ≤ S100000x192.size a
  hwx1_2 : ∀ i : grid1.Coords, EltTy.bits .f32 = 32 ∨ (Rect.block (s := S100000x192) S5000x192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x192.size a ≤ S1x192.size a
  hwx1_3 : ∀ i : grid1.Coords, EltTy.bits .f32 = 32 ∨ (Rect.block (s := S1x192) S1x192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x192.size a ≤ S1x192.size a
  hwx1_4 : ∀ i : grid1.Coords, EltTy.bits .f32 = 32 ∨ (Rect.block (s := S1x192) S1x192.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x192.size a ≤ S100000x192.size a
  hwx2_0 : ∀ i : grid2.Coords, EltTy.bits .f32 = 32 ∨ (Rect.block (s := S100000x192) S5000x192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x192.size a ≤ S1x192.size a
  hwx2_1 : ∀ i : grid2.Coords, EltTy.bits .f32 = 32 ∨ (Rect.block (s := S1x192) S1x192.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x192.size a ≤ S1x192.size a
  hwx2_2 : ∀ i : grid2.Coords, EltTy.bits .f32 = 32 ∨ (Rect.block (s := S1x192) S1x192.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x192.size a ≤ S1x192.size a
  hwx2_3 : ∀ i : grid2.Coords, EltTy.bits .f32 = 32 ∨ (Rect.block (s := S1x192) S1x192.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x192.size a ≤ S1x192.size a
  hwx2_4 : ∀ i : grid2.Coords, EltTy.bits .f32 = 32 ∨ (Rect.block (s := S1x192) S1x192.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x192.size a ≤ S100000x192.size a
  hwx2_5 : ∀ i : grid2.Coords, EltTy.bits .f32 = 32 ∨ (Rect.block (s := S100000x192) S5000x192.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x192.size a ≤ S100000x192.size a
  hwx3_0 : ∀ i : grid3.Coords, EltTy.bits .f32 = 32 ∨ (Rect.block (s := S100000x192) S5000x192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S192x192.size a ≤ S192x192.size a
  hwx3_1 : ∀ i : grid3.Coords, EltTy.bits .f32 = 32 ∨ (Rect.block (s := S192x192) S192x192.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x192.size a ≤ S1x192.size a
  hwx3_2 : ∀ i : grid3.Coords, EltTy.bits .f32 = 32 ∨ (Rect.block (s := S1x192) S1x192.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S192x192.size a ≤ S192x192.size a
  hwx3_3 : ∀ i : grid3.Coords, EltTy.bits .f32 = 32 ∨ (Rect.block (s := S192x192) S192x192.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x192.size a ≤ S100000x192.size a
  hwx3_4 : ∀ i : grid3.Coords, EltTy.bits .f32 = 32 ∨ (Rect.block (s := S100000x192) S5000x192.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x192.size a ≤ S100000x192.size a
  hwx3_5 : ∀ i : grid3.Coords, EltTy.bits .f32 = 32 ∨ (Rect.block (s := S100000x192) S5000x192.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x192.size a ≤ S100000x192.size a
  hwx4_0 : ∀ i : grid4.Coords, EltTy.bits .f32 = 32 ∨ (Rect.block (s := S100000x192) S5000x192.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x192.size a ≤ S100000x192.size a
  hwx4_1 : ∀ i : grid4.Coords, EltTy.bits .f32 = 32 ∨ (Rect.block (s := S100000x192) S5000x192.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x192.size a ≤ S100000x192.size a
  hwx4_2 : ∀ i : grid4.Coords, EltTy.bits .f32 = 32 ∨ (Rect.block (s := S100000x192) S5000x192.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x192.size a ≤ S1x192.size a
  hwx4_3 : ∀ i : grid4.Coords, EltTy.bits .f32 = 32 ∨ (Rect.block (s := S1x192) S1x192.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x192.size a ≤ S1x192.size a
  hwx4_4 : ∀ i : grid4.Coords, EltTy.bits .f32 = 32 ∨ (Rect.block (s := S1x192) S1x192.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x192.size a ≤ S100000x192.size a
  hwx5_0 : ∀ i : grid5.Coords, EltTy.bits .f32 = 32 ∨ (Rect.block (s := S100000x192) S5000x192.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x192.size a ≤ S1x192.size a
  hwx5_1 : ∀ i : grid5.Coords, EltTy.bits .f32 = 32 ∨ (Rect.block (s := S1x192) S1x192.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x192.size a ≤ S1x192.size a
  hwx5_2 : ∀ i : grid5.Coords, EltTy.bits .f32 = 32 ∨ (Rect.block (s := S1x192) S1x192.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x192.size a ≤ S1x192.size a
  hwx5_3 : ∀ i : grid5.Coords, EltTy.bits .f32 = 32 ∨ (Rect.block (s := S1x192) S1x192.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x192.size a ≤ S1x192.size a
  hwx5_4 : ∀ i : grid5.Coords, EltTy.bits .f32 = 32 ∨ (Rect.block (s := S1x192) S1x192.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x192.size a ≤ S100000x192.size a
  hwx5_5 : ∀ i : grid5.Coords, EltTy.bits .f32 = 32 ∨ (Rect.block (s := S100000x192) S5000x192.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x192.size a ≤ S100000x192.size a
  hwx6_0 : ∀ i : grid6.Coords, EltTy.bits .f32 = 32 ∨ (Rect.block (s := S100000x192) S5000x192.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S192x192.size a ≤ S192x192.size a
  hwx6_1 : ∀ i : grid6.Coords, EltTy.bits .f32 = 32 ∨ (Rect.block (s := S192x192) S192x192.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x192.size a ≤ S1x192.size a
  hwx6_2 : ∀ i : grid6.Coords, EltTy.bits .f32 = 32 ∨ (Rect.block (s := S1x192) S1x192.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S192x192.size a ≤ S192x192.size a
  hwx6_3 : ∀ i : grid6.Coords, EltTy.bits .f32 = 32 ∨ (Rect.block (s := S192x192) S192x192.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x192.size a ≤ S100000x192.size a
  hwx6_4 : ∀ i : grid6.Coords, EltTy.bits .f32 = 32 ∨ (Rect.block (s := S100000x192) S5000x192.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x192.size a ≤ S100000x192.size a
  hwx6_5 : ∀ i : grid6.Coords, EltTy.bits .f32 = 32 ∨ (Rect.block (s := S100000x192) S5000x192.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x192.size a ≤ S100000x192.size a
  hwx7_0 : ∀ i : grid7.Coords, EltTy.bits .f32 = 32 ∨ (Rect.block (s := S100000x192) S5000x192.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x192.size a ≤ S100000x192.size a
  hwx7_1 : ∀ i : grid7.Coords, EltTy.bits .f32 = 32 ∨ (Rect.block (s := S100000x192) S5000x192.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x192.size a ≤ S100000x192.size a
  hwx7_2 : ∀ i : grid7.Coords, EltTy.bits .f32 = 32 ∨ (Rect.block (s := S100000x192) S5000x192.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x192.size a ≤ S1x192.size a
  hwx7_3 : ∀ i : grid7.Coords, EltTy.bits .f32 = 32 ∨ (Rect.block (s := S1x192) S1x192.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x192.size a ≤ S1x192.size a
  hwx7_4 : ∀ i : grid7.Coords, EltTy.bits .f32 = 32 ∨ (Rect.block (s := S1x192) S1x192.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x192.size a ≤ S100000x192.size a
  hwx8_0 : ∀ i : grid8.Coords, EltTy.bits .f32 = 32 ∨ (Rect.block (s := S100000x192) S5000x192.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x192.size a ≤ S1x192.size a
  hwx8_1 : ∀ i : grid8.Coords, EltTy.bits .f32 = 32 ∨ (Rect.block (s := S1x192) S1x192.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x192.size a ≤ S1x192.size a
  hwx8_2 : ∀ i : grid8.Coords, EltTy.bits .f32 = 32 ∨ (Rect.block (s := S1x192) S1x192.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x192.size a ≤ S1x192.size a
  hwx8_3 : ∀ i : grid8.Coords, EltTy.bits .f32 = 32 ∨ (Rect.block (s := S1x192) S1x192.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x192.size a ≤ S1x192.size a
  hwx8_4 : ∀ i : grid8.Coords, EltTy.bits .f32 = 32 ∨ (Rect.block (s := S1x192) S1x192.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x192.size a ≤ S100000x192.size a
  hwx8_5 : ∀ i : grid8.Coords, EltTy.bits .f32 = 32 ∨ (Rect.block (s := S100000x192) S5000x192.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x192.size a ≤ S100000x192.size a
  hwx9_0 : ∀ i : grid9.Coords, EltTy.bits .f32 = 32 ∨ (Rect.block (s := S100000x192) S5000x192.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S192x192.size a ≤ S192x192.size a
  hwx9_1 : ∀ i : grid9.Coords, EltTy.bits .f32 = 32 ∨ (Rect.block (s := S192x192) S192x192.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x192.size a ≤ S1x192.size a
  hwx9_2 : ∀ i : grid9.Coords, EltTy.bits .f32 = 32 ∨ (Rect.block (s := S1x192) S1x192.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S192x192.size a ≤ S192x192.size a
  hwx9_3 : ∀ i : grid9.Coords, EltTy.bits .f32 = 32 ∨ (Rect.block (s := S192x192) S192x192.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x192.size a ≤ S100000x192.size a
  hwx9_4 : ∀ i : grid9.Coords, EltTy.bits .f32 = 32 ∨ (Rect.block (s := S100000x192) S5000x192.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x192.size a ≤ S100000x192.size a
  hwx9_5 : ∀ i : grid9.Coords, EltTy.bits .f32 = 32 ∨ (Rect.block (s := S100000x192) S5000x192.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x192.size a ≤ S100000x192.size a
  hwx10_0 : ∀ i : grid10.Coords, EltTy.bits .f32 = 32 ∨ (Rect.block (s := S100000x192) S5000x192.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x192.size a ≤ S100000x192.size a
  hwx10_1 : ∀ i : grid10.Coords, EltTy.bits .f32 = 32 ∨ (Rect.block (s := S100000x192) S5000x192.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x192.size a ≤ S100000x192.size a
  hwx10_2 : ∀ i : grid10.Coords, EltTy.bits .f32 = 32 ∨ (Rect.block (s := S100000x192) S5000x192.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x192.size a ≤ S1x192.size a
  hwx10_3 : ∀ i : grid10.Coords, EltTy.bits .f32 = 32 ∨ (Rect.block (s := S1x192) S1x192.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x192.size a ≤ S1x192.size a
  hwx10_4 : ∀ i : grid10.Coords, EltTy.bits .f32 = 32 ∨ (Rect.block (s := S1x192) S1x192.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x192.size a ≤ S100000x192.size a
  hwx11_0 : ∀ i : grid11.Coords, EltTy.bits .f32 = 32 ∨ (Rect.block (s := S100000x192) S5000x192.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x192.size a ≤ S1x192.size a
  hwx11_1 : ∀ i : grid11.Coords, EltTy.bits .f32 = 32 ∨ (Rect.block (s := S1x192) S1x192.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x192.size a ≤ S1x192.size a
  hwx11_2 : ∀ i : grid11.Coords, EltTy.bits .f32 = 32 ∨ (Rect.block (s := S1x192) S1x192.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x192.size a ≤ S1x192.size a
  hwx11_3 : ∀ i : grid11.Coords, EltTy.bits .f32 = 32 ∨ (Rect.block (s := S1x192) S1x192.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x192.size a ≤ S1x192.size a
  hwx11_4 : ∀ i : grid11.Coords, EltTy.bits .f32 = 32 ∨ (Rect.block (s := S1x192) S1x192.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x192.size a ≤ S100000x192.size a
  hwx11_5 : ∀ i : grid11.Coords, EltTy.bits .f32 = 32 ∨ (Rect.block (s := S100000x192) S5000x192.size (cc11_transform_5 i) (hinb11_5 i)).WholeWords (EltTy.packing .f32)

variable [Facts₀]

def dot_S5000x32_S32x192_S5000x192_1_0_0_1_n_n : DotDims S5000x32 S32x192 S5000x192 where
  lhsContracting := [1]
  rhsContracting := [0]
  lhsNonContracting := [0]
  rhsNonContracting := [1]
  lhsBatch := []
  rhsBatch := []
  wf := dot_S5000x32_S32x192_S5000x192_1_0_0_1_n_n_wf
def gather_S100000x192_S400000x1_S400000x192_1_0_n_n_0_1_1192 : GatherDims S100000x192 S400000x1 S400000x192 where
  offsetDims := [1]
  collapsedSliceDims := [0]
  operandBatchingDims := []
  startIndicesBatchingDims := []
  startIndexMap := [0]
  indexVectorDim := 1
  sliceSizes := ![1, 192]
  wf := gather_S100000x192_S400000x1_S400000x192_1_0_n_n_0_1_1192_wf
def scatter_S100000x192_S400000x1_S400000x192_1_0_0_1 : ScatterDims S100000x192 S400000x1 S400000x192 where
  updateWindowDims := [1]
  insertedWindowDims := [0]
  scatterDimsToOperandDims := [0]
  indexVectorDim := 1
  wf := scatter_S100000x192_S400000x1_S400000x192_1_0_0_1_wf
def dot_S5000x192_S192x192_S5000x192_1_0_0_1_n_n : DotDims S5000x192 S192x192 S5000x192 where
  lhsContracting := [1]
  rhsContracting := [0]
  lhsNonContracting := [0]
  rhsNonContracting := [1]
  lhsBatch := []
  rhsBatch := []
  wf := dot_S5000x192_S192x192_S5000x192_1_0_0_1_n_n_wf
def scatter_S2000x192_S100000x1_S100000x192_1_0_0_1 : ScatterDims S2000x192 S100000x1 S100000x192 where
  updateWindowDims := [1]
  insertedWindowDims := [0]
  scatterDimsToOperandDims := [0]
  indexVectorDim := 1
  wf := scatter_S2000x192_S100000x1_S100000x192_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def dot_S2000x192_S192x192_S2000x192_1_0_0_1_n_n : DotDims S2000x192 S192x192 S2000x192 where
  lhsContracting := [1]
  rhsContracting := [0]
  lhsNonContracting := [0]
  rhsNonContracting := [1]
  lhsBatch := []
  rhsBatch := []
  wf := dot_S2000x192_S192x192_S2000x192_1_0_0_1_n_n_wf
def dot_S2000x192_S192x1_S2000x1_1_0_0_1_n_n : DotDims S2000x192 S192x1 S2000x1 where
  lhsContracting := [1]
  rhsContracting := [0]
  lhsNonContracting := [0]
  rhsNonContracting := [1]
  lhsBatch := []
  rhsBatch := []
  wf := dot_S2000x192_S192x1_S2000x1_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S32x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S5000x192.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S5000x192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v9) S5000x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S5000x192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10_0) S5000x192.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10_1) S1x192.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10_2) S1x192.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v10_0) S5000x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1x192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x192.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x192.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x192.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S5000x192.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v19) S5000x192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S192x192.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v30) S1x192.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v25) S192x192.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v31_0) S5000x192.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v31_1) S5000x192.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v35) S5000x192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31_1) S5000x192.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v36_0) S5000x192.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v36_1) S1x192.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v36_2) S1x192.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v36_0) S5000x192.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v38) S1x192.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v42) S1x192.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v43) S1x192.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v44) S1x192.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v45) S5000x192.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v45) S5000x192.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v47) S192x192.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v56) S1x192.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v51) S192x192.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v57_0) S5000x192.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v57_1) S5000x192.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v61) S5000x192.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v57_1) S5000x192.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v62_0) S5000x192.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v62_1) S1x192.size cc7_transform_3 reads7_3 true true 1 stage7_3 sem7_3
    hrank7 hreads7_3 hinb7_3 nbuf7_3 (Memref.isWhole_whole _) hwx7_3 hstage7_3

abbrev win7_4 : Pipeline.Window sig grid7 :=
  Pipeline.Window.ofSpec (Memref.whole main_v62_2) S1x192.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v62_0) S5000x192.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v64) S1x192.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v68) S1x192.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v69) S1x192.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v70) S1x192.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v71) S5000x192.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v71) S5000x192.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v73) S192x192.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v82) S1x192.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v77) S192x192.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v83_0) S5000x192.size cc9_transform_4 reads9_4 true false 2 stage9_4 sem9_4
    hrank9 hreads9_4 hinb9_4 nbuf9_4 (Memref.isWhole_whole _) hwx9_4 hstage9_4

abbrev win9_5 : Pipeline.Window sig grid9 :=
  Pipeline.Window.ofSpec (Memref.whole main_v83_1) S5000x192.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v87) S5000x192.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v83_1) S5000x192.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v88_0) S5000x192.size cc10_transform_2 reads10_2 true false 2 stage10_2 sem10_2
    hrank10 hreads10_2 hinb10_2 nbuf10_2 (Memref.isWhole_whole _) hwx10_2 hstage10_2

abbrev win10_3 : Pipeline.Window sig grid10 :=
  Pipeline.Window.ofSpec (Memref.whole main_v88_1) S1x192.size cc10_transform_3 reads10_3 true true 1 stage10_3 sem10_3
    hrank10 hreads10_3 hinb10_3 nbuf10_3 (Memref.isWhole_whole _) hwx10_3 hstage10_3

abbrev win10_4 : Pipeline.Window sig grid10 :=
  Pipeline.Window.ofSpec (Memref.whole main_v88_2) S1x192.size cc10_transform_4 reads10_4 true true 1 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v88_0) S5000x192.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v90) S1x192.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v94) S1x192.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v95) S1x192.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v96) S1x192.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v97) S5000x192.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

class Facts : Prop extends Facts₀ where

variable [Facts]
-- ==== ReferenceIdeal.lean ====
abbrev S100000x32 : Shape := ⟨2, ![100000, 32]⟩
abbrev S400000 : Shape := ⟨1, ![400000]⟩
abbrev S100000 : Shape := ⟨1, ![100000]⟩
abbrev S32x192 : Shape := ⟨2, ![32, 192]⟩
abbrev S192 : Shape := ⟨1, ![192]⟩
abbrev S3x192x192 : Shape := ⟨3, ![3, 192, 192]⟩
abbrev S3x192 : Shape := ⟨2, ![3, 192]⟩
abbrev S4x192 : Shape := ⟨2, ![4, 192]⟩
abbrev S192x192 : Shape := ⟨2, ![192, 192]⟩
abbrev S192x1 : Shape := ⟨2, ![192, 1]⟩
abbrev S1 : Shape := ⟨1, ![1]⟩
abbrev S100000x192 : Shape := ⟨2, ![100000, 192]⟩
abbrev S1x192 : Shape := ⟨2, ![1, 192]⟩
abbrev S_ : Shape := ⟨0, ![]⟩
abbrev S400000x1 : Shape := ⟨2, ![400000, 1]⟩
abbrev S400000x192 : Shape := ⟨2, ![400000, 192]⟩
abbrev S1x192x192 : Shape := ⟨3, ![1, 192, 192]⟩
abbrev S2000x192 : Shape := ⟨2, ![2000, 192]⟩
abbrev S100000x1 : Shape := ⟨2, ![100000, 1]⟩
abbrev S2000 : Shape := ⟨1, ![2000]⟩
abbrev S2000x1 : Shape := ⟨2, ![2000, 1]⟩
abbrev S1x1 : Shape := ⟨2, ![1, 1]⟩

abbrev nBuf : Space → Nat
  | .hbm => 347
  | .vmem => 0
  | .smem => 0
  | _ => 0

abbrev hbmTy0_0 (i : Nat) : BufTy := match i % 128 with
  | 0 => ⟨S100000x32, .f32⟩
  | 1 => ⟨S400000, .i32⟩
  | 2 => ⟨S400000, .i32⟩
  | 3 => ⟨S100000, .i32⟩
  | 4 => ⟨S32x192, .f32⟩
  | 5 => ⟨S192, .f32⟩
  | 6 => ⟨S32x192, .f32⟩
  | 7 => ⟨S3x192x192, .f32⟩
  | 8 => ⟨S3x192, .f32⟩
  | 9 => ⟨S3x192x192, .f32⟩
  | 10 => ⟨S4x192, .f32⟩
  | 11 => ⟨S4x192, .f32⟩
  | 12 => ⟨S192x192, .f32⟩
  | 13 => ⟨S192, .f32⟩
  | 14 => ⟨S192x192, .f32⟩
  | 15 => ⟨S192, .f32⟩
  | 16 => ⟨S192x1, .f32⟩
  | 17 => ⟨S1, .f32⟩
  | 18 => ⟨S100000x192, .f32⟩
  | 19 => ⟨S1x192, .f32⟩
  | 20 => ⟨S100000x192, .f32⟩
  | 21 => ⟨S100000x192, .f32⟩
  | 22 => ⟨S_, .i32⟩
  | 23 => ⟨S400000, .i32⟩
  | 24 => ⟨S400000, .i1⟩
  | 25 => ⟨S_, .i32⟩
  | 26 => ⟨S400000, .i32⟩
  | 27 => ⟨S400000, .i32⟩
  | 28 => ⟨S400000, .i32⟩
  | 29 => ⟨S400000x1, .i32⟩
  | 30 => ⟨S400000x192, .f32⟩
  | 31 => ⟨S_, .f32⟩
  | 32 => ⟨S100000x192, .f32⟩
  | 33 => ⟨S400000x1, .i32⟩
  | 34 => ⟨S100000x192, .f32⟩
  | 35 => ⟨S100000x192, .f32⟩
  | 36 => ⟨S100000x192, .f32⟩
  | 37 => ⟨S1x192, .f32⟩
  | 38 => ⟨S192, .f32⟩
  | 39 => ⟨S1x192, .f32⟩
  | 40 => ⟨S192, .f32⟩
  | 41 => ⟨S_, .f32⟩
  | 42 => ⟨S192, .f32⟩
  | 43 => ⟨S_, .f32⟩
  | 44 => ⟨S192, .f32⟩
  | 45 => ⟨S192, .f32⟩
  | 46 => ⟨S_, .i32⟩
  | 47 => ⟨S_, .f32⟩
  | 48 => ⟨S192, .f32⟩
  | 49 => ⟨S1x192, .f32⟩
  | 50 => ⟨S_, .f32⟩
  | 51 => ⟨S1x192, .f32⟩
  | 52 => ⟨S1x192, .f32⟩
  | 53 => ⟨S100000x192, .f32⟩
  | 54 => ⟨S100000x192, .f32⟩
  | 55 => ⟨S100000x192, .f32⟩
  | 56 => ⟨S_, .f32⟩
  | 57 => ⟨S_, .f32⟩
  | 58 => ⟨S_, .f32⟩
  | 59 => ⟨S_, .f32⟩
  | 60 => ⟨S192, .f32⟩
  | 61 => ⟨S192, .f32⟩
  | 62 => ⟨S192, .f32⟩
  | 63 => ⟨S_, .f32⟩
  | 64 => ⟨S_, .i1⟩
  | 65 => ⟨S_, .f32⟩
  | 66 => ⟨S_, .f32⟩
  | 67 => ⟨S192, .f32⟩
  | 68 => ⟨S192, .f32⟩
  | 69 => ⟨S1x192, .f32⟩
  | 70 => ⟨S100000x192, .f32⟩
  | 71 => ⟨S100000x192, .f32⟩
  | 72 => ⟨S_, .f32⟩
  | 73 => ⟨S192, .f32⟩
  | 74 => ⟨S192, .f32⟩
  | 75 => ⟨S192, .f32⟩
  | 76 => ⟨S1x192, .f32⟩
  | 77 => ⟨S100000x192, .f32⟩
  | 78 => ⟨S100000x192, .f32⟩
  | 79 => ⟨S1x192, .f32⟩
  | 80 => ⟨S100000x192, .f32⟩
  | 81 => ⟨S100000x192, .f32⟩
  | 82 => ⟨S1x192, .f32⟩
  | 83 => ⟨S100000x192, .f32⟩
  | 84 => ⟨S100000x192, .f32⟩
  | 85 => ⟨S_, .f32⟩
  | 86 => ⟨S100000x192, .f32⟩
  | 87 => ⟨S100000x192, .f32⟩
  | 88 => ⟨S1x192x192, .f32⟩
  | 89 => ⟨S192x192, .f32⟩
  | 90 => ⟨S1x192, .f32⟩
  | 91 => ⟨S192, .f32⟩
  | 92 => ⟨S1x192x192, .f32⟩
  | 93 => ⟨S192x192, .f32⟩
  | 94 => ⟨S100000x192, .f32⟩
  | 95 => ⟨S1x192, .f32⟩
  | 96 => ⟨S100000x192, .f32⟩
  | 97 => ⟨S100000x192, .f32⟩
  | 98 => ⟨S_, .i32⟩
  | 99 => ⟨S400000, .i32⟩
  | 100 => ⟨S400000, .i1⟩
  | 101 => ⟨S_, .i32⟩
  | 102 => ⟨S400000, .i32⟩
  | 103 => ⟨S400000, .i32⟩
  | 104 => ⟨S400000, .i32⟩
  | 105 => ⟨S400000x1, .i32⟩
  | 106 => ⟨S400000x192, .f32⟩
  | 107 => ⟨S_, .f32⟩
  | 108 => ⟨S100000x192, .f32⟩
  | 109 => ⟨S400000x1, .i32⟩
  | 110 => ⟨S100000x192, .f32⟩
  | 111 => ⟨S100000x192, .f32⟩
  | 112 => ⟨S100000x192, .f32⟩
  | 113 => ⟨S1x192, .f32⟩
  | 114 => ⟨S192, .f32⟩
  | 115 => ⟨S1x192, .f32⟩
  | 116 => ⟨S192, .f32⟩
  | 117 => ⟨S_, .f32⟩
  | 118 => ⟨S192, .f32⟩
  | 119 => ⟨S_, .f32⟩
  | 120 => ⟨S192, .f32⟩
  | 121 => ⟨S192, .f32⟩
  | 122 => ⟨S_, .i32⟩
  | 123 => ⟨S_, .f32⟩
  | 124 => ⟨S192, .f32⟩
  | 125 => ⟨S1x192, .f32⟩
  | 126 => ⟨S_, .f32⟩
  | 127 => ⟨S1x192, .f32⟩
  | _ => ⟨S100000x32, .f32⟩

abbrev hbmTy0_1 (i : Nat) : BufTy := match i % 128 with
  | 0 => ⟨S1x192, .f32⟩
  | 1 => ⟨S100000x192, .f32⟩
  | 2 => ⟨S100000x192, .f32⟩
  | 3 => ⟨S100000x192, .f32⟩
  | 4 => ⟨S_, .f32⟩
  | 5 => ⟨S_, .f32⟩
  | 6 => ⟨S_, .f32⟩
  | 7 => ⟨S_, .f32⟩
  | 8 => ⟨S192, .f32⟩
  | 9 => ⟨S192, .f32⟩
  | 10 => ⟨S192, .f32⟩
  | 11 => ⟨S_, .f32⟩
  | 12 => ⟨S_, .i1⟩
  | 13 => ⟨S_, .f32⟩
  | 14 => ⟨S_, .f32⟩
  | 15 => ⟨S192, .f32⟩
  | 16 => ⟨S192, .f32⟩
  | 17 => ⟨S1x192, .f32⟩
  | 18 => ⟨S100000x192, .f32⟩
  | 19 => ⟨S100000x192, .f32⟩
  | 20 => ⟨S_, .f32⟩
  | 21 => ⟨S192, .f32⟩
  | 22 => ⟨S192, .f32⟩
  | 23 => ⟨S192, .f32⟩
  | 24 => ⟨S1x192, .f32⟩
  | 25 => ⟨S100000x192, .f32⟩
  | 26 => ⟨S100000x192, .f32⟩
  | 27 => ⟨S1x192, .f32⟩
  | 28 => ⟨S100000x192, .f32⟩
  | 29 => ⟨S100000x192, .f32⟩
  | 30 => ⟨S1x192, .f32⟩
  | 31 => ⟨S100000x192, .f32⟩
  | 32 => ⟨S100000x192, .f32⟩
  | 33 => ⟨S_, .f32⟩
  | 34 => ⟨S100000x192, .f32⟩
  | 35 => ⟨S100000x192, .f32⟩
  | 36 => ⟨S1x192x192, .f32⟩
  | 37 => ⟨S192x192, .f32⟩
  | 38 => ⟨S1x192, .f32⟩
  | 39 => ⟨S192, .f32⟩
  | 40 => ⟨S1x192x192, .f32⟩
  | 41 => ⟨S192x192, .f32⟩
  | 42 => ⟨S100000x192, .f32⟩
  | 43 => ⟨S1x192, .f32⟩
  | 44 => ⟨S100000x192, .f32⟩
  | 45 => ⟨S100000x192, .f32⟩
  | 46 => ⟨S_, .i32⟩
  | 47 => ⟨S400000, .i32⟩
  | 48 => ⟨S400000, .i1⟩
  | 49 => ⟨S_, .i32⟩
  | 50 => ⟨S400000, .i32⟩
  | 51 => ⟨S400000, .i32⟩
  | 52 => ⟨S400000, .i32⟩
  | 53 => ⟨S400000x1, .i32⟩
  | 54 => ⟨S400000x192, .f32⟩
  | 55 => ⟨S_, .f32⟩
  | 56 => ⟨S100000x192, .f32⟩
  | 57 => ⟨S400000x1, .i32⟩
  | 58 => ⟨S100000x192, .f32⟩
  | 59 => ⟨S100000x192, .f32⟩
  | 60 => ⟨S100000x192, .f32⟩
  | 61 => ⟨S1x192, .f32⟩
  | 62 => ⟨S192, .f32⟩
  | 63 => ⟨S1x192, .f32⟩
  | 64 => ⟨S192, .f32⟩
  | 65 => ⟨S_, .f32⟩
  | 66 => ⟨S192, .f32⟩
  | 67 => ⟨S_, .f32⟩
  | 68 => ⟨S192, .f32⟩
  | 69 => ⟨S192, .f32⟩
  | 70 => ⟨S_, .i32⟩
  | 71 => ⟨S_, .f32⟩
  | 72 => ⟨S192, .f32⟩
  | 73 => ⟨S1x192, .f32⟩
  | 74 => ⟨S_, .f32⟩
  | 75 => ⟨S1x192, .f32⟩
  | 76 => ⟨S1x192, .f32⟩
  | 77 => ⟨S100000x192, .f32⟩
  | 78 => ⟨S100000x192, .f32⟩
  | 79 => ⟨S100000x192, .f32⟩
  | 80 => ⟨S_, .f32⟩
  | 81 => ⟨S_, .f32⟩
  | 82 => ⟨S_, .f32⟩
  | 83 => ⟨S_, .f32⟩
  | 84 => ⟨S192, .f32⟩
  | 85 => ⟨S192, .f32⟩
  | 86 => ⟨S192, .f32⟩
  | 87 => ⟨S_, .f32⟩
  | 88 => ⟨S_, .i1⟩
  | 89 => ⟨S_, .f32⟩
  | 90 => ⟨S_, .f32⟩
  | 91 => ⟨S192, .f32⟩
  | 92 => ⟨S192, .f32⟩
  | 93 => ⟨S1x192, .f32⟩
  | 94 => ⟨S100000x192, .f32⟩
  | 95 => ⟨S100000x192, .f32⟩
  | 96 => ⟨S_, .f32⟩
  | 97 => ⟨S192, .f32⟩
  | 98 => ⟨S192, .f32⟩
  | 99 => ⟨S192, .f32⟩
  | 100 => ⟨S1x192, .f32⟩
  | 101 => ⟨S100000x192, .f32⟩
  | 102 => ⟨S100000x192, .f32⟩
  | 103 => ⟨S1x192, .f32⟩
  | 104 => ⟨S100000x192, .f32⟩
  | 105 => ⟨S100000x192, .f32⟩
  | 106 => ⟨S1x192, .f32⟩
  | 107 => ⟨S100000x192, .f32⟩
  | 108 => ⟨S100000x192, .f32⟩
  | 109 => ⟨S_, .f32⟩
  | 110 => ⟨S100000x192, .f32⟩
  | 111 => ⟨S100000x192, .f32⟩
  | 112 => ⟨S1x192x192, .f32⟩
  | 113 => ⟨S192x192, .f32⟩
  | 114 => ⟨S1x192, .f32⟩
  | 115 => ⟨S192, .f32⟩
  | 116 => ⟨S1x192x192, .f32⟩
  | 117 => ⟨S192x192, .f32⟩
  | 118 => ⟨S100000x192, .f32⟩
  | 119 => ⟨S1x192, .f32⟩
  | 120 => ⟨S100000x192, .f32⟩
  | 121 => ⟨S100000x192, .f32⟩
  | 122 => ⟨S_, .i32⟩
  | 123 => ⟨S400000, .i32⟩
  | 124 => ⟨S400000, .i1⟩
  | 125 => ⟨S_, .i32⟩
  | 126 => ⟨S400000, .i32⟩
  | 127 => ⟨S400000, .i32⟩
  | _ => ⟨S100000x32, .f32⟩

abbrev hbmTy0_2 (i : Nat) : BufTy := match i % 128 with
  | 0 => ⟨S400000, .i32⟩
  | 1 => ⟨S400000x1, .i32⟩
  | 2 => ⟨S400000x192, .f32⟩
  | 3 => ⟨S_, .f32⟩
  | 4 => ⟨S100000x192, .f32⟩
  | 5 => ⟨S400000x1, .i32⟩
  | 6 => ⟨S100000x192, .f32⟩
  | 7 => ⟨S100000x192, .f32⟩
  | 8 => ⟨S100000x192, .f32⟩
  | 9 => ⟨S1x192, .f32⟩
  | 10 => ⟨S192, .f32⟩
  | 11 => ⟨S1x192, .f32⟩
  | 12 => ⟨S192, .f32⟩
  | 13 => ⟨S_, .f32⟩
  | 14 => ⟨S192, .f32⟩
  | 15 => ⟨S_, .f32⟩
  | 16 => ⟨S192, .f32⟩
  | 17 => ⟨S192, .f32⟩
  | 18 => ⟨S_, .i32⟩
  | 19 => ⟨S_, .f32⟩
  | 20 => ⟨S192, .f32⟩
  | 21 => ⟨S1x192, .f32⟩
  | 22 => ⟨S_, .f32⟩
  | 23 => ⟨S1x192, .f32⟩
  | 24 => ⟨S1x192, .f32⟩
  | 25 => ⟨S100000x192, .f32⟩
  | 26 => ⟨S100000x192, .f32⟩
  | 27 => ⟨S100000x192, .f32⟩
  | 28 => ⟨S_, .f32⟩
  | 29 => ⟨S_, .f32⟩
  | 30 => ⟨S_, .f32⟩
  | 31 => ⟨S_, .f32⟩
  | 32 => ⟨S192, .f32⟩
  | 33 => ⟨S192, .f32⟩
  | 34 => ⟨S192, .f32⟩
  | 35 => ⟨S_, .f32⟩
  | 36 => ⟨S_, .i1⟩
  | 37 => ⟨S_, .f32⟩
  | 38 => ⟨S_, .f32⟩
  | 39 => ⟨S192, .f32⟩
  | 40 => ⟨S192, .f32⟩
  | 41 => ⟨S1x192, .f32⟩
  | 42 => ⟨S100000x192, .f32⟩
  | 43 => ⟨S100000x192, .f32⟩
  | 44 => ⟨S_, .f32⟩
  | 45 => ⟨S192, .f32⟩
  | 46 => ⟨S192, .f32⟩
  | 47 => ⟨S192, .f32⟩
  | 48 => ⟨S1x192, .f32⟩
  | 49 => ⟨S100000x192, .f32⟩
  | 50 => ⟨S100000x192, .f32⟩
  | 51 => ⟨S1x192, .f32⟩
  | 52 => ⟨S100000x192, .f32⟩
  | 53 => ⟨S100000x192, .f32⟩
  | 54 => ⟨S1x192, .f32⟩
  | 55 => ⟨S100000x192, .f32⟩
  | 56 => ⟨S100000x192, .f32⟩
  | 57 => ⟨S_, .f32⟩
  | 58 => ⟨S100000x192, .f32⟩
  | 59 => ⟨S100000x192, .f32⟩
  | 60 => ⟨S_, .f32⟩
  | 61 => ⟨S2000x192, .f32⟩
  | 62 => ⟨S100000x1, .i32⟩
  | 63 => ⟨S2000x192, .f32⟩
  | 64 => ⟨S_, .f32⟩
  | 65 => ⟨S100000, .f32⟩
  | 66 => ⟨S_, .f32⟩
  | 67 => ⟨S2000, .f32⟩
  | 68 => ⟨S100000x1, .i32⟩
  | 69 => ⟨S2000, .f32⟩
  | 70 => ⟨S_, .f32⟩
  | 71 => ⟨S2000, .f32⟩
  | 72 => ⟨S2000, .f32⟩
  | 73 => ⟨S2000x1, .f32⟩
  | 74 => ⟨S2000x192, .f32⟩
  | 75 => ⟨S2000x192, .f32⟩
  | 76 => ⟨S2000x192, .f32⟩
  | 77 => ⟨S1x192, .f32⟩
  | 78 => ⟨S2000x192, .f32⟩
  | 79 => ⟨S2000x192, .f32⟩
  | 80 => ⟨S_, .f32⟩
  | 81 => ⟨S2000x192, .f32⟩
  | 82 => ⟨S2000x192, .f32⟩
  | 83 => ⟨S2000x192, .f32⟩
  | 84 => ⟨S1x192, .f32⟩
  | 85 => ⟨S2000x192, .f32⟩
  | 86 => ⟨S2000x192, .f32⟩
  | 87 => ⟨S2000x1, .f32⟩
  | 88 => ⟨S1x1, .f32⟩
  | 89 => ⟨S2000x1, .f32⟩
  | 90 => ⟨S2000x1, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_1 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_c_3 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_cst_3 : Ref sig .tc := ⟨.hbm, 63, rfl⟩
abbrev main_call0_v12 : Ref sig .tc := ⟨.hbm, 64, rfl⟩
abbrev main_call0_cst_4 : Ref sig .tc := ⟨.hbm, 65, rfl⟩
abbrev main_call0_call0_v0 : Ref sig .tc := ⟨.hbm, 66, rfl⟩
abbrev main_call0_call0_v1 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_cst_4 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_call1_cst : Ref sig .tc := ⟨.hbm, 85, rfl⟩
abbrev main_call1_v0 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_c_5 : Ref sig .tc := ⟨.hbm, 98, rfl⟩
abbrev main_v50 : Ref sig .tc := ⟨.hbm, 99, rfl⟩
abbrev main_v51 : Ref sig .tc := ⟨.hbm, 100, rfl⟩
abbrev main_c_6 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_cst_7 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_cst_8 : Ref sig .tc := ⟨.hbm, 117, rfl⟩
abbrev main_v66 : Ref sig .tc := ⟨.hbm, 118, rfl⟩
abbrev main_cst_9 : Ref sig .tc := ⟨.hbm, 119, rfl⟩
abbrev main_v67 : Ref sig .tc := ⟨.hbm, 120, rfl⟩
abbrev main_v68 : Ref sig .tc := ⟨.hbm, 121, rfl⟩
abbrev main_c_10 : Ref sig .tc := ⟨.hbm, 122, rfl⟩
abbrev main_call2_cst : Ref sig .tc := ⟨.hbm, 123, rfl⟩
abbrev main_call2_v0 : Ref sig .tc := ⟨.hbm, 124, rfl⟩
abbrev main_call2_v1 : Ref sig .tc := ⟨.hbm, 125, rfl⟩
abbrev main_call2_cst_0 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_call2_v5 : Ref sig .tc := ⟨.hbm, 130, rfl⟩
abbrev main_call2_v6 : Ref sig .tc := ⟨.hbm, 131, rfl⟩
abbrev main_call2_v7 : Ref sig .tc := ⟨.hbm, 132, rfl⟩
abbrev main_call2_cst_1 : Ref sig .tc := ⟨.hbm, 133, rfl⟩
abbrev main_call2_v8 : Ref sig .tc := ⟨.hbm, 134, rfl⟩
abbrev main_call2_cst_2 : Ref sig .tc := ⟨.hbm, 135, rfl⟩
abbrev main_call2_v9 : Ref sig .tc := ⟨.hbm, 136, rfl⟩
abbrev main_call2_v10 : Ref sig .tc := ⟨.hbm, 137, rfl⟩
abbrev main_call2_v11 : Ref sig .tc := ⟨.hbm, 138, rfl⟩
abbrev main_call2_cst_3 : Ref sig .tc := ⟨.hbm, 139, rfl⟩
abbrev main_call2_v12 : Ref sig .tc := ⟨.hbm, 140, rfl⟩
abbrev main_call2_cst_4 : Ref sig .tc := ⟨.hbm, 141, rfl⟩
abbrev main_call2_call0_v0 : Ref sig .tc := ⟨.hbm, 142, rfl⟩
abbrev main_call2_call0_v1 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_cst_11 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_call3_cst : Ref sig .tc := ⟨.hbm, 161, rfl⟩
abbrev main_call3_v0 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_c_12 : Ref sig .tc := ⟨.hbm, 174, rfl⟩
abbrev main_v96 : Ref sig .tc := ⟨.hbm, 175, rfl⟩
abbrev main_v97 : Ref sig .tc := ⟨.hbm, 176, rfl⟩
abbrev main_c_13 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_cst_14 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_cst_15 : Ref sig .tc := ⟨.hbm, 193, rfl⟩
abbrev main_v112 : Ref sig .tc := ⟨.hbm, 194, rfl⟩
abbrev main_cst_16 : Ref sig .tc := ⟨.hbm, 195, rfl⟩
abbrev main_v113 : Ref sig .tc := ⟨.hbm, 196, rfl⟩
abbrev main_v114 : Ref sig .tc := ⟨.hbm, 197, rfl⟩
abbrev main_c_17 : Ref sig .tc := ⟨.hbm, 198, rfl⟩
abbrev main_call4_cst : Ref sig .tc := ⟨.hbm, 199, rfl⟩
abbrev main_call4_v0 : Ref sig .tc := ⟨.hbm, 200, rfl⟩
abbrev main_call4_v1 : Ref sig .tc := ⟨.hbm, 201, rfl⟩
abbrev main_call4_cst_0 : Ref sig .tc := ⟨.hbm, 202, rfl⟩
abbrev main_call4_v2 : Ref sig .tc := ⟨.hbm, 203, rfl⟩
abbrev main_call4_v3 : Ref sig .tc := ⟨.hbm, 204, rfl⟩
abbrev main_call4_v4 : Ref sig .tc := ⟨.hbm, 205, rfl⟩
abbrev main_call4_v5 : Ref sig .tc := ⟨.hbm, 206, rfl⟩
abbrev main_call4_v6 : Ref sig .tc := ⟨.hbm, 207, rfl⟩
abbrev main_call4_v7 : Ref sig .tc := ⟨.hbm, 208, rfl⟩
abbrev main_call4_cst_1 : Ref sig .tc := ⟨.hbm, 209, rfl⟩
abbrev main_call4_v8 : Ref sig .tc := ⟨.hbm, 210, rfl⟩
abbrev main_call4_cst_2 : Ref sig .tc := ⟨.hbm, 211, rfl⟩
abbrev main_call4_v9 : Ref sig .tc := ⟨.hbm, 212, rfl⟩
abbrev main_call4_v10 : Ref sig .tc := ⟨.hbm, 213, rfl⟩
abbrev main_call4_v11 : Ref sig .tc := ⟨.hbm, 214, rfl⟩
abbrev main_call4_cst_3 : Ref sig .tc := ⟨.hbm, 215, rfl⟩
abbrev main_call4_v12 : Ref sig .tc := ⟨.hbm, 216, rfl⟩
abbrev main_call4_cst_4 : Ref sig .tc := ⟨.hbm, 217, rfl⟩
abbrev main_call4_call0_v0 : Ref sig .tc := ⟨.hbm, 218, rfl⟩
abbrev main_call4_call0_v1 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_cst_18 : Ref sig .tc := ⟨.hbm, 224, rfl⟩
abbrev main_v119 : Ref sig .tc := ⟨.hbm, 225, rfl⟩
abbrev main_v120 : Ref sig .tc := ⟨.hbm, 226, rfl⟩
abbrev main_v121 : Ref sig .tc := ⟨.hbm, 227, rfl⟩
abbrev main_v122 : Ref sig .tc := ⟨.hbm, 228, rfl⟩
abbrev main_v123 : Ref sig .tc := ⟨.hbm, 229, rfl⟩
abbrev main_v124 : Ref sig .tc := ⟨.hbm, 230, rfl⟩
abbrev main_v125 : Ref sig .tc := ⟨.hbm, 231, rfl⟩
abbrev main_v126 : Ref sig .tc := ⟨.hbm, 232, rfl⟩
abbrev main_v127 : Ref sig .tc := ⟨.hbm, 233, rfl⟩
abbrev main_v128 : Ref sig .tc := ⟨.hbm, 234, rfl⟩
abbrev main_v129 : Ref sig .tc := ⟨.hbm, 235, rfl⟩
abbrev main_v130 : Ref sig .tc := ⟨.hbm, 236, rfl⟩
abbrev main_call5_cst : Ref sig .tc := ⟨.hbm, 237, rfl⟩
abbrev main_call5_v0 : Ref sig .tc := ⟨.hbm, 238, rfl⟩
abbrev main_v131 : Ref sig .tc := ⟨.hbm, 239, rfl⟩
abbrev main_v132 : Ref sig .tc := ⟨.hbm, 240, rfl⟩
abbrev main_v133 : Ref sig .tc := ⟨.hbm, 241, rfl⟩
abbrev main_v134 : Ref sig .tc := ⟨.hbm, 242, rfl⟩
abbrev main_v135 : Ref sig .tc := ⟨.hbm, 243, rfl⟩
abbrev main_v136 : Ref sig .tc := ⟨.hbm, 244, rfl⟩
abbrev main_v137 : Ref sig .tc := ⟨.hbm, 245, rfl⟩
abbrev main_v138 : Ref sig .tc := ⟨.hbm, 246, rfl⟩
abbrev main_v139 : Ref sig .tc := ⟨.hbm, 247, rfl⟩
abbrev main_v140 : Ref sig .tc := ⟨.hbm, 248, rfl⟩
abbrev main_v141 : Ref sig .tc := ⟨.hbm, 249, rfl⟩
abbrev main_c_19 : Ref sig .tc := ⟨.hbm, 250, rfl⟩
abbrev main_v142 : Ref sig .tc := ⟨.hbm, 251, rfl⟩
abbrev main_v143 : Ref sig .tc := ⟨.hbm, 252, rfl⟩
abbrev main_c_20 : Ref sig .tc := ⟨.hbm, 253, rfl⟩
abbrev main_v144 : Ref sig .tc := ⟨.hbm, 254, rfl⟩
abbrev main_v145 : Ref sig .tc := ⟨.hbm, 255, rfl⟩
abbrev main_v146 : Ref sig .tc := ⟨.hbm, 256, rfl⟩
abbrev main_v147 : Ref sig .tc := ⟨.hbm, 257, rfl⟩
abbrev main_v148 : Ref sig .tc := ⟨.hbm, 258, rfl⟩
abbrev main_cst_21 : Ref sig .tc := ⟨.hbm, 259, rfl⟩
abbrev main_v149 : Ref sig .tc := ⟨.hbm, 260, rfl⟩
abbrev main_v150 : Ref sig .tc := ⟨.hbm, 261, rfl⟩
abbrev main_v151 : Ref sig .tc := ⟨.hbm, 262, rfl⟩
abbrev main_v152 : Ref sig .tc := ⟨.hbm, 263, rfl⟩
abbrev main_v153 : Ref sig .tc := ⟨.hbm, 264, rfl⟩
abbrev main_v154 : Ref sig .tc := ⟨.hbm, 265, rfl⟩
abbrev main_v155 : Ref sig .tc := ⟨.hbm, 266, rfl⟩
abbrev main_v156 : Ref sig .tc := ⟨.hbm, 267, rfl⟩
abbrev main_v157 : Ref sig .tc := ⟨.hbm, 268, rfl⟩
abbrev main_cst_22 : Ref sig .tc := ⟨.hbm, 269, rfl⟩
abbrev main_v158 : Ref sig .tc := ⟨.hbm, 270, rfl⟩
abbrev main_cst_23 : Ref sig .tc := ⟨.hbm, 271, rfl⟩
abbrev main_v159 : Ref sig .tc := ⟨.hbm, 272, rfl⟩
abbrev main_v160 : Ref sig .tc := ⟨.hbm, 273, rfl⟩
abbrev main_c_24 : Ref sig .tc := ⟨.hbm, 274, rfl⟩
abbrev main_call6_cst : Ref sig .tc := ⟨.hbm, 275, rfl⟩
abbrev main_call6_v0 : Ref sig .tc := ⟨.hbm, 276, rfl⟩
abbrev main_call6_v1 : Ref sig .tc := ⟨.hbm, 277, rfl⟩
abbrev main_call6_cst_0 : Ref sig .tc := ⟨.hbm, 278, rfl⟩
abbrev main_call6_v2 : Ref sig .tc := ⟨.hbm, 279, rfl⟩
abbrev main_call6_v3 : Ref sig .tc := ⟨.hbm, 280, rfl⟩
abbrev main_call6_v4 : Ref sig .tc := ⟨.hbm, 281, rfl⟩
abbrev main_call6_v5 : Ref sig .tc := ⟨.hbm, 282, rfl⟩
abbrev main_call6_v6 : Ref sig .tc := ⟨.hbm, 283, rfl⟩
abbrev main_call6_v7 : Ref sig .tc := ⟨.hbm, 284, rfl⟩
abbrev main_call6_cst_1 : Ref sig .tc := ⟨.hbm, 285, rfl⟩
abbrev main_call6_v8 : Ref sig .tc := ⟨.hbm, 286, rfl⟩
abbrev main_call6_cst_2 : Ref sig .tc := ⟨.hbm, 287, rfl⟩
abbrev main_call6_v9 : Ref sig .tc := ⟨.hbm, 288, rfl⟩
abbrev main_call6_v10 : Ref sig .tc := ⟨.hbm, 289, rfl⟩
abbrev main_call6_v11 : Ref sig .tc := ⟨.hbm, 290, rfl⟩
abbrev main_call6_cst_3 : Ref sig .tc := ⟨.hbm, 291, rfl⟩
abbrev main_call6_v12 : Ref sig .tc := ⟨.hbm, 292, rfl⟩
abbrev main_call6_cst_4 : Ref sig .tc := ⟨.hbm, 293, rfl⟩
abbrev main_call6_call0_v0 : Ref sig .tc := ⟨.hbm, 294, rfl⟩
abbrev main_call6_call0_v1 : Ref sig .tc := ⟨.hbm, 295, rfl⟩
abbrev main_v161 : Ref sig .tc := ⟨.hbm, 296, rfl⟩
abbrev main_v162 : Ref sig .tc := ⟨.hbm, 297, rfl⟩
abbrev main_v163 : Ref sig .tc := ⟨.hbm, 298, rfl⟩
abbrev main_v164 : Ref sig .tc := ⟨.hbm, 299, rfl⟩
abbrev main_cst_25 : Ref sig .tc := ⟨.hbm, 300, rfl⟩
abbrev main_v165 : Ref sig .tc := ⟨.hbm, 301, rfl⟩
abbrev main_v166 : Ref sig .tc := ⟨.hbm, 302, rfl⟩
abbrev main_v167 : Ref sig .tc := ⟨.hbm, 303, rfl⟩
abbrev main_v168 : Ref sig .tc := ⟨.hbm, 304, rfl⟩
abbrev main_v169 : Ref sig .tc := ⟨.hbm, 305, rfl⟩
abbrev main_v170 : Ref sig .tc := ⟨.hbm, 306, rfl⟩
abbrev main_v171 : Ref sig .tc := ⟨.hbm, 307, rfl⟩
abbrev main_v172 : Ref sig .tc := ⟨.hbm, 308, rfl⟩
abbrev main_v173 : Ref sig .tc := ⟨.hbm, 309, rfl⟩
abbrev main_v174 : Ref sig .tc := ⟨.hbm, 310, rfl⟩
abbrev main_v175 : Ref sig .tc := ⟨.hbm, 311, rfl⟩
abbrev main_v176 : Ref sig .tc := ⟨.hbm, 312, rfl⟩
abbrev main_call7_cst : Ref sig .tc := ⟨.hbm, 313, rfl⟩
abbrev main_call7_v0 : Ref sig .tc := ⟨.hbm, 314, rfl⟩
abbrev main_v177 : Ref sig .tc := ⟨.hbm, 315, rfl⟩
abbrev main_cst_26 : Ref sig .tc := ⟨.hbm, 316, rfl⟩
abbrev main_v178 : Ref sig .tc := ⟨.hbm, 317, rfl⟩
abbrev main_v179 : Ref sig .tc := ⟨.hbm, 318, rfl⟩
abbrev main_v180 : Ref sig .tc := ⟨.hbm, 319, rfl⟩
abbrev main_cst_27 : Ref sig .tc := ⟨.hbm, 320, rfl⟩
abbrev main_v181 : Ref sig .tc := ⟨.hbm, 321, rfl⟩
abbrev main_cst_28 : Ref sig .tc := ⟨.hbm, 322, rfl⟩
abbrev main_v182 : Ref sig .tc := ⟨.hbm, 323, rfl⟩
abbrev main_v183 : Ref sig .tc := ⟨.hbm, 324, rfl⟩
abbrev main_v184 : Ref sig .tc := ⟨.hbm, 325, rfl⟩
abbrev main_cst_29 : Ref sig .tc := ⟨.hbm, 326, rfl⟩
abbrev main_v185 : Ref sig .tc := ⟨.hbm, 327, rfl⟩
abbrev main_v186 : Ref sig .tc := ⟨.hbm, 328, rfl⟩
abbrev main_v187 : Ref sig .tc := ⟨.hbm, 329, rfl⟩
abbrev main_v188 : Ref sig .tc := ⟨.hbm, 330, rfl⟩
abbrev main_v189 : Ref sig .tc := ⟨.hbm, 331, rfl⟩
abbrev main_v190 : Ref sig .tc := ⟨.hbm, 332, rfl⟩
abbrev main_v191 : Ref sig .tc := ⟨.hbm, 333, rfl⟩
abbrev main_v192 : Ref sig .tc := ⟨.hbm, 334, rfl⟩
abbrev main_v193 : Ref sig .tc := ⟨.hbm, 335, rfl⟩
abbrev main_call8_cst : Ref sig .tc := ⟨.hbm, 336, rfl⟩
abbrev main_call8_v0 : Ref sig .tc := ⟨.hbm, 337, rfl⟩
abbrev main_v194 : Ref sig .tc := ⟨.hbm, 338, rfl⟩
abbrev main_v195 : Ref sig .tc := ⟨.hbm, 339, rfl⟩
abbrev main_v196 : Ref sig .tc := ⟨.hbm, 340, rfl⟩
abbrev main_v197 : Ref sig .tc := ⟨.hbm, 341, rfl⟩
abbrev main_v198 : Ref sig .tc := ⟨.hbm, 342, rfl⟩
abbrev main_v199 : Ref sig .tc := ⟨.hbm, 343, rfl⟩
abbrev main_v200 : Ref sig .tc := ⟨.hbm, 344, rfl⟩
abbrev main_v201 : Ref sig .tc := ⟨.hbm, 345, rfl⟩
abbrev main_v202 : Ref sig .tc := ⟨.hbm, 346, rfl⟩

abbrev nD : Nat := 1
abbrev τ : Topo := Topo.v7x

variable {F : FTy → Type} [FloatOps F]

class Facts₀ : Prop where
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S100000x192 : S_.BroadcastsInDim S100000x192 (![] : Fin 0 → Fin S100000x192.rank)
  slices_S4x192_S1x192_0_0 : S4x192.Slices ![0, 0] S1x192
  shapeCasts_S1x192_S192 : S1x192.ShapeCasts S192
  reducesTo_S100000x192_S192_d0 : S100000x192.ReducesTo [0] S192
  h_S_ : 0 < S_.numel
  bcast_S_S192 : S_.BroadcastsInDim S192 (![] : Fin 0 → Fin S192.rank)
  bcast_S_S1x192 : S_.BroadcastsInDim S1x192 (![] : Fin 0 → Fin S1x192.rank)
  slices_S3x192x192_S1x192x192_0_0_0 : S3x192x192.Slices ![0, 0, 0] S1x192x192
  shapeCasts_S1x192x192_S192x192 : S1x192x192.ShapeCasts S192x192
  slices_S3x192_S1x192_0_0 : S3x192.Slices ![0, 0] S1x192
  slices_S4x192_S1x192_1_0 : S4x192.Slices ![1, 0] S1x192
  slices_S3x192x192_S1x192x192_1_0_0 : S3x192x192.Slices ![1, 0, 0] S1x192x192
  slices_S3x192_S1x192_1_0 : S3x192.Slices ![1, 0] S1x192
  slices_S4x192_S1x192_2_0 : S4x192.Slices ![2, 0] S1x192
  slices_S3x192x192_S1x192x192_2_0_0 : S3x192x192.Slices ![2, 0, 0] S1x192x192
  slices_S3x192_S1x192_2_0 : S3x192.Slices ![2, 0] S1x192
  slices_S4x192_S1x192_3_0 : S4x192.Slices ![3, 0] S1x192
  bcast_S_S2000x192 : S_.BroadcastsInDim S2000x192 (![] : Fin 0 → Fin S2000x192.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x192_0_1 : S2000x1.BroadcastsInDim S2000x192 (![0, 1] : Fin 2 → Fin S2000x192.rank)
  bcast_S1x192_S2000x192_0_1 : S1x192.BroadcastsInDim S2000x192 (![0, 1] : Fin 2 → Fin S2000x192.rank)
  bcast_S1_S1x1_1 : S1.BroadcastsInDim S1x1 (![1] : Fin 1 → Fin S1x1.rank)
  bcast_S1x1_S2000x1_0_1 : S1x1.BroadcastsInDim S2000x1 (![0, 1] : Fin 2 → Fin S2000x1.rank)
  dot_S100000x32_S32x192_S100000x192_1_0_0_1_n_n_wf : DotDims.WF S100000x32 S32x192 S100000x192 [1] [0] [0] [1] [] []
  gather_S100000x192_S400000x1_S400000x192_1_0_n_n_0_1_1192_wf : GatherDims.WF S100000x192 S400000x1 S400000x192 [1] [0] [] [0] [] 1 ![1, 192]
  scatter_S100000x192_S400000x1_S400000x192_1_0_0_1_wf : ScatterDims.WF S100000x192 S400000x1 S400000x192 [1] [0] [0] 1
  dot_S100000x192_S192x192_S100000x192_1_0_0_1_n_n_wf : DotDims.WF S100000x192 S192x192 S100000x192 [1] [0] [0] [1] [] []
  scatter_S2000x192_S100000x1_S100000x192_1_0_0_1_wf : ScatterDims.WF S2000x192 S100000x1 S100000x192 [1] [0] [0] 1
  scatter_S2000_S100000x1_S100000_n_0_0_1_wf : ScatterDims.WF S2000 S100000x1 S100000 [] [0] [0] 1
  dot_S2000x192_S192x192_S2000x192_1_0_0_1_n_n_wf : DotDims.WF S2000x192 S192x192 S2000x192 [1] [0] [0] [1] [] []
  dot_S2000x192_S192x1_S2000x1_1_0_0_1_n_n_wf : DotDims.WF S2000x192 S192x1 S2000x1 [1] [0] [0] [1] [] []

variable [Facts₀]

def dot_S100000x32_S32x192_S100000x192_1_0_0_1_n_n : DotDims S100000x32 S32x192 S100000x192 where
  lhsContracting := [1]
  rhsContracting := [0]
  lhsNonContracting := [0]
  rhsNonContracting := [1]
  lhsBatch := []
  rhsBatch := []
  wf := dot_S100000x32_S32x192_S100000x192_1_0_0_1_n_n_wf
def gather_S100000x192_S400000x1_S400000x192_1_0_n_n_0_1_1192 : GatherDims S100000x192 S400000x1 S400000x192 where
  offsetDims := [1]
  collapsedSliceDims := [0]
  operandBatchingDims := []
  startIndicesBatchingDims := []
  startIndexMap := [0]
  indexVectorDim := 1
  sliceSizes := ![1, 192]
  wf := gather_S100000x192_S400000x1_S400000x192_1_0_n_n_0_1_1192_wf
def scatter_S100000x192_S400000x1_S400000x192_1_0_0_1 : ScatterDims S100000x192 S400000x1 S400000x192 where
  updateWindowDims := [1]
  insertedWindowDims := [0]
  scatterDimsToOperandDims := [0]
  indexVectorDim := 1
  wf := scatter_S100000x192_S400000x1_S400000x192_1_0_0_1_wf
def dot_S100000x192_S192x192_S100000x192_1_0_0_1_n_n : DotDims S100000x192 S192x192 S100000x192 where
  lhsContracting := [1]
  rhsContracting := [0]
  lhsNonContracting := [0]
  rhsNonContracting := [1]
  lhsBatch := []
  rhsBatch := []
  wf := dot_S100000x192_S192x192_S100000x192_1_0_0_1_n_n_wf
def scatter_S2000x192_S100000x1_S100000x192_1_0_0_1 : ScatterDims S2000x192 S100000x1 S100000x192 where
  updateWindowDims := [1]
  insertedWindowDims := [0]
  scatterDimsToOperandDims := [0]
  indexVectorDim := 1
  wf := scatter_S2000x192_S100000x1_S100000x192_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def dot_S2000x192_S192x192_S2000x192_1_0_0_1_n_n : DotDims S2000x192 S192x192 S2000x192 where
  lhsContracting := [1]
  rhsContracting := [0]
  lhsNonContracting := [0]
  rhsNonContracting := [1]
  lhsBatch := []
  rhsBatch := []
  wf := dot_S2000x192_S192x192_S2000x192_1_0_0_1_n_n_wf
def dot_S2000x192_S192x1_S2000x1_1_0_0_1_n_n : DotDims S2000x192 S192x1 S2000x1 where
  lhsContracting := [1]
  rhsContracting := [0]
  lhsNonContracting := [0]
  rhsNonContracting := [1]
  lhsBatch := []
  rhsBatch := []
  wf := dot_S2000x192_S192x1_S2000x1_1_0_0_1_n_n_wf

class Facts : Prop extends Facts₀ where

variable [Facts]
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

def cur2 {α : Type} {A B : Nat} (v : (⟨2, ![A, B]⟩ : Shape).Idx → α) : Fin A → Fin B → α := fun i j => v (ix2 i j)

def cur1 {α : Type} {A : Nat} (v : (⟨1, ![A]⟩ : Shape).Idx → α) : Fin A → α := fun i => v (ix1 i)

def rowOf {α : Type} {L B : Nat} (v : (⟨2, ![L, B]⟩ : Shape).Idx → α) (l : Fin L) : Fin B → α := fun j => v (ix2 l j)

def slabOf {α : Type} {L A B : Nat} (v : (⟨3, ![L, A, B]⟩ : Shape).Idx → α) (l : Fin L) : Fin A → Fin B → α :=
  fun i j => v (ix3 l i j)

theorem ext2 {α : Type} {A B : Nat} {v w : (⟨2, ![A, B]⟩ : Shape).Idx → α} (h : cur2 v = cur2 w) : v = w := by
  funext i
  rw [eq_ix2 i]
  exact congrFun (congrFun h (i 0)) (i 1)

theorem ext1 {α : Type} {A : Nat} {v w : (⟨1, ![A]⟩ : Shape).Idx → α} (h : cur1 v = cur1 w) : v = w := by
  funext i
  rw [eq_ix1 i]
  exact congrFun h (i 0)

def cN : EReal := Ideal.ofBits .f32 0x47C35000#32

def cEps : EReal := Ideal.ofBits .f32 0x3727C5AC#32

def normIdx (es : (⟨1, ![400000]⟩ : Shape).Idx → BitVec 32) (e : Fin 400000) : BitVec 32 :=
  Scalar.select (IntOp.cmpi .slt (es (ix1 e)) 0#32) (IntOp.addi (es (ix1 e)) 100000#32) (es (ix1 e))

def InRange (w : BitVec 32) : Prop := 0 ≤ w.toInt ∧ w.toInt ≤ 99999

def srcOf (es : (⟨1, ![400000]⟩ : Shape).Idx → BitVec 32) (e : Fin 400000) : Fin 100000 :=
  ⟨min (normIdx es e).toInt.toNat (100000 - 1), by omega⟩

def dstOf (ed : (⟨1, ![400000]⟩ : Shape).Idx → BitVec 32) (e : Fin 400000) : Int := (ed (ix1 e)).toInt

section Layer
variable {K : Nat}

def lin (x : Fin 100000 → Fin K → EReal) (W : Fin K → Fin 192 → EReal) (b : Fin 192 → EReal) :
    Fin 100000 → Fin 192 → EReal := fun i j => (∑ k, x i k * W k j) + b j

def root (x : Fin 100000 → Fin K → EReal) (W : Fin K → Fin 192 → EReal) : Fin 100000 → Fin 192 → EReal :=
  fun i j => ∑ k, x i k * W k j

def agg (h : Fin 100000 → Fin 192 → EReal) (src : Fin 400000 → Fin 100000) (dst : Fin 400000 → Int) :
    Fin 100000 → Fin 192 → EReal :=
  fun i j => ∑ e ∈ Finset.univ.filter (fun e : Fin 400000 => dst e = (i.val : Int)), h (src e) j

def pre (x : Fin 100000 → Fin K → EReal) (Wrel : Fin K → Fin 192 → EReal) (brel : Fin 192 → EReal)
    (Wroot : Fin K → Fin 192 → EReal) (src : Fin 400000 → Fin 100000) (dst : Fin 400000 → Int) :
    Fin 100000 → Fin 192 → EReal :=
  fun i j => agg (lin x Wrel brel) src dst i j + root x Wroot i j

def colSum (h : Fin 100000 → Fin 192 → EReal) : Fin 192 → EReal := fun j => ∑ i, h i j

def colSumSq (h : Fin 100000 → Fin 192 → EReal) : Fin 192 → EReal := fun j => ∑ i, h i j * h i j

def mean (h : Fin 100000 → Fin 192 → EReal) : Fin 192 → EReal := fun j => Ideal.div (colSum h j) cN

def varK (h : Fin 100000 → Fin 192 → EReal) : Fin 192 → EReal :=
  fun j => Ideal.div (colSumSq h j) cN - mean h j * mean h j

def varR (h : Fin 100000 → Fin 192 → EReal) : Fin 192 → EReal :=
  fun j => Ideal.div (∑ i, (h i j - mean h j) * (h i j - mean h j)) cN

def bn (h : Fin 100000 → Fin 192 → EReal) (μ v γ β : Fin 192 → EReal) : Fin 100000 → Fin 192 → EReal :=
  fun i j => max ((h i j - μ j) * Ideal.rsqrt (v j + cEps) * γ j + β j) 0

def layerK (x : Fin 100000 → Fin K → EReal) (Wrel : Fin K → Fin 192 → EReal) (brel : Fin 192 → EReal)
    (Wroot : Fin K → Fin 192 → EReal) (src : Fin 400000 → Fin 100000) (dst : Fin 400000 → Int)
    (γ β : Fin 192 → EReal) : Fin 100000 → Fin 192 → EReal :=
  bn (pre x Wrel brel Wroot src dst) (mean (pre x Wrel brel Wroot src dst)) (varK (pre x Wrel brel Wroot src dst)) γ β

def layerR (x : Fin 100000 → Fin K → EReal) (Wrel : Fin K → Fin 192 → EReal) (brel : Fin 192 → EReal)
    (Wroot : Fin K → Fin 192 → EReal) (src : Fin 400000 → Fin 100000) (dst : Fin 400000 → Int)
    (γ β : Fin 192 → EReal) : Fin 100000 → Fin 192 → EReal :=
  bn (pre x Wrel brel Wroot src dst) (mean (pre x Wrel brel Wroot src dst)) (varR (pre x Wrel brel Wroot src dst)) γ β

end Layer

def netK (x : Fin 100000 → Fin 32 → EReal) (Wrel0 : Fin 32 → Fin 192 → EReal) (brel0 : Fin 192 → EReal)
    (Wroot0 : Fin 32 → Fin 192 → EReal) (Wrel : Fin 3 → Fin 192 → Fin 192 → EReal) (brel : Fin 3 → Fin 192 → EReal)
    (Wroot : Fin 3 → Fin 192 → Fin 192 → EReal) (γ β : Fin 4 → Fin 192 → EReal)
    (src : Fin 400000 → Fin 100000) (dst : Fin 400000 → Int) : Fin 100000 → Fin 192 → EReal :=
  layerK (layerK (layerK (layerK x Wrel0 brel0 Wroot0 src dst (γ 0) (β 0))
    (Wrel 0) (brel 0) (Wroot 0) src dst (γ 1) (β 1))
    (Wrel 1) (brel 1) (Wroot 1) src dst (γ 2) (β 2))
    (Wrel 2) (brel 2) (Wroot 2) src dst (γ 3) (β 3)

def netR (x : Fin 100000 → Fin 32 → EReal) (Wrel0 : Fin 32 → Fin 192 → EReal) (brel0 : Fin 192 → EReal)
    (Wroot0 : Fin 32 → Fin 192 → EReal) (Wrel : Fin 3 → Fin 192 → Fin 192 → EReal) (brel : Fin 3 → Fin 192 → EReal)
    (Wroot : Fin 3 → Fin 192 → Fin 192 → EReal) (γ β : Fin 4 → Fin 192 → EReal)
    (src : Fin 400000 → Fin 100000) (dst : Fin 400000 → Int) : Fin 100000 → Fin 192 → EReal :=
  layerR (layerR (layerR (layerR x Wrel0 brel0 Wroot0 src dst (γ 0) (β 0))
    (Wrel 0) (brel 0) (Wroot 0) src dst (γ 1) (β 1))
    (Wrel 1) (brel 1) (Wroot 1) src dst (γ 2) (β 2))
    (Wrel 2) (brel 2) (Wroot 2) src dst (γ 3) (β 3)

def Real2 {A B : Nat} (a : Fin A → Fin B → EReal) : Prop := ∃ a' : Fin A → Fin B → ℝ, a = fun i j => ((a' i j : ℝ) : EReal)

def Real1 {A : Nat} (a : Fin A → EReal) : Prop := ∃ a' : Fin A → ℝ, a = fun i => ((a' i : ℝ) : EReal)

end Cert.Spec

end
-- ==== Proof.LibIndexing.lean ====
import Idealize.ShloMosaic.Lib.ValueIdx
import Idealize.ShloMosaic.Lib.ValueIdxRank1

noncomputable section

open scoped BigOperators

namespace Cert.LibIndexing

open Idealize.ShloMosaic Idealize.ShloMosaic.ValueIdx

section Gather
variable {α : Type}

abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N D E wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowGatherDims N D E wf).start (ix2 e j) idx 0 + (rowGatherDims N D E wf).batchCoord (ix2 e j) 0
        + (rowGatherDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e j) ⟨List.idxOf (0 : Fin 2) (rowGatherDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N D E wf).start (ix2 e j) idx 1 + (rowGatherDims N D E wf).batchCoord (ix2 e j) 1
        + (rowGatherDims N D E wf).offCoord (ix2 e j) 1 = _
    rw [GatherDims.batchCoord_eq_zero _ _ _ List.not_mem_nil]
    unfold GatherDims.start
    rw [dif_neg (show (1 : Fin 2) ∉ (rowGatherDims N D E wf).startIndexMap from
      fun h => absurd (congrArg Fin.val (List.mem_singleton.mp h)) Nat.one_ne_zero)]
    simp only [Nat.add_zero, Nat.zero_add]
    rfl

end Gather

section ScatterRows
variable {N D E w : Nat}

abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable (wf : ScatterDims.WF ⟨2, ![N, D]⟩ ⟨2, ![E, 1]⟩ ⟨2, ![E, D]⟩ [1] [0] [0] 1) (idx : IVec ⟨2, ![E, 1]⟩ w)

theorem rowScatter_start0 (e : Fin E) (j : Fin D) :
    (rowScatterDims N D E wf).start (ix2 e j) idx 0 = (idx (ix2 e 0)).toInt := by
  unfold ScatterDims.start
  rw [dif_pos (show (0 : Fin 2) ∈ (rowScatterDims N D E wf).scatterDimsToOperandDims from List.mem_singleton.mpr rfl)]
  have hsi : (rowScatterDims N D E wf).siIdx (ix2 e j)
      ⟨List.idxOf (0 : Fin 2) (rowScatterDims N D E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

theorem rowScatter_start1 (e : Fin E) (j : Fin D) : (rowScatterDims N D E wf).start (ix2 e j) idx 1 = 0 := by
  unfold ScatterDims.start
  rw [dif_neg (show (1 : Fin 2) ∉ (rowScatterDims N D E wf).scatterDimsToOperandDims from
    fun h => absurd (congrArg Fin.val (List.mem_singleton.mp h)) Nat.one_ne_zero)]

theorem rowScatter_sKept : (rowScatterDims N D E wf).sKept = [1] := rfl

theorem rowScatter_window0 (e : Fin E) (j : Fin D) : (rowScatterDims N D E wf).window (ix2 e j) 0 = 0 := by
  unfold ScatterDims.window
  rw [dif_neg (show (0 : Fin 2) ∉ (rowScatterDims N D E wf).sKept from by
    rw [rowScatter_sKept]; exact fun h => absurd (congrArg Fin.val (List.mem_singleton.mp h)) Nat.zero_ne_one)]

theorem rowScatter_window1 (e : Fin E) (j : Fin D) : (rowScatterDims N D E wf).window (ix2 e j) 1 = j.val := by
  unfold ScatterDims.window
  rw [dif_pos (show (1 : Fin 2) ∈ (rowScatterDims N D E wf).sKept from by
    rw [rowScatter_sKept]; exact List.mem_singleton.mpr rfl)]
  rfl

theorem rowScatter_resultIdx?_eq_some (e : Fin E) (j' : Fin D) (n : Fin N) (j : Fin D) :
    (rowScatterDims N D E wf).resultIdx? (ix2 e j') idx = some (ix2 n j)
      ↔ (idx (ix2 e 0)).toInt = (n.val : Int) ∧ j' = j := by
  have hs0 := rowScatter_start0 wf idx e j'
  have hs1 := rowScatter_start1 wf idx e j'
  have hw0 := rowScatter_window0 wf e j'
  have hw1 := rowScatter_window1 wf e j'
  unfold ScatterDims.resultIdx?
  split
  · rename_i h
    rw [Option.some.injEq]
    constructor
    · intro heq
      have h0 : ((rowScatterDims N D E wf).start (ix2 e j') idx 0 + ((rowScatterDims N D E wf).window (ix2 e j') 0 : Nat)).toNat
          = n.val := congrArg (fun i : (⟨2, ![N, D]⟩ : Shape).Idx => (i 0).val) heq
      have h1 : ((rowScatterDims N D E wf).start (ix2 e j') idx 1 + ((rowScatterDims N D E wf).window (ix2 e j') 1 : Nat)).toNat
          = j.val := congrArg (fun i : (⟨2, ![N, D]⟩ : Shape).Idx => (i 1).val) heq
      have hh := (h 0).1
      rw [hs0, hw0] at h0 hh
      rw [hs1, hw1] at h1
      refine ⟨by omega, Fin.ext (by omega)⟩
    · rintro ⟨ht, rfl⟩
      funext a; refine Fin.ext ?_
      match a with
      | ⟨0, _⟩ =>
        show ((rowScatterDims N D E wf).start (ix2 e j') idx 0 + ((rowScatterDims N D E wf).window (ix2 e j') 0 : Nat)).toNat = n.val
        rw [hs0, hw0]; omega
      | ⟨1, _⟩ =>
        show ((rowScatterDims N D E wf).start (ix2 e j') idx 1 + ((rowScatterDims N D E wf).window (ix2 e j') 1 : Nat)).toNat = j'.val
        rw [hs1, hw1]; omega
  · rename_i h
    refine iff_of_false (fun hc => Option.some_ne_none _ hc.symm) ?_
    rintro ⟨ht, rfl⟩
    refine h fun a => ?_
    match a with
    | ⟨0, _⟩ =>
      show 0 ≤ (rowScatterDims N D E wf).start (ix2 e j') idx 0 + ((rowScatterDims N D E wf).window (ix2 e j') 0 : Nat)
        ∧ (rowScatterDims N D E wf).start (ix2 e j') idx 0 + ((rowScatterDims N D E wf).window (ix2 e j') 0 : Nat) < (N : Int)
      rw [hs0, hw0]; have := n.isLt; omega
    | ⟨1, _⟩ =>
      show 0 ≤ (rowScatterDims N D E wf).start (ix2 e j') idx 1 + ((rowScatterDims N D E wf).window (ix2 e j') 1 : Nat)
        ∧ (rowScatterDims N D E wf).start (ix2 e j') idx 1 + ((rowScatterDims N D E wf).window (ix2 e j') 1 : Nat) < (D : Int)
      rw [hs1, hw1]; have := j'.isLt; omega

theorem scatterAdd_rows_apply {φ : FTy} (x : FVec Ideal ⟨2, ![N, D]⟩ φ) (upd : FVec Ideal ⟨2, ![E, D]⟩ φ)
    (n : Fin N) (j : Fin D) :
    Host.scatterAdd (rowScatterDims N D E wf) x idx upd (ix2 n j)
      = x (ix2 n j) + ∑ e ∈ Finset.univ.filter (fun e : Fin E => (idx (ix2 e 0)).toInt = (n.val : Int)), upd (ix2 e j) := by
  show x (ix2 n j) + ∑ i ∈ Finset.univ.filter
      (fun i => (rowScatterDims N D E wf).resultIdx? i idx = some (ix2 n j)), upd i = _
  congr 1
  rw [Finset.sum_filter, sum_idx2, Finset.sum_filter]
  refine Finset.sum_congr rfl fun e _ => ?_
  simp only [rowScatter_resultIdx?_eq_some]
  by_cases ht : (idx (ix2 e 0)).toInt = (n.val : Int)
  · simp only [ht, true_and, if_true]
    rw [Finset.sum_ite_eq' Finset.univ j (fun b => upd (ix2 e b))]
    simp
  · simp only [ht, false_and, if_false, Finset.sum_const_zero]

end ScatterRows

end Cert.LibIndexing

end
-- ==== Proof.KLayerCore.lean ====
import proofs.«401365_j67929202754020_1_alg».proof.Proof.Gen.KernelIdeal.Frame
import proofs.«401365_j67929202754020_1_alg».proof.Proof.Spec
import proofs.«401365_j67929202754020_1_alg».proof.Proof.LibIndexing
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.Lib.Affine
import Idealize.ShloMosaic.PureOps.Reduce
import Idealize.ShloMosaic.PureOps.Ideal.Laws

noncomputable section

namespace Cert.KernelIdeal.KLayerCore

open Cert.KernelIdeal Cert.KernelIdeal.Gen Cert.Spec Cert.LibIndexing
open Idealize.ShloMosaic Idealize.ShloMosaic.TcCoe Idealize.SL.Sem Idealize.ShloMosaic.ValueIdx
open scoped BigOperators

def wrapIdx (es : IVec S400000 32) : IVec S400000 32 :=
  select (cmpi .slt es (broadcastInDim S400000 ![] bcast_S_S400000 (constantI S_ 32 0#32)))
    (addi es (broadcastInDim S400000 ![] bcast_S_S400000 (constantI S_ 32 100000#32))) es

def idxCol (es : IVec S400000 32) : IVec S400000x1 32 :=
  broadcastInDim S400000x1 ![0] bcast_S400000_S400000x1_0 (wrapIdx es)

def inRows (es : IVec S400000 32) : IVec S400000 1 :=
  Host.reduce IntOp.andi
    (andi (cmpi .sge (idxCol es) (broadcastInDim S400000x1 ![] bcast_S_S400000x1 (constantI S_ 32 0#32)))
      (cmpi .sle (idxCol es) (broadcastInDim S400000x1 ![0, 1] bcast_S1x1_S400000x1_0_1
        (broadcastInDim S1x1 ![1] bcast_S1_S1x1_1 (constantI S1 32 99999#32)))))
    (constantI S_ 1 1#1) reducesTo_S400000x1_S400000_d1 h_S_

def takeRows (h : Vec Ideal S100000x192 .f32) (es : IVec S400000 32) : Vec Ideal S400000x192 .f32 :=
  select (broadcastInDim S400000x192 ![0] bcast_S400000_S400000x192_0 (inRows es))
    (Host.gather gather_S100000x192_S400000x1_S400000x192_1_0_n_n_0_1_1192 h (idxCol es))
    (broadcastInDim S400000x192 ![] bcast_S_S400000x192 (constant (F := Ideal) S_ .f32 0x7FC00000#32))

theorem idxCol_apply (es : IVec S400000 32) (i : S400000x1.Idx) : idxCol es i = normIdx es (i 0) := by
  unfold idxCol
  exact (broadcastInDim_apply _ _ _ i (ix1 (i 0)) (fun a => match a with | ⟨0, _⟩ => rfl)).trans rfl

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l (fun n hn => h n (List.mem_cons_of_mem _ hn))

theorem inRows_apply (es : IVec S400000 32) (hsrc : ∀ e, InRange (normIdx es e)) (j : S400000.Idx) : inRows es j = 1#1 := by
  unfold inRows
  rw [Host.reduce_eq_foldl]
  refine foldl_andi_one _ _ (fun i _ => ?_)
  show IntOp.andi (IntOp.cmpi .sge (idxCol es i) 0#32) (IntOp.cmpi .sle (idxCol es i) 99999#32) = 1#1
  rw [idxCol_apply]
  refine IntOp.andi_eq_one.mpr ⟨IntOp.cmpi_sge.mpr ?_, IntOp.cmpi_sle.mpr ?_⟩
  · rw [show (0#32 : BitVec 32).toInt = 0 from by decide]; exact (hsrc (i 0)).1
  · rw [show (99999#32 : BitVec 32).toInt = 99999 from by decide]; exact (hsrc (i 0)).2

theorem takeRows_apply (h : Vec Ideal S100000x192 .f32) (es : IVec S400000 32) (hsrc : ∀ e, InRange (normIdx es e))
    (e : Fin 400000) (j : Fin 192) : takeRows h es (ix2 e j) = h (ix2 (srcOf es e) j) := by
  unfold takeRows
  rw [select_apply]
  have hc : broadcastInDim S400000x192 ![0] bcast_S400000_S400000x192_0 (inRows es) (ix2 e j) = 1#1 := by
    refine (broadcastInDim_apply _ _ _ (ix2 e j) (ix1 e) (fun a => match a with | ⟨0, _⟩ => rfl)).trans (inRows_apply es hsrc _)
  rw [hc, select_one]
  show Host.gather (rowGatherDims 100000 192 400000 gather_S100000x192_S400000x1_S400000x192_1_0_n_n_0_1_1192_wf) h (idxCol es) (ix2 e j) = _
  refine (gather_rows_apply (by decide) _ h (idxCol es) e j).trans ?_
  refine congrArg (fun r => h (ix2 r j)) (Fin.ext ?_)
  show min (idxCol es (ix2 e 0)).toInt.toNat (100000 - 1) = (srcOf es e).val
  rw [idxCol_apply]
  rfl

def aggRows (ed : IVec S400000 32) (u : Vec Ideal S400000x192 .f32) : Vec Ideal S100000x192 .f32 :=
  Host.scatterAdd scatter_S100000x192_S400000x1_S400000x192_1_0_0_1
    (broadcastInDim S100000x192 ![] bcast_S_S100000x192 (constant (F := Ideal) S_ .f32 0x00000000#32))
    (broadcastInDim S400000x1 ![0] bcast_S400000_S400000x1_0 ed) u

theorem col_apply (ed : IVec S400000 32) (e : Fin 400000) :
    broadcastInDim S400000x1 ![0] bcast_S400000_S400000x1_0 ed (ix2 e 0) = ed (ix1 e) := by
  exact broadcastInDim_apply _ _ _ (ix2 e 0) (ix1 e) (fun a => match a with | ⟨0, _⟩ => rfl)

theorem zeros_apply (k : S100000x192.Idx) :
    (broadcastInDim S100000x192 ![] bcast_S_S100000x192 (constant (F := Ideal) S_ .f32 0x00000000#32) : Vec Ideal S100000x192 .f32) k
      = (0 : EReal) :=
  Ideal.ofBits_zero_f32

theorem aggRows_apply (ed : IVec S400000 32) (u : Vec Ideal S400000x192 .f32) (i : Fin 100000) (j : Fin 192) :
    aggRows ed u (ix2 i j) = ∑ e ∈ Finset.univ.filter (fun e : Fin 400000 => dstOf ed e = (i.val : Int)), u (ix2 e j) := by
  show Host.scatterAdd (rowScatterDims 100000 192 400000 scatter_S100000x192_S400000x1_S400000x192_1_0_0_1_wf)
    (broadcastInDim S100000x192 ![] bcast_S_S100000x192 (constant (F := Ideal) S_ .f32 0x00000000#32))
    (broadcastInDim S400000x1 ![0] bcast_S400000_S400000x1_0 ed) u (ix2 i j) = _
  rw [scatterAdd_rows_apply]
  refine (congrArg (· + _) (zeros_apply (ix2 i j))).trans ((zero_add _).trans ?_)
  refine Finset.sum_congr (Finset.filter_congr fun e _ => ?_) (fun _ _ => rfl)
  rw [col_apply]
  exact Iff.rfl

theorem agg_of (L : Vec Ideal S100000x192 .f32) (es ed : IVec S400000 32) (hsrc : ∀ e, InRange (normIdx es e)) :
    cur2 (aggRows ed (takeRows L es)) = agg (cur2 L) (srcOf es) (dstOf ed) := by
  funext i j
  show aggRows ed (takeRows L es) (ix2 i j) = _
  rw [aggRows_apply]
  exact Finset.sum_congr rfl (fun e _ => takeRows_apply L es hsrc e j)
section Slices
variable {α : Type}

/-- Slab `l` of a stack, cut out at offset `o = l` and its unit axis dropped, read by coordinates. -/
theorem slab_apply {L A B : ℕ} (o : ℕ) (X : (⟨3, ![L, A, B]⟩ : Shape).Idx → α)
    (h : (⟨3, ![L, A, B]⟩ : Shape).Slices ![o, 0, 0] ⟨3, ![1, A, B]⟩)
    (hc : (⟨3, ![1, A, B]⟩ : Shape).ShapeCasts ⟨2, ![A, B]⟩) (l : Fin L) (hl : l.val = o) (i : Fin A) (j : Fin B) :
    shapeCast ⟨2, ![A, B]⟩ (extractStridedSlice ⟨3, ![1, A, B]⟩ ![o, 0, 0] X h) hc (ix2 i j) = slabOf X l i j :=
  (shapeCast_1ab_ab_apply _ _ i j).trans (extractStridedSlice_apply _ _ _ _ (ix3 l i j) (fun a => match a with
    | ⟨0, _⟩ => hl
    | ⟨1, _⟩ => (Nat.zero_add _).symm
    | ⟨2, _⟩ => (Nat.zero_add _).symm))

/-- Row `l` of a table, cut out at offset `o = l` and its unit axis dropped, read by its coordinate. -/
theorem row_apply {L B : ℕ} (o : ℕ) (X : (⟨2, ![L, B]⟩ : Shape).Idx → α)
    (h : (⟨2, ![L, B]⟩ : Shape).Slices ![o, 0] ⟨2, ![1, B]⟩)
    (hc : (⟨2, ![1, B]⟩ : Shape).ShapeCasts ⟨1, ![B]⟩) (l : Fin L) (hl : l.val = o) (j : Fin B) :
    shapeCast ⟨1, ![B]⟩ (extractStridedSlice ⟨2, ![1, B]⟩ ![o, 0] X h) hc (ix1 j) = rowOf X l j :=
  (shapeCast_1a_a_apply _ _ j).trans (slice2_axis0_apply o X h 0 j l hl)

end Slices

/-- Every operation of the stretch writes a reference of the list. -/
def WritesSub (ops : List (HloOp τ sig (Elt Ideal))) (W : List (Ref sig .tc)) : Prop :=
  ops.Forall fun op => op.writes ⊆ (W.map (Proc.devRef (τ := τ) .tc)).toFinset

/-- A reference outside the list keeps its contents through the stretch. -/
theorem WritesSub.kept {ops : List (HloOp τ sig (Elt Ideal))} {W : List (Ref sig .tc)} (h : WritesSub ops W)
    {U : Valuation τ sig (Elt Ideal)} {r : Ref sig .tc} (hr : r ∉ W) :
    StableHlo.after ops U (Proc.devRef .tc r) = U (Proc.devRef .tc r) :=
  StableHlo.after_of_writes_sub ops U h hr

local macro "writes_sub " ops:ident : tactic => `(tactic| (
  simp only [WritesSub, $ops:ident, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)))

abbrev hostOps0_W : List (Ref sig .tc) :=
  [main_v0, main_v1, main_v2, main_v3, main_v4]
theorem hostOps0_writes : WritesSub hostOps0 hostOps0_W := by
  writes_sub hostOps0
abbrev hostOps1_W : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_v14,
   main_call0_cst, main_call0_v15, main_v6]
theorem hostOps1_writes : WritesSub hostOps1 hostOps1_W := by
  writes_sub hostOps1
abbrev hostOps1_1_W : List (Ref sig .tc) :=
  [main_cst, main_v7, main_v8, main_v9]
theorem hostOps1_1_writes : WritesSub hostOps1_1 hostOps1_1_W := by
  writes_sub hostOps1_1
abbrev hostOps2_W : List (Ref sig .tc) :=
  [main_cst_0, main_v11, main_v12, main_cst_1, main_v13, main_v14, main_v15, main_v16, main_v17, main_v18]
theorem hostOps2_writes : WritesSub hostOps2 hostOps2_W := by
  writes_sub hostOps2
abbrev hostOps3_W : List (Ref sig .tc) :=
  [main_v20, main_v21, main_v22, main_v23, main_v24, main_v25, main_v26, main_v27, main_v28, main_v29, main_v30]
theorem hostOps3_writes : WritesSub hostOps3 hostOps3_W := by
  writes_sub hostOps3
abbrev hostOps4_W : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14,
   main_call1_cst, main_call1_v15, main_v32]
theorem hostOps4_writes : WritesSub hostOps4 hostOps4_W := by
  writes_sub hostOps4
abbrev hostOps4_1_W : List (Ref sig .tc) :=
  [main_cst_2, main_v33, main_v34, main_v35]
theorem hostOps4_1_writes : WritesSub hostOps4_1 hostOps4_1_W := by
  writes_sub hostOps4_1
abbrev hostOps5_W : List (Ref sig .tc) :=
  [main_cst_3, main_v37, main_v38, main_cst_4, main_v39, main_v40, main_v41, main_v42, main_v43, main_v44]
theorem hostOps5_writes : WritesSub hostOps5 hostOps5_W := by
  writes_sub hostOps5
abbrev hostOps6_W : List (Ref sig .tc) :=
  [main_v46, main_v47, main_v48, main_v49, main_v50, main_v51, main_v52, main_v53, main_v54, main_v55, main_v56]
theorem hostOps6_writes : WritesSub hostOps6 hostOps6_W := by
  writes_sub hostOps6
abbrev hostOps7_W : List (Ref sig .tc) :=
  [main_call2_c, main_call2_v0, main_call2_v1, main_call2_c_0, main_call2_v2, main_call2_v3, main_call2_v4,
   main_call2_v5, main_call2_c_1, main_call2_c_2, main_call2_v6, main_call2_v7, main_call2_v8, main_call2_v9,
   main_call2_v10, main_call2_v11, main_call2_c_3, main_call2_v12, main_call2_v13, main_call2_v14,
   main_call2_cst, main_call2_v15, main_v58]
theorem hostOps7_writes : WritesSub hostOps7 hostOps7_W := by
  writes_sub hostOps7
abbrev hostOps7_1_W : List (Ref sig .tc) :=
  [main_cst_5, main_v59, main_v60, main_v61]
theorem hostOps7_1_writes : WritesSub hostOps7_1 hostOps7_1_W := by
  writes_sub hostOps7_1
abbrev hostOps8_W : List (Ref sig .tc) :=
  [main_cst_6, main_v63, main_v64, main_cst_7, main_v65, main_v66, main_v67, main_v68, main_v69, main_v70]
theorem hostOps8_writes : WritesSub hostOps8 hostOps8_W := by
  writes_sub hostOps8
abbrev hostOps9_W : List (Ref sig .tc) :=
  [main_v72, main_v73, main_v74, main_v75, main_v76, main_v77, main_v78, main_v79, main_v80, main_v81, main_v82]
theorem hostOps9_writes : WritesSub hostOps9 hostOps9_W := by
  writes_sub hostOps9
abbrev hostOps10_W : List (Ref sig .tc) :=
  [main_call3_c, main_call3_v0, main_call3_v1, main_call3_c_0, main_call3_v2, main_call3_v3, main_call3_v4,
   main_call3_v5, main_call3_c_1, main_call3_c_2, main_call3_v6, main_call3_v7, main_call3_v8, main_call3_v9,
   main_call3_v10, main_call3_v11, main_call3_c_3, main_call3_v12, main_call3_v13, main_call3_v14,
   main_call3_cst, main_call3_v15, main_v84]
theorem hostOps10_writes : WritesSub hostOps10 hostOps10_W := by
  writes_sub hostOps10
abbrev hostOps10_1_W : List (Ref sig .tc) :=
  [main_cst_8, main_v85, main_v86, main_v87]
theorem hostOps10_1_writes : WritesSub hostOps10_1 hostOps10_1_W := by
  writes_sub hostOps10_1
abbrev hostOps11_W : List (Ref sig .tc) :=
  [main_cst_9, main_v89, main_v90, main_cst_10, main_v91, main_v92, main_v93, main_v94, main_v95, main_v96]
theorem hostOps11_writes : WritesSub hostOps11 hostOps11_W := by
  writes_sub hostOps11

/-- The argument arrays every layer reads. -/
abbrev argRefs : List (Ref sig .tc) := [main_arg1, main_arg2, main_arg7, main_arg8, main_arg9, main_arg10, main_arg11]

section Launched
variable (m : (ℓ : Loc nD τ sig) → Buf (Elt Ideal) ℓ) (ρ : Dev nD → PrngReg) (c : Dev nD)

/-- The argument arrays hold, in `U`, what they held at launch. -/
def Launched (U : Valuation τ sig (Elt Ideal)) : Prop :=
  ∀ r ∈ argRefs, U (Proc.devRef .tc r) = m ((c.tc : Thread nD τ).loc r)

variable {m c}

/-- A stretch of operations that writes no argument array keeps them as launched. -/
theorem Launched.after {ops : List (HloOp τ sig (Elt Ideal))} {W : List (Ref sig .tc)} {U : Valuation τ sig (Elt Ideal)}
    (h : Launched m c U) (hW : WritesSub ops W)
    (hd : ∀ r ∈ argRefs, r ∉ W) : Launched m c (StableHlo.after ops U) :=
  fun r hr => (hW.kept (hd r hr)).trans (h r hr)

variable (m c)

theorem launched0 : Launched m c (W0 m ρ c) := fun _ _ => rfl
theorem launched1 : Launched m c (W1 m ρ c) := (launched0 m ρ c).after hostOps0_writes (by decide)
theorem launched2 : Launched m c (W2 m ρ c) := fun r hr =>
  (W2_of_ne m ρ c r ((by decide : ∀ r ∈ argRefs, ∀ w, Pipeline.arrRef spec0 w ≠ r) r hr)).trans (launched1 m ρ c r hr)
theorem launched3 : Launched m c (W3 m ρ c) := (launched2 m ρ c).after hostOps1_writes (by decide)
theorem launched4 : Launched m c (W4 m ρ c) := (launched3 m ρ c).after hostOps1_1_writes (by decide)
theorem launched5 : Launched m c (W5 m ρ c) := fun r hr =>
  (W5_of_ne m ρ c r ((by decide : ∀ r ∈ argRefs, ∀ w, Pipeline.arrRef spec1 w ≠ r) r hr)).trans (launched4 m ρ c r hr)
theorem launched6 : Launched m c (W6 m ρ c) := (launched5 m ρ c).after hostOps2_writes (by decide)
theorem launched7 : Launched m c (W7 m ρ c) := fun r hr =>
  (W7_of_ne m ρ c r ((by decide : ∀ r ∈ argRefs, ∀ w, Pipeline.arrRef spec2 w ≠ r) r hr)).trans (launched6 m ρ c r hr)
theorem launched8 : Launched m c (W8 m ρ c) := (launched7 m ρ c).after hostOps3_writes (by decide)
theorem launched9 : Launched m c (W9 m ρ c) := fun r hr =>
  (W9_of_ne m ρ c r ((by decide : ∀ r ∈ argRefs, ∀ w, Pipeline.arrRef spec3 w ≠ r) r hr)).trans (launched8 m ρ c r hr)
theorem launched10 : Launched m c (W10 m ρ c) := (launched9 m ρ c).after hostOps4_writes (by decide)
theorem launched11 : Launched m c (W11 m ρ c) := (launched10 m ρ c).after hostOps4_1_writes (by decide)
theorem launched12 : Launched m c (W12 m ρ c) := fun r hr =>
  (W12_of_ne m ρ c r ((by decide : ∀ r ∈ argRefs, ∀ w, Pipeline.arrRef spec4 w ≠ r) r hr)).trans (launched11 m ρ c r hr)
theorem launched13 : Launched m c (W13 m ρ c) := (launched12 m ρ c).after hostOps5_writes (by decide)
theorem launched14 : Launched m c (W14 m ρ c) := fun r hr =>
  (W14_of_ne m ρ c r ((by decide : ∀ r ∈ argRefs, ∀ w, Pipeline.arrRef spec5 w ≠ r) r hr)).trans (launched13 m ρ c r hr)
theorem launched15 : Launched m c (W15 m ρ c) := (launched14 m ρ c).after hostOps6_writes (by decide)
theorem launched16 : Launched m c (W16 m ρ c) := fun r hr =>
  (W16_of_ne m ρ c r ((by decide : ∀ r ∈ argRefs, ∀ w, Pipeline.arrRef spec6 w ≠ r) r hr)).trans (launched15 m ρ c r hr)
theorem launched17 : Launched m c (W17 m ρ c) := (launched16 m ρ c).after hostOps7_writes (by decide)
theorem launched18 : Launched m c (W18 m ρ c) := (launched17 m ρ c).after hostOps7_1_writes (by decide)
theorem launched19 : Launched m c (W19 m ρ c) := fun r hr =>
  (W19_of_ne m ρ c r ((by decide : ∀ r ∈ argRefs, ∀ w, Pipeline.arrRef spec7 w ≠ r) r hr)).trans (launched18 m ρ c r hr)
theorem launched20 : Launched m c (W20 m ρ c) := (launched19 m ρ c).after hostOps8_writes (by decide)
theorem launched21 : Launched m c (W21 m ρ c) := fun r hr =>
  (W21_of_ne m ρ c r ((by decide : ∀ r ∈ argRefs, ∀ w, Pipeline.arrRef spec8 w ≠ r) r hr)).trans (launched20 m ρ c r hr)
theorem launched22 : Launched m c (W22 m ρ c) := (launched21 m ρ c).after hostOps9_writes (by decide)
theorem launched23 : Launched m c (W23 m ρ c) := fun r hr =>
  (W23_of_ne m ρ c r ((by decide : ∀ r ∈ argRefs, ∀ w, Pipeline.arrRef spec9 w ≠ r) r hr)).trans (launched22 m ρ c r hr)
theorem launched24 : Launched m c (W24 m ρ c) := (launched23 m ρ c).after hostOps10_writes (by decide)

end Launched

/-- One layer from its parts: the three regions' results and the host's gather, scatter-add and moments between them. -/
theorem layerK_of_parts {K : ℕ} {x : Fin 100000 → Fin K → EReal} {Wr Wo : Fin K → Fin 192 → EReal} {br γ β : Fin 192 → EReal}
    {es ed : IVec S400000 32} {L R A P O : Vec Ideal S100000x192 .f32} {s q μ v g b : Vec Ideal S1x192 .f32}
    (hsrc : ∀ e, InRange (normIdx es e)) (hL : cur2 L = lin x Wr br) (hR : cur2 R = root x Wo)
    (hA : A = aggRows ed (takeRows L es))
    (hP : cur2 P = fun i j => cur2 A i j + cur2 R i j)
    (hs : rowOf s 0 = colSum (fun i j => cur2 A i j + cur2 R i j))
    (hq : rowOf q 0 = colSumSq (fun i j => cur2 A i j + cur2 R i j))
    (hμ : rowOf μ 0 = fun j => Ideal.div (rowOf s 0 j) cN)
    (hv : rowOf v 0 = fun j => Ideal.div (rowOf q 0 j) cN - Ideal.div (rowOf s 0 j) cN * Ideal.div (rowOf s 0 j) cN)
    (hg : rowOf g 0 = γ) (hb : rowOf b 0 = β)
    (hO : cur2 O = bn (cur2 P) (rowOf μ 0) (rowOf v 0) (rowOf g 0) (rowOf b 0)) :
    cur2 O = layerK x Wr br Wo (srcOf es) (dstOf ed) γ β := by
  subst hA
  have hpre : (fun i j => cur2 (aggRows ed (takeRows L es)) i j + cur2 R i j) = pre x Wr br Wo (srcOf es) (dstOf ed) := by
    rw [agg_of _ _ _ hsrc, hL, hR]; rfl
  rw [hpre] at hP hs hq
  rw [hO, hP, hμ, hv, hs, hq, hg, hb]
  rfl

end Cert.KernelIdeal.KLayerCore

end
-- ==== Proof.KLin.lean ====
import proofs.«401365_j67929202754020_1_alg».proof.Proof.Gen.KernelIdeal.Frame
import proofs.«401365_j67929202754020_1_alg».proof.Proof.Spec
import Idealize.ShloMosaic.Lib.ValueIdx
import Idealize.ShloMosaic.Lib.Pipeline.Value
import Idealize.ShloMosaic.PureOps.Ideal.Laws

noncomputable section

namespace Cert.KernelIdeal.KLin

open Cert.KernelIdeal Cert.KernelIdeal.Gen Cert.Spec Idealize.ShloMosaic Idealize.ShloMosaic.TcCoe Idealize.SL.Sem
open Idealize.ShloMosaic.ValueIdx
open scoped BigOperators

theorem hz : (![0, 0] : Fin 2 → Nat) = fun _ => 0 := funext fun a => by fin_cases a <;> rfl

/-- An entry of a product into the zero accumulator is the sum over the contracted coordinate. -/
theorem matmul_at {m k n : Nat} (x : FVec Ideal ⟨2, ![m, k]⟩ .f32) (w : FVec Ideal ⟨2, ![k, n]⟩ .f32) (p : Fin m) (q : Fin n) :
    matmul (DotDims.plain m k n) none x w (constant ⟨2, ![m, n]⟩ .f32 0x00000000#32) (ix2 p q)
      = ∑ i : Fin k, x (ix2 p i) * w (ix2 i q) := by
  refine (Ideal.matmul_constant_zero_apply (DotDims.plain m k n) none x w (ix2 p q)).trans ?_
  rw [← Equiv.sum_comp (contrEquiv1 (DotDims.plain m k n) k rfl rfl).symm]
  refine Finset.sum_congr rfl fun i _ => ?_
  have ck := contrEquiv1_symm_val (DotDims.plain m k n) k rfl rfl i
  have l : (DotDims.plain m k n).lhsIdx (ix2 p q) ((contrEquiv1 (DotDims.plain m k n) k rfl rfl).symm i) = ix2 p i := by
    funext a; apply Fin.ext
    match a with
    | ⟨0, _⟩ => rfl
    | ⟨1, _⟩ => exact ((DotDims.plain m k n).lhsIdx_val_of_single rfl _ _).trans ck
  have r : (DotDims.plain m k n).rhsIdx (ix2 p q) ((contrEquiv1 (DotDims.plain m k n) k rfl rfl).symm i) = ix2 i q := by
    funext a; apply Fin.ext
    match a with
    | ⟨0, _⟩ => exact ((DotDims.plain m k n).rhsIdx_val_of_single rfl _ _).trans ck
    | ⟨1, _⟩ => rfl
  rw [l, r]

/-- A row broadcast down a block reads, at any row, the row's entry in the same column. -/
theorem bcastRow_apply {α : Type} (x : S1x192.Idx → α) (j : S5000x192.Idx) :
    broadcastTo S5000x192 x broadcasts_S1x192_S5000x192 j = x (ix2 0 (j 1)) := by
  refine broadcastTo_apply x broadcasts_S1x192_S5000x192 j (ix2 0 (j 1)) fun a => ?_
  match a with
  | ⟨0, _⟩ => rfl
  | ⟨1, _⟩ => rfl

/-- If the block's rows are the array's rows, the block's product entry is the root transform's entry in the same column. -/
theorem root_blk {K : Nat} (xb : FVec Ideal ⟨2, ![5000, K]⟩ .f32) (wb : FVec Ideal ⟨2, ![K, 192]⟩ .f32)
    (x : Vec Ideal ⟨2, ![100000, K]⟩ .f32) (w : Vec Ideal ⟨2, ![K, 192]⟩ .f32) (j : S5000x192.Idx) (i : S100000x192.Idx)
    (hx : ∀ k : Fin K, xb (ix2 (j 0) k) = x (ix2 (i 0) k)) (hw : wb = w) (hc : i 1 = j 1) :
    matmul (DotDims.plain 5000 K 192) none xb wb (constant S5000x192 .f32 0x00000000#32) j
      = root (cur2 x) (cur2 w) (i 0) (i 1) := by
  rw [hw, eq_ix2 j, hc]
  refine (matmul_at xb w (j 0) (j 1)).trans ?_
  unfold root cur2
  exact Finset.sum_congr rfl fun k _ => by rw [hx k]

/-- The same with the bias row added: the message transform. -/
theorem lin_blk {K : Nat} (xb : FVec Ideal ⟨2, ![5000, K]⟩ .f32) (wb : FVec Ideal ⟨2, ![K, 192]⟩ .f32) (bb : FVec Ideal S1x192 .f32)
    (x : Vec Ideal ⟨2, ![100000, K]⟩ .f32) (w : Vec Ideal ⟨2, ![K, 192]⟩ .f32) (b : Vec Ideal S1x192 .f32)
    (j : S5000x192.Idx) (i : S100000x192.Idx)
    (hx : ∀ k : Fin K, xb (ix2 (j 0) k) = x (ix2 (i 0) k)) (hw : wb = w) (hb : bb = b) (hc : i 1 = j 1) :
    addf (matmul (DotDims.plain 5000 K 192) none xb wb (constant S5000x192 .f32 0x00000000#32))
        (broadcastTo S5000x192 bb broadcasts_S1x192_S5000x192) j
      = lin (cur2 x) (cur2 w) (rowOf b 0) (i 0) (i 1) := by
  rw [hb]
  refine (addf_apply _ _ j).trans ?_
  rw [root_blk xb wb x w j i hx hw hc, bcastRow_apply, hc]
  rfl

/-- The rectangle at offset zero with the array's own extents is the whole array. -/
theorem whole_read {s : Shape} {α : Type} (f : s.Idx → α) (idx : Fin s.rank → Nat) (inb) (h : ∀ a, idx a = 0) :
    (fun y => f ((Rect.unit (s := s) (fun a => idx a * s.size a) s.size inb).emb y)) = f := by
  funext y
  refine congrArg f (funext fun a => Fin.ext ?_)
  rw [Rect.emb_apply]
  show idx a * s.size a + 1 * (y a).val = (y a).val
  rw [h a]; omega

/-- The message and the root transform of arrays, as arrays. -/
def linArr {K : Nat} (x : Vec Ideal ⟨2, ![100000, K]⟩ .f32) (w : Vec Ideal ⟨2, ![K, 192]⟩ .f32) (b : Vec Ideal S1x192 .f32) :
    Vec Ideal S100000x192 .f32 := fun i => lin (cur2 x) (cur2 w) (rowOf b 0) (i 0) (i 1)

def rootArr {K : Nat} (x : Vec Ideal ⟨2, ![100000, K]⟩ .f32) (w : Vec Ideal ⟨2, ![K, 192]⟩ .f32) :
    Vec Ideal S100000x192 .f32 := fun i => root (cur2 x) (cur2 w) (i 0) (i 1)

/-- Row `p` of the rectangle of 5000 rows at row offset `5000 * io 0` is row `5000 * io 0 + p` of the array. -/
theorem rowblock_emb {K : Nat} (ix io : Fin 2 → Nat) (inbx) (inbo) (e0 : ix 0 = io 0) (e1 : ix 1 = 0)
    (j : S5000x192.Idx) (k : Fin K) :
    (Rect.unit (s := ⟨2, ![100000, K]⟩) (fun a => ix a * (![5000, K] : Fin 2 → Nat) a) ![5000, K] inbx).emb (ix2 (j 0) k)
      = ix2 ((Rect.unit (s := S100000x192) (fun a => io a * S5000x192.size a) S5000x192.size inbo).emb j 0) k := by
  refine Shape.idx_ext₂ ?_ ?_
  · show ix 0 * 5000 + 1 * (j 0).val = io 0 * 5000 + 1 * (j 0).val
    rw [e0]
  · show ix 1 * K + 1 * k.val = k.val
    rw [e1]; omega

/-- A rectangle of whole rows keeps the column. -/
theorem rowblock_col (io : Fin 2 → Nat) (inbo) (o1 : io 1 = 0) (j : S5000x192.Idx) :
    (Rect.unit (s := S100000x192) (fun a => io a * S5000x192.size a) S5000x192.size inbo).emb j 1 = j 1 := by
  refine Fin.ext ?_
  show io 1 * 192 + 1 * (j 1).val = (j 1).val
  rw [o1]; omega

/-- Row `r` of 100000 lies in the `r / 5000`-th group of 5000 rows, and there are twenty groups. -/
theorem row_point {N : Nat} (hN : N = 20) (i : S100000x192.Idx) : ∃ t : Fin N, t.val = (i 0).val / 5000 := by
  have h0 : (i 0).val < 100000 := (i 0).isLt
  exact ⟨⟨(i 0).val / 5000, by omega⟩, rfl⟩

/-- An index lies in the rectangle of 5000 rows its row falls in. -/
theorem mem_rowblock (i : S100000x192.Idx) (idx : Fin 2 → Nat) (inb) (h0 : idx 0 = (i 0).val / 5000) (h1 : idx 1 = 0) :
    i ∈ (Rect.unit (s := S100000x192) (fun a => idx a * S5000x192.size a) S5000x192.size inb).set := by
  have b0 : (i 0).val < 100000 := (i 0).isLt
  have b1 : (i 1).val < 192 := (i 1).isLt
  rw [Rect.mem_set_unit]
  intro a
  match a with
  | ⟨0, _⟩ =>
    show idx 0 * 5000 ≤ (i 0).val ∧ (i 0).val < idx 0 * 5000 + 5000
    rw [h0]; omega
  | ⟨1, _⟩ =>
    show idx 1 * 192 ≤ (i 1).val ∧ (i 1).val < idx 1 * 192 + 192
    rw [h1]; omega

end Cert.KernelIdeal.KLin

end
-- ==== Proof.KReg0.lean ====
import proofs.«401365_j67929202754020_1_alg».proof.Proof.KLin

set_option maxRecDepth 16384

noncomputable section

namespace Cert.KernelIdeal.KReg0

open Cert.KernelIdeal Cert.KernelIdeal.Gen Cert.Spec Idealize.ShloMosaic Idealize.ShloMosaic.TcCoe Idealize.SL.Sem
open Idealize.ShloMosaic.ValueIdx KLin

section Arrays
variable (V : (c : Dev nD) → (b : Ref sig .tc) → Buf (Elt Ideal) ((c : Thread nD τ).loc b))

theorem idx_facts : ∀ t : Fin cfg0.N,
    (win0_0.index t (0 : Fin 2) = t.val ∧ win0_0.index t (1 : Fin 2) = 0
    ∧ win0_4.index t (0 : Fin 2) = t.val ∧ win0_4.index t (1 : Fin 2) = 0
    ∧ win0_5.index t (0 : Fin 2) = t.val ∧ win0_5.index t (1 : Fin 2) = 0)
    ∧ ∀ a : Fin 2, win0_1.index t a = 0 ∧ win0_2.index t a = 0 ∧ win0_3.index t a = 0 :=
  (by decide +kernel : ∀ t : Fin grid0.N, _)

/-- Each point's block of the output is that block of the message transform of the arrays. -/
theorem flushed_lin (c : Dev nD) (t : Fin cfg0.N) :
    (dat0 V c).flushed 4 t = ((cfg0.win 4).blk t).view.read (Elt Ideal) (linArr (K := 32) (V c main_arg0) (V c main_arg4) (V c main_v4)) := by
  obtain ⟨⟨e00, e01, e40, e41, -, -⟩, z⟩ := idx_facts t
  show (cfg0.win 4).cut (grid0.coords t) ((dat0 V c).after 4 t) = _
  rw [after0_4]
  unfold out0_4
  rw [View.canon_unit_zero hz]
  simp only [View.ld_unit_zero (S := S5000x32) hz, View.ld_unit_zero (S := S32x192) hz, View.ld_unit_zero (S := S1x192) hz,
    k0_pay1, shapeCast_self]
  funext j
  exact lin_blk (K := 32) (iblk0 V c 0 t) (iblk0 V c 1 t) (iblk0 V c 2 t) (V c main_arg0) (V c main_arg4) (V c main_v4) j
    (((cfg0.win 4).blk t).view.emb j) (fun k => congrArg (V c main_arg0) (rowblock_emb (win0_0.index t) (win0_4.index t) _ _ (e00.trans e40.symm) e01 j k))
    (whole_read (s := S32x192) (V c main_arg4) (win0_1.index t) _ fun a => (z a).1)
    (whole_read (s := S1x192) (V c main_v4) (win0_2.index t) _ fun a => (z a).2.1)
    (rowblock_col (win0_4.index t) _ e41 j)

/-- The same for the root transform. -/
theorem flushed_root (c : Dev nD) (t : Fin cfg0.N) :
    (dat0 V c).flushed 5 t = ((cfg0.win 5).blk t).view.read (Elt Ideal) (rootArr (K := 32) (V c main_arg0) (V c main_arg6)) := by
  obtain ⟨⟨e00, e01, -, -, e50, e51⟩, z⟩ := idx_facts t
  show (cfg0.win 5).cut (grid0.coords t) ((dat0 V c).after 5 t) = _
  rw [after0_5]
  unfold out0_5
  rw [View.canon_unit_zero hz]
  simp only [View.ld_unit_zero (S := S5000x32) hz, View.ld_unit_zero (S := S32x192) hz, k0_pay2, shapeCast_self]
  funext j
  exact root_blk (K := 32) (iblk0 V c 0 t) (iblk0 V c 3 t) (V c main_arg0) (V c main_arg6) j
    (((cfg0.win 5).blk t).view.emb j) (fun k => congrArg (V c main_arg0) (rowblock_emb (win0_0.index t) (win0_5.index t) _ _ (e00.trans e50.symm) e01 j k))
    (whole_read (s := S32x192) (V c main_arg6) (win0_3.index t) _ fun a => (z a).2.2)
    (rowblock_col (win0_5.index t) _ e51 j)

/-- The twenty blocks of 5000 rows cover the array. -/
theorem covered_lin (i : S100000x192.Idx) :
    ∃ t : Fin cfg0.N, (cfg0.win 4).flush t = true ∧ i ∈ ((cfg0.win 4).blk t).view.set := by
  obtain ⟨t, ht⟩ := row_point N_0 i
  obtain ⟨⟨-, -, e40, e41, e50, e51⟩, -⟩ := idx_facts t
  refine ⟨t, flush0_4 t, ?_⟩
  show i ∈ ((View.whole main_v5_0).slice (win0_4.rect t)).set
  rw [View.set_slice_whole]
  exact mem_rowblock i (win0_4.index t) _ (e40.trans ht) e41

theorem covered_root (i : S100000x192.Idx) :
    ∃ t : Fin cfg0.N, (cfg0.win 5).flush t = true ∧ i ∈ ((cfg0.win 5).blk t).view.set := by
  obtain ⟨t, ht⟩ := row_point N_0 i
  obtain ⟨⟨-, -, e40, e41, e50, e51⟩, -⟩ := idx_facts t
  refine ⟨t, flush0_5 t, ?_⟩
  show i ∈ ((View.whole main_v5_1).slice (win0_5.rect t)).set
  rw [View.set_slice_whole]
  exact mem_rowblock i (win0_5.index t) _ (e50.trans ht) e51

theorem reg0_lin (c : Dev nD) :
    cur2 (show Vec Ideal S100000x192 .f32 from (dat0 (F := Ideal) V c).arrAt 4 cfg0.N)
      = lin (cur2 (show Vec Ideal S100000x32 .f32 from V c main_arg0)) (cur2 (show Vec Ideal S32x192 .f32 from V c main_arg4)) (rowOf (show Vec Ideal S1x192 .f32 from V c main_v4) 0) := by
  funext p q
  exact congrFun ((dat0 V c).arrAt_eq_of_cover 4 _ (fun t _ => flushed_lin V c t) covered_lin) (ix2 p q)

theorem reg0_root (c : Dev nD) :
    cur2 (show Vec Ideal S100000x192 .f32 from (dat0 (F := Ideal) V c).arrAt 5 cfg0.N)
      = root (cur2 (show Vec Ideal S100000x32 .f32 from V c main_arg0)) (cur2 (show Vec Ideal S32x192 .f32 from V c main_arg6)) := by
  funext p q
  exact congrFun ((dat0 V c).arrAt_eq_of_cover 5 _ (fun t _ => flushed_root V c t) covered_root) (ix2 p q)

end Arrays

end Cert.KernelIdeal.KReg0

end
-- ==== Proof.KStat.lean ====
import proofs.«401365_j67929202754020_1_alg».proof.Proof.Gen.KernelIdeal.Frame
import proofs.«401365_j67929202754020_1_alg».proof.Proof.Spec
import Idealize.ShloMosaic.Lib.Pipeline.Value
import Idealize.ShloMosaic.Lib.ValueIdx
import Idealize.ShloMosaic.Lib.Tactic
import Idealize.ShloMosaic.PureOps.Ideal.Laws
import Mathlib.Algebra.BigOperators.Fin
import Mathlib.Logic.Equiv.Fin.Basic

noncomputable section

namespace Cert.KernelIdeal.KStat

open Cert.KernelIdeal Cert.KernelIdeal.Gen Cert.Spec Idealize.ShloMosaic Idealize.ShloMosaic.TcCoe Idealize.SL.Sem
open Idealize.ShloMosaic.ValueIdx
open scoped BigOperators

theorem hz : (![0, 0] : Fin 2 → Nat) = fun _ => 0 :=
  funext fun a => match a with | ⟨0, _⟩ => rfl | ⟨1, _⟩ => rfl

theorem lift_ix (p : Fin 5000) (q : Fin 192) :
    reduces_S5000x192_S192.lift (fun a => (ix2 (0 : Fin 1) q) a.succ) p = ix2 p q := by
  funext c
  match c with
  | ⟨0, _⟩ => rfl
  | ⟨1, _⟩ => rfl

section Payloads

variable {F : FTy → Type} [FloatOps F]

/-- Two blocks added entry by entry. -/
def addBlk (x y : Vec F S5000x192 .f32) : FVec F S5000x192 .f32 :=
  addf (shapeCast S5000x192 x shapeCasts_S5000x192_S5000x192) (shapeCast S5000x192 y shapeCasts_S5000x192_S5000x192)

/-- A row plus the column sums of a block. -/
def addCols (f : FVec F S5000x192 .f32) (r : Vec F S1x192 .f32) : FVec F S1x192 .f32 :=
  addf (shapeCast S1x192 r shapeCasts_S1x192_S1x192)
    (shapeCast S1x192 (multiReduction .add [0] S192 f 0x00000000#32 reduces_S5000x192_S192 (.inl rfl) rfl) shapeCasts_S192_S1x192)

def zeroRow : Vec F S1x192 .f32 := broadcast S1x192 (Scalar.ofBits .f32 0x00000000#32 : F .f32)

end Payloads

theorem addBlk_apply (x y : Vec Ideal S5000x192 .f32) (i : S5000x192.Idx) : addBlk x y i = x i + y i := by
  unfold addBlk
  simp only [shapeCast_self]
  rfl

theorem zeroRow_apply (q : Fin 192) : zeroRow (F := Ideal) (ix2 (0 : Fin 1) q) = 0 := by
  unfold zeroRow
  exact Ideal.ofBits_zero_f32

theorem addCols_apply (f : FVec Ideal S5000x192 .f32) (r : Vec Ideal S1x192 .f32) (q : Fin 192) :
    addCols f r (ix2 (0 : Fin 1) q) = r (ix2 0 q) + ∑ p : Fin 5000, f (ix2 p q) := by
  unfold addCols
  simp only [shapeCast_self]
  refine congrArg (fun z => r (ix2 0 q) + z) ?_
  refine (shapeCast_addUnit_apply ![192] _ _ (ix2 0 q)).trans ?_
  refine (Ideal.multiReduction_add_single _ _ reduces_S5000x192_S192 _ _ _).trans ?_
  exact Finset.sum_congr rfl fun p _ => congrArg f (lift_ix p q)

/-- The rows of tile s summed, for every natural s (zero past the array). -/
def tile {M : Type} [AddCommMonoid M] (f : Fin 100000 → M) (s : ℕ) : M :=
  ∑ p : Fin 5000, if h : 5000 * s + p.val < 100000 then f ⟨5000 * s + p.val, h⟩ else 0

theorem tile_of_lt {M : Type} [AddCommMonoid M] (f : Fin 100000 → M) (s : ℕ) (hs : s < 20) :
    tile f s = ∑ p : Fin 5000, f ⟨5000 * s + p.val, by have := p.isLt; omega⟩ := by
  unfold tile
  refine Finset.sum_congr rfl fun p _ => ?_
  rw [dif_pos]

/-- Row r is row r mod 5000 of tile r / 5000, so the twenty tiles make up the 100000 rows. -/
theorem sum_tiles {M : Type} [AddCommMonoid M] (f : Fin 100000 → M) :
    ∑ s ∈ Finset.range 20, tile f s = ∑ i, f i := by
  rw [Finset.sum_range (fun s => tile f s)]
  have e : ∀ t : Fin 20, tile f t.val = ∑ p : Fin 5000, f (finProdFinEquiv (t, p)) := fun t => by
    rw [tile_of_lt f t.val t.isLt]
    refine Finset.sum_congr rfl fun p _ => congrArg f (Fin.ext ?_)
    show 5000 * t.val + p.val = p.val + 5000 * t.val
    omega
  rw [Finset.sum_congr rfl fun t _ => e t, ← Fintype.sum_prod_type (f := fun x : Fin 20 × Fin 5000 => f (finProdFinEquiv x))]
  exact Equiv.sum_comp (finProdFinEquiv (m := 20) (n := 5000)) f

/-- Row p of the block of point t is row 5000 t + p of the array. -/
def rowAt {N : ℕ} (hN : N = 20) (t : Fin N) (p : Fin 5000) : Fin 100000 :=
  ⟨5000 * t.val + p.val, by have := t.isLt; have := p.isLt; omega⟩

/-- An index of a node array at row p of block t and column q, the block index given by its two coordinates. -/
theorem eq_ix2_rowAt {N : ℕ} (hN : N = 20) (t : Fin N) (p : Fin 5000) (q : Fin 192) (j : S100000x192.Idx) {k0 k1 : ℕ}
    (e0 : k0 = t.val) (e1 : k1 = 0) (h0 : (j 0).val = k0 * 5000 + 1 * p.val) (h1 : (j 1).val = k1 * 192 + 1 * q.val) :
    j = ix2 (rowAt hN t p) q := by
  subst e0 e1
  funext a; apply Fin.ext
  match a with
  | ⟨0, _⟩ => show (j 0).val = 5000 * t.val + p.val; omega
  | ⟨1, _⟩ => show (j 1).val = q.val; omega

/-- Row r lies in the block of index (r / 5000, 0), by its two coordinates. -/
theorem tile_bounds (i : S100000x192.Idx) {k : Fin 2 → ℕ} (e0 : k 0 = (i 0).val / 5000) (e1 : k 1 = 0) (a : Fin 2) :
    k a * S5000x192.size a ≤ (i a).val ∧ (i a).val < k a * S5000x192.size a + S5000x192.size a := by
  have hi0 : (i 0).val < 100000 := (i 0).isLt
  have hi1 : (i 1).val < 192 := (i 1).isLt
  match a with
  | ⟨0, _⟩ => show k 0 * 5000 ≤ (i 0).val ∧ (i 0).val < k 0 * 5000 + 5000; rw [e0]; omega
  | ⟨1, _⟩ => show k 1 * 192 ≤ (i 1).val ∧ (i 1).val < k 1 * 192 + 192; rw [e1]; omega

section Run

variable {N : ℕ} (hN : N = 20)

variable (f : Fin N → FVec Ideal S5000x192 .f32) (g : Fin 100000 → Fin 192 → EReal)
  (hf : ∀ t p q, f t (ix2 p q) = g (rowAt hN t p) q) (r : (n : ℕ) → n < N → Vec Ideal S1x192 .f32)
  (h0 : ∀ h, r 0 h = addCols (f ⟨0, h⟩) zeroRow)
  (hS : ∀ n h, r (n + 1) h = addCols (f ⟨n + 1, h⟩) (r n (Nat.lt_of_succ_lt h)))
include hf

theorem tile_blk (t : Fin N) (q : Fin 192) : tile (fun i => g i q) t.val = ∑ p : Fin 5000, f t (ix2 p q) := by
  rw [tile_of_lt _ t.val (by have := t.isLt; omega)]
  exact Finset.sum_congr rfl fun p _ => (hf t p q).symm

include h0 hS

/-- A row zeroed at the first point, to which every point adds its block's column sums, holds after point n the sum over the tiles 0 … n. -/
theorem acc_inv : ∀ (n : ℕ) (h : n < N) (q : Fin 192),
    r n h (ix2 (0 : Fin 1) q) = ∑ s ∈ Finset.range (n + 1), tile (fun i => g i q) s
  | 0, h, q => by
    rw [h0 h, addCols_apply, zeroRow_apply, zero_add, Finset.sum_range_one]
    exact (tile_blk hN f g hf ⟨0, h⟩ q).symm
  | n + 1, h, q => by
    rw [hS n h, addCols_apply, acc_inv n (Nat.lt_of_succ_lt h) q, Finset.sum_range_succ _ (n + 1)]
    exact congrArg (fun z => _ + z) (tile_blk hN f g hf ⟨n + 1, h⟩ q).symm

/-- After the last point it holds the whole column sums. -/
theorem acc_last (t : Fin N) (h19 : t.val = 19) : r t.val t.isLt = fun i => ∑ k, g k (i 1) := by
  funext j
  obtain ⟨z, q, rfl⟩ : ∃ (z : Fin 1) (q : Fin 192), j = ix2 z q := ⟨j 0, j 1, eq_ix2 j⟩
  obtain rfl : z = 0 := Subsingleton.elim _ _
  show r t.val t.isLt (ix2 (0 : Fin 1) q) = ∑ k, g k q
  rw [acc_inv hN f g hf r h0 hS t.val t.isLt q, h19]
  exact sum_tiles _

omit hf h0 hS

variable (A B : Vec Ideal S100000x192 .f32) (a b : Fin N → Vec Ideal S5000x192 .f32)
  (O : (n : ℕ) → n < N → Vec Ideal S5000x192 .f32 × Vec Ideal S1x192 .f32 × Vec Ideal S1x192 .f32)

/-- The sum of two node arrays, by coordinates. -/
def sum2 : Fin 100000 → Fin 192 → EReal := fun i j => A (ix2 i j) + B (ix2 i j)

/-- What a region supplies: where its blocks sit in the two arrays; the first point adds to zeroed rows, a later point to the rows before it. -/
structure Stats : Prop where
  rowsA : ∀ t p q, a t (ix2 p q) = A (ix2 (rowAt hN t p) q)
  rowsB : ∀ t p q, b t (ix2 p q) = B (ix2 (rowAt hN t p) q)
  first : ∀ t : Fin N, t.val % 20 = 0 → O t.val t.isLt
    = (addBlk (a t) (b t), addCols (addBlk (a t) (b t)) zeroRow, addCols (mulf (addBlk (a t) (b t)) (addBlk (a t) (b t))) zeroRow)
  later : ∀ t : Fin N, ¬t.val % 20 = 0 → O t.val t.isLt
    = (addBlk (a t) (b t), addCols (addBlk (a t) (b t)) (O (t.val - 1) (Nat.lt_of_le_of_lt (Nat.sub_le _ _) t.isLt)).2.1,
        addCols (mulf (addBlk (a t) (b t)) (addBlk (a t) (b t))) (O (t.val - 1) (Nat.lt_of_le_of_lt (Nat.sub_le _ _) t.isLt)).2.2)

variable {hN A B a b O} (R : Stats hN A B a b O)
include R

theorem Stats.blk_apply (t : Fin N) (p : Fin 5000) (q : Fin 192) :
    addBlk (a t) (b t) (ix2 p q) = sum2 A B (rowAt hN t p) q :=
  (addBlk_apply _ _ _).trans (congrArg₂ (· + ·) (R.rowsA t p q) (R.rowsB t p q))

theorem Stats.pre_apply (t : Fin N) (p : Fin 5000) (q : Fin 192) :
    (O t.val t.isLt).1 (ix2 p q) = sum2 A B (rowAt hN t p) q := by
  by_cases h0 : t.val % 20 = 0
  · rw [R.first t h0]; exact R.blk_apply t p q
  · rw [R.later t h0]; exact R.blk_apply t p q

theorem Stats.sum (t : Fin N) (h19 : t.val = 19) : (O t.val t.isLt).2.1 = fun i => colSum (sum2 A B) (i 1) :=
  acc_last hN (fun t => addBlk (a t) (b t)) (sum2 A B) R.blk_apply (fun n h => (O n h).2.1)
    (fun h => congrArg (fun o => o.2.1) (R.first ⟨0, h⟩ rfl))
    (fun n h => congrArg (fun o => o.2.1) (R.later ⟨n + 1, h⟩ (by dsimp only; omega))) t h19

theorem Stats.sumsq (t : Fin N) (h19 : t.val = 19) : (O t.val t.isLt).2.2 = fun i => colSumSq (sum2 A B) (i 1) :=
  acc_last hN (fun t => mulf (addBlk (a t) (b t)) (addBlk (a t) (b t))) (fun i j => sum2 A B i j * sum2 A B i j)
    (fun t p q => congrArg (fun z => z * z) (R.blk_apply t p q)) (fun n h => (O n h).2.2)
    (fun h => congrArg (fun o => o.2.2) (R.first ⟨0, h⟩ rfl))
    (fun n h => congrArg (fun o => o.2.2) (R.later ⟨n + 1, h⟩ (by dsimp only; omega))) t h19

end Run

end Cert.KernelIdeal.KStat

end
-- ==== Proof.KReg1.lean ====
import proofs.«401365_j67929202754020_1_alg».proof.Proof.KStat

set_option maxRecDepth 16384

noncomputable section

namespace Cert.KernelIdeal.KReg1

open Cert.KernelIdeal Cert.KernelIdeal.Gen Cert.KernelIdeal.KStat Cert.Spec Idealize.ShloMosaic Idealize.ShloMosaic.TcCoe Idealize.SL.Sem
open Idealize.ShloMosaic.ValueIdx

section Pieces

variable {F : FTy → Type} [FloatOps F] (c : Dev nD) (i : grid1.Coords) (a1 : Memref sig .tc .vmem S5000x192 .f32) (h1 : a1.IsWhole) (a2 : Memref sig .tc .vmem S5000x192 .f32) (h2 : a2.IsWhole) (a3 : Memref sig .tc .vmem S5000x192 .f32) (h3 : a3.IsWhole) (a4 : Memref sig .tc .vmem S1x192 .f32) (h4 : a4.IsWhole) (a5 : Memref sig .tc .vmem S1x192 .f32) (h5 : a5.IsWhole)
  (hc : cond1_0 i) (hn : ¬cond1_0 i) (x0 x1 : Vec F S5000x192 .f32) (xo3 xo4 : Vec F S1x192 .f32)

theorem out_A_2 : out1_A_2 c i a1 h1 a2 h2 a3 h3 a4 h4 a5 h5 hc x0 x1 = k1_pay1 x0 x1 := by
  unfold out1_A_2
  rw [View.read_writes_eq_canon _ _ _ (cover1_A_2 c i a1 h1 a2 h2 a3 h3 a4 h4 a5 h5 hc x0 x1)]
  unfold kernelRun1_A
  dsimp only
  sl_unfold_words
  rw [View.canon_unit_zero hz]
  simp only [View.readAt_eq_ld, h1.read_unread, h2.read_unread, View.ld_unit_zero (S := S5000x192) hz]

theorem out_A_3 : out1_A_3 c i a1 h1 a2 h2 a3 h3 a4 h4 a5 h5 hc x0 x1 = k1_pay4 x0 x1 k1_pay2 := by
  unfold out1_A_3
  rw [View.read_writes_eq_canon _ _ _ (cover1_A_3 c i a1 h1 a2 h2 a3 h3 a4 h4 a5 h5 hc x0 x1)]
  unfold kernelRun1_A
  dsimp only
  sl_unfold_words
  rw [View.canon_cons_unit_zero (S := S1x192) hz, View.readCov_unit_zero (S := S1x192) _ hz]
  simp only [View.readAt_eq_ld, h1.read_unread, h2.read_unread, View.ld_unit_zero (S := S5000x192) hz]

theorem out_A_4 : out1_A_4 c i a1 h1 a2 h2 a3 h3 a4 h4 a5 h5 hc x0 x1 = k1_pay5 x0 x1 k1_pay3 := by
  unfold out1_A_4
  rw [View.read_writes_eq_canon _ _ _ (cover1_A_4 c i a1 h1 a2 h2 a3 h3 a4 h4 a5 h5 hc x0 x1)]
  unfold kernelRun1_A
  dsimp only
  sl_unfold_words
  rw [View.canon_cons_unit_zero (S := S1x192) hz, View.readCov_unit_zero (S := S1x192) _ hz]
  simp only [View.readAt_eq_ld, h1.read_unread, h2.read_unread, View.ld_unit_zero (S := S5000x192) hz]

theorem out_B_2 : out1_B_2 c i a1 h1 a2 h2 a3 h3 a4 h4 a5 h5 hn x0 x1 xo3 xo4 = k1_pay1 x0 x1 := by
  unfold out1_B_2
  rw [View.read_writes_eq_canon _ _ _ (cover1_B_2 c i a1 h1 a2 h2 a3 h3 a4 h4 a5 h5 hn x0 x1 xo3 xo4)]
  unfold kernelRun1_B
  dsimp only
  sl_unfold_words
  rw [View.canon_unit_zero hz]
  simp only [View.readAt_eq_ld, h1.read_unread, h2.read_unread, View.ld_unit_zero (S := S5000x192) hz]

theorem out_B_3 : out1_B_3 c i a1 h1 a2 h2 a3 h3 a4 h4 a5 h5 hn x0 x1 xo3 xo4 = k1_pay4 x0 x1 xo3 := by
  unfold out1_B_3
  rw [View.read_writes_eq_canon _ _ _ (cover1_B_3 c i a1 h1 a2 h2 a3 h3 a4 h4 a5 h5 hn x0 x1 xo3 xo4)]
  unfold kernelRun1_B
  dsimp only
  sl_unfold_words
  rw [View.canon_unit_zero hz]
  simp only [View.readAt_eq_ld, h1.read_unread, h2.read_unread, h4.read_unread, View.ld_unit_zero (S := S5000x192) hz,
    View.ld_unit_zero (S := S1x192) hz]

theorem out_B_4 : out1_B_4 c i a1 h1 a2 h2 a3 h3 a4 h4 a5 h5 hn x0 x1 xo3 xo4 = k1_pay5 x0 x1 xo4 := by
  unfold out1_B_4
  rw [View.read_writes_eq_canon _ _ _ (cover1_B_4 c i a1 h1 a2 h2 a3 h3 a4 h4 a5 h5 hn x0 x1 xo3 xo4)]
  unfold kernelRun1_B
  dsimp only
  sl_unfold_words
  rw [View.canon_unit_zero hz]
  simp only [View.readAt_eq_ld, h1.read_unread, h2.read_unread, h5.read_unread, View.ld_unit_zero (S := S5000x192) hz,
    View.ld_unit_zero (S := S1x192) hz]

end Pieces

variable (V : (c : Dev nD) → (b : Ref sig .tc) → Buf (Elt Ideal) ((c : Thread nD τ).loc b))

abbrev arrA (c : Dev nD) : Vec Ideal S100000x192 .f32 := V c main_v9
abbrev arrB (c : Dev nD) : Vec Ideal S100000x192 .f32 := V c main_v5_1
abbrev blkA (c : Dev nD) (t : Fin cfg1.N) : Vec Ideal S5000x192 .f32 := iblk1 V c 0 t
abbrev blkB (c : Dev nD) (t : Fin cfg1.N) : Vec Ideal S5000x192 .f32 := iblk1 V c 1 t
abbrev preArr (c : Dev nD) : Vec Ideal S100000x192 .f32 := fun i => arrA V c i + arrB V c i
abbrev sumArr (c : Dev nD) : Vec Ideal S1x192 .f32 := fun i => colSum (sum2 (arrA V c) (arrB V c)) (i 1)
abbrev sumsqArr (c : Dev nD) : Vec Ideal S1x192 .f32 := fun i => colSumSq (sum2 (arrA V c) (arrB V c)) (i 1)

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

theorem stats (c : Dev nD) : Stats (N := cfg1.N) N_1 (arrA V c) (arrB V c) (blkA V c) (blkB V c) (outsAt1 V c) where
  rowsA t p q := congrArg (V c main_v9)
    (eq_ix2_rowAt N_1 t p q (((cfg1.win 0).blk t).view.emb (ix2 p q)) (idx_facts t).1 (idx_facts t).2.1 rfl rfl)
  rowsB t p q := congrArg (V c main_v5_1)
    (eq_ix2_rowAt N_1 t p q (((cfg1.win 1).blk t).view.emb (ix2 p q)) (idx_facts t).2.2.1 (idx_facts t).2.2.2.1 rfl rfl)
  first t h0 := by rw [outsAt1_A V c t h0, out_A_2, out_A_3, out_A_4]; rfl
  later t h0 := by rw [outsAt1_B V c t h0, out_B_2, out_B_3, out_B_4]; rfl

theorem flushed_pre (c : Dev nD) (t : Fin cfg1.N) (hf : (cfg1.win 2).flush t = true) :
    (dat1 V c).flushed 2 t = ((cfg1.win 2).blk t).view.read (Elt Ideal) (preArr V c) := by
  show (cfg1.win 2).cut (grid1.coords t) ((dat1 V c).after 2 t) = _
  rw [after1_2]
  funext j
  obtain ⟨p, q, rfl⟩ : ∃ (p : Fin 5000) (q : Fin 192), j = ix2 p q := ⟨j 0, j 1, eq_ix2 j⟩
  show (outsAt1 V c t.val t.isLt).1 (ix2 p q) = preArr V c (((cfg1.win 2).blk t).view.emb (ix2 p q))
  rw [eq_ix2_rowAt N_1 t p q (((cfg1.win 2).blk t).view.emb (ix2 p q)) (idx_facts t).2.2.2.2.1 (idx_facts t).2.2.2.2.2.1 rfl rfl]
  exact (stats V c).pre_apply t p q

/-- Row r is in the block of point r / 5000. -/
theorem cover_pre (i : S100000x192.Idx) :
    ∃ t : Fin cfg1.N, (cfg1.win 2).flush t = true ∧ i ∈ ((cfg1.win 2).blk t).view.set := by
  have hN : cfg1.N = 20 := N_1
  have hi0 : (i 0).val < 100000 := (i 0).isLt
  have ht : (i 0).val / 5000 < cfg1.N := by omega
  refine ⟨⟨(i 0).val / 5000, ht⟩, flush1_2 _, ?_⟩
  show i ∈ ((View.whole main_v10_0).slice (win1_2.rect ⟨(i 0).val / 5000, ht⟩)).set
  rw [View.set_slice_whole, Rect.mem_set_unit]
  exact tile_bounds i (k := win1_2.index ⟨(i 0).val / 5000, ht⟩) (idx_facts _).2.2.2.2.1 (idx_facts _).2.2.2.2.2.1

theorem zero34 (t : Fin cfg1.N) :
    ((fun a => win1_3.index t a * main_v10_1.ty.shape.size a) = fun _ => 0)
      ∧ (fun a => win1_4.index t a * main_v10_2.ty.shape.size a) = fun _ => 0 := by
  obtain ⟨-, -, -, -, -, -, e30, e31, e40, e41⟩ := idx_facts t
  exact ⟨funext fun a => match a with
      | ⟨0, _⟩ => by show win1_3.index t (0 : Fin 2) * 1 = 0; rw [e30]
      | ⟨1, _⟩ => by show win1_3.index t (1 : Fin 2) * 192 = 0; rw [e31],
    funext fun a => match a with
      | ⟨0, _⟩ => by show win1_4.index t (0 : Fin 2) * 1 = 0; rw [e40]
      | ⟨1, _⟩ => by show win1_4.index t (1 : Fin 2) * 192 = 0; rw [e41]⟩

theorem flushed_sum (c : Dev nD) (t : Fin cfg1.N) (hf : (cfg1.win 3).flush t = true) :
    (dat1 V c).flushed 3 t = ((cfg1.win 3).blk t).view.read (Elt Ideal) (sumArr V c) := by
  have hN : cfg1.N = 20 := N_1
  have h19 : t.val = 19 := by have := (flush1_3 t).mp hf; have := t.isLt; omega
  show (cfg1.win 3).cut (grid1.coords t) ((dat1 V c).after 3 t) = _
  rw [after1_3, (stats V c).sum t h19]
  exact (Memref.read_access_unit_zero (Elt Ideal) main_v10_1 (zero34 t).1 (fun a => by rw [congrFun (zero34 t).1 a]; simp) (sumArr V c)).symm

theorem flushed_sumsq (c : Dev nD) (t : Fin cfg1.N) (hf : (cfg1.win 4).flush t = true) :
    (dat1 V c).flushed 4 t = ((cfg1.win 4).blk t).view.read (Elt Ideal) (sumsqArr V c) := by
  have hN : cfg1.N = 20 := N_1
  have h19 : t.val = 19 := by have := (flush1_4 t).mp hf; have := t.isLt; omega
  show (cfg1.win 4).cut (grid1.coords t) ((dat1 V c).after 4 t) = _
  rw [after1_4, (stats V c).sumsq t h19]
  exact (Memref.read_access_unit_zero (Elt Ideal) main_v10_2 (zero34 t).2 (fun a => by rw [congrFun (zero34 t).2 a]; simp) (sumsqArr V c)).symm

/-- The last point's block of a row of sums is the whole row. -/
theorem cover_sum (i : S1x192.Idx) :
    ∃ t : Fin cfg1.N, (cfg1.win 3).flush t = true ∧ i ∈ ((cfg1.win 3).blk t).view.set := by
  have hN : cfg1.N = 20 := N_1
  have ht : 19 < cfg1.N := by omega
  refine ⟨⟨19, ht⟩, (flush1_3 _).mpr rfl, ?_⟩
  show i ∈ ((View.whole main_v10_1).slice (win1_3.rect ⟨19, ht⟩)).set
  rw [View.set_slice_whole]
  exact View.mem_set_unit_zero (zero34 ⟨19, ht⟩).1 _ i

theorem cover_sumsq (i : S1x192.Idx) :
    ∃ t : Fin cfg1.N, (cfg1.win 4).flush t = true ∧ i ∈ ((cfg1.win 4).blk t).view.set := by
  have hN : cfg1.N = 20 := N_1
  have ht : 19 < cfg1.N := by omega
  refine ⟨⟨19, ht⟩, (flush1_4 _).mpr rfl, ?_⟩
  show i ∈ ((View.whole main_v10_2).slice (win1_4.rect ⟨19, ht⟩)).set
  rw [View.set_slice_whole]
  exact View.mem_set_unit_zero (zero34 ⟨19, ht⟩).2 _ i

theorem reg1_pre (c : Dev nD) :
    cur2 (show Vec Ideal S100000x192 .f32 from (dat1 (F := Ideal) V c).arrAt 2 cfg1.N)
      = fun i j => cur2 (show Vec Ideal S100000x192 .f32 from V c main_v9) i j + cur2 (show Vec Ideal S100000x192 .f32 from V c main_v5_1) i j := by
  show cur2 ((dat1 V c).arrAt 2 cfg1.N) = _
  rw [(dat1 V c).arrAt_eq_of_cover 2 (preArr V c) (flushed_pre V c) cover_pre]
  rfl

theorem reg1_sum (c : Dev nD) :
    rowOf (show Vec Ideal S1x192 .f32 from (dat1 (F := Ideal) V c).arrAt 3 cfg1.N) 0
      = colSum (fun i j => cur2 (show Vec Ideal S100000x192 .f32 from V c main_v9) i j + cur2 (show Vec Ideal S100000x192 .f32 from V c main_v5_1) i j) := by
  show rowOf ((dat1 V c).arrAt 3 cfg1.N) 0 = _
  rw [(dat1 V c).arrAt_eq_of_cover 3 (sumArr V c) (flushed_sum V c) cover_sum]
  rfl

theorem reg1_sumsq (c : Dev nD) :
    rowOf (show Vec Ideal S1x192 .f32 from (dat1 (F := Ideal) V c).arrAt 4 cfg1.N) 0
      = colSumSq (fun i j => cur2 (show Vec Ideal S100000x192 .f32 from V c main_v9) i j + cur2 (show Vec Ideal S100000x192 .f32 from V c main_v5_1) i j) := by
  show rowOf ((dat1 V c).arrAt 4 cfg1.N) 0 = _
  rw [(dat1 V c).arrAt_eq_of_cover 4 (sumsqArr V c) (flushed_sumsq V c) cover_sumsq]
  rfl

end Cert.KernelIdeal.KReg1

end
-- ==== Proof.KNorm.lean ====
import proofs.«401365_j67929202754020_1_alg».proof.Proof.KLin

noncomputable section

namespace Cert.KernelIdeal.KNorm

open Cert.KernelIdeal Cert.KernelIdeal.Gen Cert.Spec Idealize.ShloMosaic Idealize.ShloMosaic.TcCoe Idealize.SL.Sem
open Idealize.ShloMosaic.ValueIdx KLin

theorem rsqrt_apply {s : Shape} {φ : FTy} (a : FVec Ideal s φ) (i : s.Idx) : rsqrt a i = Ideal.rsqrt (a i) := rfl

/-- The array `h` normalised column by column with the rows `μ`, `v`, `γ`, `β`. -/
def normed (h : Vec Ideal S100000x192 .f32) (μ v γ β : Vec Ideal S1x192 .f32) : Vec Ideal S100000x192 .f32 :=
  fun i => bn (cur2 h) (rowOf μ 0) (rowOf v 0) (rowOf γ 0) (rowOf β 0) (i 0) (i 1)

/-- Pointwise, the normalisation of a block whose rows are the array's rows is the normalised array's entry in the same column. -/
theorem norm_blk (x0 : FVec Ideal S5000x192 .f32) (xμ xv xγ xβ : FVec Ideal S1x192 .f32)
    (h : Vec Ideal S100000x192 .f32) (μ v γ β : Vec Ideal S1x192 .f32)
    (y : S5000x192.Idx) (k : S100000x192.Idx) (hx : ∀ q : Fin 192, x0 (ix2 (y 0) q) = h (ix2 (k 0) q)) (hc : k 1 = y 1)
    (eμ : xμ = μ) (ev : xv = v) (eγ : xγ = γ) (eβ : xβ = β) :
    maximumf (addf (mulf (mulf (subf x0 (broadcastTo S5000x192 xμ broadcasts_S1x192_S5000x192))
        (broadcastTo S5000x192 (rsqrt (addf xv (broadcast S1x192 (Scalar.ofBits .f32 0x3727C5AC#32)))) broadcasts_S1x192_S5000x192))
        (broadcastTo S5000x192 xγ broadcasts_S1x192_S5000x192)) (broadcastTo S5000x192 xβ broadcasts_S1x192_S5000x192))
      (broadcast S5000x192 (Scalar.ofBits .f32 0x00000000#32)) y = normed h μ v γ β k := by
  obtain ⟨r, q, rfl⟩ : ∃ (r : Fin 100000) (q : Fin 192), k = ix2 r q := ⟨k 0, k 1, eq_ix2 k⟩
  obtain rfl : q = y 1 := hc
  have e0 : x0 y = h (ix2 r (y 1)) := (congrArg x0 (eq_ix2 y)).trans (hx (y 1))
  simp only [maximumf_apply, addf_apply, mulf_apply, subf_apply, bcastRow_apply, rsqrt_apply, broadcast_apply,
    Ideal.ofBits_def, Ideal.ofBits_zero_f32]
  rw [e0, eμ, ev, eγ, eβ]
  rfl

end Cert.KernelIdeal.KNorm

end
-- ==== Proof.KReg2.lean ====
import proofs.«401365_j67929202754020_1_alg».proof.Proof.KNorm

set_option maxRecDepth 16384

noncomputable section

namespace Cert.KernelIdeal.KReg2

open Cert.KernelIdeal Cert.KernelIdeal.Gen Cert.Spec Idealize.ShloMosaic Idealize.ShloMosaic.TcCoe Idealize.SL.Sem
open Idealize.ShloMosaic.ValueIdx KLin KNorm

section Regions
variable (V : (c : Dev nD) → (b : Ref sig .tc) → Buf (Elt Ideal) ((c : Thread nD τ).loc b))

theorem idx_facts : ∀ t : Fin cfg2.N,
    (win2_0.index t (0 : Fin 2) = t.val ∧ win2_0.index t (1 : Fin 2) = 0
    ∧ win2_5.index t (0 : Fin 2) = t.val ∧ win2_5.index t (1 : Fin 2) = 0)
    ∧ ∀ a : Fin 2, win2_1.index t a = 0 ∧ win2_2.index t a = 0 ∧ win2_3.index t a = 0 ∧ win2_4.index t a = 0 :=
  (by decide +kernel : ∀ t : Fin grid2.N, _)

/-- Each point's block of the output is that block of the normalised array. -/
theorem flushed_eq (c : Dev nD) (t : Fin cfg2.N) :
    (dat2 (F := Ideal) V c).flushed 5 t = ((cfg2.win 5).blk t).view.read (Elt Ideal) (normed (V c main_v10_0) (V c main_v12) (V c main_v16) (V c main_v17) (V c main_v18)) := by
  obtain ⟨⟨f00, f01, f50, f51⟩, z⟩ := idx_facts t
  show (cfg2.win 5).cut (grid2.coords t) ((dat2 (F := Ideal) V c).after 5 t) = _
  rw [after2_5]
  unfold out2_5
  rw [View.canon_unit_zero hz]
  simp only [View.ld_unit_zero (S := S5000x192) hz, View.ld_unit_zero (S := S1x192) hz, k2_pay1, shapeCast_self]
  funext j
  exact norm_blk (iblk2 V c 0 t) (iblk2 V c 1 t) (iblk2 V c 2 t) (iblk2 V c 3 t) (iblk2 V c 4 t)
    (V c main_v10_0) (V c main_v12) (V c main_v16) (V c main_v17) (V c main_v18) j (((cfg2.win 5).blk t).view.emb j)
    (fun q => congrArg (V c main_v10_0) (rowblock_emb (win2_0.index t) (win2_5.index t) _ _ (f00.trans f50.symm) f01 j q))
    (rowblock_col (win2_5.index t) _ f51 j)
    (whole_read (s := S1x192) (V c main_v12) (win2_1.index t) _ fun a => (z a).1)
    (whole_read (s := S1x192) (V c main_v16) (win2_2.index t) _ fun a => (z a).2.1)
    (whole_read (s := S1x192) (V c main_v17) (win2_3.index t) _ fun a => (z a).2.2.1)
    (whole_read (s := S1x192) (V c main_v18) (win2_4.index t) _ fun a => (z a).2.2.2)

/-- The twenty blocks of 5000 rows cover the array. -/
theorem covered (i : S100000x192.Idx) :
    ∃ t : Fin cfg2.N, (cfg2.win 5).flush t = true ∧ i ∈ ((cfg2.win 5).blk t).view.set := by
  obtain ⟨t, ht⟩ := row_point N_2 i
  obtain ⟨⟨-, -, f50, f51⟩, -⟩ := idx_facts t
  refine ⟨t, flush2_5 t, ?_⟩
  show i ∈ ((View.whole main_v19).slice (win2_5.rect t)).set
  rw [View.set_slice_whole]
  exact mem_rowblock i (win2_5.index t) _ (f50.trans ht) f51

theorem reg2_bn (c : Dev nD) :
    cur2 (show Vec Ideal S100000x192 .f32 from (dat2 (F := Ideal) V c).arrAt 5 cfg2.N)
      = bn (cur2 (show Vec Ideal S100000x192 .f32 from V c main_v10_0)) (rowOf (show Vec Ideal S1x192 .f32 from V c main_v12) 0)
          (rowOf (show Vec Ideal S1x192 .f32 from V c main_v16) 0) (rowOf (show Vec Ideal S1x192 .f32 from V c main_v17) 0)
          (rowOf (show Vec Ideal S1x192 .f32 from V c main_v18) 0) := by
  funext p q
  exact congrFun ((dat2 (F := Ideal) V c).arrAt_eq_of_cover 5 _ (fun t _ => flushed_eq V c t) covered) (ix2 p q)

end Regions

end Cert.KernelIdeal.KReg2

end
-- ==== Proof.KLayer0.lean ====
import proofs.«401365_j67929202754020_1_alg».proof.Proof.KLayerCore
import proofs.«401365_j67929202754020_1_alg».proof.Proof.KReg0
import proofs.«401365_j67929202754020_1_alg».proof.Proof.KReg1
import proofs.«401365_j67929202754020_1_alg».proof.Proof.KReg2

noncomputable section

namespace Cert.KernelIdeal.KLayer0

open Cert.KernelIdeal Cert.KernelIdeal.Gen Cert.Spec Cert.LibIndexing Cert.KernelIdeal.KLayerCore
open Idealize.ShloMosaic Idealize.ShloMosaic.TcCoe Idealize.SL.Sem Idealize.ShloMosaic.ValueIdx
open scoped BigOperators

variable (V : Valuation τ sig (Elt Ideal))

theorem take_eq : (show Vec Ideal S400000x192 .f32 from StableHlo.after (hostOps1 (F := Ideal)) V (Proc.devRef .tc main_v6))
    = takeRows (show Vec Ideal S100000x192 .f32 from V (Proc.devRef .tc main_v5_0)) (show IVec S400000 32 from V (Proc.devRef .tc main_arg1)) := by
  show StableHlo.after (hostOps1 (F := Ideal)) V (Proc.devRef .tc main_v6) = _
  after_results_simp
  simp only [StableHlo.TRef.ofBuf, StableHlo.TRef.toBuf, cast_eq]
  rfl

theorem scatter_eq : (show Vec Ideal S100000x192 .f32 from StableHlo.after (hostOps1_1 (F := Ideal)) V (Proc.devRef .tc main_v9))
    = aggRows (show IVec S400000 32 from V (Proc.devRef .tc main_arg2)) (show Vec Ideal S400000x192 .f32 from V (Proc.devRef .tc main_v6)) := by
  show StableHlo.after (hostOps1_1 (F := Ideal)) V (Proc.devRef .tc main_v9) = _
  after_results
  rfl

theorem ops0_v4 (j : Fin 192) :
    (show Vec Ideal S1x192 .f32 from StableHlo.after (hostOps0 (F := Ideal)) V (Proc.devRef .tc main_v4)) (ix2 0 j)
      = (show Vec Ideal S192 .f32 from V (Proc.devRef .tc main_arg5)) (ix1 j) := by
  show StableHlo.after (hostOps0 (F := Ideal)) V (Proc.devRef .tc main_v4) (ix2 0 j) = _
  after_results
  exact shapeCast_a_1a_apply _ _ 0 j

theorem ops0_v1 (j : Fin 192) :
    (show Vec Ideal S192 .f32 from StableHlo.after (hostOps0 (F := Ideal)) V (Proc.devRef .tc main_v1)) (ix1 j)
      = (show Vec Ideal S4x192 .f32 from V (Proc.devRef .tc main_arg10)) (ix2 0 j) := by
  show StableHlo.after (hostOps0 (F := Ideal)) V (Proc.devRef .tc main_v1) (ix1 j) = _
  after_results
  refine (shapeCast_1a_a_apply _ _ j).trans ?_
  exact slice2_axis0_apply 0 _ _ 0 j 0 rfl

theorem ops0_v3 (j : Fin 192) :
    (show Vec Ideal S192 .f32 from StableHlo.after (hostOps0 (F := Ideal)) V (Proc.devRef .tc main_v3)) (ix1 j)
      = (show Vec Ideal S4x192 .f32 from V (Proc.devRef .tc main_arg11)) (ix2 0 j) := by
  show StableHlo.after (hostOps0 (F := Ideal)) V (Proc.devRef .tc main_v3) (ix1 j) = _
  after_results
  refine (shapeCast_1a_a_apply _ _ j).trans ?_
  exact slice2_axis0_apply 0 _ _ 0 j 0 rfl

theorem ops2_v12 (j : Fin 192) :
    (show Vec Ideal S1x192 .f32 from StableHlo.after (hostOps2 (F := Ideal)) V (Proc.devRef .tc main_v12)) (ix2 0 j)
      = Ideal.div ((show Vec Ideal S1x192 .f32 from V (Proc.devRef .tc main_v10_1)) (ix2 0 j)) cN := by
  show StableHlo.after (hostOps2 (F := Ideal)) V (Proc.devRef .tc main_v12) (ix2 0 j) = _
  after_results
  rfl

theorem ops2_v16 (j : Fin 192) :
    (show Vec Ideal S1x192 .f32 from StableHlo.after (hostOps2 (F := Ideal)) V (Proc.devRef .tc main_v16)) (ix2 0 j)
      = Ideal.div ((show Vec Ideal S1x192 .f32 from V (Proc.devRef .tc main_v10_2)) (ix2 0 j)) cN
        - Ideal.div ((show Vec Ideal S1x192 .f32 from V (Proc.devRef .tc main_v10_1)) (ix2 0 j)) cN
          * Ideal.div ((show Vec Ideal S1x192 .f32 from V (Proc.devRef .tc main_v10_1)) (ix2 0 j)) cN := by
  show StableHlo.after (hostOps2 (F := Ideal)) V (Proc.devRef .tc main_v16) (ix2 0 j) = _
  after_results
  rfl

theorem ops2_v17 (j : Fin 192) :
    (show Vec Ideal S1x192 .f32 from StableHlo.after (hostOps2 (F := Ideal)) V (Proc.devRef .tc main_v17)) (ix2 0 j)
      = (show Vec Ideal S192 .f32 from V (Proc.devRef .tc main_v1)) (ix1 j) := by
  show StableHlo.after (hostOps2 (F := Ideal)) V (Proc.devRef .tc main_v17) (ix2 0 j) = _
  after_results
  exact shapeCast_a_1a_apply _ _ 0 j

theorem ops2_v18 (j : Fin 192) :
    (show Vec Ideal S1x192 .f32 from StableHlo.after (hostOps2 (F := Ideal)) V (Proc.devRef .tc main_v18)) (ix2 0 j)
      = (show Vec Ideal S192 .f32 from V (Proc.devRef .tc main_v3)) (ix1 j) := by
  show StableHlo.after (hostOps2 (F := Ideal)) V (Proc.devRef .tc main_v18) (ix2 0 j) = _
  after_results
  exact shapeCast_a_1a_apply _ _ 0 j

section Fold
variable (m : (ℓ : Loc nD τ sig) → Buf (Elt Ideal) ℓ) (ρ : Dev nD → PrngReg) (c : Dev nD)

set_option quotPrecheck false in
local notation "𝐱" => cur2 (show Vec Ideal S100000x32 .f32 from m ((c.tc : Thread nD τ).loc main_arg0))
set_option quotPrecheck false in
local notation "𝐖rel" => cur2 (show Vec Ideal S32x192 .f32 from m ((c.tc : Thread nD τ).loc main_arg4))
set_option quotPrecheck false in
local notation "𝐛rel" => cur1 (show Vec Ideal S192 .f32 from m ((c.tc : Thread nD τ).loc main_arg5))
set_option quotPrecheck false in
local notation "𝐖root" => cur2 (show Vec Ideal S32x192 .f32 from m ((c.tc : Thread nD τ).loc main_arg6))
set_option quotPrecheck false in
local notation "𝐞src" => (show IVec S400000 32 from m ((c.tc : Thread nD τ).loc main_arg1))
set_option quotPrecheck false in
local notation "𝐞dst" => (show IVec S400000 32 from m ((c.tc : Thread nD τ).loc main_arg2))
set_option quotPrecheck false in
local notation "𝛄" => rowOf (show Vec Ideal S4x192 .f32 from m ((c.tc : Thread nD τ).loc main_arg10)) 0
set_option quotPrecheck false in
local notation "𝛃" => rowOf (show Vec Ideal S4x192 .f32 from m ((c.tc : Thread nD τ).loc main_arg11)) 0

theorem W1_arg0 : (show Vec Ideal S100000x32 .f32 from V1 m ρ c main_arg0)
    = (show Vec Ideal S100000x32 .f32 from m ((c.tc : Thread nD τ).loc main_arg0)) := hostOps0_writes.kept (by decide)
theorem W1_arg4 : (show Vec Ideal S32x192 .f32 from V1 m ρ c main_arg4)
    = (show Vec Ideal S32x192 .f32 from m ((c.tc : Thread nD τ).loc main_arg4)) := hostOps0_writes.kept (by decide)
theorem W1_arg6 : (show Vec Ideal S32x192 .f32 from V1 m ρ c main_arg6)
    = (show Vec Ideal S32x192 .f32 from m ((c.tc : Thread nD τ).loc main_arg6)) := hostOps0_writes.kept (by decide)
theorem bias_row : rowOf (show Vec Ideal S1x192 .f32 from V1 m ρ c main_v4) 0 = 𝐛rel :=
  funext fun j => ops0_v4 (W0 m ρ c) j

theorem gamma6 : rowOf (show Vec Ideal S1x192 .f32 from V6 m ρ c main_v17) 0 = 𝛄 := by
  funext j
  refine (ops2_v17 (W5 m ρ c) j).trans ?_
  have e : (show Vec Ideal S192 .f32 from W5 m ρ c (Proc.devRef .tc main_v1))
      = (show Vec Ideal S192 .f32 from W1 m ρ c (Proc.devRef .tc main_v1)) :=
    (W5_of_ne m ρ c main_v1 (by decide)).trans ((hostOps1_1_writes.kept (by decide)).trans
      ((hostOps1_writes.kept (by decide)).trans (W2_of_ne m ρ c main_v1 (by decide))))
  exact (congrFun e (ix1 j)).trans (ops0_v1 (W0 m ρ c) j)

theorem beta6 : rowOf (show Vec Ideal S1x192 .f32 from V6 m ρ c main_v18) 0 = 𝛃 := by
  funext j
  refine (ops2_v18 (W5 m ρ c) j).trans ?_
  have e : (show Vec Ideal S192 .f32 from W5 m ρ c (Proc.devRef .tc main_v3))
      = (show Vec Ideal S192 .f32 from W1 m ρ c (Proc.devRef .tc main_v3)) :=
    (W5_of_ne m ρ c main_v3 (by decide)).trans ((hostOps1_1_writes.kept (by decide)).trans
      ((hostOps1_writes.kept (by decide)).trans (W2_of_ne m ρ c main_v3 (by decide))))
  exact (congrFun e (ix1 j)).trans (ops0_v3 (W0 m ρ c) j)

theorem layer0 (hsrc : ∀ e, InRange (normIdx 𝐞src e)) :
    cur2 (show Vec Ideal S100000x192 .f32 from W7 m ρ c (Proc.devRef .tc main_v19))
      = layerK 𝐱 𝐖rel 𝐛rel 𝐖root (srcOf 𝐞src) (dstOf 𝐞dst) 𝛄 𝛃 := by
  rw [← launched2 m ρ c main_arg1 (by decide)] at hsrc ⊢
  rw [← launched3 m ρ c main_arg2 (by decide)]
  have hL := KReg0.reg0_lin (V1 m ρ) c
  rw [← (W2_arr m ρ c 4 : W2 m ρ c (Proc.devRef .tc main_v5_0) = _), W1_arg0 m ρ c, W1_arg4 m ρ c, bias_row m ρ c] at hL
  have hR := KReg0.reg0_root (V1 m ρ) c
  rw [← (W2_arr m ρ c 5 : W2 m ρ c (Proc.devRef .tc main_v5_1) = _), W1_arg0 m ρ c, W1_arg6 m ρ c,
    ← ((hostOps1_1_writes.kept (by decide)).trans (hostOps1_writes.kept (by decide)) :
      V4 m ρ c main_v5_1 = W2 m ρ c (Proc.devRef .tc main_v5_1))] at hR
  have hP := KReg1.reg1_pre (V4 m ρ) c
  rw [← (W5_arr m ρ c 2 : W5 m ρ c (Proc.devRef .tc main_v10_0) = _),
    ← (hostOps2_writes.kept (by decide) : V6 m ρ c main_v10_0 = W5 m ρ c (Proc.devRef .tc main_v10_0))] at hP
  have hs := KReg1.reg1_sum (V4 m ρ) c
  rw [← (W5_arr m ρ c 3 : W5 m ρ c (Proc.devRef .tc main_v10_1) = _)] at hs
  have hq := KReg1.reg1_sumsq (V4 m ρ) c
  rw [← (W5_arr m ρ c 4 : W5 m ρ c (Proc.devRef .tc main_v10_2) = _)] at hq
  have hO := KReg2.reg2_bn (V6 m ρ) c
  rw [← (W7_arr m ρ c 5 : W7 m ρ c (Proc.devRef .tc main_v19) = _)] at hO
  exact layerK_of_parts hsrc hL hR ((scatter_eq (W3 m ρ c)).trans (congrArg (aggRows _) (take_eq (W2 m ρ c)))) hP hs hq
    (funext (ops2_v12 (W5 m ρ c))) (funext (ops2_v16 (W5 m ρ c))) (gamma6 m ρ c) (beta6 m ρ c) hO

end Fold

end Cert.KernelIdeal.KLayer0

end
-- ==== Proof.KReg3.lean ====
import proofs.«401365_j67929202754020_1_alg».proof.Proof.KLin

set_option maxRecDepth 16384

noncomputable section

namespace Cert.KernelIdeal.KReg3

open Cert.KernelIdeal Cert.KernelIdeal.Gen Cert.Spec Idealize.ShloMosaic Idealize.ShloMosaic.TcCoe Idealize.SL.Sem
open Idealize.ShloMosaic.ValueIdx KLin

section Arrays
variable (V : (c : Dev nD) → (b : Ref sig .tc) → Buf (Elt Ideal) ((c : Thread nD τ).loc b))

theorem idx_facts : ∀ t : Fin cfg3.N,
    (win3_0.index t (0 : Fin 2) = t.val ∧ win3_0.index t (1 : Fin 2) = 0
    ∧ win3_4.index t (0 : Fin 2) = t.val ∧ win3_4.index t (1 : Fin 2) = 0
    ∧ win3_5.index t (0 : Fin 2) = t.val ∧ win3_5.index t (1 : Fin 2) = 0)
    ∧ ∀ a : Fin 2, win3_1.index t a = 0 ∧ win3_2.index t a = 0 ∧ win3_3.index t a = 0 :=
  (by decide +kernel : ∀ t : Fin grid3.N, _)

/-- Each point's block of the output is that block of the message transform of the arrays. -/
theorem flushed_lin (c : Dev nD) (t : Fin cfg3.N) :
    (dat3 V c).flushed 4 t = ((cfg3.win 4).blk t).view.read (Elt Ideal) (linArr (K := 192) (V c main_v19) (V c main_v21) (V c main_v30)) := by
  obtain ⟨⟨e00, e01, e40, e41, -, -⟩, z⟩ := idx_facts t
  show (cfg3.win 4).cut (grid3.coords t) ((dat3 V c).after 4 t) = _
  rw [after3_4]
  unfold out3_4
  rw [View.canon_unit_zero hz]
  simp only [View.ld_unit_zero (S := S5000x192) hz, View.ld_unit_zero (S := S192x192) hz, View.ld_unit_zero (S := S1x192) hz,
    k3_pay2, k3_pay1, shapeCast_self]
  funext j
  exact lin_blk (K := 192) (iblk3 V c 0 t) (iblk3 V c 1 t) (iblk3 V c 2 t) (V c main_v19) (V c main_v21) (V c main_v30) j
    (((cfg3.win 4).blk t).view.emb j) (fun k => congrArg (V c main_v19) (rowblock_emb (win3_0.index t) (win3_4.index t) _ _ (e00.trans e40.symm) e01 j k))
    (whole_read (s := S192x192) (V c main_v21) (win3_1.index t) _ fun a => (z a).1)
    (whole_read (s := S1x192) (V c main_v30) (win3_2.index t) _ fun a => (z a).2.1)
    (rowblock_col (win3_4.index t) _ e41 j)

/-- The same for the root transform. -/
theorem flushed_root (c : Dev nD) (t : Fin cfg3.N) :
    (dat3 V c).flushed 5 t = ((cfg3.win 5).blk t).view.read (Elt Ideal) (rootArr (K := 192) (V c main_v19) (V c main_v25)) := by
  obtain ⟨⟨e00, e01, -, -, e50, e51⟩, z⟩ := idx_facts t
  show (cfg3.win 5).cut (grid3.coords t) ((dat3 V c).after 5 t) = _
  rw [after3_5]
  unfold out3_5
  rw [View.canon_unit_zero hz]
  simp only [View.ld_unit_zero (S := S5000x192) hz, View.ld_unit_zero (S := S192x192) hz, k3_pay3, k3_pay1, shapeCast_self]
  funext j
  exact root_blk (K := 192) (iblk3 V c 0 t) (iblk3 V c 3 t) (V c main_v19) (V c main_v25) j
    (((cfg3.win 5).blk t).view.emb j) (fun k => congrArg (V c main_v19) (rowblock_emb (win3_0.index t) (win3_5.index t) _ _ (e00.trans e50.symm) e01 j k))
    (whole_read (s := S192x192) (V c main_v25) (win3_3.index t) _ fun a => (z a).2.2)
    (rowblock_col (win3_5.index t) _ e51 j)

/-- The twenty blocks of 5000 rows cover the array. -/
theorem covered_lin (i : S100000x192.Idx) :
    ∃ t : Fin cfg3.N, (cfg3.win 4).flush t = true ∧ i ∈ ((cfg3.win 4).blk t).view.set := by
  obtain ⟨t, ht⟩ := row_point N_3 i
  obtain ⟨⟨-, -, e40, e41, e50, e51⟩, -⟩ := idx_facts t
  refine ⟨t, flush3_4 t, ?_⟩
  show i ∈ ((View.whole main_v31_0).slice (win3_4.rect t)).set
  rw [View.set_slice_whole]
  exact mem_rowblock i (win3_4.index t) _ (e40.trans ht) e41

theorem covered_root (i : S100000x192.Idx) :
    ∃ t : Fin cfg3.N, (cfg3.win 5).flush t = true ∧ i ∈ ((cfg3.win 5).blk t).view.set := by
  obtain ⟨t, ht⟩ := row_point N_3 i
  obtain ⟨⟨-, -, e40, e41, e50, e51⟩, -⟩ := idx_facts t
  refine ⟨t, flush3_5 t, ?_⟩
  show i ∈ ((View.whole main_v31_1).slice (win3_5.rect t)).set
  rw [View.set_slice_whole]
  exact mem_rowblock i (win3_5.index t) _ (e50.trans ht) e51

theorem reg3_lin (c : Dev nD) :
    cur2 (show Vec Ideal S100000x192 .f32 from (dat3 (F := Ideal) V c).arrAt 4 cfg3.N)
      = lin (cur2 (show Vec Ideal S100000x192 .f32 from V c main_v19)) (cur2 (show Vec Ideal S192x192 .f32 from V c main_v21)) (rowOf (show Vec Ideal S1x192 .f32 from V c main_v30) 0) := by
  funext p q
  exact congrFun ((dat3 V c).arrAt_eq_of_cover 4 _ (fun t _ => flushed_lin V c t) covered_lin) (ix2 p q)

theorem reg3_root (c : Dev nD) :
    cur2 (show Vec Ideal S100000x192 .f32 from (dat3 (F := Ideal) V c).arrAt 5 cfg3.N)
      = root (cur2 (show Vec Ideal S100000x192 .f32 from V c main_v19)) (cur2 (show Vec Ideal S192x192 .f32 from V c main_v25)) := by
  funext p q
  exact congrFun ((dat3 V c).arrAt_eq_of_cover 5 _ (fun t _ => flushed_root V c t) covered_root) (ix2 p q)

end Arrays

end Cert.KernelIdeal.KReg3

end
-- ==== Proof.KReg4.lean ====
import proofs.«401365_j67929202754020_1_alg».proof.Proof.KStat

set_option maxRecDepth 16384

noncomputable section

namespace Cert.KernelIdeal.KReg4

open Cert.KernelIdeal Cert.KernelIdeal.Gen Cert.KernelIdeal.KStat Cert.Spec Idealize.ShloMosaic Idealize.ShloMosaic.TcCoe Idealize.SL.Sem
open Idealize.ShloMosaic.ValueIdx

section Pieces

variable {F : FTy → Type} [FloatOps F] (c : Dev nD) (i : grid4.Coords) (a1 : Memref sig .tc .vmem S5000x192 .f32) (h1 : a1.IsWhole) (a2 : Memref sig .tc .vmem S5000x192 .f32) (h2 : a2.IsWhole) (a3 : Memref sig .tc .vmem S5000x192 .f32) (h3 : a3.IsWhole) (a4 : Memref sig .tc .vmem S1x192 .f32) (h4 : a4.IsWhole) (a5 : Memref sig .tc .vmem S1x192 .f32) (h5 : a5.IsWhole)
  (hc : cond4_0 i) (hn : ¬cond4_0 i) (x0 x1 : Vec F S5000x192 .f32) (xo3 xo4 : Vec F S1x192 .f32)

theorem out_A_2 : out4_A_2 c i a1 h1 a2 h2 a3 h3 a4 h4 a5 h5 hc x0 x1 = k4_pay1 x0 x1 := by
  unfold out4_A_2
  rw [View.read_writes_eq_canon _ _ _ (cover4_A_2 c i a1 h1 a2 h2 a3 h3 a4 h4 a5 h5 hc x0 x1)]
  unfold kernelRun4_A
  dsimp only
  sl_unfold_words
  rw [View.canon_unit_zero hz]
  simp only [View.readAt_eq_ld, h1.read_unread, h2.read_unread, View.ld_unit_zero (S := S5000x192) hz]

theorem out_A_3 : out4_A_3 c i a1 h1 a2 h2 a3 h3 a4 h4 a5 h5 hc x0 x1 = k4_pay4 x0 x1 k4_pay2 := by
  unfold out4_A_3
  rw [View.read_writes_eq_canon _ _ _ (cover4_A_3 c i a1 h1 a2 h2 a3 h3 a4 h4 a5 h5 hc x0 x1)]
  unfold kernelRun4_A
  dsimp only
  sl_unfold_words
  rw [View.canon_cons_unit_zero (S := S1x192) hz, View.readCov_unit_zero (S := S1x192) _ hz]
  simp only [View.readAt_eq_ld, h1.read_unread, h2.read_unread, View.ld_unit_zero (S := S5000x192) hz]

theorem out_A_4 : out4_A_4 c i a1 h1 a2 h2 a3 h3 a4 h4 a5 h5 hc x0 x1 = k4_pay5 x0 x1 k4_pay3 := by
  unfold out4_A_4
  rw [View.read_writes_eq_canon _ _ _ (cover4_A_4 c i a1 h1 a2 h2 a3 h3 a4 h4 a5 h5 hc x0 x1)]
  unfold kernelRun4_A
  dsimp only
  sl_unfold_words
  rw [View.canon_cons_unit_zero (S := S1x192) hz, View.readCov_unit_zero (S := S1x192) _ hz]
  simp only [View.readAt_eq_ld, h1.read_unread, h2.read_unread, View.ld_unit_zero (S := S5000x192) hz]

theorem out_B_2 : out4_B_2 c i a1 h1 a2 h2 a3 h3 a4 h4 a5 h5 hn x0 x1 xo3 xo4 = k4_pay1 x0 x1 := by
  unfold out4_B_2
  rw [View.read_writes_eq_canon _ _ _ (cover4_B_2 c i a1 h1 a2 h2 a3 h3 a4 h4 a5 h5 hn x0 x1 xo3 xo4)]
  unfold kernelRun4_B
  dsimp only
  sl_unfold_words
  rw [View.canon_unit_zero hz]
  simp only [View.readAt_eq_ld, h1.read_unread, h2.read_unread, View.ld_unit_zero (S := S5000x192) hz]

theorem out_B_3 : out4_B_3 c i a1 h1 a2 h2 a3 h3 a4 h4 a5 h5 hn x0 x1 xo3 xo4 = k4_pay4 x0 x1 xo3 := by
  unfold out4_B_3
  rw [View.read_writes_eq_canon _ _ _ (cover4_B_3 c i a1 h1 a2 h2 a3 h3 a4 h4 a5 h5 hn x0 x1 xo3 xo4)]
  unfold kernelRun4_B
  dsimp only
  sl_unfold_words
  rw [View.canon_unit_zero hz]
  simp only [View.readAt_eq_ld, h1.read_unread, h2.read_unread, h4.read_unread, View.ld_unit_zero (S := S5000x192) hz,
    View.ld_unit_zero (S := S1x192) hz]

theorem out_B_4 : out4_B_4 c i a1 h1 a2 h2 a3 h3 a4 h4 a5 h5 hn x0 x1 xo3 xo4 = k4_pay5 x0 x1 xo4 := by
  unfold out4_B_4
  rw [View.read_writes_eq_canon _ _ _ (cover4_B_4 c i a1 h1 a2 h2 a3 h3 a4 h4 a5 h5 hn x0 x1 xo3 xo4)]
  unfold kernelRun4_B
  dsimp only
  sl_unfold_words
  rw [View.canon_unit_zero hz]
  simp only [View.readAt_eq_ld, h1.read_unread, h2.read_unread, h5.read_unread, View.ld_unit_zero (S := S5000x192) hz,
    View.ld_unit_zero (S := S1x192) hz]

end Pieces

variable (V : (c : Dev nD) → (b : Ref sig .tc) → Buf (Elt Ideal) ((c : Thread nD τ).loc b))

abbrev arrA (c : Dev nD) : Vec Ideal S100000x192 .f32 := V c main_v35
abbrev arrB (c : Dev nD) : Vec Ideal S100000x192 .f32 := V c main_v31_1
abbrev blkA (c : Dev nD) (t : Fin cfg4.N) : Vec Ideal S5000x192 .f32 := iblk4 V c 0 t
abbrev blkB (c : Dev nD) (t : Fin cfg4.N) : Vec Ideal S5000x192 .f32 := iblk4 V c 1 t
abbrev preArr (c : Dev nD) : Vec Ideal S100000x192 .f32 := fun i => arrA V c i + arrB V c i
abbrev sumArr (c : Dev nD) : Vec Ideal S1x192 .f32 := fun i => colSum (sum2 (arrA V c) (arrB V c)) (i 1)
abbrev sumsqArr (c : Dev nD) : Vec Ideal S1x192 .f32 := fun i => colSumSq (sum2 (arrA V c) (arrB V c)) (i 1)

theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

theorem stats (c : Dev nD) : Stats (N := cfg4.N) N_4 (arrA V c) (arrB V c) (blkA V c) (blkB V c) (outsAt4 V c) where
  rowsA t p q := congrArg (V c main_v35)
    (eq_ix2_rowAt N_4 t p q (((cfg4.win 0).blk t).view.emb (ix2 p q)) (idx_facts t).1 (idx_facts t).2.1 rfl rfl)
  rowsB t p q := congrArg (V c main_v31_1)
    (eq_ix2_rowAt N_4 t p q (((cfg4.win 1).blk t).view.emb (ix2 p q)) (idx_facts t).2.2.1 (idx_facts t).2.2.2.1 rfl rfl)
  first t h0 := by rw [outsAt4_A V c t h0, out_A_2, out_A_3, out_A_4]; rfl
  later t h0 := by rw [outsAt4_B V c t h0, out_B_2, out_B_3, out_B_4]; rfl

theorem flushed_pre (c : Dev nD) (t : Fin cfg4.N) (hf : (cfg4.win 2).flush t = true) :
    (dat4 V c).flushed 2 t = ((cfg4.win 2).blk t).view.read (Elt Ideal) (preArr V c) := by
  show (cfg4.win 2).cut (grid4.coords t) ((dat4 V c).after 2 t) = _
  rw [after4_2]
  funext j
  obtain ⟨p, q, rfl⟩ : ∃ (p : Fin 5000) (q : Fin 192), j = ix2 p q := ⟨j 0, j 1, eq_ix2 j⟩
  show (outsAt4 V c t.val t.isLt).1 (ix2 p q) = preArr V c (((cfg4.win 2).blk t).view.emb (ix2 p q))
  rw [eq_ix2_rowAt N_4 t p q (((cfg4.win 2).blk t).view.emb (ix2 p q)) (idx_facts t).2.2.2.2.1 (idx_facts t).2.2.2.2.2.1 rfl rfl]
  exact (stats V c).pre_apply t p q

/-- Row r is in the block of point r / 5000. -/
theorem cover_pre (i : S100000x192.Idx) :
    ∃ t : Fin cfg4.N, (cfg4.win 2).flush t = true ∧ i ∈ ((cfg4.win 2).blk t).view.set := by
  have hN : cfg4.N = 20 := N_4
  have hi0 : (i 0).val < 100000 := (i 0).isLt
  have ht : (i 0).val / 5000 < cfg4.N := by omega
  refine ⟨⟨(i 0).val / 5000, ht⟩, flush4_2 _, ?_⟩
  show i ∈ ((View.whole main_v36_0).slice (win4_2.rect ⟨(i 0).val / 5000, ht⟩)).set
  rw [View.set_slice_whole, Rect.mem_set_unit]
  exact tile_bounds i (k := win4_2.index ⟨(i 0).val / 5000, ht⟩) (idx_facts _).2.2.2.2.1 (idx_facts _).2.2.2.2.2.1

theorem zero34 (t : Fin cfg4.N) :
    ((fun a => win4_3.index t a * main_v36_1.ty.shape.size a) = fun _ => 0)
      ∧ (fun a => win4_4.index t a * main_v36_2.ty.shape.size a) = fun _ => 0 := by
  obtain ⟨-, -, -, -, -, -, e30, e31, e40, e41⟩ := idx_facts t
  exact ⟨funext fun a => match a with
      | ⟨0, _⟩ => by show win4_3.index t (0 : Fin 2) * 1 = 0; rw [e30]
      | ⟨1, _⟩ => by show win4_3.index t (1 : Fin 2) * 192 = 0; rw [e31],
    funext fun a => match a with
      | ⟨0, _⟩ => by show win4_4.index t (0 : Fin 2) * 1 = 0; rw [e40]
      | ⟨1, _⟩ => by show win4_4.index t (1 : Fin 2) * 192 = 0; rw [e41]⟩

theorem flushed_sum (c : Dev nD) (t : Fin cfg4.N) (hf : (cfg4.win 3).flush t = true) :
    (dat4 V c).flushed 3 t = ((cfg4.win 3).blk t).view.read (Elt Ideal) (sumArr V c) := by
  have hN : cfg4.N = 20 := N_4
  have h19 : t.val = 19 := by have := (flush4_3 t).mp hf; have := t.isLt; omega
  show (cfg4.win 3).cut (grid4.coords t) ((dat4 V c).after 3 t) = _
  rw [after4_3, (stats V c).sum t h19]
  exact (Memref.read_access_unit_zero (Elt Ideal) main_v36_1 (zero34 t).1 (fun a => by rw [congrFun (zero34 t).1 a]; simp) (sumArr V c)).symm

theorem flushed_sumsq (c : Dev nD) (t : Fin cfg4.N) (hf : (cfg4.win 4).flush t = true) :
    (dat4 V c).flushed 4 t = ((cfg4.win 4).blk t).view.read (Elt Ideal) (sumsqArr V c) := by
  have hN : cfg4.N = 20 := N_4
  have h19 : t.val = 19 := by have := (flush4_4 t).mp hf; have := t.isLt; omega
  show (cfg4.win 4).cut (grid4.coords t) ((dat4 V c).after 4 t) = _
  rw [after4_4, (stats V c).sumsq t h19]
  exact (Memref.read_access_unit_zero (Elt Ideal) main_v36_2 (zero34 t).2 (fun a => by rw [congrFun (zero34 t).2 a]; simp) (sumsqArr V c)).symm

/-- The last point's block of a row of sums is the whole row. -/
theorem cover_sum (i : S1x192.Idx) :
    ∃ t : Fin cfg4.N, (cfg4.win 3).flush t = true ∧ i ∈ ((cfg4.win 3).blk t).view.set := by
  have hN : cfg4.N = 20 := N_4
  have ht : 19 < cfg4.N := by omega
  refine ⟨⟨19, ht⟩, (flush4_3 _).mpr rfl, ?_⟩
  show i ∈ ((View.whole main_v36_1).slice (win4_3.rect ⟨19, ht⟩)).set
  rw [View.set_slice_whole]
  exact View.mem_set_unit_zero (zero34 ⟨19, ht⟩).1 _ i

theorem cover_sumsq (i : S1x192.Idx) :
    ∃ t : Fin cfg4.N, (cfg4.win 4).flush t = true ∧ i ∈ ((cfg4.win 4).blk t).view.set := by
  have hN : cfg4.N = 20 := N_4
  have ht : 19 < cfg4.N := by omega
  refine ⟨⟨19, ht⟩, (flush4_4 _).mpr rfl, ?_⟩
  show i ∈ ((View.whole main_v36_2).slice (win4_4.rect ⟨19, ht⟩)).set
  rw [View.set_slice_whole]
  exact View.mem_set_unit_zero (zero34 ⟨19, ht⟩).2 _ i

theorem reg4_pre (c : Dev nD) :
    cur2 (show Vec Ideal S100000x192 .f32 from (dat4 (F := Ideal) V c).arrAt 2 cfg4.N)
      = fun i j => cur2 (show Vec Ideal S100000x192 .f32 from V c main_v35) i j + cur2 (show Vec Ideal S100000x192 .f32 from V c main_v31_1) i j := by
  show cur2 ((dat4 V c).arrAt 2 cfg4.N) = _
  rw [(dat4 V c).arrAt_eq_of_cover 2 (preArr V c) (flushed_pre V c) cover_pre]
  rfl

theorem reg4_sum (c : Dev nD) :
    rowOf (show Vec Ideal S1x192 .f32 from (dat4 (F := Ideal) V c).arrAt 3 cfg4.N) 0
      = colSum (fun i j => cur2 (show Vec Ideal S100000x192 .f32 from V c main_v35) i j + cur2 (show Vec Ideal S100000x192 .f32 from V c main_v31_1) i j) := by
  show rowOf ((dat4 V c).arrAt 3 cfg4.N) 0 = _
  rw [(dat4 V c).arrAt_eq_of_cover 3 (sumArr V c) (flushed_sum V c) cover_sum]
  rfl

theorem reg4_sumsq (c : Dev nD) :
    rowOf (show Vec Ideal S1x192 .f32 from (dat4 (F := Ideal) V c).arrAt 4 cfg4.N) 0
      = colSumSq (fun i j => cur2 (show Vec Ideal S100000x192 .f32 from V c main_v35) i j + cur2 (show Vec Ideal S100000x192 .f32 from V c main_v31_1) i j) := by
  show rowOf ((dat4 V c).arrAt 4 cfg4.N) 0 = _
  rw [(dat4 V c).arrAt_eq_of_cover 4 (sumsqArr V c) (flushed_sumsq V c) cover_sumsq]
  rfl

end Cert.KernelIdeal.KReg4

end
-- ==== Proof.KReg5.lean ====
import proofs.«401365_j67929202754020_1_alg».proof.Proof.KNorm

set_option maxRecDepth 16384

noncomputable section

namespace Cert.KernelIdeal.KReg5

open Cert.KernelIdeal Cert.KernelIdeal.Gen Cert.Spec Idealize.ShloMosaic Idealize.ShloMosaic.TcCoe Idealize.SL.Sem
open Idealize.ShloMosaic.ValueIdx KLin KNorm

section Regions
variable (V : (c : Dev nD) → (b : Ref sig .tc) → Buf (Elt Ideal) ((c : Thread nD τ).loc b))

theorem idx_facts : ∀ t : Fin cfg5.N,
    (win5_0.index t (0 : Fin 2) = t.val ∧ win5_0.index t (1 : Fin 2) = 0
    ∧ win5_5.index t (0 : Fin 2) = t.val ∧ win5_5.index t (1 : Fin 2) = 0)
    ∧ ∀ a : Fin 2, win5_1.index t a = 0 ∧ win5_2.index t a = 0 ∧ win5_3.index t a = 0 ∧ win5_4.index t a = 0 :=
  (by decide +kernel : ∀ t : Fin grid5.N, _)

/-- Each point's block of the output is that block of the normalised array. -/
theorem flushed_eq (c : Dev nD) (t : Fin cfg5.N) :
    (dat5 (F := Ideal) V c).flushed 5 t = ((cfg5.win 5).blk t).view.read (Elt Ideal) (normed (V c main_v36_0) (V c main_v38) (V c main_v42) (V c main_v43) (V c main_v44)) := by
  obtain ⟨⟨f00, f01, f50, f51⟩, z⟩ := idx_facts t
  show (cfg5.win 5).cut (grid5.coords t) ((dat5 (F := Ideal) V c).after 5 t) = _
  rw [after5_5]
  unfold out5_5
  rw [View.canon_unit_zero hz]
  simp only [View.ld_unit_zero (S := S5000x192) hz, View.ld_unit_zero (S := S1x192) hz, k5_pay1, shapeCast_self]
  funext j
  exact norm_blk (iblk5 V c 0 t) (iblk5 V c 1 t) (iblk5 V c 2 t) (iblk5 V c 3 t) (iblk5 V c 4 t)
    (V c main_v36_0) (V c main_v38) (V c main_v42) (V c main_v43) (V c main_v44) j (((cfg5.win 5).blk t).view.emb j)
    (fun q => congrArg (V c main_v36_0) (rowblock_emb (win5_0.index t) (win5_5.index t) _ _ (f00.trans f50.symm) f01 j q))
    (rowblock_col (win5_5.index t) _ f51 j)
    (whole_read (s := S1x192) (V c main_v38) (win5_1.index t) _ fun a => (z a).1)
    (whole_read (s := S1x192) (V c main_v42) (win5_2.index t) _ fun a => (z a).2.1)
    (whole_read (s := S1x192) (V c main_v43) (win5_3.index t) _ fun a => (z a).2.2.1)
    (whole_read (s := S1x192) (V c main_v44) (win5_4.index t) _ fun a => (z a).2.2.2)

/-- The twenty blocks of 5000 rows cover the array. -/
theorem covered (i : S100000x192.Idx) :
    ∃ t : Fin cfg5.N, (cfg5.win 5).flush t = true ∧ i ∈ ((cfg5.win 5).blk t).view.set := by
  obtain ⟨t, ht⟩ := row_point N_5 i
  obtain ⟨⟨-, -, f50, f51⟩, -⟩ := idx_facts t
  refine ⟨t, flush5_5 t, ?_⟩
  show i ∈ ((View.whole main_v45).slice (win5_5.rect t)).set
  rw [View.set_slice_whole]
  exact mem_rowblock i (win5_5.index t) _ (f50.trans ht) f51

theorem reg5_bn (c : Dev nD) :
    cur2 (show Vec Ideal S100000x192 .f32 from (dat5 (F := Ideal) V c).arrAt 5 cfg5.N)
      = bn (cur2 (show Vec Ideal S100000x192 .f32 from V c main_v36_0)) (rowOf (show Vec Ideal S1x192 .f32 from V c main_v38) 0)
          (rowOf (show Vec Ideal S1x192 .f32 from V c main_v42) 0) (rowOf (show Vec Ideal S1x192 .f32 from V c main_v43) 0)
          (rowOf (show Vec Ideal S1x192 .f32 from V c main_v44) 0) := by
  funext p q
  exact congrFun ((dat5 (F := Ideal) V c).arrAt_eq_of_cover 5 _ (fun t _ => flushed_eq V c t) covered) (ix2 p q)

end Regions

end Cert.KernelIdeal.KReg5

end
-- ==== Proof.KLayer1Core.lean ====
import proofs.«401365_j67929202754020_1_alg».proof.Proof.KLayerCore
import proofs.«401365_j67929202754020_1_alg».proof.Proof.KReg3
import proofs.«401365_j67929202754020_1_alg».proof.Proof.KReg4
import proofs.«401365_j67929202754020_1_alg».proof.Proof.KReg5

noncomputable section

namespace Cert.KernelIdeal.KLayer1Core

open Cert.KernelIdeal Cert.KernelIdeal.Gen Cert.Spec Cert.KernelIdeal.KLayerCore
open Idealize.ShloMosaic Idealize.ShloMosaic.TcCoe Idealize.SL.Sem Idealize.ShloMosaic.ValueIdx

variable (m : (ℓ : Loc nD τ sig) → Buf (Elt Ideal) ℓ) (ρ : Dev nD → PrngReg)

section Host
variable (c : Dev nD)

theorem params_Wrel :
    cur2 (show Vec Ideal S192x192 .f32 from V8 m ρ c main_v21)
      = slabOf (show Vec Ideal S3x192x192 .f32 from W7 m ρ c (Proc.devRef .tc main_arg7)) (0 : Fin 3) := by
  funext i j
  show StableHlo.after (hostOps3 (F := Ideal)) (W7 m ρ c) (Proc.devRef .tc main_v21) (ix2 i j) = _
  after_results
  exact slab_apply 0 _ _ _ (0 : Fin 3) rfl i j

theorem params_Wroot :
    cur2 (show Vec Ideal S192x192 .f32 from V8 m ρ c main_v25)
      = slabOf (show Vec Ideal S3x192x192 .f32 from W7 m ρ c (Proc.devRef .tc main_arg9)) (0 : Fin 3) := by
  funext i j
  show StableHlo.after (hostOps3 (F := Ideal)) (W7 m ρ c) (Proc.devRef .tc main_v25) (ix2 i j) = _
  after_results
  exact slab_apply 0 _ _ _ (0 : Fin 3) rfl i j

theorem params_brel :
    rowOf (show Vec Ideal S1x192 .f32 from V8 m ρ c main_v30) 0
      = rowOf (show Vec Ideal S3x192 .f32 from W7 m ρ c (Proc.devRef .tc main_arg8)) (0 : Fin 3) := by
  funext j
  show StableHlo.after (hostOps3 (F := Ideal)) (W7 m ρ c) (Proc.devRef .tc main_v30) (ix2 0 j) = _
  after_results
  exact (shapeCast_a_1a_apply _ _ 0 j).trans (row_apply 0 _ _ _ (0 : Fin 3) rfl j)

theorem params_gamma :
    cur1 (show Vec Ideal S192 .f32 from V8 m ρ c main_v27)
      = rowOf (show Vec Ideal S4x192 .f32 from W7 m ρ c (Proc.devRef .tc main_arg10)) (1 : Fin 4) := by
  funext j
  show StableHlo.after (hostOps3 (F := Ideal)) (W7 m ρ c) (Proc.devRef .tc main_v27) (ix1 j) = _
  after_results
  exact row_apply 1 _ _ _ (1 : Fin 4) rfl j

theorem params_beta :
    cur1 (show Vec Ideal S192 .f32 from V8 m ρ c main_v29)
      = rowOf (show Vec Ideal S4x192 .f32 from W7 m ρ c (Proc.devRef .tc main_arg11)) (1 : Fin 4) := by
  funext j
  show StableHlo.after (hostOps3 (F := Ideal)) (W7 m ρ c) (Proc.devRef .tc main_v29) (ix1 j) = _
  after_results
  exact row_apply 1 _ _ _ (1 : Fin 4) rfl j

theorem take_eq :
    (show Vec Ideal S400000x192 .f32 from W10 m ρ c (Proc.devRef .tc main_v32))
      = takeRows (show Vec Ideal S100000x192 .f32 from W9 m ρ c (Proc.devRef .tc main_v31_0))
          (show IVec S400000 32 from W9 m ρ c (Proc.devRef .tc main_arg1)) := by
  show StableHlo.after (hostOps4 (F := Ideal)) (W9 m ρ c) (Proc.devRef .tc main_v32) = _
  after_results_simp
  simp only [StableHlo.TRef.ofBuf, StableHlo.TRef.toBuf, cast_eq]
  rfl

theorem scatter_eq (U : Valuation τ sig (Elt Ideal)) :
    (show Vec Ideal S100000x192 .f32 from StableHlo.after (hostOps4_1 (F := Ideal)) U (Proc.devRef .tc main_v35))
      = aggRows (show IVec S400000 32 from U (Proc.devRef .tc main_arg2))
          (show Vec Ideal S400000x192 .f32 from U (Proc.devRef .tc main_v32)) := by
  show StableHlo.after (hostOps4_1 (F := Ideal)) U (Proc.devRef .tc main_v35) = _
  after_results
  rfl

theorem moments_mean :
    rowOf (show Vec Ideal S1x192 .f32 from V13 m ρ c main_v38) 0
      = fun j => Ideal.div (rowOf (show Vec Ideal S1x192 .f32 from W12 m ρ c (Proc.devRef .tc main_v36_1)) 0 j) cN := by
  funext j
  show StableHlo.after (hostOps5 (F := Ideal)) (W12 m ρ c) (Proc.devRef .tc main_v38) (ix2 0 j) = _
  after_results
  rfl

theorem moments_var :
    rowOf (show Vec Ideal S1x192 .f32 from V13 m ρ c main_v42) 0
      = fun j => Ideal.div (rowOf (show Vec Ideal S1x192 .f32 from W12 m ρ c (Proc.devRef .tc main_v36_2)) 0 j) cN
          - Ideal.div (rowOf (show Vec Ideal S1x192 .f32 from W12 m ρ c (Proc.devRef .tc main_v36_1)) 0 j) cN
            * Ideal.div (rowOf (show Vec Ideal S1x192 .f32 from W12 m ρ c (Proc.devRef .tc main_v36_1)) 0 j) cN := by
  funext j
  show StableHlo.after (hostOps5 (F := Ideal)) (W12 m ρ c) (Proc.devRef .tc main_v42) (ix2 0 j) = _
  after_results
  rfl

theorem moments_gamma :
    rowOf (show Vec Ideal S1x192 .f32 from V13 m ρ c main_v43) 0
      = cur1 (show Vec Ideal S192 .f32 from W12 m ρ c (Proc.devRef .tc main_v27)) := by
  funext j
  show StableHlo.after (hostOps5 (F := Ideal)) (W12 m ρ c) (Proc.devRef .tc main_v43) (ix2 0 j) = _
  after_results
  exact shapeCast_a_1a_apply _ _ 0 j

theorem moments_beta :
    rowOf (show Vec Ideal S1x192 .f32 from V13 m ρ c main_v44) 0
      = cur1 (show Vec Ideal S192 .f32 from W12 m ρ c (Proc.devRef .tc main_v29)) := by
  funext j
  show StableHlo.after (hostOps5 (F := Ideal)) (W12 m ρ c) (Proc.devRef .tc main_v44) (ix2 0 j) = _
  after_results
  exact shapeCast_a_1a_apply _ _ 0 j

/-- The scale and the shift cut out before the linear region are still in place after the statistics region. -/
theorem kept_param (r : Ref sig .tc) (h1 : ∀ w, Pipeline.arrRef spec4 w ≠ r) (h2 : r ∉ hostOps4_1_W) (h3 : r ∉ hostOps4_W)
    (h4 : ∀ w, Pipeline.arrRef spec3 w ≠ r) : W12 m ρ c (Proc.devRef .tc r) = V8 m ρ c r :=
  (W12_of_ne m ρ c r h1).trans ((hostOps4_1_writes.kept h2).trans
    ((hostOps4_writes.kept h3).trans (W9_of_ne m ρ c r h4)))

end Host

theorem _root_.Cert.KernelIdeal.KLayer1.layer1 (c : Dev nD)
    (hsrc : ∀ e, InRange (normIdx (show IVec S400000 32 from m ((c.tc : Thread nD τ).loc main_arg1)) e)) :
    cur2 (show Vec Ideal S100000x192 .f32 from W14 m ρ c (Proc.devRef .tc main_v45))
      = layerK (cur2 (show Vec Ideal S100000x192 .f32 from W7 m ρ c (Proc.devRef .tc main_v19)))
          (slabOf (show Vec Ideal S3x192x192 .f32 from m ((c.tc : Thread nD τ).loc main_arg7)) 0)
          (rowOf (show Vec Ideal S3x192 .f32 from m ((c.tc : Thread nD τ).loc main_arg8)) 0)
          (slabOf (show Vec Ideal S3x192x192 .f32 from m ((c.tc : Thread nD τ).loc main_arg9)) 0)
          (srcOf (show IVec S400000 32 from m ((c.tc : Thread nD τ).loc main_arg1)))
          (dstOf (show IVec S400000 32 from m ((c.tc : Thread nD τ).loc main_arg2)))
          (rowOf (show Vec Ideal S4x192 .f32 from m ((c.tc : Thread nD τ).loc main_arg10)) 1)
          (rowOf (show Vec Ideal S4x192 .f32 from m ((c.tc : Thread nD τ).loc main_arg11)) 1) := by
  have a := launched7 m ρ c
  rw [← launched9 m ρ c main_arg1 (by decide)] at hsrc ⊢
  rw [← launched10 m ρ c main_arg2 (by decide), ← a main_arg7 (by decide), ← a main_arg8 (by decide),
    ← a main_arg9 (by decide), ← a main_arg10 (by decide), ← a main_arg11 (by decide)]
  have kx : V8 m ρ c main_v19 = W7 m ρ c (Proc.devRef .tc main_v19) := hostOps3_writes.kept (by decide)
  have hL := KReg3.reg3_lin (V8 m ρ) c
  rw [← (W9_arr m ρ c 4 : W9 m ρ c (Proc.devRef .tc main_v31_0) = _), kx, params_Wrel m ρ c, params_brel m ρ c] at hL
  have hR := KReg3.reg3_root (V8 m ρ) c
  rw [← (W9_arr m ρ c 5 : W9 m ρ c (Proc.devRef .tc main_v31_1) = _), kx, params_Wroot m ρ c,
    ← ((hostOps4_1_writes.kept (by decide)).trans (hostOps4_writes.kept (by decide)) :
      V11 m ρ c main_v31_1 = W9 m ρ c (Proc.devRef .tc main_v31_1))] at hR
  have hP := KReg4.reg4_pre (V11 m ρ) c
  rw [← (W12_arr m ρ c 2 : W12 m ρ c (Proc.devRef .tc main_v36_0) = _),
    ← (hostOps5_writes.kept (by decide) : V13 m ρ c main_v36_0 = W12 m ρ c (Proc.devRef .tc main_v36_0))] at hP
  have hs := KReg4.reg4_sum (V11 m ρ) c
  rw [← (W12_arr m ρ c 3 : W12 m ρ c (Proc.devRef .tc main_v36_1) = _)] at hs
  have hq := KReg4.reg4_sumsq (V11 m ρ) c
  rw [← (W12_arr m ρ c 4 : W12 m ρ c (Proc.devRef .tc main_v36_2) = _)] at hq
  have hg := moments_gamma m ρ c
  rw [kept_param m ρ c main_v27 (by decide) (by decide) (by decide) (by decide), params_gamma m ρ c] at hg
  have hb := moments_beta m ρ c
  rw [kept_param m ρ c main_v29 (by decide) (by decide) (by decide) (by decide), params_beta m ρ c] at hb
  have hO := KReg5.reg5_bn (V13 m ρ) c
  rw [← (W14_arr m ρ c 5 : W14 m ρ c (Proc.devRef .tc main_v45) = _)] at hO
  exact layerK_of_parts hsrc hL hR ((scatter_eq (W10 m ρ c)).trans (congrArg (aggRows _) (take_eq m ρ c))) hP hs hq
    (moments_mean m ρ c) (moments_var m ρ c) hg hb hO

theorem pass_arg1 (c : Dev nD) :
    W14 m ρ c (Proc.devRef .tc main_arg1) = W7 m ρ c (Proc.devRef .tc main_arg1) :=
  (launched14 m ρ c _ (by decide)).trans (launched7 m ρ c _ (by decide)).symm

theorem pass_arg2 (c : Dev nD) :
    W14 m ρ c (Proc.devRef .tc main_arg2) = W7 m ρ c (Proc.devRef .tc main_arg2) :=
  (launched14 m ρ c _ (by decide)).trans (launched7 m ρ c _ (by decide)).symm

theorem pass_arg7 (c : Dev nD) :
    W14 m ρ c (Proc.devRef .tc main_arg7) = W7 m ρ c (Proc.devRef .tc main_arg7) :=
  (launched14 m ρ c _ (by decide)).trans (launched7 m ρ c _ (by decide)).symm

theorem pass_arg8 (c : Dev nD) :
    W14 m ρ c (Proc.devRef .tc main_arg8) = W7 m ρ c (Proc.devRef .tc main_arg8) :=
  (launched14 m ρ c _ (by decide)).trans (launched7 m ρ c _ (by decide)).symm

theorem pass_arg9 (c : Dev nD) :
    W14 m ρ c (Proc.devRef .tc main_arg9) = W7 m ρ c (Proc.devRef .tc main_arg9) :=
  (launched14 m ρ c _ (by decide)).trans (launched7 m ρ c _ (by decide)).symm

theorem pass_arg10 (c : Dev nD) :
    W14 m ρ c (Proc.devRef .tc main_arg10) = W7 m ρ c (Proc.devRef .tc main_arg10) :=
  (launched14 m ρ c _ (by decide)).trans (launched7 m ρ c _ (by decide)).symm

theorem pass_arg11 (c : Dev nD) :
    W14 m ρ c (Proc.devRef .tc main_arg11) = W7 m ρ c (Proc.devRef .tc main_arg11) :=
  (launched14 m ρ c _ (by decide)).trans (launched7 m ρ c _ (by decide)).symm

end Cert.KernelIdeal.KLayer1Core

end
-- ==== Proof.KLayer1.lean ====
import proofs.«401365_j67929202754020_1_alg».proof.Proof.KLayer1Core

noncomputable section

namespace Cert.KernelIdeal.KLayer1

open Cert.KernelIdeal Cert.KernelIdeal.Gen Cert.KernelIdeal.KLayerCore Idealize.ShloMosaic Idealize.ShloMosaic.TcCoe Idealize.SL.Sem

variable (m : (ℓ : Loc nD τ sig) → Buf (Elt Ideal) ℓ) (ρ : Dev nD → PrngReg)

theorem entry_arg1 (c : Dev nD) :
    W7 m ρ c (Proc.devRef .tc main_arg1) = m ((c.tc : Thread nD τ).loc main_arg1) :=
  launched7 m ρ c _ (by decide)

theorem entry_arg2 (c : Dev nD) :
    W7 m ρ c (Proc.devRef .tc main_arg2) = m ((c.tc : Thread nD τ).loc main_arg2) :=
  launched7 m ρ c _ (by decide)

theorem entry_arg7 (c : Dev nD) :
    W7 m ρ c (Proc.devRef .tc main_arg7) = m ((c.tc : Thread nD τ).loc main_arg7) :=
  launched7 m ρ c _ (by decide)

theorem entry_arg8 (c : Dev nD) :
    W7 m ρ c (Proc.devRef .tc main_arg8) = m ((c.tc : Thread nD τ).loc main_arg8) :=
  launched7 m ρ c _ (by decide)

theorem entry_arg9 (c : Dev nD) :
    W7 m ρ c (Proc.devRef .tc main_arg9) = m ((c.tc : Thread nD τ).loc main_arg9) :=
  launched7 m ρ c _ (by decide)

theorem entry_arg10 (c : Dev nD) :
    W7 m ρ c (Proc.devRef .tc main_arg10) = m ((c.tc : Thread nD τ).loc main_arg10) :=
  launched7 m ρ c _ (by decide)

theorem entry_arg11 (c : Dev nD) :
    W7 m ρ c (Proc.devRef .tc main_arg11) = m ((c.tc : Thread nD τ).loc main_arg11) :=
  launched7 m ρ c _ (by decide)

end Cert.KernelIdeal.KLayer1

end
-- ==== Proof.KReg6.lean ====
import proofs.«401365_j67929202754020_1_alg».proof.Proof.KLin

set_option maxRecDepth 16384

noncomputable section

namespace Cert.KernelIdeal.KReg6

open Cert.KernelIdeal Cert.KernelIdeal.Gen Cert.Spec Idealize.ShloMosaic Idealize.ShloMosaic.TcCoe Idealize.SL.Sem
open Idealize.ShloMosaic.ValueIdx KLin

section Arrays
variable (V : (c : Dev nD) → (b : Ref sig .tc) → Buf (Elt Ideal) ((c : Thread nD τ).loc b))

theorem idx_facts : ∀ t : Fin cfg6.N,
    (win6_0.index t (0 : Fin 2) = t.val ∧ win6_0.index t (1 : Fin 2) = 0
    ∧ win6_4.index t (0 : Fin 2) = t.val ∧ win6_4.index t (1 : Fin 2) = 0
    ∧ win6_5.index t (0 : Fin 2) = t.val ∧ win6_5.index t (1 : Fin 2) = 0)
    ∧ ∀ a : Fin 2, win6_1.index t a = 0 ∧ win6_2.index t a = 0 ∧ win6_3.index t a = 0 :=
  (by decide +kernel : ∀ t : Fin grid6.N, _)

/-- Each point's block of the output is that block of the message transform of the arrays. -/
theorem flushed_lin (c : Dev nD) (t : Fin cfg6.N) :
    (dat6 V c).flushed 4 t = ((cfg6.win 4).blk t).view.read (Elt Ideal) (linArr (K := 192) (V c main_v45) (V c main_v47) (V c main_v56)) := by
  obtain ⟨⟨e00, e01, e40, e41, -, -⟩, z⟩ := idx_facts t
  show (cfg6.win 4).cut (grid6.coords t) ((dat6 V c).after 4 t) = _
  rw [after6_4]
  unfold out6_4
  rw [View.canon_unit_zero hz]
  simp only [View.ld_unit_zero (S := S5000x192) hz, View.ld_unit_zero (S := S192x192) hz, View.ld_unit_zero (S := S1x192) hz,
    k6_pay2, k6_pay1, shapeCast_self]
  funext j
  exact lin_blk (K := 192) (iblk6 V c 0 t) (iblk6 V c 1 t) (iblk6 V c 2 t) (V c main_v45) (V c main_v47) (V c main_v56) j
    (((cfg6.win 4).blk t).view.emb j) (fun k => congrArg (V c main_v45) (rowblock_emb (win6_0.index t) (win6_4.index t) _ _ (e00.trans e40.symm) e01 j k))
    (whole_read (s := S192x192) (V c main_v47) (win6_1.index t) _ fun a => (z a).1)
    (whole_read (s := S1x192) (V c main_v56) (win6_2.index t) _ fun a => (z a).2.1)
    (rowblock_col (win6_4.index t) _ e41 j)

/-- The same for the root transform. -/
theorem flushed_root (c : Dev nD) (t : Fin cfg6.N) :
    (dat6 V c).flushed 5 t = ((cfg6.win 5).blk t).view.read (Elt Ideal) (rootArr (K := 192) (V c main_v45) (V c main_v51)) := by
  obtain ⟨⟨e00, e01, -, -, e50, e51⟩, z⟩ := idx_facts t
  show (cfg6.win 5).cut (grid6.coords t) ((dat6 V c).after 5 t) = _
  rw [after6_5]
  unfold out6_5
  rw [View.canon_unit_zero hz]
  simp only [View.ld_unit_zero (S := S5000x192) hz, View.ld_unit_zero (S := S192x192) hz, k6_pay3, k6_pay1, shapeCast_self]
  funext j
  exact root_blk (K := 192) (iblk6 V c 0 t) (iblk6 V c 3 t) (V c main_v45) (V c main_v51) j
    (((cfg6.win 5).blk t).view.emb j) (fun k => congrArg (V c main_v45) (rowblock_emb (win6_0.index t) (win6_5.index t) _ _ (e00.trans e50.symm) e01 j k))
    (whole_read (s := S192x192) (V c main_v51) (win6_3.index t) _ fun a => (z a).2.2)
    (rowblock_col (win6_5.index t) _ e51 j)

/-- The twenty blocks of 5000 rows cover the array. -/
theorem covered_lin (i : S100000x192.Idx) :
    ∃ t : Fin cfg6.N, (cfg6.win 4).flush t = true ∧ i ∈ ((cfg6.win 4).blk t).view.set := by
  obtain ⟨t, ht⟩ := row_point N_6 i
  obtain ⟨⟨-, -, e40, e41, e50, e51⟩, -⟩ := idx_facts t
  refine ⟨t, flush6_4 t, ?_⟩
  show i ∈ ((View.whole main_v57_0).slice (win6_4.rect t)).set
  rw [View.set_slice_whole]
  exact mem_rowblock i (win6_4.index t) _ (e40.trans ht) e41

theorem covered_root (i : S100000x192.Idx) :
    ∃ t : Fin cfg6.N, (cfg6.win 5).flush t = true ∧ i ∈ ((cfg6.win 5).blk t).view.set := by
  obtain ⟨t, ht⟩ := row_point N_6 i
  obtain ⟨⟨-, -, e40, e41, e50, e51⟩, -⟩ := idx_facts t
  refine ⟨t, flush6_5 t, ?_⟩
  show i ∈ ((View.whole main_v57_1).slice (win6_5.rect t)).set
  rw [View.set_slice_whole]
  exact mem_rowblock i (win6_5.index t) _ (e50.trans ht) e51

theorem reg6_lin (c : Dev nD) :
    cur2 (show Vec Ideal S100000x192 .f32 from (dat6 (F := Ideal) V c).arrAt 4 cfg6.N)
      = lin (cur2 (show Vec Ideal S100000x192 .f32 from V c main_v45)) (cur2 (show Vec Ideal S192x192 .f32 from V c main_v47)) (rowOf (show Vec Ideal S1x192 .f32 from V c main_v56) 0) := by
  funext p q
  exact congrFun ((dat6 V c).arrAt_eq_of_cover 4 _ (fun t _ => flushed_lin V c t) covered_lin) (ix2 p q)

theorem reg6_root (c : Dev nD) :
    cur2 (show Vec Ideal S100000x192 .f32 from (dat6 (F := Ideal) V c).arrAt 5 cfg6.N)
      = root (cur2 (show Vec Ideal S100000x192 .f32 from V c main_v45)) (cur2 (show Vec Ideal S192x192 .f32 from V c main_v51)) := by
  funext p q
  exact congrFun ((dat6 V c).arrAt_eq_of_cover 5 _ (fun t _ => flushed_root V c t) covered_root) (ix2 p q)

end Arrays

end Cert.KernelIdeal.KReg6

end
-- ==== Proof.KReg7.lean ====
import proofs.«401365_j67929202754020_1_alg».proof.Proof.KStat

set_option maxRecDepth 16384

noncomputable section

namespace Cert.KernelIdeal.KReg7

open Cert.KernelIdeal Cert.KernelIdeal.Gen Cert.KernelIdeal.KStat Cert.Spec Idealize.ShloMosaic Idealize.ShloMosaic.TcCoe Idealize.SL.Sem
open Idealize.ShloMosaic.ValueIdx

section Pieces

variable {F : FTy → Type} [FloatOps F] (c : Dev nD) (i : grid7.Coords) (a1 : Memref sig .tc .vmem S5000x192 .f32) (h1 : a1.IsWhole) (a2 : Memref sig .tc .vmem S5000x192 .f32) (h2 : a2.IsWhole) (a3 : Memref sig .tc .vmem S5000x192 .f32) (h3 : a3.IsWhole) (a4 : Memref sig .tc .vmem S1x192 .f32) (h4 : a4.IsWhole) (a5 : Memref sig .tc .vmem S1x192 .f32) (h5 : a5.IsWhole)
  (hc : cond7_0 i) (hn : ¬cond7_0 i) (x0 x1 : Vec F S5000x192 .f32) (xo3 xo4 : Vec F S1x192 .f32)

theorem out_A_2 : out7_A_2 c i a1 h1 a2 h2 a3 h3 a4 h4 a5 h5 hc x0 x1 = k7_pay1 x0 x1 := by
  unfold out7_A_2
  rw [View.read_writes_eq_canon _ _ _ (cover7_A_2 c i a1 h1 a2 h2 a3 h3 a4 h4 a5 h5 hc x0 x1)]
  unfold kernelRun7_A
  dsimp only
  sl_unfold_words
  rw [View.canon_unit_zero hz]
  simp only [View.readAt_eq_ld, h1.read_unread, h2.read_unread, View.ld_unit_zero (S := S5000x192) hz]

theorem out_A_3 : out7_A_3 c i a1 h1 a2 h2 a3 h3 a4 h4 a5 h5 hc x0 x1 = k7_pay4 x0 x1 k7_pay2 := by
  unfold out7_A_3
  rw [View.read_writes_eq_canon _ _ _ (cover7_A_3 c i a1 h1 a2 h2 a3 h3 a4 h4 a5 h5 hc x0 x1)]
  unfold kernelRun7_A
  dsimp only
  sl_unfold_words
  rw [View.canon_cons_unit_zero (S := S1x192) hz, View.readCov_unit_zero (S := S1x192) _ hz]
  simp only [View.readAt_eq_ld, h1.read_unread, h2.read_unread, View.ld_unit_zero (S := S5000x192) hz]

theorem out_A_4 : out7_A_4 c i a1 h1 a2 h2 a3 h3 a4 h4 a5 h5 hc x0 x1 = k7_pay5 x0 x1 k7_pay3 := by
  unfold out7_A_4
  rw [View.read_writes_eq_canon _ _ _ (cover7_A_4 c i a1 h1 a2 h2 a3 h3 a4 h4 a5 h5 hc x0 x1)]
  unfold kernelRun7_A
  dsimp only
  sl_unfold_words
  rw [View.canon_cons_unit_zero (S := S1x192) hz, View.readCov_unit_zero (S := S1x192) _ hz]
  simp only [View.readAt_eq_ld, h1.read_unread, h2.read_unread, View.ld_unit_zero (S := S5000x192) hz]

theorem out_B_2 : out7_B_2 c i a1 h1 a2 h2 a3 h3 a4 h4 a5 h5 hn x0 x1 xo3 xo4 = k7_pay1 x0 x1 := by
  unfold out7_B_2
  rw [View.read_writes_eq_canon _ _ _ (cover7_B_2 c i a1 h1 a2 h2 a3 h3 a4 h4 a5 h5 hn x0 x1 xo3 xo4)]
  unfold kernelRun7_B
  dsimp only
  sl_unfold_words
  rw [View.canon_unit_zero hz]
  simp only [View.readAt_eq_ld, h1.read_unread, h2.read_unread, View.ld_unit_zero (S := S5000x192) hz]

theorem out_B_3 : out7_B_3 c i a1 h1 a2 h2 a3 h3 a4 h4 a5 h5 hn x0 x1 xo3 xo4 = k7_pay4 x0 x1 xo3 := by
  unfold out7_B_3
  rw [View.read_writes_eq_canon _ _ _ (cover7_B_3 c i a1 h1 a2 h2 a3 h3 a4 h4 a5 h5 hn x0 x1 xo3 xo4)]
  unfold kernelRun7_B
  dsimp only
  sl_unfold_words
  rw [View.canon_unit_zero hz]
  simp only [View.readAt_eq_ld, h1.read_unread, h2.read_unread, h4.read_unread, View.ld_unit_zero (S := S5000x192) hz,
    View.ld_unit_zero (S := S1x192) hz]

theorem out_B_4 : out7_B_4 c i a1 h1 a2 h2 a3 h3 a4 h4 a5 h5 hn x0 x1 xo3 xo4 = k7_pay5 x0 x1 xo4 := by
  unfold out7_B_4
  rw [View.read_writes_eq_canon _ _ _ (cover7_B_4 c i a1 h1 a2 h2 a3 h3 a4 h4 a5 h5 hn x0 x1 xo3 xo4)]
  unfold kernelRun7_B
  dsimp only
  sl_unfold_words
  rw [View.canon_unit_zero hz]
  simp only [View.readAt_eq_ld, h1.read_unread, h2.read_unread, h5.read_unread, View.ld_unit_zero (S := S5000x192) hz,
    View.ld_unit_zero (S := S1x192) hz]

end Pieces

variable (V : (c : Dev nD) → (b : Ref sig .tc) → Buf (Elt Ideal) ((c : Thread nD τ).loc b))

abbrev arrA (c : Dev nD) : Vec Ideal S100000x192 .f32 := V c main_v61
abbrev arrB (c : Dev nD) : Vec Ideal S100000x192 .f32 := V c main_v57_1
abbrev blkA (c : Dev nD) (t : Fin cfg7.N) : Vec Ideal S5000x192 .f32 := iblk7 V c 0 t
abbrev blkB (c : Dev nD) (t : Fin cfg7.N) : Vec Ideal S5000x192 .f32 := iblk7 V c 1 t
abbrev preArr (c : Dev nD) : Vec Ideal S100000x192 .f32 := fun i => arrA V c i + arrB V c i
abbrev sumArr (c : Dev nD) : Vec Ideal S1x192 .f32 := fun i => colSum (sum2 (arrA V c) (arrB V c)) (i 1)
abbrev sumsqArr (c : Dev nD) : Vec Ideal S1x192 .f32 := fun i => colSumSq (sum2 (arrA V c) (arrB V c)) (i 1)

theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

theorem stats (c : Dev nD) : Stats (N := cfg7.N) N_7 (arrA V c) (arrB V c) (blkA V c) (blkB V c) (outsAt7 V c) where
  rowsA t p q := congrArg (V c main_v61)
    (eq_ix2_rowAt N_7 t p q (((cfg7.win 0).blk t).view.emb (ix2 p q)) (idx_facts t).1 (idx_facts t).2.1 rfl rfl)
  rowsB t p q := congrArg (V c main_v57_1)
    (eq_ix2_rowAt N_7 t p q (((cfg7.win 1).blk t).view.emb (ix2 p q)) (idx_facts t).2.2.1 (idx_facts t).2.2.2.1 rfl rfl)
  first t h0 := by rw [outsAt7_A V c t h0, out_A_2, out_A_3, out_A_4]; rfl
  later t h0 := by rw [outsAt7_B V c t h0, out_B_2, out_B_3, out_B_4]; rfl

theorem flushed_pre (c : Dev nD) (t : Fin cfg7.N) (hf : (cfg7.win 2).flush t = true) :
    (dat7 V c).flushed 2 t = ((cfg7.win 2).blk t).view.read (Elt Ideal) (preArr V c) := by
  show (cfg7.win 2).cut (grid7.coords t) ((dat7 V c).after 2 t) = _
  rw [after7_2]
  funext j
  obtain ⟨p, q, rfl⟩ : ∃ (p : Fin 5000) (q : Fin 192), j = ix2 p q := ⟨j 0, j 1, eq_ix2 j⟩
  show (outsAt7 V c t.val t.isLt).1 (ix2 p q) = preArr V c (((cfg7.win 2).blk t).view.emb (ix2 p q))
  rw [eq_ix2_rowAt N_7 t p q (((cfg7.win 2).blk t).view.emb (ix2 p q)) (idx_facts t).2.2.2.2.1 (idx_facts t).2.2.2.2.2.1 rfl rfl]
  exact (stats V c).pre_apply t p q

/-- Row r is in the block of point r / 5000. -/
theorem cover_pre (i : S100000x192.Idx) :
    ∃ t : Fin cfg7.N, (cfg7.win 2).flush t = true ∧ i ∈ ((cfg7.win 2).blk t).view.set := by
  have hN : cfg7.N = 20 := N_7
  have hi0 : (i 0).val < 100000 := (i 0).isLt
  have ht : (i 0).val / 5000 < cfg7.N := by omega
  refine ⟨⟨(i 0).val / 5000, ht⟩, flush7_2 _, ?_⟩
  show i ∈ ((View.whole main_v62_0).slice (win7_2.rect ⟨(i 0).val / 5000, ht⟩)).set
  rw [View.set_slice_whole, Rect.mem_set_unit]
  exact tile_bounds i (k := win7_2.index ⟨(i 0).val / 5000, ht⟩) (idx_facts _).2.2.2.2.1 (idx_facts _).2.2.2.2.2.1

theorem zero34 (t : Fin cfg7.N) :
    ((fun a => win7_3.index t a * main_v62_1.ty.shape.size a) = fun _ => 0)
      ∧ (fun a => win7_4.index t a * main_v62_2.ty.shape.size a) = fun _ => 0 := by
  obtain ⟨-, -, -, -, -, -, e30, e31, e40, e41⟩ := idx_facts t
  exact ⟨funext fun a => match a with
      | ⟨0, _⟩ => by show win7_3.index t (0 : Fin 2) * 1 = 0; rw [e30]
      | ⟨1, _⟩ => by show win7_3.index t (1 : Fin 2) * 192 = 0; rw [e31],
    funext fun a => match a with
      | ⟨0, _⟩ => by show win7_4.index t (0 : Fin 2) * 1 = 0; rw [e40]
      | ⟨1, _⟩ => by show win7_4.index t (1 : Fin 2) * 192 = 0; rw [e41]⟩

theorem flushed_sum (c : Dev nD) (t : Fin cfg7.N) (hf : (cfg7.win 3).flush t = true) :
    (dat7 V c).flushed 3 t = ((cfg7.win 3).blk t).view.read (Elt Ideal) (sumArr V c) := by
  have hN : cfg7.N = 20 := N_7
  have h19 : t.val = 19 := by have := (flush7_3 t).mp hf; have := t.isLt; omega
  show (cfg7.win 3).cut (grid7.coords t) ((dat7 V c).after 3 t) = _
  rw [after7_3, (stats V c).sum t h19]
  exact (Memref.read_access_unit_zero (Elt Ideal) main_v62_1 (zero34 t).1 (fun a => by rw [congrFun (zero34 t).1 a]; simp) (sumArr V c)).symm

theorem flushed_sumsq (c : Dev nD) (t : Fin cfg7.N) (hf : (cfg7.win 4).flush t = true) :
    (dat7 V c).flushed 4 t = ((cfg7.win 4).blk t).view.read (Elt Ideal) (sumsqArr V c) := by
  have hN : cfg7.N = 20 := N_7
  have h19 : t.val = 19 := by have := (flush7_4 t).mp hf; have := t.isLt; omega
  show (cfg7.win 4).cut (grid7.coords t) ((dat7 V c).after 4 t) = _
  rw [after7_4, (stats V c).sumsq t h19]
  exact (Memref.read_access_unit_zero (Elt Ideal) main_v62_2 (zero34 t).2 (fun a => by rw [congrFun (zero34 t).2 a]; simp) (sumsqArr V c)).symm

/-- The last point's block of a row of sums is the whole row. -/
theorem cover_sum (i : S1x192.Idx) :
    ∃ t : Fin cfg7.N, (cfg7.win 3).flush t = true ∧ i ∈ ((cfg7.win 3).blk t).view.set := by
  have hN : cfg7.N = 20 := N_7
  have ht : 19 < cfg7.N := by omega
  refine ⟨⟨19, ht⟩, (flush7_3 _).mpr rfl, ?_⟩
  show i ∈ ((View.whole main_v62_1).slice (win7_3.rect ⟨19, ht⟩)).set
  rw [View.set_slice_whole]
  exact View.mem_set_unit_zero (zero34 ⟨19, ht⟩).1 _ i

theorem cover_sumsq (i : S1x192.Idx) :
    ∃ t : Fin cfg7.N, (cfg7.win 4).flush t = true ∧ i ∈ ((cfg7.win 4).blk t).view.set := by
  have hN : cfg7.N = 20 := N_7
  have ht : 19 < cfg7.N := by omega
  refine ⟨⟨19, ht⟩, (flush7_4 _).mpr rfl, ?_⟩
  show i ∈ ((View.whole main_v62_2).slice (win7_4.rect ⟨19, ht⟩)).set
  rw [View.set_slice_whole]
  exact View.mem_set_unit_zero (zero34 ⟨19, ht⟩).2 _ i

theorem reg7_pre (c : Dev nD) :
    cur2 (show Vec Ideal S100000x192 .f32 from (dat7 (F := Ideal) V c).arrAt 2 cfg7.N)
      = fun i j => cur2 (show Vec Ideal S100000x192 .f32 from V c main_v61) i j + cur2 (show Vec Ideal S100000x192 .f32 from V c main_v57_1) i j := by
  show cur2 ((dat7 V c).arrAt 2 cfg7.N) = _
  rw [(dat7 V c).arrAt_eq_of_cover 2 (preArr V c) (flushed_pre V c) cover_pre]
  rfl

theorem reg7_sum (c : Dev nD) :
    rowOf (show Vec Ideal S1x192 .f32 from (dat7 (F := Ideal) V c).arrAt 3 cfg7.N) 0
      = colSum (fun i j => cur2 (show Vec Ideal S100000x192 .f32 from V c main_v61) i j + cur2 (show Vec Ideal S100000x192 .f32 from V c main_v57_1) i j) := by
  show rowOf ((dat7 V c).arrAt 3 cfg7.N) 0 = _
  rw [(dat7 V c).arrAt_eq_of_cover 3 (sumArr V c) (flushed_sum V c) cover_sum]
  rfl

theorem reg7_sumsq (c : Dev nD) :
    rowOf (show Vec Ideal S1x192 .f32 from (dat7 (F := Ideal) V c).arrAt 4 cfg7.N) 0
      = colSumSq (fun i j => cur2 (show Vec Ideal S100000x192 .f32 from V c main_v61) i j + cur2 (show Vec Ideal S100000x192 .f32 from V c main_v57_1) i j) := by
  show rowOf ((dat7 V c).arrAt 4 cfg7.N) 0 = _
  rw [(dat7 V c).arrAt_eq_of_cover 4 (sumsqArr V c) (flushed_sumsq V c) cover_sumsq]
  rfl

end Cert.KernelIdeal.KReg7

end
-- ==== Proof.KReg8.lean ====
import proofs.«401365_j67929202754020_1_alg».proof.Proof.KNorm

set_option maxRecDepth 16384

noncomputable section

namespace Cert.KernelIdeal.KReg8

open Cert.KernelIdeal Cert.KernelIdeal.Gen Cert.Spec Idealize.ShloMosaic Idealize.ShloMosaic.TcCoe Idealize.SL.Sem
open Idealize.ShloMosaic.ValueIdx KLin KNorm

section Regions
variable (V : (c : Dev nD) → (b : Ref sig .tc) → Buf (Elt Ideal) ((c : Thread nD τ).loc b))

theorem idx_facts : ∀ t : Fin cfg8.N,
    (win8_0.index t (0 : Fin 2) = t.val ∧ win8_0.index t (1 : Fin 2) = 0
    ∧ win8_5.index t (0 : Fin 2) = t.val ∧ win8_5.index t (1 : Fin 2) = 0)
    ∧ ∀ a : Fin 2, win8_1.index t a = 0 ∧ win8_2.index t a = 0 ∧ win8_3.index t a = 0 ∧ win8_4.index t a = 0 :=
  (by decide +kernel : ∀ t : Fin grid8.N, _)

/-- Each point's block of the output is that block of the normalised array. -/
theorem flushed_eq (c : Dev nD) (t : Fin cfg8.N) :
    (dat8 (F := Ideal) V c).flushed 5 t = ((cfg8.win 5).blk t).view.read (Elt Ideal) (normed (V c main_v62_0) (V c main_v64) (V c main_v68) (V c main_v69) (V c main_v70)) := by
  obtain ⟨⟨f00, f01, f50, f51⟩, z⟩ := idx_facts t
  show (cfg8.win 5).cut (grid8.coords t) ((dat8 (F := Ideal) V c).after 5 t) = _
  rw [after8_5]
  unfold out8_5
  rw [View.canon_unit_zero hz]
  simp only [View.ld_unit_zero (S := S5000x192) hz, View.ld_unit_zero (S := S1x192) hz, k8_pay1, shapeCast_self]
  funext j
  exact norm_blk (iblk8 V c 0 t) (iblk8 V c 1 t) (iblk8 V c 2 t) (iblk8 V c 3 t) (iblk8 V c 4 t)
    (V c main_v62_0) (V c main_v64) (V c main_v68) (V c main_v69) (V c main_v70) j (((cfg8.win 5).blk t).view.emb j)
    (fun q => congrArg (V c main_v62_0) (rowblock_emb (win8_0.index t) (win8_5.index t) _ _ (f00.trans f50.symm) f01 j q))
    (rowblock_col (win8_5.index t) _ f51 j)
    (whole_read (s := S1x192) (V c main_v64) (win8_1.index t) _ fun a => (z a).1)
    (whole_read (s := S1x192) (V c main_v68) (win8_2.index t) _ fun a => (z a).2.1)
    (whole_read (s := S1x192) (V c main_v69) (win8_3.index t) _ fun a => (z a).2.2.1)
    (whole_read (s := S1x192) (V c main_v70) (win8_4.index t) _ fun a => (z a).2.2.2)

/-- The twenty blocks of 5000 rows cover the array. -/
theorem covered (i : S100000x192.Idx) :
    ∃ t : Fin cfg8.N, (cfg8.win 5).flush t = true ∧ i ∈ ((cfg8.win 5).blk t).view.set := by
  obtain ⟨t, ht⟩ := row_point N_8 i
  obtain ⟨⟨-, -, f50, f51⟩, -⟩ := idx_facts t
  refine ⟨t, flush8_5 t, ?_⟩
  show i ∈ ((View.whole main_v71).slice (win8_5.rect t)).set
  rw [View.set_slice_whole]
  exact mem_rowblock i (win8_5.index t) _ (f50.trans ht) f51

theorem reg8_bn (c : Dev nD) :
    cur2 (show Vec Ideal S100000x192 .f32 from (dat8 (F := Ideal) V c).arrAt 5 cfg8.N)
      = bn (cur2 (show Vec Ideal S100000x192 .f32 from V c main_v62_0)) (rowOf (show Vec Ideal S1x192 .f32 from V c main_v64) 0)
          (rowOf (show Vec Ideal S1x192 .f32 from V c main_v68) 0) (rowOf (show Vec Ideal S1x192 .f32 from V c main_v69) 0)
          (rowOf (show Vec Ideal S1x192 .f32 from V c main_v70) 0) := by
  funext p q
  exact congrFun ((dat8 (F := Ideal) V c).arrAt_eq_of_cover 5 _ (fun t _ => flushed_eq V c t) covered) (ix2 p q)

end Regions

end Cert.KernelIdeal.KReg8

end
-- ==== Proof.KLayer2Core.lean ====
import proofs.«401365_j67929202754020_1_alg».proof.Proof.KLayerCore
import proofs.«401365_j67929202754020_1_alg».proof.Proof.KReg6
import proofs.«401365_j67929202754020_1_alg».proof.Proof.KReg7
import proofs.«401365_j67929202754020_1_alg».proof.Proof.KReg8

noncomputable section

namespace Cert.KernelIdeal.KLayer2Core

open Cert.KernelIdeal Cert.KernelIdeal.Gen Cert.Spec Cert.KernelIdeal.KLayerCore
open Idealize.ShloMosaic Idealize.ShloMosaic.TcCoe Idealize.SL.Sem Idealize.ShloMosaic.ValueIdx

variable (m : (ℓ : Loc nD τ sig) → Buf (Elt Ideal) ℓ) (ρ : Dev nD → PrngReg)

section Host
variable (c : Dev nD)

theorem params_Wrel :
    cur2 (show Vec Ideal S192x192 .f32 from V15 m ρ c main_v47)
      = slabOf (show Vec Ideal S3x192x192 .f32 from W14 m ρ c (Proc.devRef .tc main_arg7)) (1 : Fin 3) := by
  funext i j
  show StableHlo.after (hostOps6 (F := Ideal)) (W14 m ρ c) (Proc.devRef .tc main_v47) (ix2 i j) = _
  after_results
  exact slab_apply 1 _ _ _ (1 : Fin 3) rfl i j

theorem params_Wroot :
    cur2 (show Vec Ideal S192x192 .f32 from V15 m ρ c main_v51)
      = slabOf (show Vec Ideal S3x192x192 .f32 from W14 m ρ c (Proc.devRef .tc main_arg9)) (1 : Fin 3) := by
  funext i j
  show StableHlo.after (hostOps6 (F := Ideal)) (W14 m ρ c) (Proc.devRef .tc main_v51) (ix2 i j) = _
  after_results
  exact slab_apply 1 _ _ _ (1 : Fin 3) rfl i j

theorem params_brel :
    rowOf (show Vec Ideal S1x192 .f32 from V15 m ρ c main_v56) 0
      = rowOf (show Vec Ideal S3x192 .f32 from W14 m ρ c (Proc.devRef .tc main_arg8)) (1 : Fin 3) := by
  funext j
  show StableHlo.after (hostOps6 (F := Ideal)) (W14 m ρ c) (Proc.devRef .tc main_v56) (ix2 0 j) = _
  after_results
  exact (shapeCast_a_1a_apply _ _ 0 j).trans (row_apply 1 _ _ _ (1 : Fin 3) rfl j)

theorem params_gamma :
    cur1 (show Vec Ideal S192 .f32 from V15 m ρ c main_v53)
      = rowOf (show Vec Ideal S4x192 .f32 from W14 m ρ c (Proc.devRef .tc main_arg10)) (2 : Fin 4) := by
  funext j
  show StableHlo.after (hostOps6 (F := Ideal)) (W14 m ρ c) (Proc.devRef .tc main_v53) (ix1 j) = _
  after_results
  exact row_apply 2 _ _ _ (2 : Fin 4) rfl j

theorem params_beta :
    cur1 (show Vec Ideal S192 .f32 from V15 m ρ c main_v55)
      = rowOf (show Vec Ideal S4x192 .f32 from W14 m ρ c (Proc.devRef .tc main_arg11)) (2 : Fin 4) := by
  funext j
  show StableHlo.after (hostOps6 (F := Ideal)) (W14 m ρ c) (Proc.devRef .tc main_v55) (ix1 j) = _
  after_results
  exact row_apply 2 _ _ _ (2 : Fin 4) rfl j

theorem take_eq :
    (show Vec Ideal S400000x192 .f32 from W17 m ρ c (Proc.devRef .tc main_v58))
      = takeRows (show Vec Ideal S100000x192 .f32 from W16 m ρ c (Proc.devRef .tc main_v57_0))
          (show IVec S400000 32 from W16 m ρ c (Proc.devRef .tc main_arg1)) := by
  show StableHlo.after (hostOps7 (F := Ideal)) (W16 m ρ c) (Proc.devRef .tc main_v58) = _
  after_results_simp
  simp only [StableHlo.TRef.ofBuf, StableHlo.TRef.toBuf, cast_eq]
  rfl

theorem scatter_eq (U : Valuation τ sig (Elt Ideal)) :
    (show Vec Ideal S100000x192 .f32 from StableHlo.after (hostOps7_1 (F := Ideal)) U (Proc.devRef .tc main_v61))
      = aggRows (show IVec S400000 32 from U (Proc.devRef .tc main_arg2))
          (show Vec Ideal S400000x192 .f32 from U (Proc.devRef .tc main_v58)) := by
  show StableHlo.after (hostOps7_1 (F := Ideal)) U (Proc.devRef .tc main_v61) = _
  after_results
  rfl

theorem moments_mean :
    rowOf (show Vec Ideal S1x192 .f32 from V20 m ρ c main_v64) 0
      = fun j => Ideal.div (rowOf (show Vec Ideal S1x192 .f32 from W19 m ρ c (Proc.devRef .tc main_v62_1)) 0 j) cN := by
  funext j
  show StableHlo.after (hostOps8 (F := Ideal)) (W19 m ρ c) (Proc.devRef .tc main_v64) (ix2 0 j) = _
  after_results
  rfl

theorem moments_var :
    rowOf (show Vec Ideal S1x192 .f32 from V20 m ρ c main_v68) 0
      = fun j => Ideal.div (rowOf (show Vec Ideal S1x192 .f32 from W19 m ρ c (Proc.devRef .tc main_v62_2)) 0 j) cN
          - Ideal.div (rowOf (show Vec Ideal S1x192 .f32 from W19 m ρ c (Proc.devRef .tc main_v62_1)) 0 j) cN
            * Ideal.div (rowOf (show Vec Ideal S1x192 .f32 from W19 m ρ c (Proc.devRef .tc main_v62_1)) 0 j) cN := by
  funext j
  show StableHlo.after (hostOps8 (F := Ideal)) (W19 m ρ c) (Proc.devRef .tc main_v68) (ix2 0 j) = _
  after_results
  rfl

theorem moments_gamma :
    rowOf (show Vec Ideal S1x192 .f32 from V20 m ρ c main_v69) 0
      = cur1 (show Vec Ideal S192 .f32 from W19 m ρ c (Proc.devRef .tc main_v53)) := by
  funext j
  show StableHlo.after (hostOps8 (F := Ideal)) (W19 m ρ c) (Proc.devRef .tc main_v69) (ix2 0 j) = _
  after_results
  exact shapeCast_a_1a_apply _ _ 0 j

theorem moments_beta :
    rowOf (show Vec Ideal S1x192 .f32 from V20 m ρ c main_v70) 0
      = cur1 (show Vec Ideal S192 .f32 from W19 m ρ c (Proc.devRef .tc main_v55)) := by
  funext j
  show StableHlo.after (hostOps8 (F := Ideal)) (W19 m ρ c) (Proc.devRef .tc main_v70) (ix2 0 j) = _
  after_results
  exact shapeCast_a_1a_apply _ _ 0 j

/-- The scale and the shift cut out before the linear region are still in place after the statistics region. -/
theorem kept_param (r : Ref sig .tc) (h1 : ∀ w, Pipeline.arrRef spec7 w ≠ r) (h2 : r ∉ hostOps7_1_W) (h3 : r ∉ hostOps7_W)
    (h4 : ∀ w, Pipeline.arrRef spec6 w ≠ r) : W19 m ρ c (Proc.devRef .tc r) = V15 m ρ c r :=
  (W19_of_ne m ρ c r h1).trans ((hostOps7_1_writes.kept h2).trans
    ((hostOps7_writes.kept h3).trans (W16_of_ne m ρ c r h4)))

end Host

theorem _root_.Cert.KernelIdeal.KLayer2.layer2 (c : Dev nD)
    (hsrc : ∀ e, InRange (normIdx (show IVec S400000 32 from m ((c.tc : Thread nD τ).loc main_arg1)) e)) :
    cur2 (show Vec Ideal S100000x192 .f32 from W21 m ρ c (Proc.devRef .tc main_v71))
      = layerK (cur2 (show Vec Ideal S100000x192 .f32 from W14 m ρ c (Proc.devRef .tc main_v45)))
          (slabOf (show Vec Ideal S3x192x192 .f32 from m ((c.tc : Thread nD τ).loc main_arg7)) 1)
          (rowOf (show Vec Ideal S3x192 .f32 from m ((c.tc : Thread nD τ).loc main_arg8)) 1)
          (slabOf (show Vec Ideal S3x192x192 .f32 from m ((c.tc : Thread nD τ).loc main_arg9)) 1)
          (srcOf (show IVec S400000 32 from m ((c.tc : Thread nD τ).loc main_arg1)))
          (dstOf (show IVec S400000 32 from m ((c.tc : Thread nD τ).loc main_arg2)))
          (rowOf (show Vec Ideal S4x192 .f32 from m ((c.tc : Thread nD τ).loc main_arg10)) 2)
          (rowOf (show Vec Ideal S4x192 .f32 from m ((c.tc : Thread nD τ).loc main_arg11)) 2) := by
  have a := launched14 m ρ c
  rw [← launched16 m ρ c main_arg1 (by decide)] at hsrc ⊢
  rw [← launched17 m ρ c main_arg2 (by decide), ← a main_arg7 (by decide), ← a main_arg8 (by decide),
    ← a main_arg9 (by decide), ← a main_arg10 (by decide), ← a main_arg11 (by decide)]
  have kx : V15 m ρ c main_v45 = W14 m ρ c (Proc.devRef .tc main_v45) := hostOps6_writes.kept (by decide)
  have hL := KReg6.reg6_lin (V15 m ρ) c
  rw [← (W16_arr m ρ c 4 : W16 m ρ c (Proc.devRef .tc main_v57_0) = _), kx, params_Wrel m ρ c, params_brel m ρ c] at hL
  have hR := KReg6.reg6_root (V15 m ρ) c
  rw [← (W16_arr m ρ c 5 : W16 m ρ c (Proc.devRef .tc main_v57_1) = _), kx, params_Wroot m ρ c,
    ← ((hostOps7_1_writes.kept (by decide)).trans (hostOps7_writes.kept (by decide)) :
      V18 m ρ c main_v57_1 = W16 m ρ c (Proc.devRef .tc main_v57_1))] at hR
  have hP := KReg7.reg7_pre (V18 m ρ) c
  rw [← (W19_arr m ρ c 2 : W19 m ρ c (Proc.devRef .tc main_v62_0) = _),
    ← (hostOps8_writes.kept (by decide) : V20 m ρ c main_v62_0 = W19 m ρ c (Proc.devRef .tc main_v62_0))] at hP
  have hs := KReg7.reg7_sum (V18 m ρ) c
  rw [← (W19_arr m ρ c 3 : W19 m ρ c (Proc.devRef .tc main_v62_1) = _)] at hs
  have hq := KReg7.reg7_sumsq (V18 m ρ) c
  rw [← (W19_arr m ρ c 4 : W19 m ρ c (Proc.devRef .tc main_v62_2) = _)] at hq
  have hg := moments_gamma m ρ c
  rw [kept_param m ρ c main_v53 (by decide) (by decide) (by decide) (by decide), params_gamma m ρ c] at hg
  have hb := moments_beta m ρ c
  rw [kept_param m ρ c main_v55 (by decide) (by decide) (by decide) (by decide), params_beta m ρ c] at hb
  have hO := KReg8.reg8_bn (V20 m ρ) c
  rw [← (W21_arr m ρ c 5 : W21 m ρ c (Proc.devRef .tc main_v71) = _)] at hO
  exact layerK_of_parts hsrc hL hR ((scatter_eq (W17 m ρ c)).trans (congrArg (aggRows _) (take_eq m ρ c))) hP hs hq
    (moments_mean m ρ c) (moments_var m ρ c) hg hb hO

theorem pass_arg1 (c : Dev nD) :
    W21 m ρ c (Proc.devRef .tc main_arg1) = W14 m ρ c (Proc.devRef .tc main_arg1) :=
  (launched21 m ρ c _ (by decide)).trans (launched14 m ρ c _ (by decide)).symm

theorem pass_arg2 (c : Dev nD) :
    W21 m ρ c (Proc.devRef .tc main_arg2) = W14 m ρ c (Proc.devRef .tc main_arg2) :=
  (launched21 m ρ c _ (by decide)).trans (launched14 m ρ c _ (by decide)).symm

theorem pass_arg7 (c : Dev nD) :
    W21 m ρ c (Proc.devRef .tc main_arg7) = W14 m ρ c (Proc.devRef .tc main_arg7) :=
  (launched21 m ρ c _ (by decide)).trans (launched14 m ρ c _ (by decide)).symm

theorem pass_arg8 (c : Dev nD) :
    W21 m ρ c (Proc.devRef .tc main_arg8) = W14 m ρ c (Proc.devRef .tc main_arg8) :=
  (launched21 m ρ c _ (by decide)).trans (launched14 m ρ c _ (by decide)).symm

theorem pass_arg9 (c : Dev nD) :
    W21 m ρ c (Proc.devRef .tc main_arg9) = W14 m ρ c (Proc.devRef .tc main_arg9) :=
  (launched21 m ρ c _ (by decide)).trans (launched14 m ρ c _ (by decide)).symm

theorem pass_arg10 (c : Dev nD) :
    W21 m ρ c (Proc.devRef .tc main_arg10) = W14 m ρ c (Proc.devRef .tc main_arg10) :=
  (launched21 m ρ c _ (by decide)).trans (launched14 m ρ c _ (by decide)).symm

theorem pass_arg11 (c : Dev nD) :
    W21 m ρ c (Proc.devRef .tc main_arg11) = W14 m ρ c (Proc.devRef .tc main_arg11) :=
  (launched21 m ρ c _ (by decide)).trans (launched14 m ρ c _ (by decide)).symm

end Cert.KernelIdeal.KLayer2Core

end
-- ==== Proof.KLayer2.lean ====
import proofs.«401365_j67929202754020_1_alg».proof.Proof.KLayer2Core

noncomputable section

namespace Cert.KernelIdeal.KLayer2

open Cert.KernelIdeal Cert.KernelIdeal.Gen Cert.KernelIdeal.KLayerCore Idealize.ShloMosaic Idealize.ShloMosaic.TcCoe Idealize.SL.Sem

variable (m : (ℓ : Loc nD τ sig) → Buf (Elt Ideal) ℓ) (ρ : Dev nD → PrngReg)

theorem entry_arg1 (c : Dev nD) :
    W14 m ρ c (Proc.devRef .tc main_arg1) = m ((c.tc : Thread nD τ).loc main_arg1) :=
  launched14 m ρ c _ (by decide)

theorem entry_arg2 (c : Dev nD) :
    W14 m ρ c (Proc.devRef .tc main_arg2) = m ((c.tc : Thread nD τ).loc main_arg2) :=
  launched14 m ρ c _ (by decide)

theorem entry_arg7 (c : Dev nD) :
    W14 m ρ c (Proc.devRef .tc main_arg7) = m ((c.tc : Thread nD τ).loc main_arg7) :=
  launched14 m ρ c _ (by decide)

theorem entry_arg8 (c : Dev nD) :
    W14 m ρ c (Proc.devRef .tc main_arg8) = m ((c.tc : Thread nD τ).loc main_arg8) :=
  launched14 m ρ c _ (by decide)

theorem entry_arg9 (c : Dev nD) :
    W14 m ρ c (Proc.devRef .tc main_arg9) = m ((c.tc : Thread nD τ).loc main_arg9) :=
  launched14 m ρ c _ (by decide)

theorem entry_arg10 (c : Dev nD) :
    W14 m ρ c (Proc.devRef .tc main_arg10) = m ((c.tc : Thread nD τ).loc main_arg10) :=
  launched14 m ρ c _ (by decide)

theorem entry_arg11 (c : Dev nD) :
    W14 m ρ c (Proc.devRef .tc main_arg11) = m ((c.tc : Thread nD τ).loc main_arg11) :=
  launched14 m ρ c _ (by decide)

end Cert.KernelIdeal.KLayer2

end
-- ==== Proof.KReg9.lean ====
import proofs.«401365_j67929202754020_1_alg».proof.Proof.KLin

set_option maxRecDepth 16384

noncomputable section

namespace Cert.KernelIdeal.KReg9

open Cert.KernelIdeal Cert.KernelIdeal.Gen Cert.Spec Idealize.ShloMosaic Idealize.ShloMosaic.TcCoe Idealize.SL.Sem
open Idealize.ShloMosaic.ValueIdx KLin

section Arrays
variable (V : (c : Dev nD) → (b : Ref sig .tc) → Buf (Elt Ideal) ((c : Thread nD τ).loc b))

theorem idx_facts : ∀ t : Fin cfg9.N,
    (win9_0.index t (0 : Fin 2) = t.val ∧ win9_0.index t (1 : Fin 2) = 0
    ∧ win9_4.index t (0 : Fin 2) = t.val ∧ win9_4.index t (1 : Fin 2) = 0
    ∧ win9_5.index t (0 : Fin 2) = t.val ∧ win9_5.index t (1 : Fin 2) = 0)
    ∧ ∀ a : Fin 2, win9_1.index t a = 0 ∧ win9_2.index t a = 0 ∧ win9_3.index t a = 0 :=
  (by decide +kernel : ∀ t : Fin grid9.N, _)

/-- Each point's block of the output is that block of the message transform of the arrays. -/
theorem flushed_lin (c : Dev nD) (t : Fin cfg9.N) :
    (dat9 V c).flushed 4 t = ((cfg9.win 4).blk t).view.read (Elt Ideal) (linArr (K := 192) (V c main_v71) (V c main_v73) (V c main_v82)) := by
  obtain ⟨⟨e00, e01, e40, e41, -, -⟩, z⟩ := idx_facts t
  show (cfg9.win 4).cut (grid9.coords t) ((dat9 V c).after 4 t) = _
  rw [after9_4]
  unfold out9_4
  rw [View.canon_unit_zero hz]
  simp only [View.ld_unit_zero (S := S5000x192) hz, View.ld_unit_zero (S := S192x192) hz, View.ld_unit_zero (S := S1x192) hz,
    k9_pay2, k9_pay1, shapeCast_self]
  funext j
  exact lin_blk (K := 192) (iblk9 V c 0 t) (iblk9 V c 1 t) (iblk9 V c 2 t) (V c main_v71) (V c main_v73) (V c main_v82) j
    (((cfg9.win 4).blk t).view.emb j) (fun k => congrArg (V c main_v71) (rowblock_emb (win9_0.index t) (win9_4.index t) _ _ (e00.trans e40.symm) e01 j k))
    (whole_read (s := S192x192) (V c main_v73) (win9_1.index t) _ fun a => (z a).1)
    (whole_read (s := S1x192) (V c main_v82) (win9_2.index t) _ fun a => (z a).2.1)
    (rowblock_col (win9_4.index t) _ e41 j)

/-- The same for the root transform. -/
theorem flushed_root (c : Dev nD) (t : Fin cfg9.N) :
    (dat9 V c).flushed 5 t = ((cfg9.win 5).blk t).view.read (Elt Ideal) (rootArr (K := 192) (V c main_v71) (V c main_v77)) := by
  obtain ⟨⟨e00, e01, -, -, e50, e51⟩, z⟩ := idx_facts t
  show (cfg9.win 5).cut (grid9.coords t) ((dat9 V c).after 5 t) = _
  rw [after9_5]
  unfold out9_5
  rw [View.canon_unit_zero hz]
  simp only [View.ld_unit_zero (S := S5000x192) hz, View.ld_unit_zero (S := S192x192) hz, k9_pay3, k9_pay1, shapeCast_self]
  funext j
  exact root_blk (K := 192) (iblk9 V c 0 t) (iblk9 V c 3 t) (V c main_v71) (V c main_v77) j
    (((cfg9.win 5).blk t).view.emb j) (fun k => congrArg (V c main_v71) (rowblock_emb (win9_0.index t) (win9_5.index t) _ _ (e00.trans e50.symm) e01 j k))
    (whole_read (s := S192x192) (V c main_v77) (win9_3.index t) _ fun a => (z a).2.2)
    (rowblock_col (win9_5.index t) _ e51 j)

/-- The twenty blocks of 5000 rows cover the array. -/
theorem covered_lin (i : S100000x192.Idx) :
    ∃ t : Fin cfg9.N, (cfg9.win 4).flush t = true ∧ i ∈ ((cfg9.win 4).blk t).view.set := by
  obtain ⟨t, ht⟩ := row_point N_9 i
  obtain ⟨⟨-, -, e40, e41, e50, e51⟩, -⟩ := idx_facts t
  refine ⟨t, flush9_4 t, ?_⟩
  show i ∈ ((View.whole main_v83_0).slice (win9_4.rect t)).set
  rw [View.set_slice_whole]
  exact mem_rowblock i (win9_4.index t) _ (e40.trans ht) e41

theorem covered_root (i : S100000x192.Idx) :
    ∃ t : Fin cfg9.N, (cfg9.win 5).flush t = true ∧ i ∈ ((cfg9.win 5).blk t).view.set := by
  obtain ⟨t, ht⟩ := row_point N_9 i
  obtain ⟨⟨-, -, e40, e41, e50, e51⟩, -⟩ := idx_facts t
  refine ⟨t, flush9_5 t, ?_⟩
  show i ∈ ((View.whole main_v83_1).slice (win9_5.rect t)).set
  rw [View.set_slice_whole]
  exact mem_rowblock i (win9_5.index t) _ (e50.trans ht) e51

theorem reg9_lin (c : Dev nD) :
    cur2 (show Vec Ideal S100000x192 .f32 from (dat9 (F := Ideal) V c).arrAt 4 cfg9.N)
      = lin (cur2 (show Vec Ideal S100000x192 .f32 from V c main_v71)) (cur2 (show Vec Ideal S192x192 .f32 from V c main_v73)) (rowOf (show Vec Ideal S1x192 .f32 from V c main_v82) 0) := by
  funext p q
  exact congrFun ((dat9 V c).arrAt_eq_of_cover 4 _ (fun t _ => flushed_lin V c t) covered_lin) (ix2 p q)

theorem reg9_root (c : Dev nD) :
    cur2 (show Vec Ideal S100000x192 .f32 from (dat9 (F := Ideal) V c).arrAt 5 cfg9.N)
      = root (cur2 (show Vec Ideal S100000x192 .f32 from V c main_v71)) (cur2 (show Vec Ideal S192x192 .f32 from V c main_v77)) := by
  funext p q
  exact congrFun ((dat9 V c).arrAt_eq_of_cover 5 _ (fun t _ => flushed_root V c t) covered_root) (ix2 p q)

end Arrays

end Cert.KernelIdeal.KReg9

end
-- ==== Proof.KReg10.lean ====
import proofs.«401365_j67929202754020_1_alg».proof.Proof.KStat

set_option maxRecDepth 16384

noncomputable section

namespace Cert.KernelIdeal.KReg10

open Cert.KernelIdeal Cert.KernelIdeal.Gen Cert.KernelIdeal.KStat Cert.Spec Idealize.ShloMosaic Idealize.ShloMosaic.TcCoe Idealize.SL.Sem
open Idealize.ShloMosaic.ValueIdx

section Pieces

variable {F : FTy → Type} [FloatOps F] (c : Dev nD) (i : grid10.Coords) (a1 : Memref sig .tc .vmem S5000x192 .f32) (h1 : a1.IsWhole) (a2 : Memref sig .tc .vmem S5000x192 .f32) (h2 : a2.IsWhole) (a3 : Memref sig .tc .vmem S5000x192 .f32) (h3 : a3.IsWhole) (a4 : Memref sig .tc .vmem S1x192 .f32) (h4 : a4.IsWhole) (a5 : Memref sig .tc .vmem S1x192 .f32) (h5 : a5.IsWhole)
  (hc : cond10_0 i) (hn : ¬cond10_0 i) (x0 x1 : Vec F S5000x192 .f32) (xo3 xo4 : Vec F S1x192 .f32)

theorem out_A_2 : out10_A_2 c i a1 h1 a2 h2 a3 h3 a4 h4 a5 h5 hc x0 x1 = k10_pay1 x0 x1 := by
  unfold out10_A_2
  rw [View.read_writes_eq_canon _ _ _ (cover10_A_2 c i a1 h1 a2 h2 a3 h3 a4 h4 a5 h5 hc x0 x1)]
  unfold kernelRun10_A
  dsimp only
  sl_unfold_words
  rw [View.canon_unit_zero hz]
  simp only [View.readAt_eq_ld, h1.read_unread, h2.read_unread, View.ld_unit_zero (S := S5000x192) hz]

theorem out_A_3 : out10_A_3 c i a1 h1 a2 h2 a3 h3 a4 h4 a5 h5 hc x0 x1 = k10_pay4 x0 x1 k10_pay2 := by
  unfold out10_A_3
  rw [View.read_writes_eq_canon _ _ _ (cover10_A_3 c i a1 h1 a2 h2 a3 h3 a4 h4 a5 h5 hc x0 x1)]
  unfold kernelRun10_A
  dsimp only
  sl_unfold_words
  rw [View.canon_cons_unit_zero (S := S1x192) hz, View.readCov_unit_zero (S := S1x192) _ hz]
  simp only [View.readAt_eq_ld, h1.read_unread, h2.read_unread, View.ld_unit_zero (S := S5000x192) hz]

theorem out_A_4 : out10_A_4 c i a1 h1 a2 h2 a3 h3 a4 h4 a5 h5 hc x0 x1 = k10_pay5 x0 x1 k10_pay3 := by
  unfold out10_A_4
  rw [View.read_writes_eq_canon _ _ _ (cover10_A_4 c i a1 h1 a2 h2 a3 h3 a4 h4 a5 h5 hc x0 x1)]
  unfold kernelRun10_A
  dsimp only
  sl_unfold_words
  rw [View.canon_cons_unit_zero (S := S1x192) hz, View.readCov_unit_zero (S := S1x192) _ hz]
  simp only [View.readAt_eq_ld, h1.read_unread, h2.read_unread, View.ld_unit_zero (S := S5000x192) hz]

theorem out_B_2 : out10_B_2 c i a1 h1 a2 h2 a3 h3 a4 h4 a5 h5 hn x0 x1 xo3 xo4 = k10_pay1 x0 x1 := by
  unfold out10_B_2
  rw [View.read_writes_eq_canon _ _ _ (cover10_B_2 c i a1 h1 a2 h2 a3 h3 a4 h4 a5 h5 hn x0 x1 xo3 xo4)]
  unfold kernelRun10_B
  dsimp only
  sl_unfold_words
  rw [View.canon_unit_zero hz]
  simp only [View.readAt_eq_ld, h1.read_unread, h2.read_unread, View.ld_unit_zero (S := S5000x192) hz]

theorem out_B_3 : out10_B_3 c i a1 h1 a2 h2 a3 h3 a4 h4 a5 h5 hn x0 x1 xo3 xo4 = k10_pay4 x0 x1 xo3 := by
  unfold out10_B_3
  rw [View.read_writes_eq_canon _ _ _ (cover10_B_3 c i a1 h1 a2 h2 a3 h3 a4 h4 a5 h5 hn x0 x1 xo3 xo4)]
  unfold kernelRun10_B
  dsimp only
  sl_unfold_words
  rw [View.canon_unit_zero hz]
  simp only [View.readAt_eq_ld, h1.read_unread, h2.read_unread, h4.read_unread, View.ld_unit_zero (S := S5000x192) hz,
    View.ld_unit_zero (S := S1x192) hz]

theorem out_B_4 : out10_B_4 c i a1 h1 a2 h2 a3 h3 a4 h4 a5 h5 hn x0 x1 xo3 xo4 = k10_pay5 x0 x1 xo4 := by
  unfold out10_B_4
  rw [View.read_writes_eq_canon _ _ _ (cover10_B_4 c i a1 h1 a2 h2 a3 h3 a4 h4 a5 h5 hn x0 x1 xo3 xo4)]
  unfold kernelRun10_B
  dsimp only
  sl_unfold_words
  rw [View.canon_unit_zero hz]
  simp only [View.readAt_eq_ld, h1.read_unread, h2.read_unread, h5.read_unread, View.ld_unit_zero (S := S5000x192) hz,
    View.ld_unit_zero (S := S1x192) hz]

end Pieces

variable (V : (c : Dev nD) → (b : Ref sig .tc) → Buf (Elt Ideal) ((c : Thread nD τ).loc b))

abbrev arrA (c : Dev nD) : Vec Ideal S100000x192 .f32 := V c main_v87
abbrev arrB (c : Dev nD) : Vec Ideal S100000x192 .f32 := V c main_v83_1
abbrev blkA (c : Dev nD) (t : Fin cfg10.N) : Vec Ideal S5000x192 .f32 := iblk10 V c 0 t
abbrev blkB (c : Dev nD) (t : Fin cfg10.N) : Vec Ideal S5000x192 .f32 := iblk10 V c 1 t
abbrev preArr (c : Dev nD) : Vec Ideal S100000x192 .f32 := fun i => arrA V c i + arrB V c i
abbrev sumArr (c : Dev nD) : Vec Ideal S1x192 .f32 := fun i => colSum (sum2 (arrA V c) (arrB V c)) (i 1)
abbrev sumsqArr (c : Dev nD) : Vec Ideal S1x192 .f32 := fun i => colSumSq (sum2 (arrA V c) (arrB V c)) (i 1)

theorem idx_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0 :=
  (by decide +kernel : ∀ t : Fin grid10.N, _)

theorem stats (c : Dev nD) : Stats (N := cfg10.N) N_10 (arrA V c) (arrB V c) (blkA V c) (blkB V c) (outsAt10 V c) where
  rowsA t p q := congrArg (V c main_v87)
    (eq_ix2_rowAt N_10 t p q (((cfg10.win 0).blk t).view.emb (ix2 p q)) (idx_facts t).1 (idx_facts t).2.1 rfl rfl)
  rowsB t p q := congrArg (V c main_v83_1)
    (eq_ix2_rowAt N_10 t p q (((cfg10.win 1).blk t).view.emb (ix2 p q)) (idx_facts t).2.2.1 (idx_facts t).2.2.2.1 rfl rfl)
  first t h0 := by rw [outsAt10_A V c t h0, out_A_2, out_A_3, out_A_4]; rfl
  later t h0 := by rw [outsAt10_B V c t h0, out_B_2, out_B_3, out_B_4]; rfl

theorem flushed_pre (c : Dev nD) (t : Fin cfg10.N) (hf : (cfg10.win 2).flush t = true) :
    (dat10 V c).flushed 2 t = ((cfg10.win 2).blk t).view.read (Elt Ideal) (preArr V c) := by
  show (cfg10.win 2).cut (grid10.coords t) ((dat10 V c).after 2 t) = _
  rw [after10_2]
  funext j
  obtain ⟨p, q, rfl⟩ : ∃ (p : Fin 5000) (q : Fin 192), j = ix2 p q := ⟨j 0, j 1, eq_ix2 j⟩
  show (outsAt10 V c t.val t.isLt).1 (ix2 p q) = preArr V c (((cfg10.win 2).blk t).view.emb (ix2 p q))
  rw [eq_ix2_rowAt N_10 t p q (((cfg10.win 2).blk t).view.emb (ix2 p q)) (idx_facts t).2.2.2.2.1 (idx_facts t).2.2.2.2.2.1 rfl rfl]
  exact (stats V c).pre_apply t p q

/-- Row r is in the block of point r / 5000. -/
theorem cover_pre (i : S100000x192.Idx) :
    ∃ t : Fin cfg10.N, (cfg10.win 2).flush t = true ∧ i ∈ ((cfg10.win 2).blk t).view.set := by
  have hN : cfg10.N = 20 := N_10
  have hi0 : (i 0).val < 100000 := (i 0).isLt
  have ht : (i 0).val / 5000 < cfg10.N := by omega
  refine ⟨⟨(i 0).val / 5000, ht⟩, flush10_2 _, ?_⟩
  show i ∈ ((View.whole main_v88_0).slice (win10_2.rect ⟨(i 0).val / 5000, ht⟩)).set
  rw [View.set_slice_whole, Rect.mem_set_unit]
  exact tile_bounds i (k := win10_2.index ⟨(i 0).val / 5000, ht⟩) (idx_facts _).2.2.2.2.1 (idx_facts _).2.2.2.2.2.1

theorem zero34 (t : Fin cfg10.N) :
    ((fun a => win10_3.index t a * main_v88_1.ty.shape.size a) = fun _ => 0)
      ∧ (fun a => win10_4.index t a * main_v88_2.ty.shape.size a) = fun _ => 0 := by
  obtain ⟨-, -, -, -, -, -, e30, e31, e40, e41⟩ := idx_facts t
  exact ⟨funext fun a => match a with
      | ⟨0, _⟩ => by show win10_3.index t (0 : Fin 2) * 1 = 0; rw [e30]
      | ⟨1, _⟩ => by show win10_3.index t (1 : Fin 2) * 192 = 0; rw [e31],
    funext fun a => match a with
      | ⟨0, _⟩ => by show win10_4.index t (0 : Fin 2) * 1 = 0; rw [e40]
      | ⟨1, _⟩ => by show win10_4.index t (1 : Fin 2) * 192 = 0; rw [e41]⟩

theorem flushed_sum (c : Dev nD) (t : Fin cfg10.N) (hf : (cfg10.win 3).flush t = true) :
    (dat10 V c).flushed 3 t = ((cfg10.win 3).blk t).view.read (Elt Ideal) (sumArr V c) := by
  have hN : cfg10.N = 20 := N_10
  have h19 : t.val = 19 := by have := (flush10_3 t).mp hf; have := t.isLt; omega
  show (cfg10.win 3).cut (grid10.coords t) ((dat10 V c).after 3 t) = _
  rw [after10_3, (stats V c).sum t h19]
  exact (Memref.read_access_unit_zero (Elt Ideal) main_v88_1 (zero34 t).1 (fun a => by rw [congrFun (zero34 t).1 a]; simp) (sumArr V c)).symm

theorem flushed_sumsq (c : Dev nD) (t : Fin cfg10.N) (hf : (cfg10.win 4).flush t = true) :
    (dat10 V c).flushed 4 t = ((cfg10.win 4).blk t).view.read (Elt Ideal) (sumsqArr V c) := by
  have hN : cfg10.N = 20 := N_10
  have h19 : t.val = 19 := by have := (flush10_4 t).mp hf; have := t.isLt; omega
  show (cfg10.win 4).cut (grid10.coords t) ((dat10 V c).after 4 t) = _
  rw [after10_4, (stats V c).sumsq t h19]
  exact (Memref.read_access_unit_zero (Elt Ideal) main_v88_2 (zero34 t).2 (fun a => by rw [congrFun (zero34 t).2 a]; simp) (sumsqArr V c)).symm

/-- The last point's block of a row of sums is the whole row. -/
theorem cover_sum (i : S1x192.Idx) :
    ∃ t : Fin cfg10.N, (cfg10.win 3).flush t = true ∧ i ∈ ((cfg10.win 3).blk t).view.set := by
  have hN : cfg10.N = 20 := N_10
  have ht : 19 < cfg10.N := by omega
  refine ⟨⟨19, ht⟩, (flush10_3 _).mpr rfl, ?_⟩
  show i ∈ ((View.whole main_v88_1).slice (win10_3.rect ⟨19, ht⟩)).set
  rw [View.set_slice_whole]
  exact View.mem_set_unit_zero (zero34 ⟨19, ht⟩).1 _ i

theorem cover_sumsq (i : S1x192.Idx) :
    ∃ t : Fin cfg10.N, (cfg10.win 4).flush t = true ∧ i ∈ ((cfg10.win 4).blk t).view.set := by
  have hN : cfg10.N = 20 := N_10
  have ht : 19 < cfg10.N := by omega
  refine ⟨⟨19, ht⟩, (flush10_4 _).mpr rfl, ?_⟩
  show i ∈ ((View.whole main_v88_2).slice (win10_4.rect ⟨19, ht⟩)).set
  rw [View.set_slice_whole]
  exact View.mem_set_unit_zero (zero34 ⟨19, ht⟩).2 _ i

theorem reg10_pre (c : Dev nD) :
    cur2 (show Vec Ideal S100000x192 .f32 from (dat10 (F := Ideal) V c).arrAt 2 cfg10.N)
      = fun i j => cur2 (show Vec Ideal S100000x192 .f32 from V c main_v87) i j + cur2 (show Vec Ideal S100000x192 .f32 from V c main_v83_1) i j := by
  show cur2 ((dat10 V c).arrAt 2 cfg10.N) = _
  rw [(dat10 V c).arrAt_eq_of_cover 2 (preArr V c) (flushed_pre V c) cover_pre]
  rfl

theorem reg10_sum (c : Dev nD) :
    rowOf (show Vec Ideal S1x192 .f32 from (dat10 (F := Ideal) V c).arrAt 3 cfg10.N) 0
      = colSum (fun i j => cur2 (show Vec Ideal S100000x192 .f32 from V c main_v87) i j + cur2 (show Vec Ideal S100000x192 .f32 from V c main_v83_1) i j) := by
  show rowOf ((dat10 V c).arrAt 3 cfg10.N) 0 = _
  rw [(dat10 V c).arrAt_eq_of_cover 3 (sumArr V c) (flushed_sum V c) cover_sum]
  rfl

theorem reg10_sumsq (c : Dev nD) :
    rowOf (show Vec Ideal S1x192 .f32 from (dat10 (F := Ideal) V c).arrAt 4 cfg10.N) 0
      = colSumSq (fun i j => cur2 (show Vec Ideal S100000x192 .f32 from V c main_v87) i j + cur2 (show Vec Ideal S100000x192 .f32 from V c main_v83_1) i j) := by
  show rowOf ((dat10 V c).arrAt 4 cfg10.N) 0 = _
  rw [(dat10 V c).arrAt_eq_of_cover 4 (sumsqArr V c) (flushed_sumsq V c) cover_sumsq]
  rfl

end Cert.KernelIdeal.KReg10

end
-- ==== Proof.KReg11.lean ====
import proofs.«401365_j67929202754020_1_alg».proof.Proof.KNorm

set_option maxRecDepth 16384

noncomputable section

namespace Cert.KernelIdeal.KReg11

open Cert.KernelIdeal Cert.KernelIdeal.Gen Cert.Spec Idealize.ShloMosaic Idealize.ShloMosaic.TcCoe Idealize.SL.Sem
open Idealize.ShloMosaic.ValueIdx KLin KNorm

section Regions
variable (V : (c : Dev nD) → (b : Ref sig .tc) → Buf (Elt Ideal) ((c : Thread nD τ).loc b))

theorem idx_facts : ∀ t : Fin cfg11.N,
    (win11_0.index t (0 : Fin 2) = t.val ∧ win11_0.index t (1 : Fin 2) = 0
    ∧ win11_5.index t (0 : Fin 2) = t.val ∧ win11_5.index t (1 : Fin 2) = 0)
    ∧ ∀ a : Fin 2, win11_1.index t a = 0 ∧ win11_2.index t a = 0 ∧ win11_3.index t a = 0 ∧ win11_4.index t a = 0 :=
  (by decide +kernel : ∀ t : Fin grid11.N, _)

/-- Each point's block of the output is that block of the normalised array. -/
theorem flushed_eq (c : Dev nD) (t : Fin cfg11.N) :
    (dat11 (F := Ideal) V c).flushed 5 t = ((cfg11.win 5).blk t).view.read (Elt Ideal) (normed (V c main_v88_0) (V c main_v90) (V c main_v94) (V c main_v95) (V c main_v96)) := by
  obtain ⟨⟨f00, f01, f50, f51⟩, z⟩ := idx_facts t
  show (cfg11.win 5).cut (grid11.coords t) ((dat11 (F := Ideal) V c).after 5 t) = _
  rw [after11_5]
  unfold out11_5
  rw [View.canon_unit_zero hz]
  simp only [View.ld_unit_zero (S := S5000x192) hz, View.ld_unit_zero (S := S1x192) hz, k11_pay1, shapeCast_self]
  funext j
  exact norm_blk (iblk11 V c 0 t) (iblk11 V c 1 t) (iblk11 V c 2 t) (iblk11 V c 3 t) (iblk11 V c 4 t)
    (V c main_v88_0) (V c main_v90) (V c main_v94) (V c main_v95) (V c main_v96) j (((cfg11.win 5).blk t).view.emb j)
    (fun q => congrArg (V c main_v88_0) (rowblock_emb (win11_0.index t) (win11_5.index t) _ _ (f00.trans f50.symm) f01 j q))
    (rowblock_col (win11_5.index t) _ f51 j)
    (whole_read (s := S1x192) (V c main_v90) (win11_1.index t) _ fun a => (z a).1)
    (whole_read (s := S1x192) (V c main_v94) (win11_2.index t) _ fun a => (z a).2.1)
    (whole_read (s := S1x192) (V c main_v95) (win11_3.index t) _ fun a => (z a).2.2.1)
    (whole_read (s := S1x192) (V c main_v96) (win11_4.index t) _ fun a => (z a).2.2.2)

/-- The twenty blocks of 5000 rows cover the array. -/
theorem covered (i : S100000x192.Idx) :
    ∃ t : Fin cfg11.N, (cfg11.win 5).flush t = true ∧ i ∈ ((cfg11.win 5).blk t).view.set := by
  obtain ⟨t, ht⟩ := row_point N_11 i
  obtain ⟨⟨-, -, f50, f51⟩, -⟩ := idx_facts t
  refine ⟨t, flush11_5 t, ?_⟩
  show i ∈ ((View.whole main_v97).slice (win11_5.rect t)).set
  rw [View.set_slice_whole]
  exact mem_rowblock i (win11_5.index t) _ (f50.trans ht) f51

theorem reg11_bn (c : Dev nD) :
    cur2 (show Vec Ideal S100000x192 .f32 from (dat11 (F := Ideal) V c).arrAt 5 cfg11.N)
      = bn (cur2 (show Vec Ideal S100000x192 .f32 from V c main_v88_0)) (rowOf (show Vec Ideal S1x192 .f32 from V c main_v90) 0)
          (rowOf (show Vec Ideal S1x192 .f32 from V c main_v94) 0) (rowOf (show Vec Ideal S1x192 .f32 from V c main_v95) 0)
          (rowOf (show Vec Ideal S1x192 .f32 from V c main_v96) 0) := by
  funext p q
  exact congrFun ((dat11 (F := Ideal) V c).arrAt_eq_of_cover 5 _ (fun t _ => flushed_eq V c t) covered) (ix2 p q)

end Regions

end Cert.KernelIdeal.KReg11

end
-- ==== Proof.KLayer3Core.lean ====
import proofs.«401365_j67929202754020_1_alg».proof.Proof.KLayerCore
import proofs.«401365_j67929202754020_1_alg».proof.Proof.KReg9
import proofs.«401365_j67929202754020_1_alg».proof.Proof.KReg10
import proofs.«401365_j67929202754020_1_alg».proof.Proof.KReg11

noncomputable section

namespace Cert.KernelIdeal.KLayer3Core

open Cert.KernelIdeal Cert.KernelIdeal.Gen Cert.Spec Cert.KernelIdeal.KLayerCore
open Idealize.ShloMosaic Idealize.ShloMosaic.TcCoe Idealize.SL.Sem Idealize.ShloMosaic.ValueIdx

variable (m : (ℓ : Loc nD τ sig) → Buf (Elt Ideal) ℓ) (ρ : Dev nD → PrngReg)

section Host
variable (c : Dev nD)

theorem params_Wrel :
    cur2 (show Vec Ideal S192x192 .f32 from V22 m ρ c main_v73)
      = slabOf (show Vec Ideal S3x192x192 .f32 from W21 m ρ c (Proc.devRef .tc main_arg7)) (2 : Fin 3) := by
  funext i j
  show StableHlo.after (hostOps9 (F := Ideal)) (W21 m ρ c) (Proc.devRef .tc main_v73) (ix2 i j) = _
  after_results
  exact slab_apply 2 _ _ _ (2 : Fin 3) rfl i j

theorem params_Wroot :
    cur2 (show Vec Ideal S192x192 .f32 from V22 m ρ c main_v77)
      = slabOf (show Vec Ideal S3x192x192 .f32 from W21 m ρ c (Proc.devRef .tc main_arg9)) (2 : Fin 3) := by
  funext i j
  show StableHlo.after (hostOps9 (F := Ideal)) (W21 m ρ c) (Proc.devRef .tc main_v77) (ix2 i j) = _
  after_results
  exact slab_apply 2 _ _ _ (2 : Fin 3) rfl i j

theorem params_brel :
    rowOf (show Vec Ideal S1x192 .f32 from V22 m ρ c main_v82) 0
      = rowOf (show Vec Ideal S3x192 .f32 from W21 m ρ c (Proc.devRef .tc main_arg8)) (2 : Fin 3) := by
  funext j
  show StableHlo.after (hostOps9 (F := Ideal)) (W21 m ρ c) (Proc.devRef .tc main_v82) (ix2 0 j) = _
  after_results
  exact (shapeCast_a_1a_apply _ _ 0 j).trans (row_apply 2 _ _ _ (2 : Fin 3) rfl j)

theorem params_gamma :
    cur1 (show Vec Ideal S192 .f32 from V22 m ρ c main_v79)
      = rowOf (show Vec Ideal S4x192 .f32 from W21 m ρ c (Proc.devRef .tc main_arg10)) (3 : Fin 4) := by
  funext j
  show StableHlo.after (hostOps9 (F := Ideal)) (W21 m ρ c) (Proc.devRef .tc main_v79) (ix1 j) = _
  after_results
  exact row_apply 3 _ _ _ (3 : Fin 4) rfl j

theorem params_beta :
    cur1 (show Vec Ideal S192 .f32 from V22 m ρ c main_v81)
      = rowOf (show Vec Ideal S4x192 .f32 from W21 m ρ c (Proc.devRef .tc main_arg11)) (3 : Fin 4) := by
  funext j
  show StableHlo.after (hostOps9 (F := Ideal)) (W21 m ρ c) (Proc.devRef .tc main_v81) (ix1 j) = _
  after_results
  exact row_apply 3 _ _ _ (3 : Fin 4) rfl j

theorem take_eq :
    (show Vec Ideal S400000x192 .f32 from W24 m ρ c (Proc.devRef .tc main_v84))
      = takeRows (show Vec Ideal S100000x192 .f32 from W23 m ρ c (Proc.devRef .tc main_v83_0))
          (show IVec S400000 32 from W23 m ρ c (Proc.devRef .tc main_arg1)) := by
  show StableHlo.after (hostOps10 (F := Ideal)) (W23 m ρ c) (Proc.devRef .tc main_v84) = _
  after_results_simp
  simp only [StableHlo.TRef.ofBuf, StableHlo.TRef.toBuf, cast_eq]
  rfl

theorem scatter_eq (U : Valuation τ sig (Elt Ideal)) :
    (show Vec Ideal S100000x192 .f32 from StableHlo.after (hostOps10_1 (F := Ideal)) U (Proc.devRef .tc main_v87))
      = aggRows (show IVec S400000 32 from U (Proc.devRef .tc main_arg2))
          (show Vec Ideal S400000x192 .f32 from U (Proc.devRef .tc main_v84)) := by
  show StableHlo.after (hostOps10_1 (F := Ideal)) U (Proc.devRef .tc main_v87) = _
  after_results
  rfl

theorem moments_mean :
    rowOf (show Vec Ideal S1x192 .f32 from V27 m ρ c main_v90) 0
      = fun j => Ideal.div (rowOf (show Vec Ideal S1x192 .f32 from W26 m ρ c (Proc.devRef .tc main_v88_1)) 0 j) cN := by
  funext j
  show StableHlo.after (hostOps11 (F := Ideal)) (W26 m ρ c) (Proc.devRef .tc main_v90) (ix2 0 j) = _
  after_results
  rfl

theorem moments_var :
    rowOf (show Vec Ideal S1x192 .f32 from V27 m ρ c main_v94) 0
      = fun j => Ideal.div (rowOf (show Vec Ideal S1x192 .f32 from W26 m ρ c (Proc.devRef .tc main_v88_2)) 0 j) cN
          - Ideal.div (rowOf (show Vec Ideal S1x192 .f32 from W26 m ρ c (Proc.devRef .tc main_v88_1)) 0 j) cN
            * Ideal.div (rowOf (show Vec Ideal S1x192 .f32 from W26 m ρ c (Proc.devRef .tc main_v88_1)) 0 j) cN := by
  funext j
  show StableHlo.after (hostOps11 (F := Ideal)) (W26 m ρ c) (Proc.devRef .tc main_v94) (ix2 0 j) = _
  after_results
  rfl

theorem moments_gamma :
    rowOf (show Vec Ideal S1x192 .f32 from V27 m ρ c main_v95) 0
      = cur1 (show Vec Ideal S192 .f32 from W26 m ρ c (Proc.devRef .tc main_v79)) := by
  funext j
  show StableHlo.after (hostOps11 (F := Ideal)) (W26 m ρ c) (Proc.devRef .tc main_v95) (ix2 0 j) = _
  after_results
  exact shapeCast_a_1a_apply _ _ 0 j

theorem moments_beta :
    rowOf (show Vec Ideal S1x192 .f32 from V27 m ρ c main_v96) 0
      = cur1 (show Vec Ideal S192 .f32 from W26 m ρ c (Proc.devRef .tc main_v81)) := by
  funext j
  show StableHlo.after (hostOps11 (F := Ideal)) (W26 m ρ c) (Proc.devRef .tc main_v96) (ix2 0 j) = _
  after_results
  exact shapeCast_a_1a_apply _ _ 0 j

/-- The scale and the shift cut out before the linear region are still in place after the statistics region. -/
theorem kept_param (r : Ref sig .tc) (h1 : ∀ w, Pipeline.arrRef spec10 w ≠ r) (h2 : r ∉ hostOps10_1_W) (h3 : r ∉ hostOps10_W)
    (h4 : ∀ w, Pipeline.arrRef spec9 w ≠ r) : W26 m ρ c (Proc.devRef .tc r) = V22 m ρ c r :=
  (W26_of_ne m ρ c r h1).trans ((hostOps10_1_writes.kept h2).trans
    ((hostOps10_writes.kept h3).trans (W23_of_ne m ρ c r h4)))

end Host

theorem _root_.Cert.KernelIdeal.KLayer3.layer3 (c : Dev nD)
    (hsrc : ∀ e, InRange (normIdx (show IVec S400000 32 from m ((c.tc : Thread nD τ).loc main_arg1)) e)) :
    cur2 (show Vec Ideal S100000x192 .f32 from W28 m ρ c (Proc.devRef .tc main_v97))
      = layerK (cur2 (show Vec Ideal S100000x192 .f32 from W21 m ρ c (Proc.devRef .tc main_v71)))
          (slabOf (show Vec Ideal S3x192x192 .f32 from m ((c.tc : Thread nD τ).loc main_arg7)) 2)
          (rowOf (show Vec Ideal S3x192 .f32 from m ((c.tc : Thread nD τ).loc main_arg8)) 2)
          (slabOf (show Vec Ideal S3x192x192 .f32 from m ((c.tc : Thread nD τ).loc main_arg9)) 2)
          (srcOf (show IVec S400000 32 from m ((c.tc : Thread nD τ).loc main_arg1)))
          (dstOf (show IVec S400000 32 from m ((c.tc : Thread nD τ).loc main_arg2)))
          (rowOf (show Vec Ideal S4x192 .f32 from m ((c.tc : Thread nD τ).loc main_arg10)) 3)
          (rowOf (show Vec Ideal S4x192 .f32 from m ((c.tc : Thread nD τ).loc main_arg11)) 3) := by
  have a := launched21 m ρ c
  rw [← launched23 m ρ c main_arg1 (by decide)] at hsrc ⊢
  rw [← launched24 m ρ c main_arg2 (by decide), ← a main_arg7 (by decide), ← a main_arg8 (by decide),
    ← a main_arg9 (by decide), ← a main_arg10 (by decide), ← a main_arg11 (by decide)]
  have kx : V22 m ρ c main_v71 = W21 m ρ c (Proc.devRef .tc main_v71) := hostOps9_writes.kept (by decide)
  have hL := KReg9.reg9_lin (V22 m ρ) c
  rw [← (W23_arr m ρ c 4 : W23 m ρ c (Proc.devRef .tc main_v83_0) = _), kx, params_Wrel m ρ c, params_brel m ρ c] at hL
  have hR := KReg9.reg9_root (V22 m ρ) c
  rw [← (W23_arr m ρ c 5 : W23 m ρ c (Proc.devRef .tc main_v83_1) = _), kx, params_Wroot m ρ c,
    ← ((hostOps10_1_writes.kept (by decide)).trans (hostOps10_writes.kept (by decide)) :
      V25 m ρ c main_v83_1 = W23 m ρ c (Proc.devRef .tc main_v83_1))] at hR
  have hP := KReg10.reg10_pre (V25 m ρ) c
  rw [← (W26_arr m ρ c 2 : W26 m ρ c (Proc.devRef .tc main_v88_0) = _),
    ← (hostOps11_writes.kept (by decide) : V27 m ρ c main_v88_0 = W26 m ρ c (Proc.devRef .tc main_v88_0))] at hP
  have hs := KReg10.reg10_sum (V25 m ρ) c
  rw [← (W26_arr m ρ c 3 : W26 m ρ c (Proc.devRef .tc main_v88_1) = _)] at hs
  have hq := KReg10.reg10_sumsq (V25 m ρ) c
  rw [← (W26_arr m ρ c 4 : W26 m ρ c (Proc.devRef .tc main_v88_2) = _)] at hq
  have hg := moments_gamma m ρ c
  rw [kept_param m ρ c main_v79 (by decide) (by decide) (by decide) (by decide), params_gamma m ρ c] at hg
  have hb := moments_beta m ρ c
  rw [kept_param m ρ c main_v81 (by decide) (by decide) (by decide) (by decide), params_beta m ρ c] at hb
  have hO := KReg11.reg11_bn (V27 m ρ) c
  rw [← (W28_arr m ρ c 5 : W28 m ρ c (Proc.devRef .tc main_v97) = _)] at hO
  exact layerK_of_parts hsrc hL hR ((scatter_eq (W24 m ρ c)).trans (congrArg (aggRows _) (take_eq m ρ c))) hP hs hq
    (moments_mean m ρ c) (moments_var m ρ c) hg hb hO
end Cert.KernelIdeal.KLayer3Core

end
-- ==== Proof.KLayer3.lean ====
import proofs.«401365_j67929202754020_1_alg».proof.Proof.KLayer3Core
-- ==== Proof.KTail.lean ====
import proofs.«401365_j67929202754020_1_alg».proof.Proof.Gen.KernelIdeal.Frame
import Idealize.ShloMosaic.Lib.StableHlo.Run
import Idealize.ShloMosaic.PureOps.Ideal

noncomputable section

namespace Cert.KernelIdeal.KTail

open Cert.KernelIdeal Cert.KernelIdeal.Gen Idealize.ShloMosaic Idealize.ShloMosaic.TcCoe Idealize.SL.Sem Idealize.ShloMosaic.StableHlo

def tailK (h : Vec Ideal S100000x192 .f32) (batch : IVec S100000 32)
    (Wh1 : Vec Ideal S192x192 .f32) (bh1 : Vec Ideal S192 .f32)
    (Wh2 : Vec Ideal S192x192 .f32) (bh2 : Vec Ideal S192 .f32)
    (Wout : Vec Ideal S192x1 .f32) (bout : Vec Ideal S1 .f32) : Vec Ideal S2000x1 .f32 :=
  addf (F := Ideal) (s := S2000x1) (φ := .f32)
    (Host.dotGeneral (F := Ideal) (φ₁ := .f32) (φ₂ := .f32) dot_S2000x192_S192x1_S2000x1_1_0_0_1_n_n none
      (addf (F := Ideal) (s := S2000x192) (φ := .f32)
        (Host.dotGeneral (F := Ideal) (φ₁ := .f32) (φ₂ := .f32) dot_S2000x192_S192x192_S2000x192_1_0_0_1_n_n none
          (maximumf (F := Ideal) (s := S2000x192) (φ := .f32)
            (addf (F := Ideal) (s := S2000x192) (φ := .f32)
              (Host.dotGeneral (F := Ideal) (φ₁ := .f32) (φ₂ := .f32) dot_S2000x192_S192x192_S2000x192_1_0_0_1_n_n none
                (Host.divf (F := Ideal) (s := S2000x192) (φ := .f32)
                  (Host.scatterAdd (F := Ideal) scatter_S2000x192_S100000x1_S100000x192_1_0_0_1
                    (broadcastInDim S2000x192 ![] bcast_S_S2000x192 (constant (F := Ideal) S_ .f32 0x00000000#32))
                    (broadcastInDim S100000x1 ![0] bcast_S100000_S100000x1_0 batch)
                    h)
                  (broadcastInDim S2000x192 ![0, 1] bcast_S2000x1_S2000x192_0_1
                    (broadcastInDim S2000x1 ![0] bcast_S2000_S2000x1_0
                      (maximumf (F := Ideal) (s := S2000) (φ := .f32)
                        (Host.scatterAdd (F := Ideal) scatter_S2000_S100000x1_S100000_n_0_0_1
                          (broadcastInDim S2000 ![] bcast_S_S2000 (constant (F := Ideal) S_ .f32 0x00000000#32))
                          (broadcastInDim S100000x1 ![0] bcast_S100000_S100000x1_0 batch)
                          (broadcastInDim S100000 ![] bcast_S_S100000 (constant (F := Ideal) S_ .f32 0x3F800000#32)))
                        (broadcastInDim S2000 ![] bcast_S_S2000 (constant (F := Ideal) S_ .f32 0x3F800000#32))))))
                Wh1)
              (broadcastInDim S2000x192 ![0, 1] bcast_S1x192_S2000x192_0_1 (broadcastInDim S1x192 ![1] bcast_S192_S1x192_1 bh1)))
            (broadcastInDim S2000x192 ![] bcast_S_S2000x192 (constant (F := Ideal) S_ .f32 0x00000000#32)))
          Wh2)
        (broadcastInDim S2000x192 ![0, 1] bcast_S1x192_S2000x192_0_1 (broadcastInDim S1x192 ![1] bcast_S192_S1x192_1 bh2)))
      Wout)
    (broadcastInDim S2000x1 ![0, 1] bcast_S1x1_S2000x1_0_1 (broadcastInDim S1x1 ![1] bcast_S1_S1x1_1 bout))

set_option maxHeartbeats 1000000 in

theorem core (V : Valuation τ sig (Elt Ideal)) :
    StableHlo.after (hostOps12_2 (F := Ideal)) (StableHlo.after (hostOps12_1 (F := Ideal)) (StableHlo.after (hostOps12 (F := Ideal)) V))
      (Proc.devRef .tc main_v122)
      = tailK (V (Proc.devRef .tc main_v97)) (V (Proc.devRef .tc main_arg3)) (V (Proc.devRef .tc main_arg12))
          (V (Proc.devRef .tc main_arg13)) (V (Proc.devRef .tc main_arg14)) (V (Proc.devRef .tc main_arg15))
          (V (Proc.devRef .tc main_arg16)) (V (Proc.devRef .tc main_arg17)) := by
  after_results_simp
  simp only [TRef.ofBuf, TRef.toBuf, cast_eq]
  rfl

theorem keep_arg3 (V : Valuation τ sig (Elt Ideal)) :
    StableHlo.after (hostOps12_2 (F := Ideal)) (StableHlo.after (hostOps12_1 (F := Ideal)) (StableHlo.after (hostOps12 (F := Ideal)) V))
      (Proc.devRef .tc main_arg3) = V (Proc.devRef .tc main_arg3) := by
  simp only [after_cons, after_nil]
  rfl

theorem keep_arg12 (V : Valuation τ sig (Elt Ideal)) :
    StableHlo.after (hostOps12_2 (F := Ideal)) (StableHlo.after (hostOps12_1 (F := Ideal)) (StableHlo.after (hostOps12 (F := Ideal)) V))
      (Proc.devRef .tc main_arg12) = V (Proc.devRef .tc main_arg12) := by
  simp only [after_cons, after_nil]
  rfl

theorem keep_arg13 (V : Valuation τ sig (Elt Ideal)) :
    StableHlo.after (hostOps12_2 (F := Ideal)) (StableHlo.after (hostOps12_1 (F := Ideal)) (StableHlo.after (hostOps12 (F := Ideal)) V))
      (Proc.devRef .tc main_arg13) = V (Proc.devRef .tc main_arg13) := by
  simp only [after_cons, after_nil]
  rfl

theorem keep_arg14 (V : Valuation τ sig (Elt Ideal)) :
    StableHlo.after (hostOps12_2 (F := Ideal)) (StableHlo.after (hostOps12_1 (F := Ideal)) (StableHlo.after (hostOps12 (F := Ideal)) V))
      (Proc.devRef .tc main_arg14) = V (Proc.devRef .tc main_arg14) := by
  simp only [after_cons, after_nil]
  rfl

theorem keep_arg15 (V : Valuation τ sig (Elt Ideal)) :
    StableHlo.after (hostOps12_2 (F := Ideal)) (StableHlo.after (hostOps12_1 (F := Ideal)) (StableHlo.after (hostOps12 (F := Ideal)) V))
      (Proc.devRef .tc main_arg15) = V (Proc.devRef .tc main_arg15) := by
  simp only [after_cons, after_nil]
  rfl

theorem keep_arg16 (V : Valuation τ sig (Elt Ideal)) :
    StableHlo.after (hostOps12_2 (F := Ideal)) (StableHlo.after (hostOps12_1 (F := Ideal)) (StableHlo.after (hostOps12 (F := Ideal)) V))
      (Proc.devRef .tc main_arg16) = V (Proc.devRef .tc main_arg16) := by
  simp only [after_cons, after_nil]
  rfl

theorem keep_arg17 (V : Valuation τ sig (Elt Ideal)) :
    StableHlo.after (hostOps12_2 (F := Ideal)) (StableHlo.after (hostOps12_1 (F := Ideal)) (StableHlo.after (hostOps12 (F := Ideal)) V))
      (Proc.devRef .tc main_arg17) = V (Proc.devRef .tc main_arg17) := by
  simp only [after_cons, after_nil]
  rfl

variable (m : (ℓ : Loc nD τ sig) → Buf (Elt Ideal) ℓ) (ρ : Dev nD → PrngReg)

theorem W28_main_arg3 (c : Dev nD) :
    W28 m ρ c (Proc.devRef .tc main_arg3) = m ((c.tc : Thread nD τ).loc main_arg3) :=
  (keep_arg3 (W28 m ρ c)).symm.trans (W31_main_arg3 m ρ c)

theorem W28_main_arg12 (c : Dev nD) :
    W28 m ρ c (Proc.devRef .tc main_arg12) = m ((c.tc : Thread nD τ).loc main_arg12) :=
  (keep_arg12 (W28 m ρ c)).symm.trans (W31_main_arg12 m ρ c)

theorem W28_main_arg13 (c : Dev nD) :
    W28 m ρ c (Proc.devRef .tc main_arg13) = m ((c.tc : Thread nD τ).loc main_arg13) :=
  (keep_arg13 (W28 m ρ c)).symm.trans (W31_main_arg13 m ρ c)

theorem W28_main_arg14 (c : Dev nD) :
    W28 m ρ c (Proc.devRef .tc main_arg14) = m ((c.tc : Thread nD τ).loc main_arg14) :=
  (keep_arg14 (W28 m ρ c)).symm.trans (W31_main_arg14 m ρ c)

theorem W28_main_arg15 (c : Dev nD) :
    W28 m ρ c (Proc.devRef .tc main_arg15) = m ((c.tc : Thread nD τ).loc main_arg15) :=
  (keep_arg15 (W28 m ρ c)).symm.trans (W31_main_arg15 m ρ c)

theorem W28_main_arg16 (c : Dev nD) :
    W28 m ρ c (Proc.devRef .tc main_arg16) = m ((c.tc : Thread nD τ).loc main_arg16) :=
  (keep_arg16 (W28 m ρ c)).symm.trans (W31_main_arg16 m ρ c)

theorem W28_main_arg17 (c : Dev nD) :
    W28 m ρ c (Proc.devRef .tc main_arg17) = m ((c.tc : Thread nD τ).loc main_arg17) :=
  (keep_arg17 (W28 m ρ c)).symm.trans (W31_main_arg17 m ρ c)

theorem tail (c : Dev nD) :
    W31 m ρ c (Proc.devRef .tc main_v122)
      = tailK (W28 m ρ c (Proc.devRef .tc main_v97)) (m ((c.tc : Thread nD τ).loc main_arg3))
          (m ((c.tc : Thread nD τ).loc main_arg12)) (m ((c.tc : Thread nD τ).loc main_arg13))
          (m ((c.tc : Thread nD τ).loc main_arg14)) (m ((c.tc : Thread nD τ).loc main_arg15))
          (m ((c.tc : Thread nD τ).loc main_arg16)) (m ((c.tc : Thread nD τ).loc main_arg17)) := by
  have h := core (W28 m ρ c)
  rw [W28_main_arg3 m ρ c, W28_main_arg12 m ρ c, W28_main_arg13 m ρ c, W28_main_arg14 m ρ c,
    W28_main_arg15 m ρ c, W28_main_arg16 m ρ c, W28_main_arg17 m ρ c] at h
  exact h

end Cert.KernelIdeal.KTail
-- ==== Proof.KVal.lean ====
import proofs.«401365_j67929202754020_1_alg».proof.Proof.KLayer0
import proofs.«401365_j67929202754020_1_alg».proof.Proof.KLayer1
import proofs.«401365_j67929202754020_1_alg».proof.Proof.KLayer2
import proofs.«401365_j67929202754020_1_alg».proof.Proof.KLayer3
import proofs.«401365_j67929202754020_1_alg».proof.Proof.KTail
import proofs.«401365_j67929202754020_1_alg».proof.Proof.Spec

set_option maxRecDepth 16384

noncomputable section

namespace Cert.KernelIdeal.KVal

open Cert.KernelIdeal Cert.KernelIdeal.Gen Cert.Spec Idealize.ShloMosaic Idealize.ShloMosaic.TcCoe Idealize.SL.Sem

variable (m : (ℓ : Loc nD τ sig) → Buf (Elt Ideal) ℓ) (ρ : Dev nD → PrngReg)

theorem hidden (c : Dev nD) (hsrc : ∀ e, InRange (normIdx (show IVec S400000 32 from m ((c.tc : Thread nD τ).loc main_arg1)) e)) :
    cur2 (show Vec Ideal S100000x192 .f32 from W28 m ρ c (Proc.devRef .tc main_v97))
      = netK (cur2 (show Vec Ideal S100000x32 .f32 from m ((c.tc : Thread nD τ).loc main_arg0)))
          (cur2 (show Vec Ideal S32x192 .f32 from m ((c.tc : Thread nD τ).loc main_arg4)))
          (cur1 (show Vec Ideal S192 .f32 from m ((c.tc : Thread nD τ).loc main_arg5)))
          (cur2 (show Vec Ideal S32x192 .f32 from m ((c.tc : Thread nD τ).loc main_arg6)))
          (slabOf (show Vec Ideal S3x192x192 .f32 from m ((c.tc : Thread nD τ).loc main_arg7)))
          (rowOf (show Vec Ideal S3x192 .f32 from m ((c.tc : Thread nD τ).loc main_arg8)))
          (slabOf (show Vec Ideal S3x192x192 .f32 from m ((c.tc : Thread nD τ).loc main_arg9)))
          (rowOf (show Vec Ideal S4x192 .f32 from m ((c.tc : Thread nD τ).loc main_arg10)))
          (rowOf (show Vec Ideal S4x192 .f32 from m ((c.tc : Thread nD τ).loc main_arg11)))
          (srcOf (show IVec S400000 32 from m ((c.tc : Thread nD τ).loc main_arg1)))
          (dstOf (show IVec S400000 32 from m ((c.tc : Thread nD τ).loc main_arg2))) := by
  unfold netK
  rw [KLayer3.layer3 m ρ c hsrc, KLayer2.layer2 m ρ c hsrc, KLayer1.layer1 m ρ c hsrc, KLayer0.layer0 m ρ c hsrc]

theorem result (c : Dev nD) :
    W31 m ρ c (Proc.devRef .tc main_v122)
      = KTail.tailK (W28 m ρ c (Proc.devRef .tc main_v97)) (m ((c.tc : Thread nD τ).loc main_arg3)) (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17)) :=
  KTail.tail m ρ c

end Cert.KernelIdeal.KVal

end
-- ==== Proof.RefOps.lean ====
import proofs.«401365_j67929202754020_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

abbrev opsL0 : List (HloOp τ sig (Elt F)) :=
  [ binary main_arg0 main_arg4 main_v0 ((fun l r => Host.dotGeneral dot_S100000x32_S32x192_S100000x192_1_0_0_1_n_n none l r) : (⟨S100000x32, .f32⟩ : BufTy).Contents (Elt F) → (⟨S32x192, .f32⟩ : BufTy).Contents (Elt F) → (⟨S100000x192, .f32⟩ : BufTy).Contents (Elt F)),
    unary main_arg5 main_v1 (broadcastInDim S1x192 ![1] bcast_S192_S1x192_1 : (⟨S192, .f32⟩ : BufTy).Contents (Elt F) → (⟨S1x192, .f32⟩ : BufTy).Contents (Elt F)),
    unary main_v1 main_v2 (broadcastInDim S100000x192 ![0, 1] bcast_S1x192_S100000x192_0_1 : (⟨S1x192, .f32⟩ : BufTy).Contents (Elt F) → (⟨S100000x192, .f32⟩ : BufTy).Contents (Elt F)),
    binary main_v0 main_v2 main_v3 (addf : (⟨S100000x192, .f32⟩ : BufTy).Contents (Elt F) → (⟨S100000x192, .f32⟩ : BufTy).Contents (Elt F) → (⟨S100000x192, .f32⟩ : BufTy).Contents (Elt F)),
    nullary main_c (constantI S_ 32 0#32),
    unary main_c main_v4 (broadcastInDim S400000 ![] bcast_S_S400000 : (⟨S_, .i32⟩ : BufTy).Contents (Elt F) → (⟨S400000, .i32⟩ : BufTy).Contents (Elt F)),
    binary main_arg1 main_v4 main_v5 (cmpi .slt : (⟨S400000, .i32⟩ : BufTy).Contents (Elt F) → (⟨S400000, .i32⟩ : BufTy).Contents (Elt F) → (⟨S400000, .i1⟩ : BufTy).Contents (Elt F)),
    nullary main_c_0 (constantI S_ 32 100000#32),
    unary main_c_0 main_v6 (broadcastInDim S400000 ![] bcast_S_S400000 : (⟨S_, .i32⟩ : BufTy).Contents (Elt F) → (⟨S400000, .i32⟩ : BufTy).Contents (Elt F)),
    binary main_arg1 main_v6 main_v7 (addi : (⟨S400000, .i32⟩ : BufTy).Contents (Elt F) → (⟨S400000, .i32⟩ : BufTy).Contents (Elt F) → (⟨S400000, .i32⟩ : BufTy).Contents (Elt F)),
    ternary main_v5 main_v7 main_arg1 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v8 main_v9 (broadcastInDim S400000x1 ![0] bcast_S400000_S400000x1_0 : (⟨S400000, .i32⟩ : BufTy).Contents (Elt F) → (⟨S400000x1, .i32⟩ : BufTy).Contents (Elt F)),
    binary main_v3 main_v9 main_v10 ((fun x i => Host.gather gather_S100000x192_S400000x1_S400000x192_1_0_n_n_0_1_1192 x i) : (⟨S100000x192, .f32⟩ : BufTy).Contents (Elt F) → (⟨S400000x1, .i32⟩ : BufTy).Contents (Elt F) → (⟨S400000x192, .f32⟩ : BufTy).Contents (Elt F)),
    nullary main_cst (constant S_ .f32 0x00000000#32),
    unary main_cst main_v11 (broadcastInDim S100000x192 ![] bcast_S_S100000x192 : (⟨S_, .f32⟩ : BufTy).Contents (Elt F) → (⟨S100000x192, .f32⟩ : BufTy).Contents (Elt F)),
    unary main_arg2 main_v12 (broadcastInDim S400000x1 ![0] bcast_S400000_S400000x1_0 : (⟨S400000, .i32⟩ : BufTy).Contents (Elt F) → (⟨S400000x1, .i32⟩ : BufTy).Contents (Elt F)),
    ternary main_v11 main_v12 main_v10 main_v13 ((fun x i u => Host.scatterAdd scatter_S100000x192_S400000x1_S400000x192_1_0_0_1 x i u) : (⟨S100000x192, .f32⟩ : BufTy).Contents (Elt F) → (⟨S400000x1, .i32⟩ : BufTy).Contents (Elt F) → (⟨S400000x192, .f32⟩ : BufTy).Contents (Elt F) → (⟨S100000x192, .f32⟩ : BufTy).Contents (Elt F)),
    binary main_arg0 main_arg6 main_v14 ((fun l r => Host.dotGeneral dot_S100000x32_S32x192_S100000x192_1_0_0_1_n_n none l r) : (⟨S100000x32, .f32⟩ : BufTy).Contents (Elt F) → (⟨S32x192, .f32⟩ : BufTy).Contents (Elt F) → (⟨S100000x192, .f32⟩ : BufTy).Contents (Elt F)),
    binary main_v13 main_v14 main_v15 (addf : (⟨S100000x192, .f32⟩ : BufTy).Contents (Elt F) → (⟨S100000x192, .f32⟩ : BufTy).Contents (Elt F) → (⟨S100000x192, .f32⟩ : BufTy).Contents (Elt F)),
    unary main_arg10 main_v16 ((extractStridedSlice S1x192 ![0, 0] · slices_S4x192_S1x192_0_0) : (⟨S4x192, .f32⟩ : BufTy).Contents (Elt F) → (⟨S1x192, .f32⟩ : BufTy).Contents (Elt F)),
    reshape main_v16 main_v17 rfl shapeCasts_S1x192_S192,
    unary main_arg11 main_v18 ((extractStridedSlice S1x192 ![0, 0] · slices_S4x192_S1x192_0_0) : (⟨S4x192, .f32⟩ : BufTy).Contents (Elt F) → (⟨S1x192, .f32⟩ : BufTy).Contents (Elt F)),
    reshape main_v18 main_v19 rfl shapeCasts_S1x192_S192,
    nullary main_cst_1 (constant S_ .f32 0x00000000#32),
    binary main_v15 main_cst_1 main_v20 ((fun x v => Host.reduceAdd x v reducesTo_S100000x192_S192_d0 h_S_) : (⟨S100000x192, .f32⟩ : BufTy).Contents (Elt F) → (⟨S_, .f32⟩ : BufTy).Contents (Elt F) → (⟨S192, .f32⟩ : BufTy).Contents (Elt F)),
    nullary main_cst_2 (constant S_ .f32 0x47C35000#32),
    unary main_cst_2 main_v21 (broadcastInDim S192 ![] bcast_S_S192 : (⟨S_, .f32⟩ : BufTy).Contents (Elt F) → (⟨S192, .f32⟩ : BufTy).Contents (Elt F)),
    binary main_v20 main_v21 main_v22 (Host.divf : (⟨S192, .f32⟩ : BufTy).Contents (Elt F) → (⟨S192, .f32⟩ : BufTy).Contents (Elt F) → (⟨S192, .f32⟩ : BufTy).Contents (Elt F)),
    nullary main_c_3 (constantI S_ 32 0#32),
    TRef.nullary main_call0.cst (constant S_ .f32 0x00000000#32),
    TRef.binary (.of main_v15) main_call0.cst main_call0.v0 (fun x v => Host.reduceAdd x v reducesTo_S100000x192_S192_d0 h_S_),
    TRef.unary main_call0.v0 main_call0.v1 (broadcastInDim S1x192 ![1] bcast_S192_S1x192_1),
    TRef.nullary main_call0.cst_0 (constant S_ .f32 0x47C35000#32),
    TRef.unary main_call0.cst_0 main_call0.v2 (broadcastInDim S1x192 ![] bcast_S_S1x192),
    TRef.binary main_call0.v1 main_call0.v2 main_call0.v3 Host.divf,
    TRef.unary main_call0.v3 main_call0.v4 (broadcastInDim S100000x192 ![0, 1] bcast_S1x192_S100000x192_0_1),
    TRef.binary (.of main_v15) main_call0.v4 main_call0.v5 subf,
    TRef.binary main_call0.v5 main_call0.v5 main_call0.v6 mulf,
    TRef.unary (.of main_c_3) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x192_S192_d0 h_S_),
    TRef.unary main_call0.v8 main_call0.v10 (broadcastInDim S192 ![] bcast_S_S192),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S192 ![] bcast_S_S192),
    TRef.ternary main_call0.v12 main_call0.v11 main_call0.call0.v1 main_call0.call0.v2 (fun p a b => select (broadcastInDim S192 ![] bcast_S_S192 p) a b),
    unary main_v22 main_v24 (broadcastInDim S1x192 ![1] bcast_S192_S1x192_1 : (⟨S192, .f32⟩ : BufTy).Contents (Elt F) → (⟨S1x192, .f32⟩ : BufTy).Contents (Elt F)),
    unary main_v24 main_v25 (broadcastInDim S100000x192 ![0, 1] bcast_S1x192_S100000x192_0_1 : (⟨S1x192, .f32⟩ : BufTy).Contents (Elt F) → (⟨S100000x192, .f32⟩ : BufTy).Contents (Elt F)),
    binary main_v15 main_v25 main_v26 (subf : (⟨S100000x192, .f32⟩ : BufTy).Contents (Elt F) → (⟨S100000x192, .f32⟩ : BufTy).Contents (Elt F) → (⟨S100000x192, .f32⟩ : BufTy).Contents (Elt F)),
    nullary main_cst_4 (constant S_ .f32 0x3727C5AC#32),
    unary main_cst_4 main_v27 (broadcastInDim S192 ![] bcast_S_S192 : (⟨S_, .f32⟩ : BufTy).Contents (Elt F) → (⟨S192, .f32⟩ : BufTy).Contents (Elt F)),
    binary main_v23 main_v27 main_v28 (addf : (⟨S192, .f32⟩ : BufTy).Contents (Elt F) → (⟨S192, .f32⟩ : BufTy).Contents (Elt F) → (⟨S192, .f32⟩ : BufTy).Contents (Elt F)),
    unary main_v28 main_v29 (Host.rsqrt : (⟨S192, .f32⟩ : BufTy).Contents (Elt F) → (⟨S192, .f32⟩ : BufTy).Contents (Elt F)),
    unary main_v29 main_v30 (broadcastInDim S1x192 ![1] bcast_S192_S1x192_1 : (⟨S192, .f32⟩ : BufTy).Contents (Elt F) → (⟨S1x192, .f32⟩ : BufTy).Contents (Elt F)),
    unary main_v30 main_v31 (broadcastInDim S100000x192 ![0, 1] bcast_S1x192_S100000x192_0_1 : (⟨S1x192, .f32⟩ : BufTy).Contents (Elt F) → (⟨S100000x192, .f32⟩ : BufTy).Contents (Elt F)),
    binary main_v26 main_v31 main_v32 (mulf : (⟨S100000x192, .f32⟩ : BufTy).Contents (Elt F) → (⟨S100000x192, .f32⟩ : BufTy).Contents (Elt F) → (⟨S100000x192, .f32⟩ : BufTy).Contents (Elt F)),
    unary main_v17 main_v33 (broadcastInDim S1x192 ![1] bcast_S192_S1x192_1 : (⟨S192, .f32⟩ : BufTy).Contents (Elt F) → (⟨S1x192, .f32⟩ : BufTy).Contents (Elt F)),
    unary main_v33 main_v34 (broadcastInDim S100000x192 ![0, 1] bcast_S1x192_S100000x192_0_1 : (⟨S1x192, .f32⟩ : BufTy).Contents (Elt F) → (⟨S100000x192, .f32⟩ : BufTy).Contents (Elt F)),
    binary main_v32 main_v34 main_v35 (mulf : (⟨S100000x192, .f32⟩ : BufTy).Contents (Elt F) → (⟨S100000x192, .f32⟩ : BufTy).Contents (Elt F) → (⟨S100000x192, .f32⟩ : BufTy).Contents (Elt F)),
    unary main_v19 main_v36 (broadcastInDim S1x192 ![1] bcast_S192_S1x192_1 : (⟨S192, .f32⟩ : BufTy).Contents (Elt F) → (⟨S1x192, .f32⟩ : BufTy).Contents (Elt F)),
    unary main_v36 main_v37 (broadcastInDim S100000x192 ![0, 1] bcast_S1x192_S100000x192_0_1 : (⟨S1x192, .f32⟩ : BufTy).Contents (Elt F) → (⟨S100000x192, .f32⟩ : BufTy).Contents (Elt F)),
    binary main_v35 main_v37 main_v38 (addf : (⟨S100000x192, .f32⟩ : BufTy).Contents (Elt F) → (⟨S100000x192, .f32⟩ : BufTy).Contents (Elt F) → (⟨S100000x192, .f32⟩ : BufTy).Contents (Elt F)),
    TRef.nullary main_call1.cst (constant S_ .f32 0x00000000#32),
    TRef.unary main_call1.cst main_call1.v0 (broadcastInDim S100000x192 ![] bcast_S_S100000x192),
    TRef.binary (.of main_v38) main_call1.v0 main_call1.v1 maximumf ]

abbrev opsL1 : List (HloOp τ sig (Elt F)) :=
  [ unary main_arg7 main_v40 ((extractStridedSlice S1x192x192 ![0, 0, 0] · slices_S3x192x192_S1x192x192_0_0_0) : (⟨S3x192x192, .f32⟩ : BufTy).Contents (Elt F) → (⟨S1x192x192, .f32⟩ : BufTy).Contents (Elt F)),
    reshape main_v40 main_v41 rfl shapeCasts_S1x192x192_S192x192,
    unary main_arg8 main_v42 ((extractStridedSlice S1x192 ![0, 0] · slices_S3x192_S1x192_0_0) : (⟨S3x192, .f32⟩ : BufTy).Contents (Elt F) → (⟨S1x192, .f32⟩ : BufTy).Contents (Elt F)),
    reshape main_v42 main_v43 rfl shapeCasts_S1x192_S192,
    unary main_arg9 main_v44 ((extractStridedSlice S1x192x192 ![0, 0, 0] · slices_S3x192x192_S1x192x192_0_0_0) : (⟨S3x192x192, .f32⟩ : BufTy).Contents (Elt F) → (⟨S1x192x192, .f32⟩ : BufTy).Contents (Elt F)),
    reshape main_v44 main_v45 rfl shapeCasts_S1x192x192_S192x192,
    binary main_v39 main_v41 main_v46 ((fun l r => Host.dotGeneral dot_S100000x192_S192x192_S100000x192_1_0_0_1_n_n none l r) : (⟨S100000x192, .f32⟩ : BufTy).Contents (Elt F) → (⟨S192x192, .f32⟩ : BufTy).Contents (Elt F) → (⟨S100000x192, .f32⟩ : BufTy).Contents (Elt F)),
    unary main_v43 main_v47 (broadcastInDim S1x192 ![1] bcast_S192_S1x192_1 : (⟨S192, .f32⟩ : BufTy).Contents (Elt F) → (⟨S1x192, .f32⟩ : BufTy).Contents (Elt F)),
    unary main_v47 main_v48 (broadcastInDim S100000x192 ![0, 1] bcast_S1x192_S100000x192_0_1 : (⟨S1x192, .f32⟩ : BufTy).Contents (Elt F) → (⟨S100000x192, .f32⟩ : BufTy).Contents (Elt F)),
    binary main_v46 main_v48 main_v49 (addf : (⟨S100000x192, .f32⟩ : BufTy).Contents (Elt F) → (⟨S100000x192, .f32⟩ : BufTy).Contents (Elt F) → (⟨S100000x192, .f32⟩ : BufTy).Contents (Elt F)),
    nullary main_c_5 (constantI S_ 32 0#32),
    unary main_c_5 main_v50 (broadcastInDim S400000 ![] bcast_S_S400000 : (⟨S_, .i32⟩ : BufTy).Contents (Elt F) → (⟨S400000, .i32⟩ : BufTy).Contents (Elt F)),
    binary main_arg1 main_v50 main_v51 (cmpi .slt : (⟨S400000, .i32⟩ : BufTy).Contents (Elt F) → (⟨S400000, .i32⟩ : BufTy).Contents (Elt F) → (⟨S400000, .i1⟩ : BufTy).Contents (Elt F)),
    nullary main_c_6 (constantI S_ 32 100000#32),
    unary main_c_6 main_v52 (broadcastInDim S400000 ![] bcast_S_S400000 : (⟨S_, .i32⟩ : BufTy).Contents (Elt F) → (⟨S400000, .i32⟩ : BufTy).Contents (Elt F)),
    binary main_arg1 main_v52 main_v53 (addi : (⟨S400000, .i32⟩ : BufTy).Contents (Elt F) → (⟨S400000, .i32⟩ : BufTy).Contents (Elt F) → (⟨S400000, .i32⟩ : BufTy).Contents (Elt F)),
    ternary main_v51 main_v53 main_arg1 main_v54 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v54 main_v55 (broadcastInDim S400000x1 ![0] bcast_S400000_S400000x1_0 : (⟨S400000, .i32⟩ : BufTy).Contents (Elt F) → (⟨S400000x1, .i32⟩ : BufTy).Contents (Elt F)),
    binary main_v49 main_v55 main_v56 ((fun x i => Host.gather gather_S100000x192_S400000x1_S400000x192_1_0_n_n_0_1_1192 x i) : (⟨S100000x192, .f32⟩ : BufTy).Contents (Elt F) → (⟨S400000x1, .i32⟩ : BufTy).Contents (Elt F) → (⟨S400000x192, .f32⟩ : BufTy).Contents (Elt F)),
    nullary main_cst_7 (constant S_ .f32 0x00000000#32),
    unary main_cst_7 main_v57 (broadcastInDim S100000x192 ![] bcast_S_S100000x192 : (⟨S_, .f32⟩ : BufTy).Contents (Elt F) → (⟨S100000x192, .f32⟩ : BufTy).Contents (Elt F)),
    unary main_arg2 main_v58 (broadcastInDim S400000x1 ![0] bcast_S400000_S400000x1_0 : (⟨S400000, .i32⟩ : BufTy).Contents (Elt F) → (⟨S400000x1, .i32⟩ : BufTy).Contents (Elt F)),
    ternary main_v57 main_v58 main_v56 main_v59 ((fun x i u => Host.scatterAdd scatter_S100000x192_S400000x1_S400000x192_1_0_0_1 x i u) : (⟨S100000x192, .f32⟩ : BufTy).Contents (Elt F) → (⟨S400000x1, .i32⟩ : BufTy).Contents (Elt F) → (⟨S400000x192, .f32⟩ : BufTy).Contents (Elt F) → (⟨S100000x192, .f32⟩ : BufTy).Contents (Elt F)),
    binary main_v39 main_v45 main_v60 ((fun l r => Host.dotGeneral dot_S100000x192_S192x192_S100000x192_1_0_0_1_n_n none l r) : (⟨S100000x192, .f32⟩ : BufTy).Contents (Elt F) → (⟨S192x192, .f32⟩ : BufTy).Contents (Elt F) → (⟨S100000x192, .f32⟩ : BufTy).Contents (Elt F)),
    binary main_v59 main_v60 main_v61 (addf : (⟨S100000x192, .f32⟩ : BufTy).Contents (Elt F) → (⟨S100000x192, .f32⟩ : BufTy).Contents (Elt F) → (⟨S100000x192, .f32⟩ : BufTy).Contents (Elt F)),
    unary main_arg10 main_v62 ((extractStridedSlice S1x192 ![1, 0] · slices_S4x192_S1x192_1_0) : (⟨S4x192, .f32⟩ : BufTy).Contents (Elt F) → (⟨S1x192, .f32⟩ : BufTy).Contents (Elt F)),
    reshape main_v62 main_v63 rfl shapeCasts_S1x192_S192,
    unary main_arg11 main_v64 ((extractStridedSlice S1x192 ![1, 0] · slices_S4x192_S1x192_1_0) : (⟨S4x192, .f32⟩ : BufTy).Contents (Elt F) → (⟨S1x192, .f32⟩ : BufTy).Contents (Elt F)),
    reshape main_v64 main_v65 rfl shapeCasts_S1x192_S192,
    nullary main_cst_8 (constant S_ .f32 0x00000000#32),
    binary main_v61 main_cst_8 main_v66 ((fun x v => Host.reduceAdd x v reducesTo_S100000x192_S192_d0 h_S_) : (⟨S100000x192, .f32⟩ : BufTy).Contents (Elt F) → (⟨S_, .f32⟩ : BufTy).Contents (Elt F) → (⟨S192, .f32⟩ : BufTy).Contents (Elt F)),
    nullary main_cst_9 (constant S_ .f32 0x47C35000#32),
    unary main_cst_9 main_v67 (broadcastInDim S192 ![] bcast_S_S192 : (⟨S_, .f32⟩ : BufTy).Contents (Elt F) → (⟨S192, .f32⟩ : BufTy).Contents (Elt F)),
    binary main_v66 main_v67 main_v68 (Host.divf : (⟨S192, .f32⟩ : BufTy).Contents (Elt F) → (⟨S192, .f32⟩ : BufTy).Contents (Elt F) → (⟨S192, .f32⟩ : BufTy).Contents (Elt F)),
    nullary main_c_10 (constantI S_ 32 0#32),
    TRef.nullary main_call2.cst (constant S_ .f32 0x00000000#32),
    TRef.binary (.of main_v61) main_call2.cst main_call2.v0 (fun x v => Host.reduceAdd x v reducesTo_S100000x192_S192_d0 h_S_),
    TRef.unary main_call2.v0 main_call2.v1 (broadcastInDim S1x192 ![1] bcast_S192_S1x192_1),
    TRef.nullary main_call2.cst_0 (constant S_ .f32 0x47C35000#32),
    TRef.unary main_call2.cst_0 main_call2.v2 (broadcastInDim S1x192 ![] bcast_S_S1x192),
    TRef.binary main_call2.v1 main_call2.v2 main_call2.v3 Host.divf,
    TRef.unary main_call2.v3 main_call2.v4 (broadcastInDim S100000x192 ![0, 1] bcast_S1x192_S100000x192_0_1),
    TRef.binary (.of main_v61) main_call2.v4 main_call2.v5 subf,
    TRef.binary main_call2.v5 main_call2.v5 main_call2.v6 mulf,
    TRef.unary (.of main_c_10) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x192_S192_d0 h_S_),
    TRef.unary main_call2.v8 main_call2.v10 (broadcastInDim S192 ![] bcast_S_S192),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S192 ![] bcast_S_S192),
    TRef.ternary main_call2.v12 main_call2.v11 main_call2.call0.v1 main_call2.call0.v2 (fun p a b => select (broadcastInDim S192 ![] bcast_S_S192 p) a b),
    unary main_v68 main_v70 (broadcastInDim S1x192 ![1] bcast_S192_S1x192_1 : (⟨S192, .f32⟩ : BufTy).Contents (Elt F) → (⟨S1x192, .f32⟩ : BufTy).Contents (Elt F)),
    unary main_v70 main_v71 (broadcastInDim S100000x192 ![0, 1] bcast_S1x192_S100000x192_0_1 : (⟨S1x192, .f32⟩ : BufTy).Contents (Elt F) → (⟨S100000x192, .f32⟩ : BufTy).Contents (Elt F)),
    binary main_v61 main_v71 main_v72 (subf : (⟨S100000x192, .f32⟩ : BufTy).Contents (Elt F) → (⟨S100000x192, .f32⟩ : BufTy).Contents (Elt F) → (⟨S100000x192, .f32⟩ : BufTy).Contents (Elt F)),
    nullary main_cst_11 (constant S_ .f32 0x3727C5AC#32),
    unary main_cst_11 main_v73 (broadcastInDim S192 ![] bcast_S_S192 : (⟨S_, .f32⟩ : BufTy).Contents (Elt F) → (⟨S192, .f32⟩ : BufTy).Contents (Elt F)),
    binary main_v69 main_v73 main_v74 (addf : (⟨S192, .f32⟩ : BufTy).Contents (Elt F) → (⟨S192, .f32⟩ : BufTy).Contents (Elt F) → (⟨S192, .f32⟩ : BufTy).Contents (Elt F)),
    unary main_v74 main_v75 (Host.rsqrt : (⟨S192, .f32⟩ : BufTy).Contents (Elt F) → (⟨S192, .f32⟩ : BufTy).Contents (Elt F)),
    unary main_v75 main_v76 (broadcastInDim S1x192 ![1] bcast_S192_S1x192_1 : (⟨S192, .f32⟩ : BufTy).Contents (Elt F) → (⟨S1x192, .f32⟩ : BufTy).Contents (Elt F)),
    unary main_v76 main_v77 (broadcastInDim S100000x192 ![0, 1] bcast_S1x192_S100000x192_0_1 : (⟨S1x192, .f32⟩ : BufTy).Contents (Elt F) → (⟨S100000x192, .f32⟩ : BufTy).Contents (Elt F)),
    binary main_v72 main_v77 main_v78 (mulf : (⟨S100000x192, .f32⟩ : BufTy).Contents (Elt F) → (⟨S100000x192, .f32⟩ : BufTy).Contents (Elt F) → (⟨S100000x192, .f32⟩ : BufTy).Contents (Elt F)),
    unary main_v63 main_v79 (broadcastInDim S1x192 ![1] bcast_S192_S1x192_1 : (⟨S192, .f32⟩ : BufTy).Contents (Elt F) → (⟨S1x192, .f32⟩ : BufTy).Contents (Elt F)),
    unary main_v79 main_v80 (broadcastInDim S100000x192 ![0, 1] bcast_S1x192_S100000x192_0_1 : (⟨S1x192, .f32⟩ : BufTy).Contents (Elt F) → (⟨S100000x192, .f32⟩ : BufTy).Contents (Elt F)),
    binary main_v78 main_v80 main_v81 (mulf : (⟨S100000x192, .f32⟩ : BufTy).Contents (Elt F) → (⟨S100000x192, .f32⟩ : BufTy).Contents (Elt F) → (⟨S100000x192, .f32⟩ : BufTy).Contents (Elt F)),
    unary main_v65 main_v82 (broadcastInDim S1x192 ![1] bcast_S192_S1x192_1 : (⟨S192, .f32⟩ : BufTy).Contents (Elt F) → (⟨S1x192, .f32⟩ : BufTy).Contents (Elt F)),
    unary main_v82 main_v83 (broadcastInDim S100000x192 ![0, 1] bcast_S1x192_S100000x192_0_1 : (⟨S1x192, .f32⟩ : BufTy).Contents (Elt F) → (⟨S100000x192, .f32⟩ : BufTy).Contents (Elt F)),
    binary main_v81 main_v83 main_v84 (addf : (⟨S100000x192, .f32⟩ : BufTy).Contents (Elt F) → (⟨S100000x192, .f32⟩ : BufTy).Contents (Elt F) → (⟨S100000x192, .f32⟩ : BufTy).Contents (Elt F)),
    TRef.nullary main_call3.cst (constant S_ .f32 0x00000000#32),
    TRef.unary main_call3.cst main_call3.v0 (broadcastInDim S100000x192 ![] bcast_S_S100000x192),
    TRef.binary (.of main_v84) main_call3.v0 main_call3.v1 maximumf ]

abbrev opsL2 : List (HloOp τ sig (Elt F)) :=
  [ unary main_arg7 main_v86 ((extractStridedSlice S1x192x192 ![1, 0, 0] · slices_S3x192x192_S1x192x192_1_0_0) : (⟨S3x192x192, .f32⟩ : BufTy).Contents (Elt F) → (⟨S1x192x192, .f32⟩ : BufTy).Contents (Elt F)),
    reshape main_v86 main_v87 rfl shapeCasts_S1x192x192_S192x192,
    unary main_arg8 main_v88 ((extractStridedSlice S1x192 ![1, 0] · slices_S3x192_S1x192_1_0) : (⟨S3x192, .f32⟩ : BufTy).Contents (Elt F) → (⟨S1x192, .f32⟩ : BufTy).Contents (Elt F)),
    reshape main_v88 main_v89 rfl shapeCasts_S1x192_S192,
    unary main_arg9 main_v90 ((extractStridedSlice S1x192x192 ![1, 0, 0] · slices_S3x192x192_S1x192x192_1_0_0) : (⟨S3x192x192, .f32⟩ : BufTy).Contents (Elt F) → (⟨S1x192x192, .f32⟩ : BufTy).Contents (Elt F)),
    reshape main_v90 main_v91 rfl shapeCasts_S1x192x192_S192x192,
    binary main_v85 main_v87 main_v92 ((fun l r => Host.dotGeneral dot_S100000x192_S192x192_S100000x192_1_0_0_1_n_n none l r) : (⟨S100000x192, .f32⟩ : BufTy).Contents (Elt F) → (⟨S192x192, .f32⟩ : BufTy).Contents (Elt F) → (⟨S100000x192, .f32⟩ : BufTy).Contents (Elt F)),
    unary main_v89 main_v93 (broadcastInDim S1x192 ![1] bcast_S192_S1x192_1 : (⟨S192, .f32⟩ : BufTy).Contents (Elt F) → (⟨S1x192, .f32⟩ : BufTy).Contents (Elt F)),
    unary main_v93 main_v94 (broadcastInDim S100000x192 ![0, 1] bcast_S1x192_S100000x192_0_1 : (⟨S1x192, .f32⟩ : BufTy).Contents (Elt F) → (⟨S100000x192, .f32⟩ : BufTy).Contents (Elt F)),
    binary main_v92 main_v94 main_v95 (addf : (⟨S100000x192, .f32⟩ : BufTy).Contents (Elt F) → (⟨S100000x192, .f32⟩ : BufTy).Contents (Elt F) → (⟨S100000x192, .f32⟩ : BufTy).Contents (Elt F)),
    nullary main_c_12 (constantI S_ 32 0#32),
    unary main_c_12 main_v96 (broadcastInDim S400000 ![] bcast_S_S400000 : (⟨S_, .i32⟩ : BufTy).Contents (Elt F) → (⟨S400000, .i32⟩ : BufTy).Contents (Elt F)),
    binary main_arg1 main_v96 main_v97 (cmpi .slt : (⟨S400000, .i32⟩ : BufTy).Contents (Elt F) → (⟨S400000, .i32⟩ : BufTy).Contents (Elt F) → (⟨S400000, .i1⟩ : BufTy).Contents (Elt F)),
    nullary main_c_13 (constantI S_ 32 100000#32),
    unary main_c_13 main_v98 (broadcastInDim S400000 ![] bcast_S_S400000 : (⟨S_, .i32⟩ : BufTy).Contents (Elt F) → (⟨S400000, .i32⟩ : BufTy).Contents (Elt F)),
    binary main_arg1 main_v98 main_v99 (addi : (⟨S400000, .i32⟩ : BufTy).Contents (Elt F) → (⟨S400000, .i32⟩ : BufTy).Contents (Elt F) → (⟨S400000, .i32⟩ : BufTy).Contents (Elt F)),
    ternary main_v97 main_v99 main_arg1 main_v100 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v100 main_v101 (broadcastInDim S400000x1 ![0] bcast_S400000_S400000x1_0 : (⟨S400000, .i32⟩ : BufTy).Contents (Elt F) → (⟨S400000x1, .i32⟩ : BufTy).Contents (Elt F)),
    binary main_v95 main_v101 main_v102 ((fun x i => Host.gather gather_S100000x192_S400000x1_S400000x192_1_0_n_n_0_1_1192 x i) : (⟨S100000x192, .f32⟩ : BufTy).Contents (Elt F) → (⟨S400000x1, .i32⟩ : BufTy).Contents (Elt F) → (⟨S400000x192, .f32⟩ : BufTy).Contents (Elt F)),
    nullary main_cst_14 (constant S_ .f32 0x00000000#32),
    unary main_cst_14 main_v103 (broadcastInDim S100000x192 ![] bcast_S_S100000x192 : (⟨S_, .f32⟩ : BufTy).Contents (Elt F) → (⟨S100000x192, .f32⟩ : BufTy).Contents (Elt F)),
    unary main_arg2 main_v104 (broadcastInDim S400000x1 ![0] bcast_S400000_S400000x1_0 : (⟨S400000, .i32⟩ : BufTy).Contents (Elt F) → (⟨S400000x1, .i32⟩ : BufTy).Contents (Elt F)),
    ternary main_v103 main_v104 main_v102 main_v105 ((fun x i u => Host.scatterAdd scatter_S100000x192_S400000x1_S400000x192_1_0_0_1 x i u) : (⟨S100000x192, .f32⟩ : BufTy).Contents (Elt F) → (⟨S400000x1, .i32⟩ : BufTy).Contents (Elt F) → (⟨S400000x192, .f32⟩ : BufTy).Contents (Elt F) → (⟨S100000x192, .f32⟩ : BufTy).Contents (Elt F)),
    binary main_v85 main_v91 main_v106 ((fun l r => Host.dotGeneral dot_S100000x192_S192x192_S100000x192_1_0_0_1_n_n none l r) : (⟨S100000x192, .f32⟩ : BufTy).Contents (Elt F) → (⟨S192x192, .f32⟩ : BufTy).Contents (Elt F) → (⟨S100000x192, .f32⟩ : BufTy).Contents (Elt F)),
    binary main_v105 main_v106 main_v107 (addf : (⟨S100000x192, .f32⟩ : BufTy).Contents (Elt F) → (⟨S100000x192, .f32⟩ : BufTy).Contents (Elt F) → (⟨S100000x192, .f32⟩ : BufTy).Contents (Elt F)),
    unary main_arg10 main_v108 ((extractStridedSlice S1x192 ![2, 0] · slices_S4x192_S1x192_2_0) : (⟨S4x192, .f32⟩ : BufTy).Contents (Elt F) → (⟨S1x192, .f32⟩ : BufTy).Contents (Elt F)),
    reshape main_v108 main_v109 rfl shapeCasts_S1x192_S192,
    unary main_arg11 main_v110 ((extractStridedSlice S1x192 ![2, 0] · slices_S4x192_S1x192_2_0) : (⟨S4x192, .f32⟩ : BufTy).Contents (Elt F) → (⟨S1x192, .f32⟩ : BufTy).Contents (Elt F)),
    reshape main_v110 main_v111 rfl shapeCasts_S1x192_S192,
    nullary main_cst_15 (constant S_ .f32 0x00000000#32),
    binary main_v107 main_cst_15 main_v112 ((fun x v => Host.reduceAdd x v reducesTo_S100000x192_S192_d0 h_S_) : (⟨S100000x192, .f32⟩ : BufTy).Contents (Elt F) → (⟨S_, .f32⟩ : BufTy).Contents (Elt F) → (⟨S192, .f32⟩ : BufTy).Contents (Elt F)),
    nullary main_cst_16 (constant S_ .f32 0x47C35000#32),
    unary main_cst_16 main_v113 (broadcastInDim S192 ![] bcast_S_S192 : (⟨S_, .f32⟩ : BufTy).Contents (Elt F) → (⟨S192, .f32⟩ : BufTy).Contents (Elt F)),
    binary main_v112 main_v113 main_v114 (Host.divf : (⟨S192, .f32⟩ : BufTy).Contents (Elt F) → (⟨S192, .f32⟩ : BufTy).Contents (Elt F) → (⟨S192, .f32⟩ : BufTy).Contents (Elt F)),
    nullary main_c_17 (constantI S_ 32 0#32),
    TRef.nullary main_call4.cst (constant S_ .f32 0x00000000#32),
    TRef.binary (.of main_v107) main_call4.cst main_call4.v0 (fun x v => Host.reduceAdd x v reducesTo_S100000x192_S192_d0 h_S_),
    TRef.unary main_call4.v0 main_call4.v1 (broadcastInDim S1x192 ![1] bcast_S192_S1x192_1),
    TRef.nullary main_call4.cst_0 (constant S_ .f32 0x47C35000#32),
    TRef.unary main_call4.cst_0 main_call4.v2 (broadcastInDim S1x192 ![] bcast_S_S1x192),
    TRef.binary main_call4.v1 main_call4.v2 main_call4.v3 Host.divf,
    TRef.unary main_call4.v3 main_call4.v4 (broadcastInDim S100000x192 ![0, 1] bcast_S1x192_S100000x192_0_1),
    TRef.binary (.of main_v107) main_call4.v4 main_call4.v5 subf,
    TRef.binary main_call4.v5 main_call4.v5 main_call4.v6 mulf,
    TRef.unary (.of main_c_17) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x192_S192_d0 h_S_),
    TRef.unary main_call4.v8 main_call4.v10 (broadcastInDim S192 ![] bcast_S_S192),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S192 ![] bcast_S_S192),
    TRef.ternary main_call4.v12 main_call4.v11 main_call4.call0.v1 main_call4.call0.v2 (fun p a b => select (broadcastInDim S192 ![] bcast_S_S192 p) a b),
    unary main_v114 main_v116 (broadcastInDim S1x192 ![1] bcast_S192_S1x192_1 : (⟨S192, .f32⟩ : BufTy).Contents (Elt F) → (⟨S1x192, .f32⟩ : BufTy).Contents (Elt F)),
    unary main_v116 main_v117 (broadcastInDim S100000x192 ![0, 1] bcast_S1x192_S100000x192_0_1 : (⟨S1x192, .f32⟩ : BufTy).Contents (Elt F) → (⟨S100000x192, .f32⟩ : BufTy).Contents (Elt F)),
    binary main_v107 main_v117 main_v118 (subf : (⟨S100000x192, .f32⟩ : BufTy).Contents (Elt F) → (⟨S100000x192, .f32⟩ : BufTy).Contents (Elt F) → (⟨S100000x192, .f32⟩ : BufTy).Contents (Elt F)),
    nullary main_cst_18 (constant S_ .f32 0x3727C5AC#32),
    unary main_cst_18 main_v119 (broadcastInDim S192 ![] bcast_S_S192 : (⟨S_, .f32⟩ : BufTy).Contents (Elt F) → (⟨S192, .f32⟩ : BufTy).Contents (Elt F)),
    binary main_v115 main_v119 main_v120 (addf : (⟨S192, .f32⟩ : BufTy).Contents (Elt F) → (⟨S192, .f32⟩ : BufTy).Contents (Elt F) → (⟨S192, .f32⟩ : BufTy).Contents (Elt F)),
    unary main_v120 main_v121 (Host.rsqrt : (⟨S192, .f32⟩ : BufTy).Contents (Elt F) → (⟨S192, .f32⟩ : BufTy).Contents (Elt F)),
    unary main_v121 main_v122 (broadcastInDim S1x192 ![1] bcast_S192_S1x192_1 : (⟨S192, .f32⟩ : BufTy).Contents (Elt F) → (⟨S1x192, .f32⟩ : BufTy).Contents (Elt F)),
    unary main_v122 main_v123 (broadcastInDim S100000x192 ![0, 1] bcast_S1x192_S100000x192_0_1 : (⟨S1x192, .f32⟩ : BufTy).Contents (Elt F) → (⟨S100000x192, .f32⟩ : BufTy).Contents (Elt F)),
    binary main_v118 main_v123 main_v124 (mulf : (⟨S100000x192, .f32⟩ : BufTy).Contents (Elt F) → (⟨S100000x192, .f32⟩ : BufTy).Contents (Elt F) → (⟨S100000x192, .f32⟩ : BufTy).Contents (Elt F)),
    unary main_v109 main_v125 (broadcastInDim S1x192 ![1] bcast_S192_S1x192_1 : (⟨S192, .f32⟩ : BufTy).Contents (Elt F) → (⟨S1x192, .f32⟩ : BufTy).Contents (Elt F)),
    unary main_v125 main_v126 (broadcastInDim S100000x192 ![0, 1] bcast_S1x192_S100000x192_0_1 : (⟨S1x192, .f32⟩ : BufTy).Contents (Elt F) → (⟨S100000x192, .f32⟩ : BufTy).Contents (Elt F)),
    binary main_v124 main_v126 main_v127 (mulf : (⟨S100000x192, .f32⟩ : BufTy).Contents (Elt F) → (⟨S100000x192, .f32⟩ : BufTy).Contents (Elt F) → (⟨S100000x192, .f32⟩ : BufTy).Contents (Elt F)),
    unary main_v111 main_v128 (broadcastInDim S1x192 ![1] bcast_S192_S1x192_1 : (⟨S192, .f32⟩ : BufTy).Contents (Elt F) → (⟨S1x192, .f32⟩ : BufTy).Contents (Elt F)),
    unary main_v128 main_v129 (broadcastInDim S100000x192 ![0, 1] bcast_S1x192_S100000x192_0_1 : (⟨S1x192, .f32⟩ : BufTy).Contents (Elt F) → (⟨S100000x192, .f32⟩ : BufTy).Contents (Elt F)),
    binary main_v127 main_v129 main_v130 (addf : (⟨S100000x192, .f32⟩ : BufTy).Contents (Elt F) → (⟨S100000x192, .f32⟩ : BufTy).Contents (Elt F) → (⟨S100000x192, .f32⟩ : BufTy).Contents (Elt F)),
    TRef.nullary main_call5.cst (constant S_ .f32 0x00000000#32),
    TRef.unary main_call5.cst main_call5.v0 (broadcastInDim S100000x192 ![] bcast_S_S100000x192),
    TRef.binary (.of main_v130) main_call5.v0 main_call5.v1 maximumf ]

abbrev opsL3 : List (HloOp τ sig (Elt F)) :=
  [ unary main_arg7 main_v132 ((extractStridedSlice S1x192x192 ![2, 0, 0] · slices_S3x192x192_S1x192x192_2_0_0) : (⟨S3x192x192, .f32⟩ : BufTy).Contents (Elt F) → (⟨S1x192x192, .f32⟩ : BufTy).Contents (Elt F)),
    reshape main_v132 main_v133 rfl shapeCasts_S1x192x192_S192x192,
    unary main_arg8 main_v134 ((extractStridedSlice S1x192 ![2, 0] · slices_S3x192_S1x192_2_0) : (⟨S3x192, .f32⟩ : BufTy).Contents (Elt F) → (⟨S1x192, .f32⟩ : BufTy).Contents (Elt F)),
    reshape main_v134 main_v135 rfl shapeCasts_S1x192_S192,
    unary main_arg9 main_v136 ((extractStridedSlice S1x192x192 ![2, 0, 0] · slices_S3x192x192_S1x192x192_2_0_0) : (⟨S3x192x192, .f32⟩ : BufTy).Contents (Elt F) → (⟨S1x192x192, .f32⟩ : BufTy).Contents (Elt F)),
    reshape main_v136 main_v137 rfl shapeCasts_S1x192x192_S192x192,
    binary main_v131 main_v133 main_v138 ((fun l r => Host.dotGeneral dot_S100000x192_S192x192_S100000x192_1_0_0_1_n_n none l r) : (⟨S100000x192, .f32⟩ : BufTy).Contents (Elt F) → (⟨S192x192, .f32⟩ : BufTy).Contents (Elt F) → (⟨S100000x192, .f32⟩ : BufTy).Contents (Elt F)),
    unary main_v135 main_v139 (broadcastInDim S1x192 ![1] bcast_S192_S1x192_1 : (⟨S192, .f32⟩ : BufTy).Contents (Elt F) → (⟨S1x192, .f32⟩ : BufTy).Contents (Elt F)),
    unary main_v139 main_v140 (broadcastInDim S100000x192 ![0, 1] bcast_S1x192_S100000x192_0_1 : (⟨S1x192, .f32⟩ : BufTy).Contents (Elt F) → (⟨S100000x192, .f32⟩ : BufTy).Contents (Elt F)),
    binary main_v138 main_v140 main_v141 (addf : (⟨S100000x192, .f32⟩ : BufTy).Contents (Elt F) → (⟨S100000x192, .f32⟩ : BufTy).Contents (Elt F) → (⟨S100000x192, .f32⟩ : BufTy).Contents (Elt F)),
    nullary main_c_19 (constantI S_ 32 0#32),
    unary main_c_19 main_v142 (broadcastInDim S400000 ![] bcast_S_S400000 : (⟨S_, .i32⟩ : BufTy).Contents (Elt F) → (⟨S400000, .i32⟩ : BufTy).Contents (Elt F)),
    binary main_arg1 main_v142 main_v143 (cmpi .slt : (⟨S400000, .i32⟩ : BufTy).Contents (Elt F) → (⟨S400000, .i32⟩ : BufTy).Contents (Elt F) → (⟨S400000, .i1⟩ : BufTy).Contents (Elt F)),
    nullary main_c_20 (constantI S_ 32 100000#32),
    unary main_c_20 main_v144 (broadcastInDim S400000 ![] bcast_S_S400000 : (⟨S_, .i32⟩ : BufTy).Contents (Elt F) → (⟨S400000, .i32⟩ : BufTy).Contents (Elt F)),
    binary main_arg1 main_v144 main_v145 (addi : (⟨S400000, .i32⟩ : BufTy).Contents (Elt F) → (⟨S400000, .i32⟩ : BufTy).Contents (Elt F) → (⟨S400000, .i32⟩ : BufTy).Contents (Elt F)),
    ternary main_v143 main_v145 main_arg1 main_v146 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v146 main_v147 (broadcastInDim S400000x1 ![0] bcast_S400000_S400000x1_0 : (⟨S400000, .i32⟩ : BufTy).Contents (Elt F) → (⟨S400000x1, .i32⟩ : BufTy).Contents (Elt F)),
    binary main_v141 main_v147 main_v148 ((fun x i => Host.gather gather_S100000x192_S400000x1_S400000x192_1_0_n_n_0_1_1192 x i) : (⟨S100000x192, .f32⟩ : BufTy).Contents (Elt F) → (⟨S400000x1, .i32⟩ : BufTy).Contents (Elt F) → (⟨S400000x192, .f32⟩ : BufTy).Contents (Elt F)),
    nullary main_cst_21 (constant S_ .f32 0x00000000#32),
    unary main_cst_21 main_v149 (broadcastInDim S100000x192 ![] bcast_S_S100000x192 : (⟨S_, .f32⟩ : BufTy).Contents (Elt F) → (⟨S100000x192, .f32⟩ : BufTy).Contents (Elt F)),
    unary main_arg2 main_v150 (broadcastInDim S400000x1 ![0] bcast_S400000_S400000x1_0 : (⟨S400000, .i32⟩ : BufTy).Contents (Elt F) → (⟨S400000x1, .i32⟩ : BufTy).Contents (Elt F)),
    ternary main_v149 main_v150 main_v148 main_v151 ((fun x i u => Host.scatterAdd scatter_S100000x192_S400000x1_S400000x192_1_0_0_1 x i u) : (⟨S100000x192, .f32⟩ : BufTy).Contents (Elt F) → (⟨S400000x1, .i32⟩ : BufTy).Contents (Elt F) → (⟨S400000x192, .f32⟩ : BufTy).Contents (Elt F) → (⟨S100000x192, .f32⟩ : BufTy).Contents (Elt F)),
    binary main_v131 main_v137 main_v152 ((fun l r => Host.dotGeneral dot_S100000x192_S192x192_S100000x192_1_0_0_1_n_n none l r) : (⟨S100000x192, .f32⟩ : BufTy).Contents (Elt F) → (⟨S192x192, .f32⟩ : BufTy).Contents (Elt F) → (⟨S100000x192, .f32⟩ : BufTy).Contents (Elt F)),
    binary main_v151 main_v152 main_v153 (addf : (⟨S100000x192, .f32⟩ : BufTy).Contents (Elt F) → (⟨S100000x192, .f32⟩ : BufTy).Contents (Elt F) → (⟨S100000x192, .f32⟩ : BufTy).Contents (Elt F)),
    unary main_arg10 main_v154 ((extractStridedSlice S1x192 ![3, 0] · slices_S4x192_S1x192_3_0) : (⟨S4x192, .f32⟩ : BufTy).Contents (Elt F) → (⟨S1x192, .f32⟩ : BufTy).Contents (Elt F)),
    reshape main_v154 main_v155 rfl shapeCasts_S1x192_S192,
    unary main_arg11 main_v156 ((extractStridedSlice S1x192 ![3, 0] · slices_S4x192_S1x192_3_0) : (⟨S4x192, .f32⟩ : BufTy).Contents (Elt F) → (⟨S1x192, .f32⟩ : BufTy).Contents (Elt F)),
    reshape main_v156 main_v157 rfl shapeCasts_S1x192_S192,
    nullary main_cst_22 (constant S_ .f32 0x00000000#32),
    binary main_v153 main_cst_22 main_v158 ((fun x v => Host.reduceAdd x v reducesTo_S100000x192_S192_d0 h_S_) : (⟨S100000x192, .f32⟩ : BufTy).Contents (Elt F) → (⟨S_, .f32⟩ : BufTy).Contents (Elt F) → (⟨S192, .f32⟩ : BufTy).Contents (Elt F)),
    nullary main_cst_23 (constant S_ .f32 0x47C35000#32),
    unary main_cst_23 main_v159 (broadcastInDim S192 ![] bcast_S_S192 : (⟨S_, .f32⟩ : BufTy).Contents (Elt F) → (⟨S192, .f32⟩ : BufTy).Contents (Elt F)),
    binary main_v158 main_v159 main_v160 (Host.divf : (⟨S192, .f32⟩ : BufTy).Contents (Elt F) → (⟨S192, .f32⟩ : BufTy).Contents (Elt F) → (⟨S192, .f32⟩ : BufTy).Contents (Elt F)),
    nullary main_c_24 (constantI S_ 32 0#32),
    TRef.nullary main_call6.cst (constant S_ .f32 0x00000000#32),
    TRef.binary (.of main_v153) main_call6.cst main_call6.v0 (fun x v => Host.reduceAdd x v reducesTo_S100000x192_S192_d0 h_S_),
    TRef.unary main_call6.v0 main_call6.v1 (broadcastInDim S1x192 ![1] bcast_S192_S1x192_1),
    TRef.nullary main_call6.cst_0 (constant S_ .f32 0x47C35000#32),
    TRef.unary main_call6.cst_0 main_call6.v2 (broadcastInDim S1x192 ![] bcast_S_S1x192),
    TRef.binary main_call6.v1 main_call6.v2 main_call6.v3 Host.divf,
    TRef.unary main_call6.v3 main_call6.v4 (broadcastInDim S100000x192 ![0, 1] bcast_S1x192_S100000x192_0_1),
    TRef.binary (.of main_v153) main_call6.v4 main_call6.v5 subf,
    TRef.binary main_call6.v5 main_call6.v5 main_call6.v6 mulf,
    TRef.unary (.of main_c_24) main_call6.v7 (sitofp .f32),
    TRef.nullary main_call6.cst_1 (constant S_ .f32 0x47C35000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S100000x192_S192_d0 h_S_),
    TRef.unary main_call6.v8 main_call6.v10 (broadcastInDim S192 ![] bcast_S_S192),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S192 ![] bcast_S_S192),
    TRef.ternary main_call6.v12 main_call6.v11 main_call6.call0.v1 main_call6.call0.v2 (fun p a b => select (broadcastInDim S192 ![] bcast_S_S192 p) a b),
    unary main_v160 main_v162 (broadcastInDim S1x192 ![1] bcast_S192_S1x192_1 : (⟨S192, .f32⟩ : BufTy).Contents (Elt F) → (⟨S1x192, .f32⟩ : BufTy).Contents (Elt F)),
    unary main_v162 main_v163 (broadcastInDim S100000x192 ![0, 1] bcast_S1x192_S100000x192_0_1 : (⟨S1x192, .f32⟩ : BufTy).Contents (Elt F) → (⟨S100000x192, .f32⟩ : BufTy).Contents (Elt F)),
    binary main_v153 main_v163 main_v164 (subf : (⟨S100000x192, .f32⟩ : BufTy).Contents (Elt F) → (⟨S100000x192, .f32⟩ : BufTy).Contents (Elt F) → (⟨S100000x192, .f32⟩ : BufTy).Contents (Elt F)),
    nullary main_cst_25 (constant S_ .f32 0x3727C5AC#32),
    unary main_cst_25 main_v165 (broadcastInDim S192 ![] bcast_S_S192 : (⟨S_, .f32⟩ : BufTy).Contents (Elt F) → (⟨S192, .f32⟩ : BufTy).Contents (Elt F)),
    binary main_v161 main_v165 main_v166 (addf : (⟨S192, .f32⟩ : BufTy).Contents (Elt F) → (⟨S192, .f32⟩ : BufTy).Contents (Elt F) → (⟨S192, .f32⟩ : BufTy).Contents (Elt F)),
    unary main_v166 main_v167 (Host.rsqrt : (⟨S192, .f32⟩ : BufTy).Contents (Elt F) → (⟨S192, .f32⟩ : BufTy).Contents (Elt F)),
    unary main_v167 main_v168 (broadcastInDim S1x192 ![1] bcast_S192_S1x192_1 : (⟨S192, .f32⟩ : BufTy).Contents (Elt F) → (⟨S1x192, .f32⟩ : BufTy).Contents (Elt F)),
    unary main_v168 main_v169 (broadcastInDim S100000x192 ![0, 1] bcast_S1x192_S100000x192_0_1 : (⟨S1x192, .f32⟩ : BufTy).Contents (Elt F) → (⟨S100000x192, .f32⟩ : BufTy).Contents (Elt F)),
    binary main_v164 main_v169 main_v170 (mulf : (⟨S100000x192, .f32⟩ : BufTy).Contents (Elt F) → (⟨S100000x192, .f32⟩ : BufTy).Contents (Elt F) → (⟨S100000x192, .f32⟩ : BufTy).Contents (Elt F)),
    unary main_v155 main_v171 (broadcastInDim S1x192 ![1] bcast_S192_S1x192_1 : (⟨S192, .f32⟩ : BufTy).Contents (Elt F) → (⟨S1x192, .f32⟩ : BufTy).Contents (Elt F)),
    unary main_v171 main_v172 (broadcastInDim S100000x192 ![0, 1] bcast_S1x192_S100000x192_0_1 : (⟨S1x192, .f32⟩ : BufTy).Contents (Elt F) → (⟨S100000x192, .f32⟩ : BufTy).Contents (Elt F)),
    binary main_v170 main_v172 main_v173 (mulf : (⟨S100000x192, .f32⟩ : BufTy).Contents (Elt F) → (⟨S100000x192, .f32⟩ : BufTy).Contents (Elt F) → (⟨S100000x192, .f32⟩ : BufTy).Contents (Elt F)),
    unary main_v157 main_v174 (broadcastInDim S1x192 ![1] bcast_S192_S1x192_1 : (⟨S192, .f32⟩ : BufTy).Contents (Elt F) → (⟨S1x192, .f32⟩ : BufTy).Contents (Elt F)),
    unary main_v174 main_v175 (broadcastInDim S100000x192 ![0, 1] bcast_S1x192_S100000x192_0_1 : (⟨S1x192, .f32⟩ : BufTy).Contents (Elt F) → (⟨S100000x192, .f32⟩ : BufTy).Contents (Elt F)),
    binary main_v173 main_v175 main_v176 (addf : (⟨S100000x192, .f32⟩ : BufTy).Contents (Elt F) → (⟨S100000x192, .f32⟩ : BufTy).Contents (Elt F) → (⟨S100000x192, .f32⟩ : BufTy).Contents (Elt F)),
    TRef.nullary main_call7.cst (constant S_ .f32 0x00000000#32),
    TRef.unary main_call7.cst main_call7.v0 (broadcastInDim S100000x192 ![] bcast_S_S100000x192),
    TRef.binary (.of main_v176) main_call7.v0 main_call7.v1 maximumf ]

abbrev opsT : List (HloOp τ sig (Elt F)) :=
  [ nullary main_cst_26 (constant S_ .f32 0x00000000#32),
    unary main_cst_26 main_v178 (broadcastInDim S2000x192 ![] bcast_S_S2000x192 : (⟨S_, .f32⟩ : BufTy).Contents (Elt F) → (⟨S2000x192, .f32⟩ : BufTy).Contents (Elt F)),
    unary main_arg3 main_v179 (broadcastInDim S100000x1 ![0] bcast_S100000_S100000x1_0 : (⟨S100000, .i32⟩ : BufTy).Contents (Elt F) → (⟨S100000x1, .i32⟩ : BufTy).Contents (Elt F)),
    ternary main_v178 main_v179 main_v177 main_v180 ((fun x i u => Host.scatterAdd scatter_S2000x192_S100000x1_S100000x192_1_0_0_1 x i u) : (⟨S2000x192, .f32⟩ : BufTy).Contents (Elt F) → (⟨S100000x1, .i32⟩ : BufTy).Contents (Elt F) → (⟨S100000x192, .f32⟩ : BufTy).Contents (Elt F) → (⟨S2000x192, .f32⟩ : BufTy).Contents (Elt F)),
    nullary main_cst_27 (constant S_ .f32 0x3F800000#32),
    unary main_cst_27 main_v181 (broadcastInDim S100000 ![] bcast_S_S100000 : (⟨S_, .f32⟩ : BufTy).Contents (Elt F) → (⟨S100000, .f32⟩ : BufTy).Contents (Elt F)),
    nullary main_cst_28 (constant S_ .f32 0x00000000#32),
    unary main_cst_28 main_v182 (broadcastInDim S2000 ![] bcast_S_S2000 : (⟨S_, .f32⟩ : BufTy).Contents (Elt F) → (⟨S2000, .f32⟩ : BufTy).Contents (Elt F)),
    unary main_arg3 main_v183 (broadcastInDim S100000x1 ![0] bcast_S100000_S100000x1_0 : (⟨S100000, .i32⟩ : BufTy).Contents (Elt F) → (⟨S100000x1, .i32⟩ : BufTy).Contents (Elt F)),
    ternary main_v182 main_v183 main_v181 main_v184 ((fun x i u => Host.scatterAdd scatter_S2000_S100000x1_S100000_n_0_0_1 x i u) : (⟨S2000, .f32⟩ : BufTy).Contents (Elt F) → (⟨S100000x1, .i32⟩ : BufTy).Contents (Elt F) → (⟨S100000, .f32⟩ : BufTy).Contents (Elt F) → (⟨S2000, .f32⟩ : BufTy).Contents (Elt F)),
    nullary main_cst_29 (constant S_ .f32 0x3F800000#32),
    unary main_cst_29 main_v185 (broadcastInDim S2000 ![] bcast_S_S2000 : (⟨S_, .f32⟩ : BufTy).Contents (Elt F) → (⟨S2000, .f32⟩ : BufTy).Contents (Elt F)),
    binary main_v184 main_v185 main_v186 (maximumf : (⟨S2000, .f32⟩ : BufTy).Contents (Elt F) → (⟨S2000, .f32⟩ : BufTy).Contents (Elt F) → (⟨S2000, .f32⟩ : BufTy).Contents (Elt F)),
    unary main_v186 main_v187 (broadcastInDim S2000x1 ![0] bcast_S2000_S2000x1_0 : (⟨S2000, .f32⟩ : BufTy).Contents (Elt F) → (⟨S2000x1, .f32⟩ : BufTy).Contents (Elt F)),
    unary main_v187 main_v188 (broadcastInDim S2000x192 ![0, 1] bcast_S2000x1_S2000x192_0_1 : (⟨S2000x1, .f32⟩ : BufTy).Contents (Elt F) → (⟨S2000x192, .f32⟩ : BufTy).Contents (Elt F)),
    binary main_v180 main_v188 main_v189 (Host.divf : (⟨S2000x192, .f32⟩ : BufTy).Contents (Elt F) → (⟨S2000x192, .f32⟩ : BufTy).Contents (Elt F) → (⟨S2000x192, .f32⟩ : BufTy).Contents (Elt F)),
    binary main_v189 main_arg12 main_v190 ((fun l r => Host.dotGeneral dot_S2000x192_S192x192_S2000x192_1_0_0_1_n_n none l r) : (⟨S2000x192, .f32⟩ : BufTy).Contents (Elt F) → (⟨S192x192, .f32⟩ : BufTy).Contents (Elt F) → (⟨S2000x192, .f32⟩ : BufTy).Contents (Elt F)),
    unary main_arg13 main_v191 (broadcastInDim S1x192 ![1] bcast_S192_S1x192_1 : (⟨S192, .f32⟩ : BufTy).Contents (Elt F) → (⟨S1x192, .f32⟩ : BufTy).Contents (Elt F)),
    unary main_v191 main_v192 (broadcastInDim S2000x192 ![0, 1] bcast_S1x192_S2000x192_0_1 : (⟨S1x192, .f32⟩ : BufTy).Contents (Elt F) → (⟨S2000x192, .f32⟩ : BufTy).Contents (Elt F)),
    binary main_v190 main_v192 main_v193 (addf : (⟨S2000x192, .f32⟩ : BufTy).Contents (Elt F) → (⟨S2000x192, .f32⟩ : BufTy).Contents (Elt F) → (⟨S2000x192, .f32⟩ : BufTy).Contents (Elt F)),
    TRef.nullary main_call8.cst (constant S_ .f32 0x00000000#32),
    TRef.unary main_call8.cst main_call8.v0 (broadcastInDim S2000x192 ![] bcast_S_S2000x192),
    TRef.binary (.of main_v193) main_call8.v0 main_call8.v1 maximumf,
    binary main_v194 main_arg14 main_v195 ((fun l r => Host.dotGeneral dot_S2000x192_S192x192_S2000x192_1_0_0_1_n_n none l r) : (⟨S2000x192, .f32⟩ : BufTy).Contents (Elt F) → (⟨S192x192, .f32⟩ : BufTy).Contents (Elt F) → (⟨S2000x192, .f32⟩ : BufTy).Contents (Elt F)),
    unary main_arg15 main_v196 (broadcastInDim S1x192 ![1] bcast_S192_S1x192_1 : (⟨S192, .f32⟩ : BufTy).Contents (Elt F) → (⟨S1x192, .f32⟩ : BufTy).Contents (Elt F)),
    unary main_v196 main_v197 (broadcastInDim S2000x192 ![0, 1] bcast_S1x192_S2000x192_0_1 : (⟨S1x192, .f32⟩ : BufTy).Contents (Elt F) → (⟨S2000x192, .f32⟩ : BufTy).Contents (Elt F)),
    binary main_v195 main_v197 main_v198 (addf : (⟨S2000x192, .f32⟩ : BufTy).Contents (Elt F) → (⟨S2000x192, .f32⟩ : BufTy).Contents (Elt F) → (⟨S2000x192, .f32⟩ : BufTy).Contents (Elt F)),
    binary main_v198 main_arg16 main_v199 ((fun l r => Host.dotGeneral dot_S2000x192_S192x1_S2000x1_1_0_0_1_n_n none l r) : (⟨S2000x192, .f32⟩ : BufTy).Contents (Elt F) → (⟨S192x1, .f32⟩ : BufTy).Contents (Elt F) → (⟨S2000x1, .f32⟩ : BufTy).Contents (Elt F)),
    unary main_arg17 main_v200 (broadcastInDim S1x1 ![1] bcast_S1_S1x1_1 : (⟨S1, .f32⟩ : BufTy).Contents (Elt F) → (⟨S1x1, .f32⟩ : BufTy).Contents (Elt F)),
    unary main_v200 main_v201 (broadcastInDim S2000x1 ![0, 1] bcast_S1x1_S2000x1_0_1 : (⟨S1x1, .f32⟩ : BufTy).Contents (Elt F) → (⟨S2000x1, .f32⟩ : BufTy).Contents (Elt F)),
    binary main_v199 main_v201 main_v202 (addf : (⟨S2000x1, .f32⟩ : BufTy).Contents (Elt F) → (⟨S2000x1, .f32⟩ : BufTy).Contents (Elt F) → (⟨S2000x1, .f32⟩ : BufTy).Contents (Elt F)) ]

abbrev ops : List (HloOp τ sig (Elt F)) := opsL0 ++ opsL1 ++ opsL2 ++ opsL3 ++ opsT

-- `W` holds on the program's eighteen argument arrays what `V` holds.
structure Kept (V W : Valuation τ sig (Elt F)) : Prop where
  a0 : W (main_arg0 : DevRef τ sig) = V (main_arg0 : DevRef τ sig)
  a1 : W (main_arg1 : DevRef τ sig) = V (main_arg1 : DevRef τ sig)
  a2 : W (main_arg2 : DevRef τ sig) = V (main_arg2 : DevRef τ sig)
  a3 : W (main_arg3 : DevRef τ sig) = V (main_arg3 : DevRef τ sig)
  a4 : W (main_arg4 : DevRef τ sig) = V (main_arg4 : DevRef τ sig)
  a5 : W (main_arg5 : DevRef τ sig) = V (main_arg5 : DevRef τ sig)
  a6 : W (main_arg6 : DevRef τ sig) = V (main_arg6 : DevRef τ sig)
  a7 : W (main_arg7 : DevRef τ sig) = V (main_arg7 : DevRef τ sig)
  a8 : W (main_arg8 : DevRef τ sig) = V (main_arg8 : DevRef τ sig)
  a9 : W (main_arg9 : DevRef τ sig) = V (main_arg9 : DevRef τ sig)
  a10 : W (main_arg10 : DevRef τ sig) = V (main_arg10 : DevRef τ sig)
  a11 : W (main_arg11 : DevRef τ sig) = V (main_arg11 : DevRef τ sig)
  a12 : W (main_arg12 : DevRef τ sig) = V (main_arg12 : DevRef τ sig)
  a13 : W (main_arg13 : DevRef τ sig) = V (main_arg13 : DevRef τ sig)
  a14 : W (main_arg14 : DevRef τ sig) = V (main_arg14 : DevRef τ sig)
  a15 : W (main_arg15 : DevRef τ sig) = V (main_arg15 : DevRef τ sig)
  a16 : W (main_arg16 : DevRef τ sig) = V (main_arg16 : DevRef τ sig)
  a17 : W (main_arg17 : DevRef τ sig) = V (main_arg17 : DevRef τ sig)

theorem Kept.trans {V W X : Valuation τ sig (Elt F)} (h : Kept V W) (h' : Kept W X) : Kept V X :=
  ⟨h'.a0.trans h.a0, h'.a1.trans h.a1, h'.a2.trans h.a2, h'.a3.trans h.a3, h'.a4.trans h.a4, h'.a5.trans h.a5,
    h'.a6.trans h.a6, h'.a7.trans h.a7, h'.a8.trans h.a8, h'.a9.trans h.a9, h'.a10.trans h.a10, h'.a11.trans h.a11,
    h'.a12.trans h.a12, h'.a13.trans h.a13, h'.a14.trans h.a14, h'.a15.trans h.a15, h'.a16.trans h.a16, h'.a17.trans h.a17⟩

end Cert.ReferenceIdeal.RefOps

end
-- ==== Proof.RefRun.lean ====
import proofs.«401365_j67929202754020_1_alg».proof.Proof.RefOps

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

-- The four stretches of the program cut the layers' lists elsewhere: 13, 20 and 27 operations into layers 1, 2 and 3.
private theorem take_drop_append {α : Type} (n : Nat) (l r : List α) : l.take n ++ (l.drop n ++ r) = l ++ r := by
  rw [← List.append_assoc, List.take_append_drop]

set_option maxRecDepth 4096 in
set_option maxHeartbeats 4000000 in
private theorem part0_eq (c : Dev nD) : main_part0 (F := F) c = seq (opsL0 ++ opsL1.take 13) := by
  simp only [main_part0, fn_var.body, fn_where.body, fn_relu.body, opsL0, opsL1, List.take_succ_cons, List.take_zero,
    List.cons_append, List.nil_append, seq, bind_assoc, pure_bind]
  rfl

set_option maxRecDepth 4096 in
set_option maxHeartbeats 4000000 in
private theorem part1_eq (c : Dev nD) : main_part1 (F := F) c = seq (opsL1.drop 13 ++ opsL2.take 20) := by
  simp only [main_part1, fn_var.body, fn_where.body, fn_relu.body, opsL1, opsL2, List.take_succ_cons, List.take_zero,
    List.drop_succ_cons, List.drop_zero, List.cons_append, List.nil_append, seq, bind_assoc, pure_bind]
  rfl

set_option maxRecDepth 4096 in
set_option maxHeartbeats 4000000 in
private theorem part2_eq (c : Dev nD) : main_part2 (F := F) c = seq (opsL2.drop 20 ++ opsL3.take 27) := by
  simp only [main_part2, fn_var.body, fn_where.body, fn_relu.body, opsL2, opsL3, List.take_succ_cons, List.take_zero,
    List.drop_succ_cons, List.drop_zero, List.cons_append, List.nil_append, seq, bind_assoc, pure_bind]
  rfl

set_option maxRecDepth 4096 in
set_option maxHeartbeats 4000000 in
private theorem part3_eq (c : Dev nD) : main_part3 (F := F) c = seq (opsL3.drop 27 ++ opsT) := by
  simp only [main_part3, fn_var.body, fn_where.body, fn_relu.body, fn_relu_0.body, opsL3, opsT, List.drop_succ_cons, List.drop_zero,
    List.cons_append, List.nil_append, seq, bind_assoc, pure_bind] <;> rfl

private theorem ops_cut : (ops : List (HloOp τ sig (Elt F)))
    = (opsL0 ++ opsL1.take 13) ++ (opsL1.drop 13 ++ opsL2.take 20) ++ (opsL2.drop 20 ++ opsL3.take 27) ++ (opsL3.drop 27 ++ opsT) := by
  show opsL0 ++ opsL1 ++ opsL2 ++ opsL3 ++ opsT = _
  simp only [List.append_assoc, take_drop_append]

theorem main_eq (c : Dev nD) : main (F := F) c = seq ops := by
  rw [ops_cut, seq_append, seq_append, seq_append]
  simp only [main, part0_eq, part1_eq, part2_eq, part3_eq, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, opsL0, opsL1, opsL2, opsL3, opsT, List.forall_append, List.forall_cons, List.Forall, nullary_bufs_sub, unary_bufs_sub,
    binary_bufs_sub, ternary_bufs_sub, reshape_bufs_sub, and_self]

theorem ops_fresh : ∀ op ∈ (ops : List (HloOp τ sig (Elt F))), op.fresh = ∅ := by
  refine List.forall_iff_forall_mem.mp
    (List.forall_append.mpr ⟨List.forall_append.mpr ⟨List.forall_append.mpr ⟨List.forall_append.mpr ⟨?_, ?_⟩, ?_⟩, ?_⟩, ?_⟩) <;>
  repeat' first | refine ⟨rfl, ?_⟩ | exact rfl

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.SpecMath.lean ====
import proofs.«401365_j67929202754020_1_alg».proof.Proof.Spec
import Mathlib.Data.EReal.Inv
import Mathlib.Analysis.SpecialFunctions.Sqrt
import Mathlib.Algebra.BigOperators.Field
import Mathlib.Algebra.Order.BigOperators.Ring.Finset
import Mathlib.Tactic.Ring
import Mathlib.Tactic.NormNum
import Mathlib.Tactic.Positivity
import Mathlib.Tactic.Linarith

noncomputable section

open scoped BigOperators

namespace Cert.Spec

open Idealize.ShloMosaic

theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

theorem cN_eq : cN = ((100000 : ℝ) : EReal) := by
  unfold cN
  simp [Ideal.ofBits, Ideal.ieee, -EReal.coe_mul]; norm_num

theorem cEps_pos : ∃ ε : ℝ, 0 < ε ∧ cEps = ((ε : ℝ) : EReal) := by
  refine ⟨10995116 * (2 : ℝ) ^ (-40 : Int), by positivity, ?_⟩
  unfold cEps
  simp [Ideal.ofBits, Ideal.ieee, -EReal.coe_mul]

theorem var_real (h : Fin 100000 → ℝ) :
    (∑ i, h i * h i) * (1 / 100000) - ((∑ i, h i) * (1 / 100000)) * ((∑ i, h i) * (1 / 100000))
      = (∑ i, (h i - (∑ i, h i) * (1 / 100000)) * (h i - (∑ i, h i) * (1 / 100000))) * (1 / 100000) := by
  set S : ℝ := ∑ i, h i with hS
  set μ : ℝ := S * (1 / 100000) with hμ
  have e : ∀ i, (h i - μ) * (h i - μ) = h i * h i - (2 * μ) * h i + μ * μ := fun i => by ring
  simp only [e]
  rw [Finset.sum_add_distrib, Finset.sum_sub_distrib, ← Finset.mul_sum, Finset.sum_const, Finset.card_univ,
    Fintype.card_fin, ← hS]
  simp only [nsmul_eq_mul, hμ]
  push_cast
  ring

theorem var_nonneg (h : Fin 100000 → ℝ) (μ : ℝ) :
    0 ≤ (∑ i, (h i - μ) * (h i - μ)) * (1 / 100000) := by
  apply mul_nonneg
  · exact Finset.sum_nonneg (fun i _ => mul_self_nonneg _)
  · norm_num

section Layer
variable {K : Nat}

theorem lin_real (x' : Fin 100000 → Fin K → ℝ) (W' : Fin K → Fin 192 → ℝ) (b' : Fin 192 → ℝ) :
    lin (fun i k => ((x' i k : ℝ) : EReal)) (fun k j => ((W' k j : ℝ) : EReal)) (fun j => ((b' j : ℝ) : EReal))
      = fun i j => (((∑ k, x' i k * W' k j) + b' j : ℝ) : EReal) := by
  funext i j
  simp only [lin]
  rw [EReal.coe_add, coe_sum]
  simp only [EReal.coe_mul]

theorem root_real (x' : Fin 100000 → Fin K → ℝ) (W' : Fin K → Fin 192 → ℝ) :
    root (fun i k => ((x' i k : ℝ) : EReal)) (fun k j => ((W' k j : ℝ) : EReal))
      = fun i j => ((∑ k, x' i k * W' k j : ℝ) : EReal) := by
  funext i j
  simp only [root]
  rw [coe_sum]
  simp only [EReal.coe_mul]

theorem agg_real (h' : Fin 100000 → Fin 192 → ℝ) (src : Fin 400000 → Fin 100000) (dst : Fin 400000 → Int) :
    agg (fun i j => ((h' i j : ℝ) : EReal)) src dst
      = fun i j => ((∑ e ∈ Finset.univ.filter (fun e : Fin 400000 => dst e = (i.val : Int)), h' (src e) j : ℝ) : EReal) := by
  funext i j
  simp only [agg]
  rw [coe_sum]

theorem pre_real (x : Fin 100000 → Fin K → EReal) (Wrel : Fin K → Fin 192 → EReal) (brel : Fin 192 → EReal)
    (Wroot : Fin K → Fin 192 → EReal) (src : Fin 400000 → Fin 100000) (dst : Fin 400000 → Int)
    (hx : Real2 x) (hWrel : Real2 Wrel) (hbrel : Real1 brel) (hWroot : Real2 Wroot) :
    Real2 (pre x Wrel brel Wroot src dst) := by
  obtain ⟨x', rfl⟩ := hx
  obtain ⟨Wrel', rfl⟩ := hWrel
  obtain ⟨brel', rfl⟩ := hbrel
  obtain ⟨Wroot', rfl⟩ := hWroot
  refine ⟨fun i j =>
    (∑ e ∈ Finset.univ.filter (fun e : Fin 400000 => dst e = (i.val : Int)),
      ((∑ k, x' (src e) k * Wrel' k j) + brel' j)) + ∑ k, x' i k * Wroot' k j, ?_⟩
  unfold pre
  rw [lin_real, root_real, agg_real]
  funext i j
  rw [EReal.coe_add]

end Layer

theorem mean_real (h' : Fin 100000 → Fin 192 → ℝ) (j : Fin 192) :
    mean (fun i j => ((h' i j : ℝ) : EReal)) j = (((∑ i, h' i j) * (1 / 100000) : ℝ) : EReal) := by
  have h0 : (100000 : ℝ) ≠ 0 := by norm_num
  simp only [mean, colSum]
  rw [cN_eq, Ideal.div_coe h0, ← coe_sum, ← EReal.coe_mul]

theorem varK_real (h' : Fin 100000 → Fin 192 → ℝ) (j : Fin 192) :
    varK (fun i j => ((h' i j : ℝ) : EReal)) j
      = (((∑ i, h' i j * h' i j) * (1 / 100000)
          - ((∑ i, h' i j) * (1 / 100000)) * ((∑ i, h' i j) * (1 / 100000)) : ℝ) : EReal) := by
  have h0 : (100000 : ℝ) ≠ 0 := by norm_num
  simp only [varK, colSumSq]
  rw [mean_real, cN_eq, Ideal.div_coe h0]
  simp only [← EReal.coe_mul]
  rw [← coe_sum, ← EReal.coe_mul, ← EReal.coe_sub]

theorem varR_real (h' : Fin 100000 → Fin 192 → ℝ) (j : Fin 192) :
    varR (fun i j => ((h' i j : ℝ) : EReal)) j
      = (((∑ i, (h' i j - (∑ i, h' i j) * (1 / 100000)) * (h' i j - (∑ i, h' i j) * (1 / 100000)))
          * (1 / 100000) : ℝ) : EReal) := by
  have h0 : (100000 : ℝ) ≠ 0 := by norm_num
  simp only [varR]
  rw [mean_real, cN_eq, Ideal.div_coe h0]
  simp only [← EReal.coe_sub, ← EReal.coe_mul]
  rw [← coe_sum, ← EReal.coe_mul]

theorem var_agree (h' : Fin 100000 → Fin 192 → ℝ) :
    varK (fun i j => ((h' i j : ℝ) : EReal)) = varR (fun i j => ((h' i j : ℝ) : EReal)) := by
  funext j
  rw [varK_real, varR_real]
  exact congrArg Real.toEReal (var_real (fun i => h' i j))

theorem rsqrt_pos {r : ℝ} (hr : 0 < r) : Ideal.rsqrt ((r : ℝ) : EReal) = (((Real.sqrt r)⁻¹ : ℝ) : EReal) := by
  rw [Ideal.rsqrt_coe, if_neg (not_lt.mpr hr.le), if_neg hr.ne']

theorem bn_real (h' : Fin 100000 → Fin 192 → ℝ) (γ' β' : Fin 192 → ℝ) :
    Real2 (bn (fun i j => ((h' i j : ℝ) : EReal)) (mean (fun i j => ((h' i j : ℝ) : EReal)))
      (varR (fun i j => ((h' i j : ℝ) : EReal))) (fun j => ((γ' j : ℝ) : EReal)) (fun j => ((β' j : ℝ) : EReal))) := by
  obtain ⟨ε, hε, hc⟩ := cEps_pos
  refine ⟨fun i j => max ((h' i j - (∑ i, h' i j) * (1 / 100000))
    * (Real.sqrt ((∑ i, (h' i j - (∑ i, h' i j) * (1 / 100000)) * (h' i j - (∑ i, h' i j) * (1 / 100000)))
          * (1 / 100000) + ε))⁻¹ * γ' j + β' j) 0, ?_⟩
  funext i j
  have hv := var_nonneg (fun i => h' i j) ((∑ i, h' i j) * (1 / 100000))
  simp only [bn]
  rw [mean_real, varR_real, hc, ← EReal.coe_add, rsqrt_pos (by linarith), ← EReal.coe_sub, ← EReal.coe_mul,
    ← EReal.coe_mul, ← EReal.coe_add, ← EReal.coe_zero, ← coe_max]

theorem layer_agree {K : Nat} (x : Fin 100000 → Fin K → EReal) (Wrel : Fin K → Fin 192 → EReal)
    (brel : Fin 192 → EReal) (Wroot : Fin K → Fin 192 → EReal) (src : Fin 400000 → Fin 100000)
    (dst : Fin 400000 → Int) (γ β : Fin 192 → EReal) (hx : Real2 x) (hWrel : Real2 Wrel) (hbrel : Real1 brel)
    (hWroot : Real2 Wroot) (hγ : Real1 γ) (hβ : Real1 β) :
    layerK x Wrel brel Wroot src dst γ β = layerR x Wrel brel Wroot src dst γ β
      ∧ Real2 (layerK x Wrel brel Wroot src dst γ β) := by
  obtain ⟨p', hp⟩ := pre_real x Wrel brel Wroot src dst hx hWrel hbrel hWroot
  obtain ⟨γ', rfl⟩ := hγ
  obtain ⟨β', rfl⟩ := hβ
  have e : layerK x Wrel brel Wroot src dst (fun j => ((γ' j : ℝ) : EReal)) (fun j => ((β' j : ℝ) : EReal))
      = layerR x Wrel brel Wroot src dst (fun j => ((γ' j : ℝ) : EReal)) (fun j => ((β' j : ℝ) : EReal)) := by
    unfold layerK layerR
    rw [hp, var_agree]
  refine ⟨e, ?_⟩
  rw [e]
  unfold layerR
  rw [hp]
  exact bn_real p' γ' β'

theorem net_agree (x : Fin 100000 → Fin 32 → EReal) (Wrel0 : Fin 32 → Fin 192 → EReal) (brel0 : Fin 192 → EReal)
    (Wroot0 : Fin 32 → Fin 192 → EReal) (Wrel : Fin 3 → Fin 192 → Fin 192 → EReal) (brel : Fin 3 → Fin 192 → EReal)
    (Wroot : Fin 3 → Fin 192 → Fin 192 → EReal) (γ β : Fin 4 → Fin 192 → EReal) (src : Fin 400000 → Fin 100000)
    (dst : Fin 400000 → Int) (hx : Real2 x) (hWrel0 : Real2 Wrel0) (hbrel0 : Real1 brel0) (hWroot0 : Real2 Wroot0)
    (hWrel : ∀ l, Real2 (Wrel l)) (hbrel : ∀ l, Real1 (brel l)) (hWroot : ∀ l, Real2 (Wroot l))
    (hγ : ∀ l, Real1 (γ l)) (hβ : ∀ l, Real1 (β l)) :
    netK x Wrel0 brel0 Wroot0 Wrel brel Wroot γ β src dst = netR x Wrel0 brel0 Wroot0 Wrel brel Wroot γ β src dst := by
  unfold netK netR
  obtain ⟨e0, r0⟩ := layer_agree x Wrel0 brel0 Wroot0 src dst (γ 0) (β 0) hx hWrel0 hbrel0 hWroot0 (hγ 0) (hβ 0)
  obtain ⟨e1, r1⟩ := layer_agree _ (Wrel 0) (brel 0) (Wroot 0) src dst (γ 1) (β 1) r0 (hWrel 0) (hbrel 0)
    (hWroot 0) (hγ 1) (hβ 1)
  obtain ⟨e2, r2⟩ := layer_agree _ (Wrel 1) (brel 1) (Wroot 1) src dst (γ 2) (β 2) r1 (hWrel 1) (hbrel 1)
    (hWroot 1) (hγ 2) (hβ 2)
  obtain ⟨e3, _⟩ := layer_agree _ (Wrel 2) (brel 2) (Wroot 2) src dst (γ 3) (β 3) r2 (hWrel 2) (hbrel 2)
    (hWroot 2) (hγ 3) (hβ 3)
  rw [e3, e2, e1, e0]

end Cert.Spec

end
-- ==== Proof.RLayer0.lean ====
import proofs.«401365_j67929202754020_1_alg».proof.Proof.RefOps
import proofs.«401365_j67929202754020_1_alg».proof.Proof.Spec
import proofs.«401365_j67929202754020_1_alg».proof.Proof.LibIndexing
import proofs.«401365_j67929202754020_1_alg».proof.Proof.SpecMath
import Idealize.ShloMosaic.Lib.IdealHost
import Idealize.ShloMosaic.Lib.StackMember
import Idealize.ShloMosaic.Lib.ValueLayout
import Idealize.ShloMosaic.Lib.Pipeline.Value
import Idealize.ShloMosaic.PureOps.Ideal.Laws

noncomputable section

open scoped BigOperators

namespace Cert.ReferenceIdeal.RLayer0

open Cert.ReferenceIdeal Cert.ReferenceIdeal.Gen Cert.ReferenceIdeal.RefOps Cert.Spec Cert.LibIndexing
open Idealize.ShloMosaic Idealize.ShloMosaic.TcCoe Idealize.SL.Sem Idealize.ShloMosaic.StableHlo
open Idealize.ShloMosaic.ValueIdx Idealize.ShloMosaic.StackMember

section Layout
variable {α : Type}

theorem bcRow_apply (h1 : S192.BroadcastsInDim S1x192 ![1]) (h2 : S1x192.BroadcastsInDim S100000x192 ![0, 1])
    (v : S192.Idx → α) (i : Fin 100000) (j : Fin 192) :
    broadcastInDim S100000x192 ![0, 1] h2 (broadcastInDim S1x192 ![1] h1 v) (ix2 i j) = v (ix1 j) := by
  rw [broadcastInDim_apply ![0, 1] h2 _ (ix2 i j) (ix2 0 j) (fun a => by match a with | ⟨0, _⟩ => rfl | ⟨1, _⟩ => rfl),
    broadcastInDim_apply ![1] h1 v (ix2 0 j) (ix1 j) (fun a => by match a with | ⟨0, _⟩ => rfl)]

theorem bcRow1_apply (h1 : S192.BroadcastsInDim S1x192 ![1]) (v : S192.Idx → α) (u : Fin 1) (j : Fin 192) :
    broadcastInDim S1x192 ![1] h1 v (ix2 u j) = v (ix1 j) := by
  rw [broadcastInDim_apply ![1] h1 v (ix2 u j) (ix1 j) (fun a => by match a with | ⟨0, _⟩ => rfl)]

theorem bcRow2_apply (h2 : S1x192.BroadcastsInDim S100000x192 ![0, 1]) (v : S1x192.Idx → α) (i : Fin 100000) (j : Fin 192) :
    broadcastInDim S100000x192 ![0, 1] h2 v (ix2 i j) = v (ix2 0 j) := by
  rw [broadcastInDim_apply ![0, 1] h2 _ (ix2 i j) (ix2 0 j) (fun a => by match a with | ⟨0, _⟩ => rfl | ⟨1, _⟩ => rfl)]

theorem bcCol_apply (h : S400000.BroadcastsInDim S400000x1 ![0]) (v : S400000.Idx → α) (e : Fin 400000) :
    broadcastInDim S400000x1 ![0] h v (ix2 e 0) = v (ix1 e) := by
  rw [broadcastInDim_apply ![0] h v (ix2 e 0) (ix1 e) (fun a => by match a with | ⟨0, _⟩ => rfl)]

theorem rowSlice_apply (hs : S4x192.Slices ![0, 0] S1x192) (hc : S1x192.ShapeCasts S192) (g : S4x192.Idx → α) (j : Fin 192) :
    shapeCast S192 (extractStridedSlice S1x192 ![0, 0] g hs) hc (ix1 j) = g (ix2 0 j) := by
  rw [shapeCast_1a_a_apply, extractStridedSlice_apply ![0, 0] g hs (ix2 0 j) (ix2 0 j)
    (fun a => by match a with | ⟨0, _⟩ => rfl | ⟨1, _⟩ => show j.val = 0 + j.val; omega)]

end Layout

theorem dot32_apply (d : DotDims S100000x32 S32x192 S100000x192) (hd : d = DotDims.plain 100000 32 192)
    (A : FVec Ideal S100000x32 .f32) (B : FVec Ideal S32x192 .f32) (i : Fin 100000) (j : Fin 192) :
    Host.dotGeneral d none A B (ix2 i j) = ∑ k : Fin 32, A (ix2 i k) * B (ix2 k j) := by
  subst hd
  exact dotGeneral_plain_apply none A B i j

theorem colReduce_apply (h' : S100000x192.ReducesTo [0] S192) (hu : 0 < S_.numel)
    (x : FVec Ideal S100000x192 .f32) (init : S_.Idx → Ideal .f32) (j : Fin 192) :
    Host.reduceAdd x init h' hu (ix1 j) = init (Shape.Idx.first hu) + ∑ i : Fin 100000, x (ix2 i j) := by
  have h : S100000x192.Reduces [0] S192 := ⟨rfl, Nat.one_pos, fun b => by match b with | ⟨0, _⟩ => rfl⟩
  rw [hostReduceAdd_apply, Ideal.hostReduceAdd_single h' h]
  refine congrArg (fun t => init (Shape.Idx.first hu) + t) (Finset.sum_congr rfl fun i _ => congrArg x ?_)
  funext a
  apply Fin.ext
  match a with
  | ⟨0, _⟩ => rfl
  | ⟨1, _⟩ => rfl

def rowsOf (v : FVec Ideal S192 .f32) : FVec Ideal S100000x192 .f32 :=
  broadcastInDim S100000x192 ![0, 1] bcast_S1x192_S100000x192_0_1 (broadcastInDim S1x192 ![1] bcast_S192_S1x192_1 v)

def colOf (v : IVec S400000 32) : IVec S400000x1 32 := broadcastInDim S400000x1 ![0] bcast_S400000_S400000x1_0 v

def linV (x : FVec Ideal S100000x32 .f32) (w : FVec Ideal S32x192 .f32) (b : FVec Ideal S192 .f32) : FVec Ideal S100000x192 .f32 :=
  addf (Host.dotGeneral (F := Ideal) dot_S100000x32_S32x192_S100000x192_1_0_0_1_n_n none x w) (rowsOf b)

def rootV (x : FVec Ideal S100000x32 .f32) (w : FVec Ideal S32x192 .f32) : FVec Ideal S100000x192 .f32 :=
  Host.dotGeneral (F := Ideal) dot_S100000x32_S32x192_S100000x192_1_0_0_1_n_n none x w

def idxV (es : IVec S400000 32) : IVec S400000 32 :=
  select (cmpi .slt es (broadcastInDim S400000 ![] bcast_S_S400000 (constantI S_ 32 0#32)))
    (addi es (broadcastInDim S400000 ![] bcast_S_S400000 (constantI S_ 32 100000#32))) es

def gatV (h : FVec Ideal S100000x192 .f32) (es : IVec S400000 32) : FVec Ideal S400000x192 .f32 :=
  Host.gather gather_S100000x192_S400000x1_S400000x192_1_0_n_n_0_1_1192 h (colOf (idxV es))

def aggV (h : FVec Ideal S100000x192 .f32) (es ed : IVec S400000 32) : FVec Ideal S100000x192 .f32 :=
  Host.scatterAdd (F := Ideal) scatter_S100000x192_S400000x1_S400000x192_1_0_0_1
    (broadcastInDim S100000x192 ![] bcast_S_S100000x192 (constant (F := Ideal) S_ .f32 0x00000000#32)) (colOf ed) (gatV h es)

def preV (x : FVec Ideal S100000x32 .f32) (w4 : FVec Ideal S32x192 .f32) (b5 : FVec Ideal S192 .f32) (w6 : FVec Ideal S32x192 .f32)
    (es ed : IVec S400000 32) : FVec Ideal S100000x192 .f32 :=
  addf (aggV (linV x w4 b5) es ed) (rootV x w6)

def rowV (g : FVec Ideal S4x192 .f32) : FVec Ideal S192 .f32 :=
  shapeCast S192 (extractStridedSlice S1x192 ![0, 0] g slices_S4x192_S1x192_0_0) shapeCasts_S1x192_S192

def sumV (p : FVec Ideal S100000x192 .f32) : FVec Ideal S192 .f32 :=
  Host.reduceAdd (F := Ideal) p (constant (F := Ideal) S_ .f32 0x00000000#32) reducesTo_S100000x192_S192_d0 h_S_

def meanV (p : FVec Ideal S100000x192 .f32) : FVec Ideal S192 .f32 :=
  Host.divf (F := Ideal) (sumV p) (broadcastInDim S192 ![] bcast_S_S192 (constant (F := Ideal) S_ .f32 0x47C35000#32))

def cntV : FVec Ideal S_ .f32 :=
  subf (constant (F := Ideal) S_ .f32 0x47C35000#32) (sitofp (F := Ideal) .f32 (constantI S_ 32 0#32))

def mean1V (p : FVec Ideal S100000x192 .f32) : FVec Ideal S1x192 .f32 :=
  Host.divf (F := Ideal) (broadcastInDim S1x192 ![1] bcast_S192_S1x192_1 (sumV p))
    (broadcastInDim S1x192 ![] bcast_S_S1x192 (constant (F := Ideal) S_ .f32 0x47C35000#32))

def sqV (p : FVec Ideal S100000x192 .f32) : FVec Ideal S100000x192 .f32 :=
  mulf (subf p (broadcastInDim S100000x192 ![0, 1] bcast_S1x192_S100000x192_0_1 (mean1V p)))
    (subf p (broadcastInDim S100000x192 ![0, 1] bcast_S1x192_S100000x192_0_1 (mean1V p)))

def varV (p : FVec Ideal S100000x192 .f32) : FVec Ideal S192 .f32 :=
  select (broadcastInDim S192 ![] bcast_S_S192 (cmpf .ogt cntV (constant (F := Ideal) S_ .f32 0x00000000#32)))
    (Host.divf (F := Ideal) (sumV (sqV p)) (broadcastInDim S192 ![] bcast_S_S192 cntV))
    (broadcastInDim S192 ![] bcast_S_S192 (id (constant (F := Ideal) S_ .f32 0x7FC00000#32)))

def bnV (p : FVec Ideal S100000x192 .f32) (g b : FVec Ideal S192 .f32) : FVec Ideal S100000x192 .f32 :=
  maximumf
    (addf
      (mulf
        (mulf (subf p (rowsOf (meanV p)))
          (rowsOf (Host.rsqrt (F := Ideal)
            (addf (varV p) (broadcastInDim S192 ![] bcast_S_S192 (constant (F := Ideal) S_ .f32 0x3727C5AC#32))))))
        (rowsOf g))
      (rowsOf b))
    (broadcastInDim S100000x192 ![] bcast_S_S100000x192 (constant (F := Ideal) S_ .f32 0x00000000#32))

def layerV (x : FVec Ideal S100000x32 .f32) (w4 : FVec Ideal S32x192 .f32) (b5 : FVec Ideal S192 .f32) (w6 : FVec Ideal S32x192 .f32)
    (es ed : IVec S400000 32) (g10 b11 : FVec Ideal S4x192 .f32) : FVec Ideal S100000x192 .f32 :=
  bnV (preV x w4 b5 w6 es ed) (rowV g10) (rowV b11)

theorem rowsOf_apply (v : FVec Ideal S192 .f32) (i : Fin 100000) (j : Fin 192) : rowsOf v (ix2 i j) = v (ix1 j) :=
  bcRow_apply _ _ v i j

theorem colOf_apply (v : IVec S400000 32) (e : Fin 400000) : colOf v (ix2 e 0) = v (ix1 e) := bcCol_apply _ v e

theorem cur2_linV (x : FVec Ideal S100000x32 .f32) (w : FVec Ideal S32x192 .f32) (b : FVec Ideal S192 .f32) :
    cur2 (linV x w b) = lin (cur2 x) (cur2 w) (cur1 b) := by
  funext i j
  show linV x w b (ix2 i j) = _
  unfold linV
  rw [addf_apply, dot32_apply dot_S100000x32_S32x192_S100000x192_1_0_0_1_n_n rfl, rowsOf_apply]
  rfl

theorem cur2_rootV (x : FVec Ideal S100000x32 .f32) (w : FVec Ideal S32x192 .f32) :
    cur2 (rootV x w) = root (cur2 x) (cur2 w) := by
  funext i j
  show rootV x w (ix2 i j) = _
  unfold rootV
  rw [dot32_apply dot_S100000x32_S32x192_S100000x192_1_0_0_1_n_n rfl]
  rfl

theorem idxV_apply (es : IVec S400000 32) (e : Fin 400000) : idxV es (ix1 e) = normIdx es e := rfl

theorem gatV_apply (h : FVec Ideal S100000x192 .f32) (es : IVec S400000 32) (e : Fin 400000) (j : Fin 192) :
    gatV h es (ix2 e j) = h (ix2 (srcOf es e) j) := by
  unfold gatV
  show Host.gather (rowGatherDims 100000 192 400000 gather_S100000x192_S400000x1_S400000x192_1_0_n_n_0_1_1192_wf) h
    (colOf (idxV es)) (ix2 e j) = _
  rw [gather_rows_apply (by decide)]
  refine congrArg h (congrArg (fun r => ix2 r j) (Fin.ext ?_))
  show min (colOf (idxV es) (ix2 e 0)).toInt.toNat (100000 - 1) = min (normIdx es e).toInt.toNat (100000 - 1)
  rw [colOf_apply, idxV_apply]

theorem cur2_aggV (h : FVec Ideal S100000x192 .f32) (es ed : IVec S400000 32) :
    cur2 (aggV h es ed) = agg (cur2 h) (srcOf es) (dstOf ed) := by
  funext n j
  show aggV h es ed (ix2 n j) = _
  unfold aggV
  show Host.scatterAdd (F := Ideal) (rowScatterDims 100000 192 400000 scatter_S100000x192_S400000x1_S400000x192_1_0_0_1_wf)
    _ (colOf ed) (gatV h es) (ix2 n j) = _
  rw [scatterAdd_rows_apply, broadcastInDim_scalar_apply, constant_apply, Ideal.ofBits_zero_f32, zero_add]
  unfold agg
  refine Finset.sum_congr (Finset.filter_congr fun e _ => ?_) fun e _ => gatV_apply h es e j
  rw [colOf_apply]
  rfl

theorem cur2_preV (x : FVec Ideal S100000x32 .f32) (w4 : FVec Ideal S32x192 .f32) (b5 : FVec Ideal S192 .f32)
    (w6 : FVec Ideal S32x192 .f32) (es ed : IVec S400000 32) :
    cur2 (preV x w4 b5 w6 es ed) = pre (cur2 x) (cur2 w4) (cur1 b5) (cur2 w6) (srcOf es) (dstOf ed) := by
  funext i j
  show preV x w4 b5 w6 es ed (ix2 i j) = _
  unfold preV pre
  rw [addf_apply, ← cur2_linV, ← cur2_aggV, ← cur2_rootV]
  rfl

theorem cur1_rowV (g : FVec Ideal S4x192 .f32) : cur1 (rowV g) = rowOf g 0 := by
  funext j
  show rowV g (ix1 j) = g (ix2 0 j)
  unfold rowV
  exact rowSlice_apply _ _ g j

theorem sumV_apply (p : FVec Ideal S100000x192 .f32) (j : Fin 192) : sumV p (ix1 j) = ∑ i : Fin 100000, p (ix2 i j) := by
  unfold sumV
  rw [colReduce_apply, constant_apply, Ideal.ofBits_zero_f32, zero_add]

theorem cur1_meanV (p : FVec Ideal S100000x192 .f32) : cur1 (meanV p) = mean (cur2 p) := by
  funext j
  show meanV p (ix1 j) = _
  unfold meanV
  rw [hostDivf_apply, sumV_apply, broadcastInDim_scalar_apply]
  rfl

theorem mean1V_apply (p : FVec Ideal S100000x192 .f32) (j : Fin 192) : mean1V p (ix2 0 j) = mean (cur2 p) j := by
  unfold mean1V
  rw [hostDivf_apply, bcRow1_apply, sumV_apply, broadcastInDim_scalar_apply]
  rfl

theorem cntV_apply : cntV ix0 = cN := by
  show Ideal.ofBits .f32 0x47C35000#32 - (((0#32 : BitVec 32).toInt : ℝ) : EReal) = cN
  have h0 : (0#32 : BitVec 32).toInt = 0 := by decide
  rw [h0, Int.cast_zero, EReal.coe_zero, sub_zero]
  rfl

theorem cN_pos : (0 : EReal) < cN := by
  rw [cN_eq]
  exact_mod_cast (by norm_num : (0 : ℝ) < 100000)

theorem cur1_varV (p : FVec Ideal S100000x192 .f32) : cur1 (varV p) = varR (cur2 p) := by
  funext j
  show varV p (ix1 j) = _
  unfold varV
  rw [select_apply, broadcastInDim_scalar_apply, cmpf_apply, cntV_apply, constant_apply, Ideal.ofBits_zero_f32]
  have hc : FloatOps.cmpf (F := Ideal) (φ := .f32) .ogt cN 0 = 1#1 := by
    show BitVec.ofBool (decide ((0 : EReal) < cN)) = 1#1
    rw [decide_eq_true cN_pos]
    rfl
  rw [hc, select_one, hostDivf_apply, sumV_apply, broadcastInDim_scalar_apply, cntV_apply]
  unfold varR
  refine congrArg (fun t => Ideal.div t cN) (Finset.sum_congr rfl fun i _ => ?_)
  unfold sqV
  rw [mulf_apply, subf_apply, bcRow2_apply, mean1V_apply]
  rfl

theorem cur2_bnV (p : FVec Ideal S100000x192 .f32) (g b : FVec Ideal S192 .f32) :
    cur2 (bnV p g b) = bn (cur2 p) (cur1 (meanV p)) (cur1 (varV p)) (cur1 g) (cur1 b) := by
  funext i j
  show bnV p g b (ix2 i j) = _
  unfold bnV bn
  rw [maximumf_apply, addf_apply, mulf_apply, mulf_apply, subf_apply, rowsOf_apply, rowsOf_apply, rowsOf_apply, rowsOf_apply,
    broadcastInDim_scalar_apply, constant_apply, Ideal.ofBits_zero_f32]
  rfl

theorem cur2_layerV (x : FVec Ideal S100000x32 .f32) (w4 : FVec Ideal S32x192 .f32) (b5 : FVec Ideal S192 .f32)
    (w6 : FVec Ideal S32x192 .f32) (es ed : IVec S400000 32) (g10 b11 : FVec Ideal S4x192 .f32) :
    cur2 (layerV x w4 b5 w6 es ed g10 b11)
      = layerR (cur2 x) (cur2 w4) (cur1 b5) (cur2 w6) (srcOf es) (dstOf ed) (rowOf g10 0) (rowOf b11 0) := by
  unfold layerV layerR
  rw [cur2_bnV, cur1_meanV, cur1_varV, cur1_rowV, cur1_rowV, cur2_preV]

attribute [local irreducible] Host.gather Host.scatterAdd Host.reduceAdd in
set_option maxRecDepth 8192 in
set_option maxHeartbeats 1000000 in

theorem run0 (V : Valuation τ sig (Elt Ideal)) :
    after (opsL0 (F := Ideal)) V (main_v39 : DevRef τ sig)
      = layerV (V (main_arg0 : DevRef τ sig)) (V (main_arg4 : DevRef τ sig)) (V (main_arg5 : DevRef τ sig))
          (V (main_arg6 : DevRef τ sig)) (V (main_arg1 : DevRef τ sig)) (V (main_arg2 : DevRef τ sig))
          (V (main_arg10 : DevRef τ sig)) (V (main_arg11 : DevRef τ sig)) := by
  simp only [after_cons, after_nil]
  rfl

theorem layer0 (V : Valuation τ sig (Elt Ideal)) :
    cur2 (after (opsL0 (F := Ideal)) V (main_v39 : DevRef τ sig) : Vec Ideal S100000x192 .f32)
      = layerR (cur2 (V (main_arg0 : DevRef τ sig) : Vec Ideal S100000x32 .f32))
          (cur2 (V (main_arg4 : DevRef τ sig) : Vec Ideal S32x192 .f32))
          (cur1 (V (main_arg5 : DevRef τ sig) : Vec Ideal S192 .f32))
          (cur2 (V (main_arg6 : DevRef τ sig) : Vec Ideal S32x192 .f32))
          (srcOf (V (main_arg1 : DevRef τ sig) : IVec S400000 32))
          (dstOf (V (main_arg2 : DevRef τ sig) : IVec S400000 32))
          (rowOf (V (main_arg10 : DevRef τ sig) : Vec Ideal S4x192 .f32) 0)
          (rowOf (V (main_arg11 : DevRef τ sig) : Vec Ideal S4x192 .f32) 0) :=
  (congrArg cur2 (run0 V)).trans (cur2_layerV _ _ _ _ _ _ _ _)

set_option maxRecDepth 8192 in
theorem keep0 (V : Valuation τ sig (Elt Ideal)) : Kept V (after (opsL0 (F := Ideal)) V) := by
  constructor <;> (simp only [after_cons, after_nil]; rfl)

end Cert.ReferenceIdeal.RLayer0

end
-- ==== Proof.RStages.lean ====
import proofs.«401365_j67929202754020_1_alg».proof.Proof.RefOps
import proofs.«401365_j67929202754020_1_alg».proof.Proof.Spec
import proofs.«401365_j67929202754020_1_alg».proof.Proof.LibIndexing
import Idealize.ShloMosaic.PureOps.Ideal
import Idealize.ShloMosaic.PureOps.Ideal.Laws
import Idealize.ShloMosaic.Lib.ValueIdx
import Idealize.ShloMosaic.Lib.ValueIdxRank1
import Idealize.ShloMosaic.Lib.Pipeline.Value
import Idealize.ShloMosaic.Lib.StableHlo.Run
import Idealize.ShloMosaic.Lib.StackMember
import Idealize.ShloMosaic.Lib.IdealHost
import Mathlib.Data.EReal.Inv
import Mathlib.Tactic.NormNum

noncomputable section

open scoped BigOperators

namespace Cert.ReferenceIdeal.RStages

open Cert.ReferenceIdeal Cert.ReferenceIdeal.Gen Cert.ReferenceIdeal.RefOps Cert.Spec Cert.LibIndexing
  Idealize.ShloMosaic Idealize.ShloMosaic.ValueIdx Idealize.ShloMosaic.TcCoe Idealize.SL.Sem Idealize.ShloMosaic.StableHlo

section Layout
variable {α : Type}

theorem slab_apply {L A B : Nat} (l : Nat) (hl : l < L) (w : (⟨3, ![L, A, B]⟩ : Shape).Idx → α)
    (h1 : (⟨3, ![L, A, B]⟩ : Shape).Slices ![l, 0, 0] ⟨3, ![1, A, B]⟩)
    (h2 : (⟨3, ![1, A, B]⟩ : Shape).ShapeCasts ⟨2, ![A, B]⟩) (i : Fin A) (j : Fin B) :
    shapeCast ⟨2, ![A, B]⟩ (extractStridedSlice ⟨3, ![1, A, B]⟩ ![l, 0, 0] w h1) h2 (ix2 i j)
      = w (ix3 ⟨l, hl⟩ i j) := by
  rw [shapeCast_apply _ h2 (ix2 i j) (ix3 (0 : Fin 1) i j) (by
    rw [Shape.rowMajor_val_three, Shape.rowMajor_val_two]
    show ((0 : Nat) * A + i.val) * B + j.val = i.val * B + j.val
    rw [Nat.zero_mul, Nat.zero_add])]
  refine extractStridedSlice_apply _ w h1 _ _ fun a => ?_
  match a with
  | ⟨0, _⟩ => exact (Nat.add_zero l).symm
  | ⟨1, _⟩ => exact (Nat.zero_add i.val).symm
  | ⟨2, _⟩ => exact (Nat.zero_add j.val).symm

theorem row_apply {L B : Nat} (l : Nat) (hl : l < L) (b : (⟨2, ![L, B]⟩ : Shape).Idx → α)
    (h1 : (⟨2, ![L, B]⟩ : Shape).Slices ![l, 0] ⟨2, ![1, B]⟩)
    (h2 : (⟨2, ![1, B]⟩ : Shape).ShapeCasts ⟨1, ![B]⟩) (j : Fin B) :
    shapeCast ⟨1, ![B]⟩ (extractStridedSlice ⟨2, ![1, B]⟩ ![l, 0] b h1) h2 (ix1 j)
      = b (ix2 ⟨l, hl⟩ j) := by
  rw [shapeCast_apply _ h2 (ix1 j) (ix2 (0 : Fin 1) j) (by
    rw [Shape.rowMajor_val_two, Shape.rowMajor_val_one]
    show (0 : Nat) * B + j.val = j.val
    rw [Nat.zero_mul, Nat.zero_add])]
  refine extractStridedSlice_apply _ b h1 _ _ fun a => ?_
  match a with
  | ⟨0, _⟩ => exact (Nat.add_zero l).symm
  | ⟨1, _⟩ => exact (Nat.zero_add j.val).symm

theorem bcast_row_apply {N B : Nat} (b : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![N, B]⟩ ![0, 1]) (hB : B ≠ 1) (i : Fin N) (j : Fin B) :
    broadcastInDim ⟨2, ![N, B]⟩ ![0, 1] h2 (broadcastInDim ⟨2, ![1, B]⟩ ![1] h1 b) (ix2 i j) = b (ix1 j) := by
  rw [broadcastInDim_apply ![0, 1] h2 _ (ix2 i j) (ix2 (0 : Fin 1) j) (fun a => by
    match a with
    | ⟨0, _⟩ => exact (if_pos rfl).symm
    | ⟨1, _⟩ => exact (if_neg hB).symm)]
  refine broadcastInDim_apply ![1] h1 b _ (ix1 j) fun a => ?_
  match a with
  | ⟨0, _⟩ => exact (if_neg hB).symm

theorem bcast_col_apply {E : Nat} (v : (⟨1, ![E]⟩ : Shape).Idx → α)
    (h : (⟨1, ![E]⟩ : Shape).BroadcastsInDim ⟨2, ![E, 1]⟩ ![0]) (hE : E ≠ 1) (e : Fin E) :
    broadcastInDim ⟨2, ![E, 1]⟩ ![0] h v (ix2 e (0 : Fin 1)) = v (ix1 e) := by
  refine broadcastInDim_apply ![0] h v _ (ix1 e) fun a => ?_
  match a with
  | ⟨0, _⟩ => exact (if_neg hE).symm

end Layout

abbrev plainDims (N K D : Nat)
    (wf : DotDims.WF ⟨2, ![N, K]⟩ ⟨2, ![K, D]⟩ ⟨2, ![N, D]⟩ [1] [0] [0] [1] [] []) :
    DotDims ⟨2, ![N, K]⟩ ⟨2, ![K, D]⟩ ⟨2, ![N, D]⟩ where
  lhsContracting := [1]
  rhsContracting := [0]
  lhsNonContracting := [0]
  rhsNonContracting := [1]
  lhsBatch := []
  rhsBatch := []
  wf := wf

section Dot
variable {N K D : Nat} (wf : DotDims.WF ⟨2, ![N, K]⟩ ⟨2, ![K, D]⟩ ⟨2, ![N, D]⟩ [1] [0] [0] [1] [] [])

theorem dot_apply {φ : FTy} (x : FVec Ideal ⟨2, ![N, K]⟩ φ) (W : FVec Ideal ⟨2, ![K, D]⟩ φ)
    (prec : Option ContractPrecision) (i : Fin N) (j : Fin D) :
    (Host.dotGeneral (plainDims N K D wf) prec x W : FVec Ideal ⟨2, ![N, D]⟩ φ) (ix2 i j)
      = ∑ k : Fin K, x (ix2 i k) * W (ix2 k j) :=
  StackMember.dotGeneral_plain_apply prec x W i j

end Dot

theorem colsum_apply {N B : Nat} {φ : FTy} (x : FVec Ideal ⟨2, ![N, B]⟩ φ) (init : FVec Ideal ⟨0, ![]⟩ φ)
    (h' : (⟨2, ![N, B]⟩ : Shape).ReducesTo [0] ⟨1, ![B]⟩) (h : (⟨2, ![N, B]⟩ : Shape).Reduces [0] ⟨1, ![B]⟩)
    (hu : 0 < (⟨0, ![]⟩ : Shape).numel) (j : Fin B) :
    (Host.reduceAdd x init h' hu : FVec Ideal ⟨1, ![B]⟩ φ) (ix1 j) = init ix0 + ∑ i : Fin N, x (ix2 i j) := by
  unfold Host.reduceAdd
  rw [Ideal.hostReduceAdd_def, Ideal.hostReduceAdd_single h' h, eq_ix0 (Shape.Idx.first hu)]
  refine congrArg _ (Finset.sum_congr rfl fun k _ => congrArg x (funext fun a => Fin.ext ?_))
  match a with
  | ⟨0, _⟩ => rfl
  | ⟨1, _⟩ => rfl

theorem bcast_lead_apply {α : Type} {B : Nat} (b : (⟨1, ![B]⟩ : Shape).Idx → α)
    (h1 : (⟨1, ![B]⟩ : Shape).BroadcastsInDim ⟨2, ![1, B]⟩ ![1]) (hB : B ≠ 1) (j : Fin B) :
    broadcastInDim ⟨2, ![1, B]⟩ ![1] h1 b (ix2 (0 : Fin 1) j) = b (ix1 j) := by
  refine broadcastInDim_apply ![1] h1 b _ (ix1 j) fun a => ?_
  match a with
  | ⟨0, _⟩ => exact (if_neg hB).symm

theorem bcast_rows_apply {α : Type} {N B : Nat} (r : (⟨2, ![1, B]⟩ : Shape).Idx → α)
    (h2 : (⟨2, ![1, B]⟩ : Shape).BroadcastsInDim ⟨2, ![N, B]⟩ ![0, 1]) (hB : B ≠ 1) (i : Fin N) (j : Fin B) :
    broadcastInDim ⟨2, ![N, B]⟩ ![0, 1] h2 r (ix2 i j) = r (ix2 (0 : Fin 1) j) := by
  refine broadcastInDim_apply ![0, 1] h2 r (ix2 i j) (ix2 (0 : Fin 1) j) fun a => ?_
  match a with
  | ⟨0, _⟩ => exact (if_pos rfl).symm
  | ⟨1, _⟩ => exact (if_neg hB).symm

section Stages

abbrev zeroS : FVec Ideal ⟨0, ![]⟩ .f32 := constant (F := Ideal) ⟨0, ![]⟩ .f32 0x00000000#32
abbrev cnS : FVec Ideal ⟨0, ![]⟩ .f32 := constant (F := Ideal) ⟨0, ![]⟩ .f32 0x47C35000#32

theorem zeroS_apply : zeroS ix0 = 0 := Ideal.ofBits_zero_f32

variable (hb1 : (⟨1, ![192]⟩ : Shape).BroadcastsInDim ⟨2, ![1, 192]⟩ ![1])
  (hb2 : (⟨2, ![1, 192]⟩ : Shape).BroadcastsInDim ⟨2, ![100000, 192]⟩ ![0, 1])
  (hbv : (⟨0, ![]⟩ : Shape).BroadcastsInDim ⟨1, ![192]⟩ ![])
  (hbs1 : (⟨0, ![]⟩ : Shape).BroadcastsInDim ⟨2, ![1, 192]⟩ ![])
  (hbz : (⟨0, ![]⟩ : Shape).BroadcastsInDim ⟨2, ![100000, 192]⟩ ![])
  (hbe : (⟨0, ![]⟩ : Shape).BroadcastsInDim ⟨1, ![400000]⟩ ![])
  (hbc : (⟨1, ![400000]⟩ : Shape).BroadcastsInDim ⟨2, ![400000, 1]⟩ ![0])
  (h' : (⟨2, ![100000, 192]⟩ : Shape).ReducesTo [0] ⟨1, ![192]⟩) (hu : 0 < (⟨0, ![]⟩ : Shape).numel)

def rowsP (b : FVec Ideal ⟨1, ![192]⟩ .f32) : FVec Ideal ⟨2, ![100000, 192]⟩ .f32 :=
  broadcastInDim ⟨2, ![100000, 192]⟩ ![0, 1] hb2 (broadcastInDim ⟨2, ![1, 192]⟩ ![1] hb1 b)

theorem rowsP_apply (b : FVec Ideal ⟨1, ![192]⟩ .f32) (i : Fin 100000) (j : Fin 192) :
    rowsP hb1 hb2 b (ix2 i j) = b (ix1 j) :=
  bcast_row_apply b hb1 hb2 (by decide) i j

section Lin
variable {K : Nat} (wf : DotDims.WF ⟨2, ![100000, K]⟩ ⟨2, ![K, 192]⟩ ⟨2, ![100000, 192]⟩ [1] [0] [0] [1] [] [])

def rootP (x : FVec Ideal ⟨2, ![100000, K]⟩ .f32) (W : FVec Ideal ⟨2, ![K, 192]⟩ .f32) :
    FVec Ideal ⟨2, ![100000, 192]⟩ .f32 :=
  Host.dotGeneral (plainDims 100000 K 192 wf) none x W

theorem rootP_eq (x : FVec Ideal ⟨2, ![100000, K]⟩ .f32) (W : FVec Ideal ⟨2, ![K, 192]⟩ .f32) :
    cur2 (rootP wf x W) = root (cur2 x) (cur2 W) := by
  funext i j
  exact dot_apply wf x W none i j

def linP (x : FVec Ideal ⟨2, ![100000, K]⟩ .f32) (W : FVec Ideal ⟨2, ![K, 192]⟩ .f32)
    (b : FVec Ideal ⟨1, ![192]⟩ .f32) : FVec Ideal ⟨2, ![100000, 192]⟩ .f32 :=
  addf (rootP wf x W) (rowsP hb1 hb2 b)

theorem linP_eq (x : FVec Ideal ⟨2, ![100000, K]⟩ .f32) (W : FVec Ideal ⟨2, ![K, 192]⟩ .f32)
    (b : FVec Ideal ⟨1, ![192]⟩ .f32) :
    cur2 (linP hb1 hb2 wf x W b) = lin (cur2 x) (cur2 W) (cur1 b) := by
  funext i j
  show rootP wf x W (ix2 i j) + rowsP hb1 hb2 b (ix2 i j) = _
  rw [rowsP_apply]
  exact congrArg (· + b (ix1 j)) (dot_apply wf x W none i j)

end Lin

def idxP (es : IVec ⟨1, ![400000]⟩ 32) : IVec ⟨1, ![400000]⟩ 32 :=
  select (cmpi .slt es (broadcastInDim ⟨1, ![400000]⟩ ![] hbe (constantI ⟨0, ![]⟩ 32 0#32)))
    (addi es (broadcastInDim ⟨1, ![400000]⟩ ![] hbe (constantI ⟨0, ![]⟩ 32 100000#32))) es

theorem idxP_apply (es : IVec ⟨1, ![400000]⟩ 32) (e : Fin 400000) : idxP hbe es (ix1 e) = normIdx es e := by
  show Scalar.select (IntOp.cmpi .slt (es (ix1 e)) (broadcastInDim ⟨1, ![400000]⟩ ![] hbe (constantI ⟨0, ![]⟩ 32 0#32) (ix1 e)))
    (IntOp.addi (es (ix1 e)) (broadcastInDim ⟨1, ![400000]⟩ ![] hbe (constantI ⟨0, ![]⟩ 32 100000#32) (ix1 e))) (es (ix1 e)) = _
  rw [broadcastInDim_scalar_apply, broadcastInDim_scalar_apply]
  rfl

section Edges
variable (wg : GatherDims.WF ⟨2, ![100000, 192]⟩ ⟨2, ![400000, 1]⟩ ⟨2, ![400000, 192]⟩ [1] [0] [] [0] [] 1 ![1, 192])
  (ws : ScatterDims.WF ⟨2, ![100000, 192]⟩ ⟨2, ![400000, 1]⟩ ⟨2, ![400000, 192]⟩ [1] [0] [0] 1)

def gatherP (h : FVec Ideal ⟨2, ![100000, 192]⟩ .f32) (nidx : IVec ⟨1, ![400000]⟩ 32) :
    FVec Ideal ⟨2, ![400000, 192]⟩ .f32 :=
  Host.gather (rowGatherDims 100000 192 400000 wg) h (broadcastInDim ⟨2, ![400000, 1]⟩ ![0] hbc nidx)

theorem gatherP_eq (h : FVec Ideal ⟨2, ![100000, 192]⟩ .f32) (nidx es : IVec ⟨1, ![400000]⟩ 32)
    (hn : ∀ e, nidx (ix1 e) = normIdx es e) :
    cur2 (gatherP hbc wg h nidx) = fun e j => cur2 h (srcOf es e) j := by
  funext e j
  show Host.gather (rowGatherDims 100000 192 400000 wg) h _ (ix2 e j) = h (ix2 (srcOf es e) j)
  rw [gather_rows_apply (by decide) wg h _ e j]
  refine congrArg h (congrArg (fun a => ix2 a j) (Fin.ext ?_))
  show min (broadcastInDim ⟨2, ![400000, 1]⟩ ![0] hbc nidx (ix2 e (0 : Fin 1))).toInt.toNat (100000 - 1)
    = min (normIdx es e).toInt.toNat (100000 - 1)
  rw [bcast_col_apply nidx hbc (by decide) e, hn e]

def aggP (ed : IVec ⟨1, ![400000]⟩ 32) (upd : FVec Ideal ⟨2, ![400000, 192]⟩ .f32) :
    FVec Ideal ⟨2, ![100000, 192]⟩ .f32 :=
  Host.scatterAdd (rowScatterDims 100000 192 400000 ws)
    (broadcastInDim ⟨2, ![100000, 192]⟩ ![] hbz zeroS) (broadcastInDim ⟨2, ![400000, 1]⟩ ![0] hbc ed) upd

theorem aggP_eq (ed : IVec ⟨1, ![400000]⟩ 32) (upd : FVec Ideal ⟨2, ![400000, 192]⟩ .f32)
    (m : Fin 100000 → Fin 192 → EReal) (src : Fin 400000 → Fin 100000)
    (hupd : cur2 upd = fun e j => m (src e) j) :
    cur2 (aggP hbz hbc ws ed upd) = agg m src (dstOf ed) := by
  funext i j
  show Host.scatterAdd (rowScatterDims 100000 192 400000 ws) _ _ upd (ix2 i j) = _
  rw [scatterAdd_rows_apply ws _ _ upd i j, broadcastInDim_scalar_apply, zeroS_apply, zero_add]
  unfold agg
  refine Finset.sum_congr (Finset.filter_congr fun e _ => ?_) fun e _ => ?_
  · rw [bcast_col_apply ed hbc (by decide) e]; rfl
  · exact congrFun (congrFun hupd e) j

end Edges

theorem pre_of {K : Nat} (A R : FVec Ideal ⟨2, ![100000, 192]⟩ .f32) (x : Fin 100000 → Fin K → EReal)
    (Wrel : Fin K → Fin 192 → EReal) (brel : Fin 192 → EReal) (Wroot : Fin K → Fin 192 → EReal)
    (src : Fin 400000 → Fin 100000) (dst : Fin 400000 → Int)
    (hA : cur2 A = agg (lin x Wrel brel) src dst) (hR : cur2 R = root x Wroot) :
    cur2 (addf A R) = pre x Wrel brel Wroot src dst := by
  funext i j
  show A (ix2 i j) + R (ix2 i j) = agg (lin x Wrel brel) src dst i j + root x Wroot i j
  rw [← hA, ← hR]
  rfl

def meanP (p : FVec Ideal ⟨2, ![100000, 192]⟩ .f32) : FVec Ideal ⟨1, ![192]⟩ .f32 :=
  Host.divf (Host.reduceAdd p zeroS h' hu) (broadcastInDim ⟨1, ![192]⟩ ![] hbv cnS)

theorem colsumP_apply (p : FVec Ideal ⟨2, ![100000, 192]⟩ .f32) (j : Fin 192) :
    Host.reduceAdd p zeroS h' hu (ix1 j) = ∑ i : Fin 100000, p (ix2 i j) := by
  rw [colsum_apply p zeroS h' (by decide) hu j, zeroS_apply, zero_add]

theorem meanP_apply (p : FVec Ideal ⟨2, ![100000, 192]⟩ .f32) (j : Fin 192) :
    meanP hbv h' hu p (ix1 j) = mean (cur2 p) j := by
  show Ideal.div (Host.reduceAdd p zeroS h' hu (ix1 j)) (broadcastInDim ⟨1, ![192]⟩ ![] hbv cnS (ix1 j)) = _
  rw [colsumP_apply, broadcastInDim_scalar_apply]
  rfl

theorem meanP_eq (p : FVec Ideal ⟨2, ![100000, 192]⟩ .f32) : cur1 (meanP hbv h' hu p) = mean (cur2 p) :=
  funext fun j => meanP_apply hbv h' hu p j

end Stages

section Norm

variable (hb1 : (⟨1, ![192]⟩ : Shape).BroadcastsInDim ⟨2, ![1, 192]⟩ ![1])
  (hb2 : (⟨2, ![1, 192]⟩ : Shape).BroadcastsInDim ⟨2, ![100000, 192]⟩ ![0, 1])
  (hbv : (⟨0, ![]⟩ : Shape).BroadcastsInDim ⟨1, ![192]⟩ ![])
  (hbs1 : (⟨0, ![]⟩ : Shape).BroadcastsInDim ⟨2, ![1, 192]⟩ ![])
  (hbz : (⟨0, ![]⟩ : Shape).BroadcastsInDim ⟨2, ![100000, 192]⟩ ![])
  (h' : (⟨2, ![100000, 192]⟩ : Shape).ReducesTo [0] ⟨1, ![192]⟩) (hu : 0 < (⟨0, ![]⟩ : Shape).numel)

theorem cN_real : cN = ((100000 : ℝ) : EReal) := by
  unfold cN
  simp [Ideal.ofBits, Ideal.ieee, -EReal.coe_mul]; norm_num

def devP (p : FVec Ideal ⟨2, ![100000, 192]⟩ .f32) : FVec Ideal ⟨2, ![100000, 192]⟩ .f32 :=
  subf p (broadcastInDim ⟨2, ![100000, 192]⟩ ![0, 1] hb2
    (Host.divf (broadcastInDim ⟨2, ![1, 192]⟩ ![1] hb1 (Host.reduceAdd p zeroS h' hu))
      (broadcastInDim ⟨2, ![1, 192]⟩ ![] hbs1 cnS)))

theorem devP_apply (p : FVec Ideal ⟨2, ![100000, 192]⟩ .f32) (i : Fin 100000) (j : Fin 192) :
    devP hb1 hb2 hbs1 h' hu p (ix2 i j) = p (ix2 i j) - mean (cur2 p) j := by
  show p (ix2 i j) - broadcastInDim (s := ⟨2, ![1, 192]⟩) ⟨2, ![100000, 192]⟩ ![0, 1] hb2 _ (ix2 i j) = _
  rw [bcast_rows_apply _ hb2 (by decide) i j]
  show p (ix2 i j) - Ideal.div (broadcastInDim ⟨2, ![1, 192]⟩ ![1] hb1 (Host.reduceAdd p zeroS h' hu) (ix2 (0 : Fin 1) j))
    (broadcastInDim ⟨2, ![1, 192]⟩ ![] hbs1 cnS (ix2 (0 : Fin 1) j)) = _
  rw [bcast_lead_apply _ hb1 (by decide) j, broadcastInDim_scalar_apply, colsumP_apply]
  rfl

def cntS : FVec Ideal ⟨0, ![]⟩ .f32 := subf cnS (sitofp .f32 (constantI ⟨0, ![]⟩ 32 0#32))

theorem cntS_apply : cntS ix0 = cN := by
  show cN - (((0#32 : BitVec 32).toInt : ℝ) : EReal) = cN
  rw [show (0#32 : BitVec 32).toInt = 0 from rfl]
  simp

def varP (p : FVec Ideal ⟨2, ![100000, 192]⟩ .f32) : FVec Ideal ⟨1, ![192]⟩ .f32 :=
  select (broadcastInDim ⟨1, ![192]⟩ ![] hbv (cmpf .ogt cntS zeroS))
    (Host.divf (Host.reduceAdd (mulf (devP hb1 hb2 hbs1 h' hu p) (devP hb1 hb2 hbs1 h' hu p)) zeroS h' hu)
      (broadcastInDim ⟨1, ![192]⟩ ![] hbv cntS))
    (broadcastInDim ⟨1, ![192]⟩ ![] hbv (id (constant (F := Ideal) ⟨0, ![]⟩ .f32 0x7FC00000#32)))

theorem guard_true : cmpf .ogt cntS zeroS ix0 = 1#1 := by
  show Ideal.cmp .ogt (cntS ix0) (zeroS ix0) = 1#1
  rw [cntS_apply, zeroS_apply, cN_real]
  show BitVec.ofBool (decide ((0 : EReal) < ((100000 : ℝ) : EReal))) = 1#1
  rw [decide_eq_true (by exact_mod_cast (by norm_num : (0 : ℝ) < 100000))]
  rfl

theorem varP_eq (p : FVec Ideal ⟨2, ![100000, 192]⟩ .f32) :
    cur1 (varP hb1 hb2 hbv hbs1 h' hu p) = varR (cur2 p) := by
  funext j
  show Scalar.select (broadcastInDim ⟨1, ![192]⟩ ![] hbv (cmpf .ogt cntS zeroS) (ix1 j))
    (Ideal.div (Host.reduceAdd (mulf (devP hb1 hb2 hbs1 h' hu p) (devP hb1 hb2 hbs1 h' hu p)) zeroS h' hu (ix1 j))
      (broadcastInDim ⟨1, ![192]⟩ ![] hbv cntS (ix1 j))) _ = _
  rw [broadcastInDim_scalar_apply, guard_true, select_one, colsumP_apply, broadcastInDim_scalar_apply, cntS_apply]
  unfold varR
  refine congrArg (fun s => Ideal.div s cN) (Finset.sum_congr rfl fun i _ => ?_)
  show devP hb1 hb2 hbs1 h' hu p (ix2 i j) * devP hb1 hb2 hbs1 h' hu p (ix2 i j) = _
  rw [devP_apply]
  rfl

def bnP (p : FVec Ideal ⟨2, ![100000, 192]⟩ .f32) (μ v γ β : FVec Ideal ⟨1, ![192]⟩ .f32) :
    FVec Ideal ⟨2, ![100000, 192]⟩ .f32 :=
  maximumf
    (addf (mulf (mulf (subf p (rowsP hb1 hb2 μ))
      (rowsP hb1 hb2 (Host.rsqrt (addf v (broadcastInDim ⟨1, ![192]⟩ ![] hbv
        (constant (F := Ideal) ⟨0, ![]⟩ .f32 0x3727C5AC#32))))))
      (rowsP hb1 hb2 γ)) (rowsP hb1 hb2 β))
    (broadcastInDim ⟨2, ![100000, 192]⟩ ![] hbz zeroS)

theorem bnP_eq (p : FVec Ideal ⟨2, ![100000, 192]⟩ .f32) (μ v γ β : FVec Ideal ⟨1, ![192]⟩ .f32) :
    cur2 (bnP hb1 hb2 hbv hbz p μ v γ β) = bn (cur2 p) (cur1 μ) (cur1 v) (cur1 γ) (cur1 β) := by
  funext i j
  show max ((p (ix2 i j) - rowsP hb1 hb2 μ (ix2 i j))
      * rowsP hb1 hb2 (Host.rsqrt (addf v (broadcastInDim ⟨1, ![192]⟩ ![] hbv
          (constant (F := Ideal) ⟨0, ![]⟩ .f32 0x3727C5AC#32)))) (ix2 i j)
      * rowsP hb1 hb2 γ (ix2 i j) + rowsP hb1 hb2 β (ix2 i j))
    (broadcastInDim ⟨2, ![100000, 192]⟩ ![] hbz zeroS (ix2 i j)) = _
  rw [rowsP_apply, rowsP_apply, rowsP_apply, rowsP_apply, broadcastInDim_scalar_apply, zeroS_apply]
  show max ((p (ix2 i j) - μ (ix1 j)) * Ideal.rsqrt (v (ix1 j) + broadcastInDim ⟨1, ![192]⟩ ![] hbv
      (constant (F := Ideal) ⟨0, ![]⟩ .f32 0x3727C5AC#32) (ix1 j)) * γ (ix1 j) + β (ix1 j)) 0 = _
  rw [broadcastInDim_scalar_apply]
  rfl

end Norm

section Layer

variable {L L' : Nat} (l : Nat) (hl : l < L) (l' : Nat) (hl' : l' < L')
  (hs3 : (⟨3, ![L, 192, 192]⟩ : Shape).Slices ![l, 0, 0] ⟨3, ![1, 192, 192]⟩)
  (hc3 : (⟨3, ![1, 192, 192]⟩ : Shape).ShapeCasts ⟨2, ![192, 192]⟩)
  (hs2 : (⟨2, ![L, 192]⟩ : Shape).Slices ![l, 0] ⟨2, ![1, 192]⟩)
  (hs2' : (⟨2, ![L', 192]⟩ : Shape).Slices ![l', 0] ⟨2, ![1, 192]⟩)
  (hc2 : (⟨2, ![1, 192]⟩ : Shape).ShapeCasts ⟨1, ![192]⟩)
  (hb1 : (⟨1, ![192]⟩ : Shape).BroadcastsInDim ⟨2, ![1, 192]⟩ ![1])
  (hb2 : (⟨2, ![1, 192]⟩ : Shape).BroadcastsInDim ⟨2, ![100000, 192]⟩ ![0, 1])
  (hbv : (⟨0, ![]⟩ : Shape).BroadcastsInDim ⟨1, ![192]⟩ ![])
  (hbs1 : (⟨0, ![]⟩ : Shape).BroadcastsInDim ⟨2, ![1, 192]⟩ ![])
  (hbz : (⟨0, ![]⟩ : Shape).BroadcastsInDim ⟨2, ![100000, 192]⟩ ![])
  (hbe : (⟨0, ![]⟩ : Shape).BroadcastsInDim ⟨1, ![400000]⟩ ![])
  (hbc : (⟨1, ![400000]⟩ : Shape).BroadcastsInDim ⟨2, ![400000, 1]⟩ ![0])
  (h' : (⟨2, ![100000, 192]⟩ : Shape).ReducesTo [0] ⟨1, ![192]⟩) (hu : 0 < (⟨0, ![]⟩ : Shape).numel)
  (wf : DotDims.WF ⟨2, ![100000, 192]⟩ ⟨2, ![192, 192]⟩ ⟨2, ![100000, 192]⟩ [1] [0] [0] [1] [] [])
  (wg : GatherDims.WF ⟨2, ![100000, 192]⟩ ⟨2, ![400000, 1]⟩ ⟨2, ![400000, 192]⟩ [1] [0] [] [0] [] 1 ![1, 192])
  (ws : ScatterDims.WF ⟨2, ![100000, 192]⟩ ⟨2, ![400000, 1]⟩ ⟨2, ![400000, 192]⟩ [1] [0] [0] 1)

def slabP (w : FVec Ideal ⟨3, ![L, 192, 192]⟩ .f32) : FVec Ideal ⟨2, ![192, 192]⟩ .f32 :=
  shapeCast ⟨2, ![192, 192]⟩ (extractStridedSlice ⟨3, ![1, 192, 192]⟩ ![l, 0, 0] w hs3) hc3

theorem slabP_eq (w : FVec Ideal ⟨3, ![L, 192, 192]⟩ .f32) : cur2 (slabP l hs3 hc3 w) = slabOf w ⟨l, hl⟩ := by
  funext i j
  exact slab_apply l hl w hs3 hc3 i j

def rowP (b : FVec Ideal ⟨2, ![L, 192]⟩ .f32) : FVec Ideal ⟨1, ![192]⟩ .f32 :=
  shapeCast ⟨1, ![192]⟩ (extractStridedSlice ⟨2, ![1, 192]⟩ ![l, 0] b hs2) hc2

theorem rowP_eq (b : FVec Ideal ⟨2, ![L, 192]⟩ .f32) : cur1 (rowP l hs2 hc2 b) = rowOf b ⟨l, hl⟩ := by
  funext j
  exact row_apply l hl b hs2 hc2 j

def preP (x : FVec Ideal ⟨2, ![100000, 192]⟩ .f32) (a7 : FVec Ideal ⟨3, ![L, 192, 192]⟩ .f32)
    (a8 : FVec Ideal ⟨2, ![L, 192]⟩ .f32) (a9 : FVec Ideal ⟨3, ![L, 192, 192]⟩ .f32)
    (a1 a2 : IVec ⟨1, ![400000]⟩ 32) : FVec Ideal ⟨2, ![100000, 192]⟩ .f32 :=
  addf (aggP hbz hbc ws a2 (gatherP hbc wg (linP hb1 hb2 wf x (slabP l hs3 hc3 a7) (rowP l hs2 hc2 a8)) (idxP hbe a1)))
    (rootP wf x (slabP l hs3 hc3 a9))

theorem preP_eq (x : FVec Ideal ⟨2, ![100000, 192]⟩ .f32) (a7 : FVec Ideal ⟨3, ![L, 192, 192]⟩ .f32)
    (a8 : FVec Ideal ⟨2, ![L, 192]⟩ .f32) (a9 : FVec Ideal ⟨3, ![L, 192, 192]⟩ .f32)
    (a1 a2 : IVec ⟨1, ![400000]⟩ 32) :
    cur2 (preP l hs3 hc3 hs2 hc2 hb1 hb2 hbz hbe hbc wf wg ws x a7 a8 a9 a1 a2)
      = pre (cur2 x) (slabOf a7 ⟨l, hl⟩) (rowOf a8 ⟨l, hl⟩) (slabOf a9 ⟨l, hl⟩) (srcOf a1) (dstOf a2) := by
  refine pre_of _ _ _ _ _ _ _ _ ?_ ?_
  · refine aggP_eq hbz hbc ws a2 _ _ (srcOf a1) ?_
    rw [gatherP_eq hbc wg _ _ a1 (idxP_apply hbe a1), linP_eq, slabP_eq l hl, rowP_eq l hl]
  · rw [rootP_eq, slabP_eq l hl]

def layerP (x : FVec Ideal ⟨2, ![100000, 192]⟩ .f32) (a7 : FVec Ideal ⟨3, ![L, 192, 192]⟩ .f32)
    (a8 : FVec Ideal ⟨2, ![L, 192]⟩ .f32) (a9 : FVec Ideal ⟨3, ![L, 192, 192]⟩ .f32)
    (a1 a2 : IVec ⟨1, ![400000]⟩ 32) (a10 a11 : FVec Ideal ⟨2, ![L', 192]⟩ .f32) :
    FVec Ideal ⟨2, ![100000, 192]⟩ .f32 :=
  bnP hb1 hb2 hbv hbz (preP l hs3 hc3 hs2 hc2 hb1 hb2 hbz hbe hbc wf wg ws x a7 a8 a9 a1 a2)
    (meanP hbv h' hu (preP l hs3 hc3 hs2 hc2 hb1 hb2 hbz hbe hbc wf wg ws x a7 a8 a9 a1 a2))
    (varP hb1 hb2 hbv hbs1 h' hu (preP l hs3 hc3 hs2 hc2 hb1 hb2 hbz hbe hbc wf wg ws x a7 a8 a9 a1 a2))
    (rowP l' hs2' hc2 a10) (rowP l' hs2' hc2 a11)

theorem layerP_eq (x : FVec Ideal ⟨2, ![100000, 192]⟩ .f32) (a7 : FVec Ideal ⟨3, ![L, 192, 192]⟩ .f32)
    (a8 : FVec Ideal ⟨2, ![L, 192]⟩ .f32) (a9 : FVec Ideal ⟨3, ![L, 192, 192]⟩ .f32)
    (a1 a2 : IVec ⟨1, ![400000]⟩ 32) (a10 a11 : FVec Ideal ⟨2, ![L', 192]⟩ .f32) :
    cur2 (layerP l l' hs3 hc3 hs2 hs2' hc2 hb1 hb2 hbv hbs1 hbz hbe hbc h' hu wf wg ws x a7 a8 a9 a1 a2 a10 a11)
      = layerR (cur2 x) (slabOf a7 ⟨l, hl⟩) (rowOf a8 ⟨l, hl⟩) (slabOf a9 ⟨l, hl⟩) (srcOf a1) (dstOf a2)
          (rowOf a10 ⟨l', hl'⟩) (rowOf a11 ⟨l', hl'⟩) := by
  unfold layerP layerR
  rw [bnP_eq, meanP_eq, varP_eq, preP_eq l hl, rowP_eq l' hl', rowP_eq l' hl']

end Layer

theorem ofBuf_toBuf {Val : EltTy → Type} {T : BufTy} (x : TRef sig T) (v : T.Contents Val) : x.ofBuf (x.toBuf v) = v := by
  obtain ⟨r, h, _, _⟩ := x
  subst h
  rfl

end Cert.ReferenceIdeal.RStages

end
-- ==== Proof.RLayer1.lean ====
import proofs.«401365_j67929202754020_1_alg».proof.Proof.RStages

noncomputable section

open scoped BigOperators

namespace Cert.ReferenceIdeal.RLayer1

open Cert.ReferenceIdeal Cert.ReferenceIdeal.Gen Cert.ReferenceIdeal.RefOps Cert.Spec Cert.LibIndexing
  Idealize.ShloMosaic Idealize.ShloMosaic.ValueIdx Idealize.ShloMosaic.TcCoe Idealize.SL.Sem Idealize.ShloMosaic.StableHlo Cert.ReferenceIdeal.RStages

variable (V : Valuation τ sig (Elt Ideal))

local notation "W" => after (opsL1 (F := Ideal)) V

theorem keep1_v39 : W (main_v39 : DevRef τ sig) = V (main_v39 : DevRef τ sig) := by
  after_results_simp

theorem run_v41 : (W (main_v41 : DevRef τ sig) : Vec Ideal S192x192 .f32)
    = slabP 0 slices_S3x192x192_S1x192x192_0_0_0 shapeCasts_S1x192x192_S192x192 (V (main_arg7 : DevRef τ sig)) := by
  after_results_simp
  rfl
theorem run_v43 : (W (main_v43 : DevRef τ sig) : Vec Ideal S192 .f32)
    = rowP 0 slices_S3x192_S1x192_0_0 shapeCasts_S1x192_S192 (V (main_arg8 : DevRef τ sig)) := by
  after_results_simp
  rfl
theorem run_v45 : (W (main_v45 : DevRef τ sig) : Vec Ideal S192x192 .f32)
    = slabP 0 slices_S3x192x192_S1x192x192_0_0_0 shapeCasts_S1x192x192_S192x192 (V (main_arg9 : DevRef τ sig)) := by
  after_results_simp
  rfl
theorem run_v63 : (W (main_v63 : DevRef τ sig) : Vec Ideal S192 .f32)
    = rowP 1 slices_S4x192_S1x192_1_0 shapeCasts_S1x192_S192 (V (main_arg10 : DevRef τ sig)) := by
  after_results_simp
  rfl
theorem run_v65 : (W (main_v65 : DevRef τ sig) : Vec Ideal S192 .f32)
    = rowP 1 slices_S4x192_S1x192_1_0 shapeCasts_S1x192_S192 (V (main_arg11 : DevRef τ sig)) := by
  after_results_simp
  rfl
theorem run_v49 : (W (main_v49 : DevRef τ sig) : Vec Ideal S100000x192 .f32)
    = linP bcast_S192_S1x192_1 bcast_S1x192_S100000x192_0_1 dot_S100000x192_S192x192_S100000x192_1_0_0_1_n_n_wf
        (V (main_v39 : DevRef τ sig)) (W (main_v41 : DevRef τ sig)) (W (main_v43 : DevRef τ sig)) := by
  after_results_simp
  rfl
theorem run_v54 : (W (main_v54 : DevRef τ sig) : IVec S400000 32) = idxP bcast_S_S400000 (V (main_arg1 : DevRef τ sig)) := by
  after_results_simp
  rfl
theorem run_v56 : (W (main_v56 : DevRef τ sig) : Vec Ideal S400000x192 .f32)
    = gatherP bcast_S400000_S400000x1_0 gather_S100000x192_S400000x1_S400000x192_1_0_n_n_0_1_1192_wf
        (W (main_v49 : DevRef τ sig)) (W (main_v54 : DevRef τ sig)) := by
  after_results_simp
  rfl
theorem run_v59 : (W (main_v59 : DevRef τ sig) : Vec Ideal S100000x192 .f32)
    = aggP bcast_S_S100000x192 bcast_S400000_S400000x1_0 scatter_S100000x192_S400000x1_S400000x192_1_0_0_1_wf
        (V (main_arg2 : DevRef τ sig)) (W (main_v56 : DevRef τ sig)) := by
  after_results_simp
  rfl
theorem run_v61 : (W (main_v61 : DevRef τ sig) : Vec Ideal S100000x192 .f32)
    = addf (W (main_v59 : DevRef τ sig))
        (rootP dot_S100000x192_S192x192_S100000x192_1_0_0_1_n_n_wf (V (main_v39 : DevRef τ sig)) (W (main_v45 : DevRef τ sig))) := by
  after_results_simp
  rfl
theorem run_v68 : (W (main_v68 : DevRef τ sig) : Vec Ideal S192 .f32)
    = meanP bcast_S_S192 reducesTo_S100000x192_S192_d0 h_S_ (W (main_v61 : DevRef τ sig)) := by
  after_results_simp
  rfl
theorem run_v69 : (W (main_v69 : DevRef τ sig) : Vec Ideal S192 .f32)
    = varP bcast_S192_S1x192_1 bcast_S1x192_S100000x192_0_1 bcast_S_S192 bcast_S_S1x192 reducesTo_S100000x192_S192_d0 h_S_
        (W (main_v61 : DevRef τ sig)) := by
  after_results_simp
  simp only [ofBuf_toBuf]
  rfl
theorem run_v85 : (W (main_v85 : DevRef τ sig) : Vec Ideal S100000x192 .f32)
    = bnP bcast_S192_S1x192_1 bcast_S1x192_S100000x192_0_1 bcast_S_S192 bcast_S_S100000x192
        (W (main_v61 : DevRef τ sig)) (W (main_v68 : DevRef τ sig)) (W (main_v69 : DevRef τ sig))
        (W (main_v63 : DevRef τ sig)) (W (main_v65 : DevRef τ sig)) := by
  after_results_simp
  simp only [ofBuf_toBuf]
  rfl

theorem run_layer : (W (main_v85 : DevRef τ sig) : Vec Ideal S100000x192 .f32)
    = layerP 0 1 slices_S3x192x192_S1x192x192_0_0_0 shapeCasts_S1x192x192_S192x192 slices_S3x192_S1x192_0_0
        slices_S4x192_S1x192_1_0 shapeCasts_S1x192_S192 bcast_S192_S1x192_1 bcast_S1x192_S100000x192_0_1 bcast_S_S192
        bcast_S_S1x192 bcast_S_S100000x192 bcast_S_S400000 bcast_S400000_S400000x1_0 reducesTo_S100000x192_S192_d0 h_S_
        dot_S100000x192_S192x192_S100000x192_1_0_0_1_n_n_wf gather_S100000x192_S400000x1_S400000x192_1_0_n_n_0_1_1192_wf
        scatter_S100000x192_S400000x1_S400000x192_1_0_0_1_wf
        (V (main_v39 : DevRef τ sig)) (V (main_arg7 : DevRef τ sig)) (V (main_arg8 : DevRef τ sig))
        (V (main_arg9 : DevRef τ sig)) (V (main_arg1 : DevRef τ sig)) (V (main_arg2 : DevRef τ sig))
        (V (main_arg10 : DevRef τ sig)) (V (main_arg11 : DevRef τ sig)) := by
  rw [run_v85, run_v68, run_v69, run_v63, run_v65, run_v61, run_v59, run_v56, run_v54, run_v49, run_v41, run_v43, run_v45]
  rfl

theorem layer1 :
    cur2 (W (main_v85 : DevRef τ sig) : Vec Ideal S100000x192 .f32)
      = layerR (cur2 (V (main_v39 : DevRef τ sig) : Vec Ideal S100000x192 .f32))
          (slabOf (V (main_arg7 : DevRef τ sig) : Vec Ideal S3x192x192 .f32) 0)
          (rowOf (V (main_arg8 : DevRef τ sig) : Vec Ideal S3x192 .f32) 0)
          (slabOf (V (main_arg9 : DevRef τ sig) : Vec Ideal S3x192x192 .f32) 0)
          (srcOf (V (main_arg1 : DevRef τ sig) : IVec S400000 32))
          (dstOf (V (main_arg2 : DevRef τ sig) : IVec S400000 32))
          (rowOf (V (main_arg10 : DevRef τ sig) : Vec Ideal S4x192 .f32) 1)
          (rowOf (V (main_arg11 : DevRef τ sig) : Vec Ideal S4x192 .f32) 1) := by
  rw [run_layer]
  exact layerP_eq 0 (by decide) 1 (by decide) _ _ _ _ _ _ _ _ _ _ _ _ _ _ _ _ _ _ _ _ _ _ _ _ _

set_option maxRecDepth 8192 in
theorem keep1 : Kept V W := by
  constructor <;> (simp only [after_cons, after_nil]; rfl)

end Cert.ReferenceIdeal.RLayer1

end
-- ==== Proof.RLayer2.lean ====
import proofs.«401365_j67929202754020_1_alg».proof.Proof.RStages

noncomputable section

open scoped BigOperators

namespace Cert.ReferenceIdeal.RLayer2

open Cert.ReferenceIdeal Cert.ReferenceIdeal.Gen Cert.ReferenceIdeal.RefOps Cert.Spec Cert.LibIndexing
  Idealize.ShloMosaic Idealize.ShloMosaic.ValueIdx Idealize.ShloMosaic.TcCoe Idealize.SL.Sem Idealize.ShloMosaic.StableHlo Cert.ReferenceIdeal.RStages

variable (V : Valuation τ sig (Elt Ideal))

local notation "W" => after (opsL2 (F := Ideal)) V

theorem keep2_v85 : W (main_v85 : DevRef τ sig) = V (main_v85 : DevRef τ sig) := by
  after_results_simp

theorem run_v87 : (W (main_v87 : DevRef τ sig) : Vec Ideal S192x192 .f32)
    = slabP 1 slices_S3x192x192_S1x192x192_1_0_0 shapeCasts_S1x192x192_S192x192 (V (main_arg7 : DevRef τ sig)) := by
  after_results_simp
  rfl
theorem run_v89 : (W (main_v89 : DevRef τ sig) : Vec Ideal S192 .f32)
    = rowP 1 slices_S3x192_S1x192_1_0 shapeCasts_S1x192_S192 (V (main_arg8 : DevRef τ sig)) := by
  after_results_simp
  rfl
theorem run_v91 : (W (main_v91 : DevRef τ sig) : Vec Ideal S192x192 .f32)
    = slabP 1 slices_S3x192x192_S1x192x192_1_0_0 shapeCasts_S1x192x192_S192x192 (V (main_arg9 : DevRef τ sig)) := by
  after_results_simp
  rfl
theorem run_v109 : (W (main_v109 : DevRef τ sig) : Vec Ideal S192 .f32)
    = rowP 2 slices_S4x192_S1x192_2_0 shapeCasts_S1x192_S192 (V (main_arg10 : DevRef τ sig)) := by
  after_results_simp
  rfl
theorem run_v111 : (W (main_v111 : DevRef τ sig) : Vec Ideal S192 .f32)
    = rowP 2 slices_S4x192_S1x192_2_0 shapeCasts_S1x192_S192 (V (main_arg11 : DevRef τ sig)) := by
  after_results_simp
  rfl
theorem run_v95 : (W (main_v95 : DevRef τ sig) : Vec Ideal S100000x192 .f32)
    = linP bcast_S192_S1x192_1 bcast_S1x192_S100000x192_0_1 dot_S100000x192_S192x192_S100000x192_1_0_0_1_n_n_wf
        (V (main_v85 : DevRef τ sig)) (W (main_v87 : DevRef τ sig)) (W (main_v89 : DevRef τ sig)) := by
  after_results_simp
  rfl
theorem run_v100 : (W (main_v100 : DevRef τ sig) : IVec S400000 32) = idxP bcast_S_S400000 (V (main_arg1 : DevRef τ sig)) := by
  after_results_simp
  rfl
theorem run_v102 : (W (main_v102 : DevRef τ sig) : Vec Ideal S400000x192 .f32)
    = gatherP bcast_S400000_S400000x1_0 gather_S100000x192_S400000x1_S400000x192_1_0_n_n_0_1_1192_wf
        (W (main_v95 : DevRef τ sig)) (W (main_v100 : DevRef τ sig)) := by
  after_results_simp
  rfl
theorem run_v105 : (W (main_v105 : DevRef τ sig) : Vec Ideal S100000x192 .f32)
    = aggP bcast_S_S100000x192 bcast_S400000_S400000x1_0 scatter_S100000x192_S400000x1_S400000x192_1_0_0_1_wf
        (V (main_arg2 : DevRef τ sig)) (W (main_v102 : DevRef τ sig)) := by
  after_results_simp
  rfl
theorem run_v107 : (W (main_v107 : DevRef τ sig) : Vec Ideal S100000x192 .f32)
    = addf (W (main_v105 : DevRef τ sig))
        (rootP dot_S100000x192_S192x192_S100000x192_1_0_0_1_n_n_wf (V (main_v85 : DevRef τ sig)) (W (main_v91 : DevRef τ sig))) := by
  after_results_simp
  rfl
theorem run_v114 : (W (main_v114 : DevRef τ sig) : Vec Ideal S192 .f32)
    = meanP bcast_S_S192 reducesTo_S100000x192_S192_d0 h_S_ (W (main_v107 : DevRef τ sig)) := by
  after_results_simp
  rfl
theorem run_v115 : (W (main_v115 : DevRef τ sig) : Vec Ideal S192 .f32)
    = varP bcast_S192_S1x192_1 bcast_S1x192_S100000x192_0_1 bcast_S_S192 bcast_S_S1x192 reducesTo_S100000x192_S192_d0 h_S_
        (W (main_v107 : DevRef τ sig)) := by
  after_results_simp
  simp only [ofBuf_toBuf]
  rfl
theorem run_v131 : (W (main_v131 : DevRef τ sig) : Vec Ideal S100000x192 .f32)
    = bnP bcast_S192_S1x192_1 bcast_S1x192_S100000x192_0_1 bcast_S_S192 bcast_S_S100000x192
        (W (main_v107 : DevRef τ sig)) (W (main_v114 : DevRef τ sig)) (W (main_v115 : DevRef τ sig))
        (W (main_v109 : DevRef τ sig)) (W (main_v111 : DevRef τ sig)) := by
  after_results_simp
  simp only [ofBuf_toBuf]
  rfl

theorem run_layer : (W (main_v131 : DevRef τ sig) : Vec Ideal S100000x192 .f32)
    = layerP 1 2 slices_S3x192x192_S1x192x192_1_0_0 shapeCasts_S1x192x192_S192x192 slices_S3x192_S1x192_1_0
        slices_S4x192_S1x192_2_0 shapeCasts_S1x192_S192 bcast_S192_S1x192_1 bcast_S1x192_S100000x192_0_1 bcast_S_S192
        bcast_S_S1x192 bcast_S_S100000x192 bcast_S_S400000 bcast_S400000_S400000x1_0 reducesTo_S100000x192_S192_d0 h_S_
        dot_S100000x192_S192x192_S100000x192_1_0_0_1_n_n_wf gather_S100000x192_S400000x1_S400000x192_1_0_n_n_0_1_1192_wf
        scatter_S100000x192_S400000x1_S400000x192_1_0_0_1_wf
        (V (main_v85 : DevRef τ sig)) (V (main_arg7 : DevRef τ sig)) (V (main_arg8 : DevRef τ sig))
        (V (main_arg9 : DevRef τ sig)) (V (main_arg1 : DevRef τ sig)) (V (main_arg2 : DevRef τ sig))
        (V (main_arg10 : DevRef τ sig)) (V (main_arg11 : DevRef τ sig)) := by
  rw [run_v131, run_v114, run_v115, run_v109, run_v111, run_v107, run_v105, run_v102, run_v100, run_v95, run_v87, run_v89, run_v91]
  rfl

theorem layer2 :
    cur2 (W (main_v131 : DevRef τ sig) : Vec Ideal S100000x192 .f32)
      = layerR (cur2 (V (main_v85 : DevRef τ sig) : Vec Ideal S100000x192 .f32))
          (slabOf (V (main_arg7 : DevRef τ sig) : Vec Ideal S3x192x192 .f32) 1)
          (rowOf (V (main_arg8 : DevRef τ sig) : Vec Ideal S3x192 .f32) 1)
          (slabOf (V (main_arg9 : DevRef τ sig) : Vec Ideal S3x192x192 .f32) 1)
          (srcOf (V (main_arg1 : DevRef τ sig) : IVec S400000 32))
          (dstOf (V (main_arg2 : DevRef τ sig) : IVec S400000 32))
          (rowOf (V (main_arg10 : DevRef τ sig) : Vec Ideal S4x192 .f32) 2)
          (rowOf (V (main_arg11 : DevRef τ sig) : Vec Ideal S4x192 .f32) 2) := by
  rw [run_layer]
  exact layerP_eq 1 (by decide) 2 (by decide) _ _ _ _ _ _ _ _ _ _ _ _ _ _ _ _ _ _ _ _ _ _ _ _ _

set_option maxRecDepth 8192 in
theorem keep2 : Kept V W := by
  constructor <;> (simp only [after_cons, after_nil]; rfl)

end Cert.ReferenceIdeal.RLayer2

end
-- ==== Proof.RLayer3.lean ====
import proofs.«401365_j67929202754020_1_alg».proof.Proof.RStages

noncomputable section

open scoped BigOperators

namespace Cert.ReferenceIdeal.RLayer3

open Cert.ReferenceIdeal Cert.ReferenceIdeal.Gen Cert.ReferenceIdeal.RefOps Cert.Spec Cert.LibIndexing
  Idealize.ShloMosaic Idealize.ShloMosaic.ValueIdx Idealize.ShloMosaic.TcCoe Idealize.SL.Sem Idealize.ShloMosaic.StableHlo Cert.ReferenceIdeal.RStages

variable (V : Valuation τ sig (Elt Ideal))

local notation "W" => after (opsL3 (F := Ideal)) V

theorem keep3_v131 : W (main_v131 : DevRef τ sig) = V (main_v131 : DevRef τ sig) := by
  after_results_simp

theorem run_v133 : (W (main_v133 : DevRef τ sig) : Vec Ideal S192x192 .f32)
    = slabP 2 slices_S3x192x192_S1x192x192_2_0_0 shapeCasts_S1x192x192_S192x192 (V (main_arg7 : DevRef τ sig)) := by
  after_results_simp
  rfl
theorem run_v135 : (W (main_v135 : DevRef τ sig) : Vec Ideal S192 .f32)
    = rowP 2 slices_S3x192_S1x192_2_0 shapeCasts_S1x192_S192 (V (main_arg8 : DevRef τ sig)) := by
  after_results_simp
  rfl
theorem run_v137 : (W (main_v137 : DevRef τ sig) : Vec Ideal S192x192 .f32)
    = slabP 2 slices_S3x192x192_S1x192x192_2_0_0 shapeCasts_S1x192x192_S192x192 (V (main_arg9 : DevRef τ sig)) := by
  after_results_simp
  rfl
theorem run_v155 : (W (main_v155 : DevRef τ sig) : Vec Ideal S192 .f32)
    = rowP 3 slices_S4x192_S1x192_3_0 shapeCasts_S1x192_S192 (V (main_arg10 : DevRef τ sig)) := by
  after_results_simp
  rfl
theorem run_v157 : (W (main_v157 : DevRef τ sig) : Vec Ideal S192 .f32)
    = rowP 3 slices_S4x192_S1x192_3_0 shapeCasts_S1x192_S192 (V (main_arg11 : DevRef τ sig)) := by
  after_results_simp
  rfl
theorem run_v141 : (W (main_v141 : DevRef τ sig) : Vec Ideal S100000x192 .f32)
    = linP bcast_S192_S1x192_1 bcast_S1x192_S100000x192_0_1 dot_S100000x192_S192x192_S100000x192_1_0_0_1_n_n_wf
        (V (main_v131 : DevRef τ sig)) (W (main_v133 : DevRef τ sig)) (W (main_v135 : DevRef τ sig)) := by
  after_results_simp
  rfl
theorem run_v146 : (W (main_v146 : DevRef τ sig) : IVec S400000 32) = idxP bcast_S_S400000 (V (main_arg1 : DevRef τ sig)) := by
  after_results_simp
  rfl
theorem run_v148 : (W (main_v148 : DevRef τ sig) : Vec Ideal S400000x192 .f32)
    = gatherP bcast_S400000_S400000x1_0 gather_S100000x192_S400000x1_S400000x192_1_0_n_n_0_1_1192_wf
        (W (main_v141 : DevRef τ sig)) (W (main_v146 : DevRef τ sig)) := by
  after_results_simp
  rfl
theorem run_v151 : (W (main_v151 : DevRef τ sig) : Vec Ideal S100000x192 .f32)
    = aggP bcast_S_S100000x192 bcast_S400000_S400000x1_0 scatter_S100000x192_S400000x1_S400000x192_1_0_0_1_wf
        (V (main_arg2 : DevRef τ sig)) (W (main_v148 : DevRef τ sig)) := by
  after_results_simp
  rfl
theorem run_v153 : (W (main_v153 : DevRef τ sig) : Vec Ideal S100000x192 .f32)
    = addf (W (main_v151 : DevRef τ sig))
        (rootP dot_S100000x192_S192x192_S100000x192_1_0_0_1_n_n_wf (V (main_v131 : DevRef τ sig)) (W (main_v137 : DevRef τ sig))) := by
  after_results_simp
  rfl
theorem run_v160 : (W (main_v160 : DevRef τ sig) : Vec Ideal S192 .f32)
    = meanP bcast_S_S192 reducesTo_S100000x192_S192_d0 h_S_ (W (main_v153 : DevRef τ sig)) := by
  after_results_simp
  rfl
theorem run_v161 : (W (main_v161 : DevRef τ sig) : Vec Ideal S192 .f32)
    = varP bcast_S192_S1x192_1 bcast_S1x192_S100000x192_0_1 bcast_S_S192 bcast_S_S1x192 reducesTo_S100000x192_S192_d0 h_S_
        (W (main_v153 : DevRef τ sig)) := by
  after_results_simp
  simp only [ofBuf_toBuf]
  rfl
theorem run_v177 : (W (main_v177 : DevRef τ sig) : Vec Ideal S100000x192 .f32)
    = bnP bcast_S192_S1x192_1 bcast_S1x192_S100000x192_0_1 bcast_S_S192 bcast_S_S100000x192
        (W (main_v153 : DevRef τ sig)) (W (main_v160 : DevRef τ sig)) (W (main_v161 : DevRef τ sig))
        (W (main_v155 : DevRef τ sig)) (W (main_v157 : DevRef τ sig)) := by
  after_results_simp
  simp only [ofBuf_toBuf]
  rfl

theorem run_layer : (W (main_v177 : DevRef τ sig) : Vec Ideal S100000x192 .f32)
    = layerP 2 3 slices_S3x192x192_S1x192x192_2_0_0 shapeCasts_S1x192x192_S192x192 slices_S3x192_S1x192_2_0
        slices_S4x192_S1x192_3_0 shapeCasts_S1x192_S192 bcast_S192_S1x192_1 bcast_S1x192_S100000x192_0_1 bcast_S_S192
        bcast_S_S1x192 bcast_S_S100000x192 bcast_S_S400000 bcast_S400000_S400000x1_0 reducesTo_S100000x192_S192_d0 h_S_
        dot_S100000x192_S192x192_S100000x192_1_0_0_1_n_n_wf gather_S100000x192_S400000x1_S400000x192_1_0_n_n_0_1_1192_wf
        scatter_S100000x192_S400000x1_S400000x192_1_0_0_1_wf
        (V (main_v131 : DevRef τ sig)) (V (main_arg7 : DevRef τ sig)) (V (main_arg8 : DevRef τ sig))
        (V (main_arg9 : DevRef τ sig)) (V (main_arg1 : DevRef τ sig)) (V (main_arg2 : DevRef τ sig))
        (V (main_arg10 : DevRef τ sig)) (V (main_arg11 : DevRef τ sig)) := by
  rw [run_v177, run_v160, run_v161, run_v155, run_v157, run_v153, run_v151, run_v148, run_v146, run_v141, run_v133, run_v135, run_v137]
  rfl

theorem layer3 :
    cur2 (W (main_v177 : DevRef τ sig) : Vec Ideal S100000x192 .f32)
      = layerR (cur2 (V (main_v131 : DevRef τ sig) : Vec Ideal S100000x192 .f32))
          (slabOf (V (main_arg7 : DevRef τ sig) : Vec Ideal S3x192x192 .f32) 2)
          (rowOf (V (main_arg8 : DevRef τ sig) : Vec Ideal S3x192 .f32) 2)
          (slabOf (V (main_arg9 : DevRef τ sig) : Vec Ideal S3x192x192 .f32) 2)
          (srcOf (V (main_arg1 : DevRef τ sig) : IVec S400000 32))
          (dstOf (V (main_arg2 : DevRef τ sig) : IVec S400000 32))
          (rowOf (V (main_arg10 : DevRef τ sig) : Vec Ideal S4x192 .f32) 3)
          (rowOf (V (main_arg11 : DevRef τ sig) : Vec Ideal S4x192 .f32) 3) := by
  rw [run_layer]
  exact layerP_eq 2 (by decide) 3 (by decide) _ _ _ _ _ _ _ _ _ _ _ _ _ _ _ _ _ _ _ _ _ _ _ _ _

set_option maxRecDepth 8192 in
theorem keep3 : Kept V W := by
  constructor <;> (simp only [after_cons, after_nil]; rfl)

end Cert.ReferenceIdeal.RLayer3

end
-- ==== Proof.RTail.lean ====
import proofs.«401365_j67929202754020_1_alg».proof.Proof.RefOps
import Idealize.ShloMosaic.PureOps.Ideal

noncomputable section

namespace Cert.ReferenceIdeal.RTail

open Cert.ReferenceIdeal Cert.ReferenceIdeal.Gen Cert.ReferenceIdeal.RefOps Idealize.ShloMosaic Idealize.ShloMosaic.TcCoe Idealize.SL.Sem Idealize.ShloMosaic.StableHlo

def tailR (h : Vec Ideal S100000x192 .f32) (batch : IVec S100000 32)
    (Wh1 : Vec Ideal S192x192 .f32) (bh1 : Vec Ideal S192 .f32)
    (Wh2 : Vec Ideal S192x192 .f32) (bh2 : Vec Ideal S192 .f32)
    (Wout : Vec Ideal S192x1 .f32) (bout : Vec Ideal S1 .f32) : Vec Ideal S2000x1 .f32 :=
  addf (F := Ideal) (s := S2000x1) (φ := .f32)
    (Host.dotGeneral (F := Ideal) (φ₁ := .f32) (φ₂ := .f32) dot_S2000x192_S192x1_S2000x1_1_0_0_1_n_n none
      (addf (F := Ideal) (s := S2000x192) (φ := .f32)
        (Host.dotGeneral (F := Ideal) (φ₁ := .f32) (φ₂ := .f32) dot_S2000x192_S192x192_S2000x192_1_0_0_1_n_n none
          (maximumf (F := Ideal) (s := S2000x192) (φ := .f32)
            (addf (F := Ideal) (s := S2000x192) (φ := .f32)
              (Host.dotGeneral (F := Ideal) (φ₁ := .f32) (φ₂ := .f32) dot_S2000x192_S192x192_S2000x192_1_0_0_1_n_n none
                (Host.divf (F := Ideal) (s := S2000x192) (φ := .f32)
                  (Host.scatterAdd (F := Ideal) scatter_S2000x192_S100000x1_S100000x192_1_0_0_1
                    (broadcastInDim S2000x192 ![] bcast_S_S2000x192 (constant (F := Ideal) S_ .f32 0x00000000#32))
                    (broadcastInDim S100000x1 ![0] bcast_S100000_S100000x1_0 batch)
                    h)
                  (broadcastInDim S2000x192 ![0, 1] bcast_S2000x1_S2000x192_0_1
                    (broadcastInDim S2000x1 ![0] bcast_S2000_S2000x1_0
                      (maximumf (F := Ideal) (s := S2000) (φ := .f32)
                        (Host.scatterAdd (F := Ideal) scatter_S2000_S100000x1_S100000_n_0_0_1
                          (broadcastInDim S2000 ![] bcast_S_S2000 (constant (F := Ideal) S_ .f32 0x00000000#32))
                          (broadcastInDim S100000x1 ![0] bcast_S100000_S100000x1_0 batch)
                          (broadcastInDim S100000 ![] bcast_S_S100000 (constant (F := Ideal) S_ .f32 0x3F800000#32)))
                        (broadcastInDim S2000 ![] bcast_S_S2000 (constant (F := Ideal) S_ .f32 0x3F800000#32))))))
                Wh1)
              (broadcastInDim S2000x192 ![0, 1] bcast_S1x192_S2000x192_0_1 (broadcastInDim S1x192 ![1] bcast_S192_S1x192_1 bh1)))
            (broadcastInDim S2000x192 ![] bcast_S_S2000x192 (constant (F := Ideal) S_ .f32 0x00000000#32)))
          Wh2)
        (broadcastInDim S2000x192 ![0, 1] bcast_S1x192_S2000x192_0_1 (broadcastInDim S1x192 ![1] bcast_S192_S1x192_1 bh2)))
      Wout)
    (broadcastInDim S2000x1 ![0, 1] bcast_S1x1_S2000x1_0_1 (broadcastInDim S1x1 ![1] bcast_S1_S1x1_1 bout))

set_option maxHeartbeats 1000000 in
theorem tail (V : Valuation τ sig (Elt Ideal)) :
    StableHlo.after (opsT (F := Ideal)) V (main_v202 : DevRef τ sig)
      = tailR (V (main_v177 : DevRef τ sig)) (V (main_arg3 : DevRef τ sig)) (V (main_arg12 : DevRef τ sig))
          (V (main_arg13 : DevRef τ sig)) (V (main_arg14 : DevRef τ sig)) (V (main_arg15 : DevRef τ sig))
          (V (main_arg16 : DevRef τ sig)) (V (main_arg17 : DevRef τ sig)) := by
  after_results_simp
  simp only [TRef.ofBuf, TRef.toBuf, cast_eq]
  rfl

theorem keepT (V : Valuation τ sig (Elt Ideal)) : Kept V (StableHlo.after (opsT (F := Ideal)) V) := by
  constructor <;> (simp only [after_cons, after_nil]; rfl)

end Cert.ReferenceIdeal.RTail
-- ==== Proof.RVal.lean ====
import proofs.«401365_j67929202754020_1_alg».proof.Proof.RefOps
import proofs.«401365_j67929202754020_1_alg».proof.Proof.RLayer0
import proofs.«401365_j67929202754020_1_alg».proof.Proof.RLayer1
import proofs.«401365_j67929202754020_1_alg».proof.Proof.RLayer2
import proofs.«401365_j67929202754020_1_alg».proof.Proof.RLayer3
import proofs.«401365_j67929202754020_1_alg».proof.Proof.RTail
import proofs.«401365_j67929202754020_1_alg».proof.Proof.Spec

noncomputable section

namespace Cert.ReferenceIdeal.RVal

open Cert.ReferenceIdeal Cert.ReferenceIdeal.RefOps Cert.Spec Idealize.ShloMosaic Idealize.ShloMosaic.TcCoe Idealize.ShloMosaic.StableHlo

theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => simp only [List.cons_append, after_cons, ih]

variable (V : Valuation τ sig (Elt Ideal))

abbrev V1 : Valuation τ sig (Elt Ideal) := after (opsL0 (F := Ideal)) V
abbrev V2 : Valuation τ sig (Elt Ideal) := after (opsL1 (F := Ideal)) (V1 V)
abbrev V3 : Valuation τ sig (Elt Ideal) := after (opsL2 (F := Ideal)) (V2 V)
abbrev V4 : Valuation τ sig (Elt Ideal) := after (opsL3 (F := Ideal)) (V3 V)

theorem after_ops : after (ops (F := Ideal)) V = after (opsT (F := Ideal)) (V4 V) := by
  unfold ops
  rw [after_append, after_append, after_append, after_append]

theorem kept1 : Kept V (V1 V) := RLayer0.keep0 V
theorem kept2 : Kept V (V2 V) := (kept1 V).trans (RLayer1.keep1 (V1 V))
theorem kept3 : Kept V (V3 V) := (kept2 V).trans (RLayer2.keep2 (V2 V))
theorem kept4 : Kept V (V4 V) := (kept3 V).trans (RLayer3.keep3 (V3 V))

theorem kept : Kept V (after (ops (F := Ideal)) V) := by
  rw [after_ops]; exact (kept4 V).trans (RTail.keepT (V4 V))

theorem hidden :
    cur2 (V4 V (main_v177 : DevRef τ sig) : Vec Ideal S100000x192 .f32)
      = netR (cur2 (V (main_arg0 : DevRef τ sig) : Vec Ideal S100000x32 .f32))
          (cur2 (V (main_arg4 : DevRef τ sig) : Vec Ideal S32x192 .f32))
          (cur1 (V (main_arg5 : DevRef τ sig) : Vec Ideal S192 .f32))
          (cur2 (V (main_arg6 : DevRef τ sig) : Vec Ideal S32x192 .f32))
          (slabOf (V (main_arg7 : DevRef τ sig) : Vec Ideal S3x192x192 .f32))
          (rowOf (V (main_arg8 : DevRef τ sig) : Vec Ideal S3x192 .f32))
          (slabOf (V (main_arg9 : DevRef τ sig) : Vec Ideal S3x192x192 .f32))
          (rowOf (V (main_arg10 : DevRef τ sig) : Vec Ideal S4x192 .f32))
          (rowOf (V (main_arg11 : DevRef τ sig) : Vec Ideal S4x192 .f32))
          (srcOf (V (main_arg1 : DevRef τ sig) : IVec S400000 32))
          (dstOf (V (main_arg2 : DevRef τ sig) : IVec S400000 32)) := by
  unfold netR
  have h3 := RLayer3.layer3 (V3 V)
  have h2 := RLayer2.layer2 (V2 V)
  have h1 := RLayer1.layer1 (V1 V)
  have h0 := RLayer0.layer0 V
  rw [(kept3 V).a7, (kept3 V).a8, (kept3 V).a9, (kept3 V).a1, (kept3 V).a2, (kept3 V).a10, (kept3 V).a11] at h3
  rw [(kept2 V).a7, (kept2 V).a8, (kept2 V).a9, (kept2 V).a1, (kept2 V).a2, (kept2 V).a10, (kept2 V).a11] at h2
  rw [(kept1 V).a7, (kept1 V).a8, (kept1 V).a9, (kept1 V).a1, (kept1 V).a2, (kept1 V).a10, (kept1 V).a11] at h1
  rw [h3, h2, h1, h0]

theorem result :
    after (ops (F := Ideal)) V (main_v202 : DevRef τ sig)
      = RTail.tailR (V4 V (main_v177 : DevRef τ sig)) (V (main_arg3 : DevRef τ sig)) (V (main_arg12 : DevRef τ sig))
          (V (main_arg13 : DevRef τ sig)) (V (main_arg14 : DevRef τ sig)) (V (main_arg15 : DevRef τ sig))
          (V (main_arg16 : DevRef τ sig)) (V (main_arg17 : DevRef τ sig)) := by
  rw [after_ops, RTail.tail (V4 V), (kept4 V).a3, (kept4 V).a12, (kept4 V).a13, (kept4 V).a14, (kept4 V).a15, (kept4 V).a16, (kept4 V).a17]

end Cert.ReferenceIdeal.RVal

end
-- ==== Proof.PreFacts.lean ====
import proofs.«401365_j67929202754020_1_alg».proof.Proof.Gen.Pre_finite_inputs
import proofs.«401365_j67929202754020_1_alg».proof.Proof.Spec
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic Idealize.ShloMosaic.ValueIdx
open Cert.Pre_finite_inputs

instance : Subsingleton (⟨0, ![]⟩ : Shape).Idx := ⟨fun a b => funext fun d => d.elim0⟩

theorem real_of_abs_lt_top (x : EReal) (h : max x (-x) < ⊤) : ∃ r : ℝ, x = (r : EReal) := by
  induction x using EReal.rec with
  | bot => simp at h
  | coe r => exact ⟨r, rfl⟩
  | top => simp at h

theorem inf_bits : Ideal.ofBits .f32 0x7F800000#32 = (⊤ : EReal) := by simp [Ideal.ofBits, Ideal.ieee]

theorem finite_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (h : Host.reduce IntOp.andi
        (cmpf .olt (Host.absf a) (broadcastInDim s ![] hb (constant (F := Ideal) ⟨0, ![]⟩ .f32 0x7F800000#32)))
        (constantI ⟨0, ![]⟩ 1 1#1) hr h0 ix0 = 1#1) (i : s.Idx) : ∃ r : ℝ, a i = (r : EReal) := by
  have e := Host.reduce_andi_all _ _ hr h0 ix0 h i
  apply real_of_abs_lt_top
  have e' : Ideal.cmp .olt (max (a i) (-(a i))) (Ideal.ofBits .f32 0x7F800000#32) = 1#1 := e
  rw [inf_bits] at e'
  unfold Ideal.cmp at e'
  rw [StableHlo.Predicate.ofBool_eq_one_iff] at e'
  exact of_decide_eq_true e'

theorem real2_of {A B : Nat} (v : (⟨2, ![A, B]⟩ : Shape).Idx → EReal) (h : ∀ i, ∃ r : ℝ, v i = (r : EReal)) :
    Cert.Spec.Real2 (Cert.Spec.cur2 v) := by
  choose f hf using h
  exact ⟨fun i j => f (ix2 i j), funext fun i => funext fun j => hf (ix2 i j)⟩

theorem real1_of {A : Nat} (v : (⟨1, ![A]⟩ : Shape).Idx → EReal) (h : ∀ i, ∃ r : ℝ, v i = (r : EReal)) :
    Cert.Spec.Real1 (Cert.Spec.cur1 v) := by
  choose f hf using h
  exact ⟨fun i => f (ix1 i), funext fun i => hf (ix1 i)⟩

theorem realRow_of {L B : Nat} (v : (⟨2, ![L, B]⟩ : Shape).Idx → EReal) (h : ∀ i, ∃ r : ℝ, v i = (r : EReal)) (l : Fin L) :
    Cert.Spec.Real1 (Cert.Spec.rowOf v l) := by
  choose f hf using h
  exact ⟨fun j => f (ix2 l j), funext fun j => hf (ix2 l j)⟩

theorem realSlab_of {L A B : Nat} (v : (⟨3, ![L, A, B]⟩ : Shape).Idx → EReal) (h : ∀ i, ∃ r : ℝ, v i = (r : EReal))
    (l : Fin L) : Cert.Spec.Real2 (Cert.Spec.slabOf v l) := by
  choose f hf using h
  exact ⟨fun i j => f (ix3 l i j), funext fun i => funext fun j => hf (ix3 l i j)⟩

theorem lo_word : (4294867296#32 : BitVec 32).toInt = -100000 := by decide
theorem hi_word : (100000#32 : BitVec 32).toInt = 100000 := by decide

theorem bounds_of_cmp (w : BitVec 32)
    (h : IntOp.andi (IntOp.cmpi .sge w 4294867296#32) (IntOp.cmpi .slt w 100000#32) = 1#1) :
    -100000 ≤ w.toInt ∧ w.toInt < 100000 := by
  obtain ⟨h1, h2⟩ := IntOp.andi_eq_one.1 h
  unfold IntOp.cmpi at h1 h2
  rw [StableHlo.Predicate.ofBool_eq_one_iff] at h1 h2
  simp only [BitVec.sle, BitVec.slt, decide_eq_true_eq, lo_word, hi_word] at h1 h2
  exact ⟨h1, h2⟩

theorem range_of_all {n : Nat} {axes : List (Fin 1)} (a : IVec ⟨1, ![n]⟩ 32)
    (hb : (⟨0, ![]⟩ : Shape).BroadcastsInDim ⟨1, ![n]⟩ (![] : Fin 0 → Fin 1))
    (hr : (⟨1, ![n]⟩ : Shape).ReducesTo axes ⟨0, ![]⟩) (h0 : 0 < (⟨0, ![]⟩ : Shape).numel)
    (h : Host.reduce IntOp.andi
        (andi (cmpi .sge a (broadcastInDim ⟨1, ![n]⟩ ![] hb (constantI ⟨0, ![]⟩ 32 4294867296#32)))
          (cmpi .slt a (broadcastInDim ⟨1, ![n]⟩ ![] hb (constantI ⟨0, ![]⟩ 32 100000#32))))
        (constantI ⟨0, ![]⟩ 1 1#1) hr h0 ix0 = 1#1) (e : Fin n) :
    -100000 ≤ (a (ix1 e)).toInt ∧ (a (ix1 e)).toInt < 100000 :=
  bounds_of_cmp _ (Host.reduce_andi_all _ _ hr h0 ix0 h (ix1 e))

theorem wrap_inRange (w : BitVec 32) (hw : -100000 ≤ w.toInt ∧ w.toInt < 100000) :
    Cert.Spec.InRange (Scalar.select (IntOp.cmpi .slt w 0#32) (IntOp.addi w 100000#32) w) := by
  have z : (0#32 : BitVec 32).toInt = 0 := by decide
  unfold Cert.Spec.InRange
  by_cases hn : w.toInt < 0
  · have c : IntOp.cmpi .slt w 0#32 = 1#1 := by
      unfold IntOp.cmpi
      rw [StableHlo.Predicate.ofBool_eq_one_iff]
      simp only [BitVec.slt, z, decide_eq_true_eq]; exact hn
    have e : (IntOp.addi w 100000#32).toInt = w.toInt + 100000 := by
      unfold IntOp.addi
      rw [BitVec.toInt_add, hi_word]
      exact Int.bmod_eq_of_le (by omega) (by omega)
    rw [c, ValueIdx.select_one, e]
    omega
  · have c : IntOp.cmpi .slt w 0#32 = 0#1 := by
      unfold IntOp.cmpi
      have : w.slt 0#32 = false := by
        simp only [BitVec.slt, z, decide_eq_false_iff_not]; exact hn
      rw [this]; rfl
    rw [c, ValueIdx.select_zero]
    omega

theorem andi_at {s : Shape} (A B : IVec s 1) (i : s.Idx) : andi A B i = 1#1 ↔ A i = 1#1 ∧ B i = 1#1 :=
  IntOp.andi_eq_one

theorem decode [Cert.Pre_finite_inputs.Facts] (a0 : FVec Ideal S100000x32 .f32) (a1 a2 : IVec S400000 32) (a3 : IVec S100000 32)
    (a4 : FVec Ideal S32x192 .f32) (a5 : FVec Ideal S192 .f32) (a6 : FVec Ideal S32x192 .f32)
    (a7 : FVec Ideal S3x192x192 .f32) (a8 : FVec Ideal S3x192 .f32) (a9 : FVec Ideal S3x192x192 .f32)
    (a10 a11 : FVec Ideal S4x192 .f32) (a12 : FVec Ideal S192x192 .f32) (a13 : FVec Ideal S192 .f32)
    (a14 : FVec Ideal S192x192 .f32) (a15 : FVec Ideal S192 .f32) (a16 : FVec Ideal S192x1 .f32) (a17 : FVec Ideal S1 .f32)
    (h : Cert.Pre_finite_inputs.fn (F := Ideal) a0 a1 a2 a3 a4 a5 a6 a7 a8 a9 a10 a11 a12 a13 a14 a15 a16 a17 = fun _ => 1#1) :
    Cert.Spec.Real2 (Cert.Spec.cur2 a0) ∧ Cert.Spec.Real2 (Cert.Spec.cur2 a4) ∧ Cert.Spec.Real1 (Cert.Spec.cur1 a5)
      ∧ Cert.Spec.Real2 (Cert.Spec.cur2 a6)
      ∧ (∀ l : Fin 3, Cert.Spec.Real2 (Cert.Spec.slabOf a7 l)) ∧ (∀ l : Fin 3, Cert.Spec.Real1 (Cert.Spec.rowOf a8 l))
      ∧ (∀ l : Fin 3, Cert.Spec.Real2 (Cert.Spec.slabOf a9 l))
      ∧ (∀ l : Fin 4, Cert.Spec.Real1 (Cert.Spec.rowOf a10 l)) ∧ (∀ l : Fin 4, Cert.Spec.Real1 (Cert.Spec.rowOf a11 l))
      ∧ (∀ e : Fin 400000, Cert.Spec.InRange (Cert.Spec.normIdx a1 e)) := by
  have e := congrFun h ix0
  dsimp only [Cert.Pre_finite_inputs.fn, Cert.Pre_finite_inputs.fn_part1, Cert.Pre_finite_inputs.fn_part2,
    Cert.Pre_finite_inputs.fn_part3, Cert.Pre_finite_inputs.fn_part4] at e
  simp only [andi_at] at e
  obtain ⟨⟨⟨⟨⟨⟨⟨⟨⟨⟨⟨⟨⟨⟨⟨h0, h4⟩, h5⟩, h6⟩, h7⟩, h8⟩, h9⟩, h10⟩, h11⟩, h12⟩, h13⟩, h14⟩, h15⟩, h16⟩, h17⟩, h1⟩ := e
  refine ⟨real2_of a0 (finite_of_all a0 _ _ _ h0), real2_of a4 (finite_of_all a4 _ _ _ h4),
    real1_of a5 (finite_of_all a5 _ _ _ h5), real2_of a6 (finite_of_all a6 _ _ _ h6),
    realSlab_of a7 (finite_of_all a7 _ _ _ h7), realRow_of a8 (finite_of_all a8 _ _ _ h8),
    realSlab_of a9 (finite_of_all a9 _ _ _ h9), realRow_of a10 (finite_of_all a10 _ _ _ h10),
    realRow_of a11 (finite_of_all a11 _ _ _ h11), fun e => ?_⟩
  exact wrap_inRange _ (range_of_all a1 _ _ _ h1 e)

end Cert.PreFacts

end
-- ==== Proof.TailEq.lean ====
import proofs.«401365_j67929202754020_1_alg».proof.Proof.KTail
import proofs.«401365_j67929202754020_1_alg».proof.Proof.RTail

noncomputable section

namespace Cert.TailEq

theorem tail_eq : Cert.KernelIdeal.KTail.tailK = Cert.ReferenceIdeal.RTail.tailR := rfl

end Cert.TailEq
-- ==== Proof.lean ====
import proofs.«401365_j67929202754020_1_alg».proof.Defs
import proofs.«401365_j67929202754020_1_alg».proof.Proof.Gen.Kernel
import proofs.«401365_j67929202754020_1_alg».proof.Proof.Gen.Kernel.Skeleton
import proofs.«401365_j67929202754020_1_alg».proof.Proof.Gen.Kernel.Launch
import proofs.«401365_j67929202754020_1_alg».proof.Proof.Gen.Kernel.Points
import proofs.«401365_j67929202754020_1_alg».proof.Proof.Gen.Kernel.Frame
import proofs.«401365_j67929202754020_1_alg».proof.Proof.Gen.KernelIdeal
import proofs.«401365_j67929202754020_1_alg».proof.Proof.Gen.KernelIdeal.Skeleton
import proofs.«401365_j67929202754020_1_alg».proof.Proof.Gen.KernelIdeal.Launch
import proofs.«401365_j67929202754020_1_alg».proof.Proof.Gen.KernelIdeal.Points
import proofs.«401365_j67929202754020_1_alg».proof.Proof.Gen.KernelIdeal.Frame
import proofs.«401365_j67929202754020_1_alg».proof.Proof.Gen.ReferenceIdeal
import proofs.«401365_j67929202754020_1_alg».proof.Proof.Gen.Pre_finite_inputs
import proofs.«401365_j67929202754020_1_alg».proof.Proof.KRun
import proofs.«401365_j67929202754020_1_alg».proof.Proof.KVal
import proofs.«401365_j67929202754020_1_alg».proof.Proof.RefRun
import proofs.«401365_j67929202754020_1_alg».proof.Proof.RVal
import proofs.«401365_j67929202754020_1_alg».proof.Proof.SpecMath
import proofs.«401365_j67929202754020_1_alg».proof.Proof.PreFacts
import proofs.«401365_j67929202754020_1_alg».proof.Proof.TailEq
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono
    (fun _ h c => ⟨(h c Cert.ReferenceIdeal.main_arg0).trans ((Cert.ReferenceIdeal.RVal.kept _).a0),
      (h c Cert.ReferenceIdeal.main_arg1).trans ((Cert.ReferenceIdeal.RVal.kept _).a1),
      (h c Cert.ReferenceIdeal.main_arg2).trans ((Cert.ReferenceIdeal.RVal.kept _).a2),
      (h c Cert.ReferenceIdeal.main_arg3).trans ((Cert.ReferenceIdeal.RVal.kept _).a3),
      (h c Cert.ReferenceIdeal.main_arg4).trans ((Cert.ReferenceIdeal.RVal.kept _).a4),
      (h c Cert.ReferenceIdeal.main_arg5).trans ((Cert.ReferenceIdeal.RVal.kept _).a5),
      (h c Cert.ReferenceIdeal.main_arg6).trans ((Cert.ReferenceIdeal.RVal.kept _).a6),
      (h c Cert.ReferenceIdeal.main_arg7).trans ((Cert.ReferenceIdeal.RVal.kept _).a7),
      (h c Cert.ReferenceIdeal.main_arg8).trans ((Cert.ReferenceIdeal.RVal.kept _).a8),
      (h c Cert.ReferenceIdeal.main_arg9).trans ((Cert.ReferenceIdeal.RVal.kept _).a9),
      (h c Cert.ReferenceIdeal.main_arg10).trans ((Cert.ReferenceIdeal.RVal.kept _).a10),
      (h c Cert.ReferenceIdeal.main_arg11).trans ((Cert.ReferenceIdeal.RVal.kept _).a11),
      (h c Cert.ReferenceIdeal.main_arg12).trans ((Cert.ReferenceIdeal.RVal.kept _).a12),
      (h c Cert.ReferenceIdeal.main_arg13).trans ((Cert.ReferenceIdeal.RVal.kept _).a13),
      (h c Cert.ReferenceIdeal.main_arg14).trans ((Cert.ReferenceIdeal.RVal.kept _).a14),
      (h c Cert.ReferenceIdeal.main_arg15).trans ((Cert.ReferenceIdeal.RVal.kept _).a15),
      (h c Cert.ReferenceIdeal.main_arg16).trans ((Cert.ReferenceIdeal.RVal.kept _).a16),
      (h c Cert.ReferenceIdeal.main_arg17).trans ((Cert.ReferenceIdeal.RVal.kept _).a17)⟩)
    (Cert.ReferenceIdeal.RefRun.run_main (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Gen.W31 m ρ c (Proc.devRef .tc Cert.KernelIdeal.main_v122), Cert.KernelIdeal.KRun.run_value (F := Ideal) m ρ, ?_⟩
  refine (θ_run Cert.ReferenceIdeal.defs _ _).mono
    (fun _ h c => ⟨(h c Cert.ReferenceIdeal.main_v202).trans ?_,
      (h c Cert.ReferenceIdeal.main_arg0).trans ((Cert.ReferenceIdeal.RVal.kept _).a0),
      (h c Cert.ReferenceIdeal.main_arg1).trans ((Cert.ReferenceIdeal.RVal.kept _).a1),
      (h c Cert.ReferenceIdeal.main_arg2).trans ((Cert.ReferenceIdeal.RVal.kept _).a2),
      (h c Cert.ReferenceIdeal.main_arg3).trans ((Cert.ReferenceIdeal.RVal.kept _).a3),
      (h c Cert.ReferenceIdeal.main_arg4).trans ((Cert.ReferenceIdeal.RVal.kept _).a4),
      (h c Cert.ReferenceIdeal.main_arg5).trans ((Cert.ReferenceIdeal.RVal.kept _).a5),
      (h c Cert.ReferenceIdeal.main_arg6).trans ((Cert.ReferenceIdeal.RVal.kept _).a6),
      (h c Cert.ReferenceIdeal.main_arg7).trans ((Cert.ReferenceIdeal.RVal.kept _).a7),
      (h c Cert.ReferenceIdeal.main_arg8).trans ((Cert.ReferenceIdeal.RVal.kept _).a8),
      (h c Cert.ReferenceIdeal.main_arg9).trans ((Cert.ReferenceIdeal.RVal.kept _).a9),
      (h c Cert.ReferenceIdeal.main_arg10).trans ((Cert.ReferenceIdeal.RVal.kept _).a10),
      (h c Cert.ReferenceIdeal.main_arg11).trans ((Cert.ReferenceIdeal.RVal.kept _).a11),
      (h c Cert.ReferenceIdeal.main_arg12).trans ((Cert.ReferenceIdeal.RVal.kept _).a12),
      (h c Cert.ReferenceIdeal.main_arg13).trans ((Cert.ReferenceIdeal.RVal.kept _).a13),
      (h c Cert.ReferenceIdeal.main_arg14).trans ((Cert.ReferenceIdeal.RVal.kept _).a14),
      (h c Cert.ReferenceIdeal.main_arg15).trans ((Cert.ReferenceIdeal.RVal.kept _).a15),
      (h c Cert.ReferenceIdeal.main_arg16).trans ((Cert.ReferenceIdeal.RVal.kept _).a16),
      (h c Cert.ReferenceIdeal.main_arg17).trans ((Cert.ReferenceIdeal.RVal.kept _).a17)⟩)
    (Cert.ReferenceIdeal.RefRun.run_main (F := Ideal) m' ρ')
  obtain ⟨a0, a1, a2, a3, a4, a5, a6, a7, a8, a9, a10, a11, a12, a13, a14, a15, a16, a17⟩ := hagree c
  obtain ⟨r0, r4, r5, r6, r7, r8, r9, r10, r11, hsrc⟩ := Cert.PreFacts.decode _ _ _ _ _ _ _ _ _ _ _ _ _ _ _ _ _ _ (hpre c)
  have e0 : StableHlo.launchContents m' c (Proc.devRef .tc Cert.ReferenceIdeal.main_arg0) = m ((c.tc : Thread Cert.KernelIdeal.nD Cert.KernelIdeal.τ).loc Cert.KernelIdeal.main_arg0) := a0
  have e1 : StableHlo.launchContents m' c (Proc.devRef .tc Cert.ReferenceIdeal.main_arg1) = m ((c.tc : Thread Cert.KernelIdeal.nD Cert.KernelIdeal.τ).loc Cert.KernelIdeal.main_arg1) := a1
  have e2 : StableHlo.launchContents m' c (Proc.devRef .tc Cert.ReferenceIdeal.main_arg2) = m ((c.tc : Thread Cert.KernelIdeal.nD Cert.KernelIdeal.τ).loc Cert.KernelIdeal.main_arg2) := a2
  have e3 : StableHlo.launchContents m' c (Proc.devRef .tc Cert.ReferenceIdeal.main_arg3) = m ((c.tc : Thread Cert.KernelIdeal.nD Cert.KernelIdeal.τ).loc Cert.KernelIdeal.main_arg3) := a3
  have e4 : StableHlo.launchContents m' c (Proc.devRef .tc Cert.ReferenceIdeal.main_arg4) = m ((c.tc : Thread Cert.KernelIdeal.nD Cert.KernelIdeal.τ).loc Cert.KernelIdeal.main_arg4) := a4
  have e5 : StableHlo.launchContents m' c (Proc.devRef .tc Cert.ReferenceIdeal.main_arg5) = m ((c.tc : Thread Cert.KernelIdeal.nD Cert.KernelIdeal.τ).loc Cert.KernelIdeal.main_arg5) := a5
  have e6 : StableHlo.launchContents m' c (Proc.devRef .tc Cert.ReferenceIdeal.main_arg6) = m ((c.tc : Thread Cert.KernelIdeal.nD Cert.KernelIdeal.τ).loc Cert.KernelIdeal.main_arg6) := a6
  have e7 : StableHlo.launchContents m' c (Proc.devRef .tc Cert.ReferenceIdeal.main_arg7) = m ((c.tc : Thread Cert.KernelIdeal.nD Cert.KernelIdeal.τ).loc Cert.KernelIdeal.main_arg7) := a7
  have e8 : StableHlo.launchContents m' c (Proc.devRef .tc Cert.ReferenceIdeal.main_arg8) = m ((c.tc : Thread Cert.KernelIdeal.nD Cert.KernelIdeal.τ).loc Cert.KernelIdeal.main_arg8) := a8
  have e9 : StableHlo.launchContents m' c (Proc.devRef .tc Cert.ReferenceIdeal.main_arg9) = m ((c.tc : Thread Cert.KernelIdeal.nD Cert.KernelIdeal.τ).loc Cert.KernelIdeal.main_arg9) := a9
  have e10 : StableHlo.launchContents m' c (Proc.devRef .tc Cert.ReferenceIdeal.main_arg10) = m ((c.tc : Thread Cert.KernelIdeal.nD Cert.KernelIdeal.τ).loc Cert.KernelIdeal.main_arg10) := a10
  have e11 : StableHlo.launchContents m' c (Proc.devRef .tc Cert.ReferenceIdeal.main_arg11) = m ((c.tc : Thread Cert.KernelIdeal.nD Cert.KernelIdeal.τ).loc Cert.KernelIdeal.main_arg11) := a11
  have e12 : StableHlo.launchContents m' c (Proc.devRef .tc Cert.ReferenceIdeal.main_arg12) = m ((c.tc : Thread Cert.KernelIdeal.nD Cert.KernelIdeal.τ).loc Cert.KernelIdeal.main_arg12) := a12
  have e13 : StableHlo.launchContents m' c (Proc.devRef .tc Cert.ReferenceIdeal.main_arg13) = m ((c.tc : Thread Cert.KernelIdeal.nD Cert.KernelIdeal.τ).loc Cert.KernelIdeal.main_arg13) := a13
  have e14 : StableHlo.launchContents m' c (Proc.devRef .tc Cert.ReferenceIdeal.main_arg14) = m ((c.tc : Thread Cert.KernelIdeal.nD Cert.KernelIdeal.τ).loc Cert.KernelIdeal.main_arg14) := a14
  have e15 : StableHlo.launchContents m' c (Proc.devRef .tc Cert.ReferenceIdeal.main_arg15) = m ((c.tc : Thread Cert.KernelIdeal.nD Cert.KernelIdeal.τ).loc Cert.KernelIdeal.main_arg15) := a15
  have e16 : StableHlo.launchContents m' c (Proc.devRef .tc Cert.ReferenceIdeal.main_arg16) = m ((c.tc : Thread Cert.KernelIdeal.nD Cert.KernelIdeal.τ).loc Cert.KernelIdeal.main_arg16) := a16
  have e17 : StableHlo.launchContents m' c (Proc.devRef .tc Cert.ReferenceIdeal.main_arg17) = m ((c.tc : Thread Cert.KernelIdeal.nD Cert.KernelIdeal.τ).loc Cert.KernelIdeal.main_arg17) := a17

  have hfeat : Cert.ReferenceIdeal.RVal.V4 (StableHlo.launchContents m' c) (Proc.devRef .tc Cert.ReferenceIdeal.main_v177)
      = Cert.KernelIdeal.Gen.W28 m ρ c (Proc.devRef .tc Cert.KernelIdeal.main_v97) := by
    refine Cert.Spec.ext2 ?_
    have hR := Cert.ReferenceIdeal.RVal.hidden (StableHlo.launchContents m' c)
    rw [e0, e4, e5, e6, e7, e8, e9, e10, e11, e1, e2] at hR
    exact hR.trans ((Cert.Spec.net_agree _ _ _ _ _ _ _ _ _ _ _ r0 r4 r5 r6 r7 r8 r9 r10 r11).symm.trans
      (Cert.KernelIdeal.KVal.hidden m ρ c hsrc).symm)
  show StableHlo.after Cert.ReferenceIdeal.RefOps.ops (StableHlo.launchContents m' c) (Proc.devRef .tc Cert.ReferenceIdeal.main_v202)
      = Cert.KernelIdeal.Gen.W31 m ρ c (Proc.devRef .tc Cert.KernelIdeal.main_v122)
  rw [Cert.ReferenceIdeal.RVal.result (StableHlo.launchContents m' c), Cert.KernelIdeal.KVal.result m ρ c, e3, e12, e13, e14, e15, e16, e17, hfeat,
    Cert.TailEq.tail_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
